-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x262144 : Shape := ⟨2, ![2, 262144]⟩
abbrev S262144 : Shape := ⟨1, ![262144]⟩
abbrev S8192x64 : Shape := ⟨2, ![8192, 64]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S262144 : S_.BroadcastsInDim S262144 (![] : Fin 0 → Fin S262144.rank)
  reducesTo_S262144_S_d0 : S262144.ReducesTo [0] S_
  bcast_S_S8192x64 : S_.BroadcastsInDim S8192x64 (![] : Fin 0 → Fin S8192x64.rank)
  reducesTo_S8192x64_S_d0_1 : S8192x64.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S2x262144 : S_.BroadcastsInDim S2x262144 (![] : Fin 0 → Fin S2x262144.rank)
  reducesTo_S2x262144_S_d0_1 : S2x262144.ReducesTo [0, 1] S_

variable [Facts]

def fn_part3 {F : FTy → Type} [FloatOps F] (main_arg1 : IVec S2x262144 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_c_20 : IVec S_ 32 := constantI S_ 32 0#32
  let main_v54 : IVec S2x262144 32 := broadcastInDim S2x262144 ![] bcast_S_S2x262144 main_c_20
  let main_v55 : IVec S2x262144 1 := cmpi .sge main_arg1 main_v54
  let main_c_21 : IVec S_ 1 := constantI S_ 1 1#1
  let main_v56 : IVec S_ 1 := (fun x v => Host.reduce IntOp.andi x v reducesTo_S2x262144_S_d0_1 h_S_) main_v55 main_c_21
  let main_v57 : IVec S_ 1 := andi main_v53 main_v56
  let main_c_22 : IVec S_ 32 := constantI S_ 32 8192#32
  let main_v58 : IVec S2x262144 32 := broadcastInDim S2x262144 ![] bcast_S_S2x262144 main_c_22
  let main_v59 : IVec S2x262144 1 := cmpi .slt main_arg1 main_v58
  let main_c_23 : IVec S_ 1 := constantI S_ 1 1#1
  let main_v60 : IVec S_ 1 := (fun x v => Host.reduce IntOp.andi x v reducesTo_S2x262144_S_d0_1 h_S_) main_v59 main_c_23
  let main_v61 : IVec S_ 1 := andi main_v57 main_v60
  main_v61

def fn_part2 {F : FTy → Type} [FloatOps F] (main_arg1 : IVec S2x262144 32) (main_arg8 : FVec F S256x64 .f32) (main_arg9 : FVec F S64 .f32) (main_arg10 : FVec F S256x64 .f32) (main_arg11 : FVec F S64 .f32) (main_v33 : IVec S_ 1) : IVec S_ 1 :=
  let main_v34 : FVec F S256x64 .f32 := Host.absf main_arg8
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S256x64 .f32 := Host.absf main_arg10
  let main_cst_16 : FVec F S_ .f32 := constant S_ .f32 0x7F800000#32
  let main_v45 : FVec F S256x64 .f32 := broadcastInDim S256x64 ![] bcast_S_S256x64 main_cst_16
  let main_v46 : IVec S256x64 1 := cmpf .olt main_v44 main_v45
  let main_c_17 : IVec S_ 1 := constantI S_ 1 1#1
  let main_v47 : IVec S_ 1 := (fun x v => Host.reduce IntOp.andi x v reducesTo_S256x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_v48 main_v49 main_v50

def fn_part1 {F : FTy → Type} [FloatOps F] (main_arg1 : IVec S2x262144 32) (main_arg5 : FVec F S256 .f32) (main_arg6 : FVec F S256x256 .f32) (main_arg7 : FVec F S256 .f32) (main_arg8 : FVec F S256x64 .f32) (main_arg9 : FVec F S64 .f32) (main_arg10 : FVec F S256x64 .f32) (main_arg11 : FVec F S64 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S8192x512 .f32) (main_arg1 : IVec S2x262144 32) (main_arg2 : FVec F S262144 .f32) (main_arg3 : FVec F S8192x64 .f32) (main_arg4 : FVec F S512x256 .f32) (main_arg5 : FVec F S256 .f32) (main_arg6 : FVec F S256x256 .f32) (main_arg7 : FVec F S256 .f32) (main_arg8 : FVec F S256x64 .f32) (main_arg9 : FVec F S64 .f32) (main_arg10 : FVec F S256x64 .f32) (main_arg11 : FVec F S64 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S8192x64 .f32 := Host.absf main_arg3
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg1 main_arg5 main_arg6 main_arg7 main_arg8 main_arg9 main_arg10 main_arg11 main_v13 main_v16
-- ==== Kernel.lean ====
abbrev S8192x512 : Shape := ⟨2, ![8192, 512]⟩
abbrev S2x262144 : Shape := ⟨2, ![2, 262144]⟩
abbrev S262144 : Shape := ⟨1, ![262144]⟩
abbrev S8192x64 : Shape := ⟨2, ![8192, 64]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S8192 : Shape := ⟨1, ![8192]⟩
abbrev S1x262144 : Shape := ⟨2, ![1, 262144]⟩
abbrev S270336 : Shape := ⟨1, ![270336]⟩
abbrev S_ : Shape := ⟨0, ![]⟩
abbrev S270336x1 : Shape := ⟨2, ![270336, 1]⟩
abbrev S8192x8192 : Shape := ⟨2, ![8192, 8192]⟩
abbrev S270336x2 : Shape := ⟨2, ![270336, 2]⟩
abbrev S256x128 : Shape := ⟨2, ![256, 128]⟩
abbrev S128 : Shape := ⟨1, ![128]⟩
abbrev S1x256 : Shape := ⟨2, ![1, 256]⟩
abbrev S8192x256 : Shape := ⟨2, ![8192, 256]⟩
abbrev S2048x512 : Shape := ⟨2, ![2048, 512]⟩
abbrev S2048x256 : Shape := ⟨2, ![2048, 256]⟩
abbrev S2048x2048 : Shape := ⟨2, ![2048, 2048]⟩
abbrev S1x128 : Shape := ⟨2, ![1, 128]⟩
abbrev S8192x128 : Shape := ⟨2, ![8192, 128]⟩
abbrev S2048x128 : Shape := ⟨2, ![2048, 128]⟩
abbrev S1024x64 : Shape := ⟨2, ![1024, 64]⟩
abbrev S1024x1024 : Shape := ⟨2, ![1024, 1024]⟩

abbrev nBuf : Space → Nat
  | .hbm => 98
  | .vmem => 51
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S262144, .f32⟩
  | .hbm, ⟨3, _⟩ => ⟨S8192x64, .f32⟩
  | .hbm, ⟨4, _⟩ => ⟨S512x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x64, .f32⟩
  | .hbm, ⟨9, _⟩ => ⟨S64, .f32⟩
  | .hbm, ⟨10, _⟩ => ⟨S256x64, .f32⟩
  | .hbm, ⟨11, _⟩ => ⟨S64, .f32⟩
  | .hbm, ⟨12, _⟩ => ⟨S8192, .i32⟩
  | .hbm, ⟨13, _⟩ => ⟨S1x262144, .i32⟩
  | .hbm, ⟨14, _⟩ => ⟨S262144, .i32⟩
  | .hbm, ⟨15, _⟩ => ⟨S270336, .i32⟩
  | .hbm, ⟨16, _⟩ => ⟨S1x262144, .i32⟩
  | .hbm, ⟨17, _⟩ => ⟨S262144, .i32⟩
  | .hbm, ⟨18, _⟩ => ⟨S270336, .i32⟩
  | .hbm, ⟨19, _⟩ => ⟨S_, .f32⟩
  | .hbm, ⟨20, _⟩ => ⟨S8192, .f32⟩
  | .hbm, ⟨21, _⟩ => ⟨S270336, .f32⟩
  | .hbm, ⟨22, _⟩ => ⟨S_, .f32⟩
  | .hbm, ⟨23, _⟩ => ⟨S8192, .f32⟩
  | .hbm, ⟨24, _⟩ => ⟨S270336x1, .i32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .i1⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .i32⟩
  | .hbm, ⟨35, _⟩ => ⟨S270336, .i32⟩
  | .hbm, ⟨36, _⟩ => ⟨S270336, .i1⟩
  | .hbm, ⟨37, _⟩ => ⟨S_, .i32⟩
  | .hbm, ⟨38, _⟩ => ⟨S270336, .i32⟩
  | .hbm, ⟨39, _⟩ => ⟨S270336, .i32⟩
  | .hbm, ⟨40, _⟩ => ⟨S270336, .i32⟩
  | .hbm, ⟨41, _⟩ => ⟨S270336x1, .i32⟩
  | .hbm, ⟨42, _⟩ => ⟨S270336, .f32⟩
  | .hbm, ⟨43, _⟩ => ⟨S270336, .f32⟩
  | .hbm, ⟨44, _⟩ => ⟨S_, .i32⟩
  | .hbm, ⟨45, _⟩ => ⟨S270336, .i32⟩
  | .hbm, ⟨46, _⟩ => ⟨S270336, .i1⟩
  | .hbm, ⟨47, _⟩ => ⟨S_, .i32⟩
  | .hbm, ⟨48, _⟩ => ⟨S270336, .i32⟩
  | .hbm, ⟨49, _⟩ => ⟨S270336, .i32⟩
  | .hbm, ⟨50, _⟩ => ⟨S270336, .i32⟩
  | .hbm, ⟨51, _⟩ => ⟨S270336x1, .i32⟩
  | .hbm, ⟨52, _⟩ => ⟨S270336, .f32⟩
  | .hbm, ⟨53, _⟩ => ⟨S270336, .f32⟩
  | .hbm, ⟨54, _⟩ => ⟨S_, .f32⟩
  | .hbm, ⟨55, _⟩ => ⟨S8192x8192, .f32⟩
  | .hbm, ⟨56, _⟩ => ⟨S_, .i32⟩
  | .hbm, ⟨57, _⟩ => ⟨S270336, .i32⟩
  | .hbm, ⟨58, _⟩ => ⟨S270336, .i1⟩
  | .hbm, ⟨59, _⟩ => ⟨S_, .i32⟩
  | .hbm, ⟨60, _⟩ => ⟨S270336, .i32⟩
  | .hbm, ⟨61, _⟩ => ⟨S270336, .i32⟩
  | .hbm, ⟨62, _⟩ => ⟨S270336, .i32⟩
  | .hbm, ⟨63, _⟩ => ⟨S_, .i32⟩
  | .hbm, ⟨64, _⟩ => ⟨S270336, .i32⟩
  | .hbm, ⟨65, _⟩ => ⟨S270336, .i1⟩
  | .hbm, ⟨66, _⟩ => ⟨S_, .i32⟩
  | .hbm, ⟨67, _⟩ => ⟨S270336, .i32⟩
  | .hbm, ⟨68, _⟩ => ⟨S270336, .i32⟩
  | .hbm, ⟨69, _⟩ => ⟨S270336, .i32⟩
  | .hbm, ⟨70, _⟩ => ⟨S270336x1, .i32⟩
  | .hbm, ⟨71, _⟩ => ⟨S270336x1, .i32⟩
  | .hbm, ⟨72, _⟩ => ⟨S270336x2, .i32⟩
  | .hbm, ⟨73, _⟩ => ⟨S8192x8192, .f32⟩
  | .hbm, ⟨74, _⟩ => ⟨S8192x8192, .bf16⟩
  | .hbm, ⟨75, _⟩ => ⟨S256x128, .f32⟩
  | .hbm, ⟨76, _⟩ => ⟨S128, .f32⟩
  | .hbm, ⟨77, _⟩ => ⟨S_, .f32⟩
  | .hbm, ⟨78, _⟩ => ⟨S1x256, .f32⟩
  | .hbm, ⟨79, _⟩ => ⟨S8192x256, .f32⟩
  | .hbm, ⟨80, _⟩ => ⟨S1x256, .f32⟩
  | .hbm, ⟨81, _⟩ => ⟨S8192x256, .f32⟩
  | .hbm, ⟨82, _⟩ => ⟨S_, .f32⟩
  | .hbm, ⟨83, _⟩ => ⟨S1x256, .f32⟩
  | .hbm, ⟨84, _⟩ => ⟨S8192x256, .f32⟩
  | .hbm, ⟨85, _⟩ => ⟨S1x256, .f32⟩
  | .hbm, ⟨86, _⟩ => ⟨S8192x256, .f32⟩
  | .hbm, ⟨87, _⟩ => ⟨S_, .f32⟩
  | .hbm, ⟨88, _⟩ => ⟨S1x128, .f32⟩
  | .hbm, ⟨89, _⟩ => ⟨S8192x128, .f32⟩
  | .hbm, ⟨90, _⟩ => ⟨S1x128, .f32⟩
  | .hbm, ⟨91, _⟩ => ⟨S8192x128, .f32⟩
  | .hbm, ⟨92, _⟩ => ⟨S8192x64, .f32⟩
  | .hbm, ⟨93, _⟩ => ⟨S8192x64, .f32⟩
  | .hbm, ⟨94, _⟩ => ⟨S8192x64, .f32⟩
  | .hbm, ⟨95, _⟩ => ⟨S8192x64, .f32⟩
  | .hbm, ⟨96, _⟩ => ⟨S8192x64, .f32⟩
  | .hbm, ⟨97, _⟩ => ⟨S8192x8192, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S1x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x2048, .bf16⟩
  | .local _ .vmem, ⟨8, _⟩ => ⟨S2048x2048, .bf16⟩
  | .local _ .vmem, ⟨9, _⟩ => ⟨S2048x256, .f32⟩
  | .local _ .vmem, ⟨10, _⟩ => ⟨S2048x256, .f32⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S256x256, .f32⟩
  | .local _ .vmem, ⟨18, _⟩ => ⟨S1x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S2048x2048, .bf16⟩
  | .local _ .vmem, ⟨23, _⟩ => ⟨S2048x2048, .bf16⟩
  | .local _ .vmem, ⟨24, _⟩ => ⟨S2048x256, .f32⟩
  | .local _ .vmem, ⟨25, _⟩ => ⟨S2048x256, .f32⟩
  | .local _ .vmem, ⟨26, _⟩ => ⟨S1x256, .f32⟩
  | .local _ .vmem, ⟨27, _⟩ => ⟨S2048x256, .f32⟩
  | .local _ .vmem, ⟨28, _⟩ => ⟨S2048x256, .f32⟩
  | .local _ .vmem, ⟨29, _⟩ => ⟨S2048x256, .f32⟩
  | .local _ .vmem, ⟨30, _⟩ => ⟨S2048x256, .f32⟩
  | .local _ .vmem, ⟨31, _⟩ => ⟨S2048x256, .f32⟩
  | .local _ .vmem, ⟨32, _⟩ => ⟨S256x128, .f32⟩
  | .local _ .vmem, ⟨33, _⟩ => ⟨S1x128, .f32⟩
  | .local _ .vmem, ⟨34, _⟩ => ⟨S2048x128, .f32⟩
  | .local _ .vmem, ⟨35, _⟩ => ⟨S2048x128, .f32⟩
  | .local _ .vmem, ⟨36, _⟩ => ⟨S2048x128, .f32⟩
  | .local _ .vmem, ⟨37, _⟩ => ⟨S2048x2048, .bf16⟩
  | .local _ .vmem, ⟨38, _⟩ => ⟨S2048x2048, .bf16⟩
  | .local _ .vmem, ⟨39, _⟩ => ⟨S2048x128, .f32⟩
  | .local _ .vmem, ⟨40, _⟩ => ⟨S2048x128, .f32⟩
  | .local _ .vmem, ⟨41, _⟩ => ⟨S1x128, .f32⟩
  | .local _ .vmem, ⟨42, _⟩ => ⟨S2048x128, .f32⟩
  | .local _ .vmem, ⟨43, _⟩ => ⟨S2048x128, .f32⟩
  | .local _ .vmem, ⟨44, _⟩ => ⟨S2048x128, .f32⟩
  | .local _ .vmem, ⟨45, _⟩ => ⟨S1024x64, .f32⟩
  | .local _ .vmem, ⟨46, _⟩ => ⟨S1024x64, .f32⟩
  | .local _ .vmem, ⟨47, _⟩ => ⟨S1024x64, .f32⟩
  | .local _ .vmem, ⟨48, _⟩ => ⟨S1024x64, .f32⟩
  | .local _ .vmem, ⟨49, _⟩ => ⟨S1024x1024, .f32⟩
  | .local _ .vmem, ⟨50, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_9 : Ref sig .tc := ⟨.hbm, 63, rfl⟩
abbrev main_v38 : Ref sig .tc := ⟨.hbm, 64, rfl⟩
abbrev main_v39 : Ref sig .tc := ⟨.hbm, 65, rfl⟩
abbrev main_c_10 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_12 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_13 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc3_scratch0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc4_scratch0 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc5_scratch0 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg2_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem3_0 : DmaSem sig := 37
abbrev cc5_sem3_1 : DmaSem sig := 38
abbrev cc6_sem0_0 : DmaSem sig := 39
abbrev cc6_sem0_1 : DmaSem sig := 40
abbrev cc6_sem1_0 : DmaSem sig := 41
abbrev cc6_sem1_1 : DmaSem sig := 42
abbrev cc6_sem2_0 : DmaSem sig := 43
abbrev cc6_sem2_1 : DmaSem sig := 44

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![4, 1], ![false, false]⟩

def k2_cond2 (i : grid2.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2048x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![4, 4], ![false, false]⟩

def k3_cond2 (i : grid3.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S2048x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![4, 1], ![false, false]⟩

def k4_cond2 (i : grid4.Coords) : BitVec 1 :=
  let arg1 : BitVec 32 := BitVec.ofNat 32 (i 1).val
  let c0_i32_8 : BitVec 32 := 0#32
  let v15 : BitVec 1 := Scalar.cmpi .eq arg1 c0_i32_8
  let v16 : BitVec 32 := Scalar.extui v15
  let c0_i32_9 : BitVec 32 := 0#32
  let v17 : BitVec 1 := Scalar.cmpi .ne v16 c0_i32_9
  v17

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S2048x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![4, 4], ![false, false]⟩

def k5_cond2 (i : grid5.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S2048x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S2048x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S2048x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨2, ![8, 8], ![false, false]⟩

def k6_cond1 (i : grid6.Coords) : BitVec 1 :=
  let arg0 : BitVec 32 := BitVec.ofNat 32 (i 0).val
  let arg1 : BitVec 32 := BitVec.ofNat 32 (i 1).val
  let v0 : BitVec 1 := Scalar.cmpi .sgt arg0 arg1
  let v1 : BitVec 32 := Scalar.extui v0
  let c0_i32 : BitVec 32 := 0#32
  let v2 : BitVec 1 := Scalar.cmpi .ne v1 c0_i32
  v2

def k6_cond2 (i : grid6.Coords) : BitVec 1 :=
  let arg0 : BitVec 32 := BitVec.ofNat 32 (i 0).val
  let arg1 : BitVec 32 := BitVec.ofNat 32 (i 1).val
  let v3 : BitVec 1 := Scalar.cmpi .sle arg0 arg1
  let v4 : BitVec 32 := Scalar.extui v3
  let c0_i32_0 : BitVec 32 := 0#32
  let v5 : BitVec 1 := Scalar.cmpi .ne v4 c0_i32_0
  v5

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S1024x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S1024x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1024x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S8192 : S_.BroadcastsInDim S8192 (![] : Fin 0 → Fin S8192.rank)
  bcast_S270336_S270336x1_0 : S270336.BroadcastsInDim S270336x1 (![0] : Fin 1 → Fin S270336x1.rank)
  bcast_S_S270336 : S_.BroadcastsInDim S270336 (![] : Fin 0 → Fin S270336.rank)
  bcast_S_S8192x8192 : S_.BroadcastsInDim S8192x8192 (![] : Fin 0 → Fin S8192x8192.rank)
  concatenates_S270336x1_S270336x1_S270336x2_d1 : Shape.Concatenates [S270336x1, S270336x1] S270336x2 1
  bitsLt_bf16_f32 : FTy.bits .bf16 < FTy.bits .f32
  concatenates_S256x64_S256x64_S256x128_d1 : Shape.Concatenates [S256x64, S256x64] S256x128 1
  concatenates_S64_S64_S128_d0 : Shape.Concatenates [S64, S64] S128 0
  bcast_S_S1x256 : S_.BroadcastsInDim S1x256 (![] : Fin 0 → Fin S1x256.rank)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x512_S2048x512_0_0 : ∀ a, (![0, 0] : Fin 2 → Nat) a + S2048x512.size a ≤ S2048x512.size a
  h_S2048x512 : 0 < S2048x512.numel
  inb_S512x256_S512x256_0_0 : ∀ a, (![0, 0] : Fin 2 → Nat) a + S512x256.size a ≤ S512x256.size a
  h_S512x256 : 0 < S512x256.numel
  shapeCasts_S256_S1x256 : S256.ShapeCasts S1x256
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  bcast_S_S1x128 : S_.BroadcastsInDim S1x128 (![] : Fin 0 → Fin S1x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S8192x128_S8192x64_0_0 : S8192x128.Slices ![0, 0] S8192x64
  slices_S8192x128_S8192x64_0_64 : S8192x128.Slices ![0, 64] S8192x64
  inb_S1024x1024_S1024x1024_0_0 : ∀ a, (![0, 0] : Fin 2 → Nat) a + S1024x1024.size a ≤ S1024x1024.size a
  h_S1024x1024 : 0 < S1024x1024.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  iota_S1024x1024_d0_w32 : S1024x1024.Iotas .tc 32 [0]
  iota_S1024x1024_d1_w32 : S1024x1024.Iotas .tc 32 [1]
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  scatter_S8192x8192_S270336x2_S270336_n_01_01_1_wf : ScatterDims.WF S8192x8192 S270336x2 S270336 [] [0, 1] [0, 1] 1
  dot_S2048x512_S512x256_S2048x256_1_0_0_1_n_n_wf : DotDims.WF S2048x512 S512x256 S2048x256 [1] [0] [0] [1] [] []
  dot_S2048x2048_S2048x256_S2048x256_1_0_0_1_n_n_wf : DotDims.WF S2048x2048 S2048x256 S2048x256 [1] [0] [0] [1] [] []
  dot_S2048x256_S256x256_S2048x256_1_0_0_1_n_n_wf : DotDims.WF S2048x256 S256x256 S2048x256 [1] [0] [0] [1] [] []
  dot_S2048x256_S256x128_S2048x128_1_0_0_1_n_n_wf : DotDims.WF S2048x256 S256x128 S2048x128 [1] [0] [0] [1] [] []
  dot_S2048x2048_S2048x128_S2048x128_1_0_0_1_n_n_wf : DotDims.WF S2048x2048 S2048x128 S2048x128 [1] [0] [0] [1] [] []
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x256.size a
  hwx0_3 : ∀ i : grid0.Coords, EltTy.bits .f32 = 32 ∨ (Rect.block (s := S8192x256) S2048x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x8192.size a
  hwx1_0 : ∀ i : grid1.Coords, EltTy.bits .bf16 = 32 ∨ (Rect.block (s := S8192x8192) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .f32 = 32 ∨ (Rect.block (s := S8192x256) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S8192x256.size a
  hwx1_3 : ∀ i : grid1.Coords, EltTy.bits .f32 = 32 ∨ (Rect.block (s := S8192x256) S2048x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S8192x256.size a
  hwx2_0 : ∀ i : grid2.Coords, EltTy.bits .f32 = 32 ∨ (Rect.block (s := S8192x256) S2048x256.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x256.size a ≤ S8192x256.size a
  hwx2_3 : ∀ i : grid2.Coords, EltTy.bits .f32 = 32 ∨ (Rect.block (s := S8192x256) S2048x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S8192x8192.size a
  hwx3_0 : ∀ i : grid3.Coords, EltTy.bits .bf16 = 32 ∨ (Rect.block (s := S8192x8192) S2048x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S8192x256.size a
  hwx3_1 : ∀ i : grid3.Coords, EltTy.bits .f32 = 32 ∨ (Rect.block (s := S8192x256) S2048x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x256.size a ≤ S8192x256.size a
  hwx3_3 : ∀ i : grid3.Coords, EltTy.bits .f32 = 32 ∨ (Rect.block (s := S8192x256) S2048x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x256.size a ≤ S8192x256.size a
  hwx4_0 : ∀ i : grid4.Coords, EltTy.bits .f32 = 32 ∨ (Rect.block (s := S8192x256) S2048x256.size (cc4_transform_0 i) (hinb4_0 i)).WholeWords (EltTy.packing .f32)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x128.size a ≤ S8192x128.size a
  hwx4_3 : ∀ i : grid4.Coords, EltTy.bits .f32 = 32 ∨ (Rect.block (s := S8192x128) S2048x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x2048.size a ≤ S8192x8192.size a
  hwx5_0 : ∀ i : grid5.Coords, EltTy.bits .bf16 = 32 ∨ (Rect.block (s := S8192x8192) S2048x2048.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x128.size a ≤ S8192x128.size a
  hwx5_1 : ∀ i : grid5.Coords, EltTy.bits .f32 = 32 ∨ (Rect.block (s := S8192x128) S2048x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048x128.size a ≤ S8192x128.size a
  hwx5_3 : ∀ i : grid5.Coords, EltTy.bits .f32 = 32 ∨ (Rect.block (s := S8192x128) S2048x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x64.size a ≤ S8192x64.size a
  hwx6_0 : ∀ i : grid6.Coords, EltTy.bits .f32 = 32 ∨ (Rect.block (s := S8192x64) S1024x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x64.size a ≤ S8192x64.size a
  hwx6_1 : ∀ i : grid6.Coords, EltTy.bits .f32 = 32 ∨ (Rect.block (s := S8192x64) S1024x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x1024.size a ≤ S8192x8192.size a
  hwx6_2 : ∀ i : grid6.Coords, EltTy.bits .f32 = 32 ∨ (Rect.block (s := S8192x8192) S1024x1024.size (cc6_transform_2 i) (hinb6_2 i)).WholeWords (EltTy.packing .f32)

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def scatter_S8192x8192_S270336x2_S270336_n_01_01_1 : ScatterDims S8192x8192 S270336x2 S270336 where
  updateWindowDims := []
  insertedWindowDims := [0, 1]
  scatterDimsToOperandDims := [0, 1]
  indexVectorDim := 1
  wf := scatter_S8192x8192_S270336x2_S270336_n_01_01_1_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v50) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v51) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v47) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v53) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x256.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S2048x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v47) S2048x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S2048x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v57) S2048x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v48) S256x128.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v59) S2048x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v47) S2048x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S2048x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v60) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v61) S2048x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v66) S1024x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v66) S1024x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v67) S1024x1024.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond1 i == 1#1) && !(k6_cond2 i == 1#1) | ⟨_ + 3, h⟩ => absurd h (Nat.not_lt.2 (Nat.le_add_left _ _))

class Facts : Prop extends Facts₀ where

variable [Facts]
-- ==== ReferenceIdeal.lean ====
abbrev S8192x512 : Shape := ⟨2, ![8192, 512]⟩
abbrev S2x262144 : Shape := ⟨2, ![2, 262144]⟩
abbrev S262144 : Shape := ⟨1, ![262144]⟩
abbrev S8192x64 : Shape := ⟨2, ![8192, 64]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S8192 : Shape := ⟨1, ![8192]⟩
abbrev S1x262144 : Shape := ⟨2, ![1, 262144]⟩
abbrev S270336 : Shape := ⟨1, ![270336]⟩
abbrev S_ : Shape := ⟨0, ![]⟩
abbrev S8192x256 : Shape := ⟨2, ![8192, 256]⟩
abbrev S270336x1 : Shape := ⟨2, ![270336, 1]⟩
abbrev S270336x256 : Shape := ⟨2, ![270336, 256]⟩
abbrev S1x256 : Shape := ⟨2, ![1, 256]⟩
abbrev S270336x64 : Shape := ⟨2, ![270336, 64]⟩
abbrev S1x64 : Shape := ⟨2, ![1, 64]⟩
abbrev S64x8192 : Shape := ⟨2, ![64, 8192]⟩
abbrev S8192x8192 : Shape := ⟨2, ![8192, 8192]⟩

abbrev nBuf : Space → Nat
  | .hbm => 264
  | .vmem => 0
  | .smem => 0
  | _ => 0

abbrev hbmTy0_0 (i : Nat) : BufTy := match i % 128 with
  | 0 => ⟨S8192x512, .f32⟩
  | 1 => ⟨S2x262144, .i32⟩
  | 2 => ⟨S262144, .f32⟩
  | 3 => ⟨S8192x64, .f32⟩
  | 4 => ⟨S512x256, .f32⟩
  | 5 => ⟨S256, .f32⟩
  | 6 => ⟨S256x256, .f32⟩
  | 7 => ⟨S256, .f32⟩
  | 8 => ⟨S256x64, .f32⟩
  | 9 => ⟨S64, .f32⟩
  | 10 => ⟨S256x64, .f32⟩
  | 11 => ⟨S64, .f32⟩
  | 12 => ⟨S8192, .i32⟩
  | 13 => ⟨S1x262144, .i32⟩
  | 14 => ⟨S262144, .i32⟩
  | 15 => ⟨S270336, .i32⟩
  | 16 => ⟨S1x262144, .i32⟩
  | 17 => ⟨S262144, .i32⟩
  | 18 => ⟨S270336, .i32⟩
  | 19 => ⟨S_, .f32⟩
  | 20 => ⟨S8192, .f32⟩
  | 21 => ⟨S270336, .f32⟩
  | 22 => ⟨S8192x256, .f32⟩
  | 23 => ⟨S_, .f32⟩
  | 24 => ⟨S8192, .f32⟩
  | 25 => ⟨S270336x1, .i32⟩
  | 26 => ⟨S8192, .f32⟩
  | 27 => ⟨S_, .f32⟩
  | 28 => ⟨S8192, .f32⟩
  | 29 => ⟨S8192, .i1⟩
  | 30 => ⟨S8192, .f32⟩
  | 31 => ⟨S_, .f32⟩
  | 32 => ⟨S_, .f32⟩
  | 33 => ⟨S8192, .f32⟩
  | 34 => ⟨S8192, .f32⟩
  | 35 => ⟨S_, .i32⟩
  | 36 => ⟨S270336, .i32⟩
  | 37 => ⟨S270336, .i1⟩
  | 38 => ⟨S_, .i32⟩
  | 39 => ⟨S270336, .i32⟩
  | 40 => ⟨S270336, .i32⟩
  | 41 => ⟨S270336, .i32⟩
  | 42 => ⟨S270336x1, .i32⟩
  | 43 => ⟨S270336, .f32⟩
  | 44 => ⟨S270336, .f32⟩
  | 45 => ⟨S_, .i32⟩
  | 46 => ⟨S270336, .i32⟩
  | 47 => ⟨S270336, .i1⟩
  | 48 => ⟨S_, .i32⟩
  | 49 => ⟨S270336, .i32⟩
  | 50 => ⟨S270336, .i32⟩
  | 51 => ⟨S270336, .i32⟩
  | 52 => ⟨S270336x1, .i32⟩
  | 53 => ⟨S270336, .f32⟩
  | 54 => ⟨S270336, .f32⟩
  | 55 => ⟨S270336x1, .f32⟩
  | 56 => ⟨S_, .i32⟩
  | 57 => ⟨S270336, .i32⟩
  | 58 => ⟨S270336, .i1⟩
  | 59 => ⟨S_, .i32⟩
  | 60 => ⟨S270336, .i32⟩
  | 61 => ⟨S270336, .i32⟩
  | 62 => ⟨S270336, .i32⟩
  | 63 => ⟨S270336x1, .i32⟩
  | 64 => ⟨S270336x256, .f32⟩
  | 65 => ⟨S270336x256, .f32⟩
  | 66 => ⟨S270336x256, .f32⟩
  | 67 => ⟨S_, .f32⟩
  | 68 => ⟨S8192x256, .f32⟩
  | 69 => ⟨S270336x1, .i32⟩
  | 70 => ⟨S8192x256, .f32⟩
  | 71 => ⟨S1x256, .f32⟩
  | 72 => ⟨S8192x256, .f32⟩
  | 73 => ⟨S8192x256, .f32⟩
  | 74 => ⟨S_, .f32⟩
  | 75 => ⟨S8192x256, .f32⟩
  | 76 => ⟨S8192x256, .f32⟩
  | 77 => ⟨S8192x256, .f32⟩
  | 78 => ⟨S_, .f32⟩
  | 79 => ⟨S8192, .f32⟩
  | 80 => ⟨S270336x1, .i32⟩
  | 81 => ⟨S8192, .f32⟩
  | 82 => ⟨S_, .f32⟩
  | 83 => ⟨S8192, .f32⟩
  | 84 => ⟨S8192, .i1⟩
  | 85 => ⟨S8192, .f32⟩
  | 86 => ⟨S_, .f32⟩
  | 87 => ⟨S_, .f32⟩
  | 88 => ⟨S8192, .f32⟩
  | 89 => ⟨S8192, .f32⟩
  | 90 => ⟨S_, .i32⟩
  | 91 => ⟨S270336, .i32⟩
  | 92 => ⟨S270336, .i1⟩
  | 93 => ⟨S_, .i32⟩
  | 94 => ⟨S270336, .i32⟩
  | 95 => ⟨S270336, .i32⟩
  | 96 => ⟨S270336, .i32⟩
  | 97 => ⟨S270336x1, .i32⟩
  | 98 => ⟨S270336, .f32⟩
  | 99 => ⟨S270336, .f32⟩
  | 100 => ⟨S_, .i32⟩
  | 101 => ⟨S270336, .i32⟩
  | 102 => ⟨S270336, .i1⟩
  | 103 => ⟨S_, .i32⟩
  | 104 => ⟨S270336, .i32⟩
  | 105 => ⟨S270336, .i32⟩
  | 106 => ⟨S270336, .i32⟩
  | 107 => ⟨S270336x1, .i32⟩
  | 108 => ⟨S270336, .f32⟩
  | 109 => ⟨S270336, .f32⟩
  | 110 => ⟨S270336x1, .f32⟩
  | 111 => ⟨S_, .i32⟩
  | 112 => ⟨S270336, .i32⟩
  | 113 => ⟨S270336, .i1⟩
  | 114 => ⟨S_, .i32⟩
  | 115 => ⟨S270336, .i32⟩
  | 116 => ⟨S270336, .i32⟩
  | 117 => ⟨S270336, .i32⟩
  | 118 => ⟨S270336x1, .i32⟩
  | 119 => ⟨S270336x256, .f32⟩
  | 120 => ⟨S270336x256, .f32⟩
  | 121 => ⟨S270336x256, .f32⟩
  | 122 => ⟨S_, .f32⟩
  | 123 => ⟨S8192x256, .f32⟩
  | 124 => ⟨S270336x1, .i32⟩
  | 125 => ⟨S8192x256, .f32⟩
  | 126 => ⟨S1x256, .f32⟩
  | 127 => ⟨S8192x256, .f32⟩
  | _ => ⟨S8192x512, .f32⟩

abbrev hbmTy0_1 (i : Nat) : BufTy := match i % 128 with
  | 0 => ⟨S8192x256, .f32⟩
  | 1 => ⟨S_, .f32⟩
  | 2 => ⟨S8192x256, .f32⟩
  | 3 => ⟨S8192x256, .f32⟩
  | 4 => ⟨S8192x64, .f32⟩
  | 5 => ⟨S_, .f32⟩
  | 6 => ⟨S8192, .f32⟩
  | 7 => ⟨S270336x1, .i32⟩
  | 8 => ⟨S8192, .f32⟩
  | 9 => ⟨S_, .f32⟩
  | 10 => ⟨S8192, .f32⟩
  | 11 => ⟨S8192, .i1⟩
  | 12 => ⟨S8192, .f32⟩
  | 13 => ⟨S_, .f32⟩
  | 14 => ⟨S_, .f32⟩
  | 15 => ⟨S8192, .f32⟩
  | 16 => ⟨S8192, .f32⟩
  | 17 => ⟨S_, .i32⟩
  | 18 => ⟨S270336, .i32⟩
  | 19 => ⟨S270336, .i1⟩
  | 20 => ⟨S_, .i32⟩
  | 21 => ⟨S270336, .i32⟩
  | 22 => ⟨S270336, .i32⟩
  | 23 => ⟨S270336, .i32⟩
  | 24 => ⟨S270336x1, .i32⟩
  | 25 => ⟨S270336, .f32⟩
  | 26 => ⟨S270336, .f32⟩
  | 27 => ⟨S_, .i32⟩
  | 28 => ⟨S270336, .i32⟩
  | 29 => ⟨S270336, .i1⟩
  | 30 => ⟨S_, .i32⟩
  | 31 => ⟨S270336, .i32⟩
  | 32 => ⟨S270336, .i32⟩
  | 33 => ⟨S270336, .i32⟩
  | 34 => ⟨S270336x1, .i32⟩
  | 35 => ⟨S270336, .f32⟩
  | 36 => ⟨S270336, .f32⟩
  | 37 => ⟨S270336x1, .f32⟩
  | 38 => ⟨S_, .i32⟩
  | 39 => ⟨S270336, .i32⟩
  | 40 => ⟨S270336, .i1⟩
  | 41 => ⟨S_, .i32⟩
  | 42 => ⟨S270336, .i32⟩
  | 43 => ⟨S270336, .i32⟩
  | 44 => ⟨S270336, .i32⟩
  | 45 => ⟨S270336x1, .i32⟩
  | 46 => ⟨S270336x64, .f32⟩
  | 47 => ⟨S270336x64, .f32⟩
  | 48 => ⟨S270336x64, .f32⟩
  | 49 => ⟨S_, .f32⟩
  | 50 => ⟨S8192x64, .f32⟩
  | 51 => ⟨S270336x1, .i32⟩
  | 52 => ⟨S8192x64, .f32⟩
  | 53 => ⟨S1x64, .f32⟩
  | 54 => ⟨S8192x64, .f32⟩
  | 55 => ⟨S8192x64, .f32⟩
  | 56 => ⟨S_, .f32⟩
  | 57 => ⟨S8192x64, .f32⟩
  | 58 => ⟨S8192x64, .f32⟩
  | 59 => ⟨S8192x64, .f32⟩
  | 60 => ⟨S_, .f32⟩
  | 61 => ⟨S8192, .f32⟩
  | 62 => ⟨S270336x1, .i32⟩
  | 63 => ⟨S8192, .f32⟩
  | 64 => ⟨S_, .f32⟩
  | 65 => ⟨S8192, .f32⟩
  | 66 => ⟨S8192, .i1⟩
  | 67 => ⟨S8192, .f32⟩
  | 68 => ⟨S_, .f32⟩
  | 69 => ⟨S_, .f32⟩
  | 70 => ⟨S8192, .f32⟩
  | 71 => ⟨S8192, .f32⟩
  | 72 => ⟨S_, .i32⟩
  | 73 => ⟨S270336, .i32⟩
  | 74 => ⟨S270336, .i1⟩
  | 75 => ⟨S_, .i32⟩
  | 76 => ⟨S270336, .i32⟩
  | 77 => ⟨S270336, .i32⟩
  | 78 => ⟨S270336, .i32⟩
  | 79 => ⟨S270336x1, .i32⟩
  | 80 => ⟨S270336, .f32⟩
  | 81 => ⟨S270336, .f32⟩
  | 82 => ⟨S_, .i32⟩
  | 83 => ⟨S270336, .i32⟩
  | 84 => ⟨S270336, .i1⟩
  | 85 => ⟨S_, .i32⟩
  | 86 => ⟨S270336, .i32⟩
  | 87 => ⟨S270336, .i32⟩
  | 88 => ⟨S270336, .i32⟩
  | 89 => ⟨S270336x1, .i32⟩
  | 90 => ⟨S270336, .f32⟩
  | 91 => ⟨S270336, .f32⟩
  | 92 => ⟨S270336x1, .f32⟩
  | 93 => ⟨S_, .i32⟩
  | 94 => ⟨S270336, .i32⟩
  | 95 => ⟨S270336, .i1⟩
  | 96 => ⟨S_, .i32⟩
  | 97 => ⟨S270336, .i32⟩
  | 98 => ⟨S270336, .i32⟩
  | 99 => ⟨S270336, .i32⟩
  | 100 => ⟨S270336x1, .i32⟩
  | 101 => ⟨S270336x64, .f32⟩
  | 102 => ⟨S270336x64, .f32⟩
  | 103 => ⟨S270336x64, .f32⟩
  | 104 => ⟨S_, .f32⟩
  | 105 => ⟨S8192x64, .f32⟩
  | 106 => ⟨S270336x1, .i32⟩
  | 107 => ⟨S8192x64, .f32⟩
  | 108 => ⟨S1x64, .f32⟩
  | 109 => ⟨S8192x64, .f32⟩
  | 110 => ⟨S8192x64, .f32⟩
  | 111 => ⟨S_, .f32⟩
  | 112 => ⟨S8192x64, .f32⟩
  | 113 => ⟨S8192x64, .f32⟩
  | 114 => ⟨S8192x64, .f32⟩
  | 115 => ⟨S8192x64, .f32⟩
  | 116 => ⟨S8192x64, .f32⟩
  | 117 => ⟨S64x8192, .f32⟩
  | 118 => ⟨S8192x8192, .f32⟩
  | 119 => ⟨S8192x8192, .f32⟩
  | 120 => ⟨S8192x8192, .f32⟩
  | 121 => ⟨S_, .f32⟩
  | 122 => ⟨S8192x8192, .f32⟩
  | 123 => ⟨S8192x8192, .f32⟩
  | 124 => ⟨S_, .f32⟩
  | 125 => ⟨S8192x8192, .f32⟩
  | 126 => ⟨S8192x8192, .f32⟩
  | 127 => ⟨S8192x8192, .i32⟩
  | _ => ⟨S8192x512, .f32⟩

abbrev hbmTy0_2 (i : Nat) : BufTy := match i % 128 with
  | 0 => ⟨S_, .i32⟩
  | 1 => ⟨S8192x8192, .i32⟩
  | 2 => ⟨S8192x8192, .i32⟩
  | 3 => ⟨S8192x8192, .i32⟩
  | 4 => ⟨S8192x8192, .i1⟩
  | 5 => ⟨S_, .f32⟩
  | 6 => ⟨S8192x8192, .f32⟩
  | 7 => ⟨S8192x8192, .f32⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_cst_9 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_call2_v0 : Ref sig .tc := ⟨.hbm, 87, rfl⟩
abbrev main_call2_v1 : Ref sig .tc := ⟨.hbm, 88, rfl⟩
abbrev main_v57 : Ref sig .tc := ⟨.hbm, 89, rfl⟩
abbrev main_c_12 : Ref sig .tc := ⟨.hbm, 90, rfl⟩
abbrev main_v58 : Ref sig .tc := ⟨.hbm, 91, rfl⟩
abbrev main_v59 : Ref sig .tc := ⟨.hbm, 92, rfl⟩
abbrev main_c_13 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c_14 : Ref sig .tc := ⟨.hbm, 100, rfl⟩
abbrev main_v66 : Ref sig .tc := ⟨.hbm, 101, rfl⟩
abbrev main_v67 : Ref sig .tc := ⟨.hbm, 102, rfl⟩
abbrev main_c_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_16 : Ref sig .tc := ⟨.hbm, 111, rfl⟩
abbrev main_v75 : Ref sig .tc := ⟨.hbm, 112, rfl⟩
abbrev main_v76 : Ref sig .tc := ⟨.hbm, 113, rfl⟩
abbrev main_c_17 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_18 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_call3_cst : Ref sig .tc := ⟨.hbm, 129, rfl⟩
abbrev main_call3_v0 : Ref sig .tc := ⟨.hbm, 130, rfl⟩
abbrev main_v90 : Ref sig .tc := ⟨.hbm, 131, rfl⟩
abbrev main_v91 : Ref sig .tc := ⟨.hbm, 132, rfl⟩
abbrev main_cst_19 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_20 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_21 : Ref sig .tc := ⟨.hbm, 141, rfl⟩
abbrev main_call4_v0 : Ref sig .tc := ⟨.hbm, 142, rfl⟩
abbrev main_call4_v1 : Ref sig .tc := ⟨.hbm, 143, rfl⟩
abbrev main_v98 : Ref sig .tc := ⟨.hbm, 144, rfl⟩
abbrev main_c_22 : Ref sig .tc := ⟨.hbm, 145, rfl⟩
abbrev main_v99 : Ref sig .tc := ⟨.hbm, 146, rfl⟩
abbrev main_v100 : Ref sig .tc := ⟨.hbm, 147, rfl⟩
abbrev main_c_23 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_c_24 : Ref sig .tc := ⟨.hbm, 155, rfl⟩
abbrev main_v107 : Ref sig .tc := ⟨.hbm, 156, rfl⟩
abbrev main_v108 : Ref sig .tc := ⟨.hbm, 157, rfl⟩
abbrev main_c_25 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_c_26 : Ref sig .tc := ⟨.hbm, 166, rfl⟩
abbrev main_v116 : Ref sig .tc := ⟨.hbm, 167, rfl⟩
abbrev main_v117 : Ref sig .tc := ⟨.hbm, 168, rfl⟩
abbrev main_c_27 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_cst_28 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_call5_cst : Ref sig .tc := ⟨.hbm, 184, rfl⟩
abbrev main_call5_v0 : Ref sig .tc := ⟨.hbm, 185, rfl⟩
abbrev main_v131 : Ref sig .tc := ⟨.hbm, 186, rfl⟩
abbrev main_v132 : Ref sig .tc := ⟨.hbm, 187, rfl⟩
abbrev main_cst_29 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_cst_30 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_cst_31 : Ref sig .tc := ⟨.hbm, 196, rfl⟩
abbrev main_call6_v0 : Ref sig .tc := ⟨.hbm, 197, rfl⟩
abbrev main_call6_v1 : Ref sig .tc := ⟨.hbm, 198, rfl⟩
abbrev main_v139 : Ref sig .tc := ⟨.hbm, 199, rfl⟩
abbrev main_c_32 : Ref sig .tc := ⟨.hbm, 200, rfl⟩
abbrev main_v140 : Ref sig .tc := ⟨.hbm, 201, rfl⟩
abbrev main_v141 : Ref sig .tc := ⟨.hbm, 202, rfl⟩
abbrev main_c_33 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_c_34 : Ref sig .tc := ⟨.hbm, 210, rfl⟩
abbrev main_v148 : Ref sig .tc := ⟨.hbm, 211, rfl⟩
abbrev main_v149 : Ref sig .tc := ⟨.hbm, 212, rfl⟩
abbrev main_c_35 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_c_36 : Ref sig .tc := ⟨.hbm, 221, rfl⟩
abbrev main_v157 : Ref sig .tc := ⟨.hbm, 222, rfl⟩
abbrev main_v158 : Ref sig .tc := ⟨.hbm, 223, rfl⟩
abbrev main_c_37 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_cst_38 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_call7_cst : Ref sig .tc := ⟨.hbm, 239, rfl⟩
abbrev main_call7_v0 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_cst_39 : Ref sig .tc := ⟨.hbm, 249, rfl⟩
abbrev main_v180 : Ref sig .tc := ⟨.hbm, 250, rfl⟩
abbrev main_v181 : Ref sig .tc := ⟨.hbm, 251, rfl⟩
abbrev main_cst_40 : Ref sig .tc := ⟨.hbm, 252, rfl⟩
abbrev main_v182 : Ref sig .tc := ⟨.hbm, 253, rfl⟩
abbrev main_v183 : Ref sig .tc := ⟨.hbm, 254, rfl⟩
abbrev main_call8_v0 : Ref sig .tc := ⟨.hbm, 255, rfl⟩
abbrev main_call8_c : Ref sig .tc := ⟨.hbm, 256, rfl⟩
abbrev main_call8_v1 : Ref sig .tc := ⟨.hbm, 257, rfl⟩
abbrev main_call8_v2 : Ref sig .tc := ⟨.hbm, 258, rfl⟩
abbrev main_call8_v3 : Ref sig .tc := ⟨.hbm, 259, rfl⟩
abbrev main_call8_v4 : Ref sig .tc := ⟨.hbm, 260, rfl⟩
abbrev main_call8_cst : Ref sig .tc := ⟨.hbm, 261, rfl⟩
abbrev main_call8_v5 : Ref sig .tc := ⟨.hbm, 262, rfl⟩
abbrev main_v184 : Ref sig .tc := ⟨.hbm, 263, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S8192 : S_.BroadcastsInDim S8192 (![] : Fin 0 → Fin S8192.rank)
  bcast_S270336_S270336x1_0 : S270336.BroadcastsInDim S270336x1 (![0] : Fin 1 → Fin S270336x1.rank)
  bcast_S_S270336 : S_.BroadcastsInDim S270336 (![] : Fin 0 → Fin S270336.rank)
  bcast_S270336x1_S270336x256_0_1 : S270336x1.BroadcastsInDim S270336x256 (![0, 1] : Fin 2 → Fin S270336x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S270336x1_S270336x64_0_1 : S270336x1.BroadcastsInDim S270336x64 (![0, 1] : Fin 2 → Fin S270336x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  dot_S8192x512_S512x256_S8192x256_1_0_0_1_n_n_wf : DotDims.WF S8192x512 S512x256 S8192x256 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x256_S270336x1_S270336x256_1_0_n_n_0_1_1256_wf : GatherDims.WF S8192x256 S270336x1 S270336x256 [1] [0] [] [0] [] 1 ![1, 256]
  scatter_S8192x256_S270336x1_S270336x256_1_0_0_1_wf : ScatterDims.WF S8192x256 S270336x1 S270336x256 [1] [0] [0] 1
  dot_S8192x256_S256x256_S8192x256_1_0_0_1_n_n_wf : DotDims.WF S8192x256 S256x256 S8192x256 [1] [0] [0] [1] [] []
  dot_S8192x256_S256x64_S8192x64_1_0_0_1_n_n_wf : DotDims.WF S8192x256 S256x64 S8192x64 [1] [0] [0] [1] [] []
  gather_S8192x64_S270336x1_S270336x64_1_0_n_n_0_1_164_wf : GatherDims.WF S8192x64 S270336x1 S270336x64 [1] [0] [] [0] [] 1 ![1, 64]
  scatter_S8192x64_S270336x1_S270336x64_1_0_0_1_wf : ScatterDims.WF S8192x64 S270336x1 S270336x64 [1] [0] [0] 1
  dot_S8192x64_S64x8192_S8192x8192_1_0_0_1_n_n_wf : DotDims.WF S8192x64 S64x8192 S8192x8192 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x256_S270336x1_S270336x256_1_0_n_n_0_1_1256 : GatherDims S8192x256 S270336x1 S270336x256 where
  offsetDims := [1]
  collapsedSliceDims := [0]
  operandBatchingDims := []
  startIndicesBatchingDims := []
  startIndexMap := [0]
  indexVectorDim := 1
  sliceSizes := ![1, 256]
  wf := gather_S8192x256_S270336x1_S270336x256_1_0_n_n_0_1_1256_wf
def scatter_S8192x256_S270336x1_S270336x256_1_0_0_1 : ScatterDims S8192x256 S270336x1 S270336x256 where
  updateWindowDims := [1]
  insertedWindowDims := [0]
  scatterDimsToOperandDims := [0]
  indexVectorDim := 1
  wf := scatter_S8192x256_S270336x1_S270336x256_1_0_0_1_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def gather_S8192x64_S270336x1_S270336x64_1_0_n_n_0_1_164 : GatherDims S8192x64 S270336x1 S270336x64 where
  offsetDims := [1]
  collapsedSliceDims := [0]
  operandBatchingDims := []
  startIndicesBatchingDims := []
  startIndexMap := [0]
  indexVectorDim := 1
  sliceSizes := ![1, 64]
  wf := gather_S8192x64_S270336x1_S270336x64_1_0_n_n_0_1_164_wf
def scatter_S8192x64_S270336x1_S270336x64_1_0_0_1 : ScatterDims S8192x64 S270336x1 S270336x64 where
  updateWindowDims := [1]
  insertedWindowDims := [0]
  scatterDimsToOperandDims := [0]
  indexVectorDim := 1
  wf := scatter_S8192x64_S270336x1_S270336x64_1_0_0_1_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.K.R0.lean ====
import proofs.«132928_j20143396618969_2_alg».proof.Proof.Gen.Kernel.Launch
import proofs.«132928_j20143396618969_2_alg».proof.Proof.Gen.Kernel.Skeleton
import proofs.«132928_j20143396618969_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) :=
  (by decide +kernel : ∀ t : Fin grid0.N, cond0_0 (grid0.coords t))

abbrev cond0_1 (i : grid0.Coords) : Prop := k0_cond2 i = 1#1
theorem hcond0_1 : ∀ t : Fin cfg0.N, cond0_1 (grid0.coords t) :=
  (by decide +kernel : ∀ t : Fin grid0.N, cond0_1 (grid0.coords t))

theorem liveAt0_3 : ∀ t : Fin cfg0.N, cfg0.idle 3 (grid0.coords t) = false := by decide +kernel

abbrev ms0_0 (t : Fin cfg0.N) : Memref sig .tc .vmem S2048x512 .f32 := win0_0.stage (cfg0.slots t 0)
abbrev ms0_1 (t : Fin cfg0.N) : Memref sig .tc .vmem S512x256 .f32 := win0_1.stage (cfg0.slots t 1)
abbrev ms0_2 (t : Fin cfg0.N) : Memref sig .tc .vmem S1x256 .f32 := win0_2.stage (cfg0.slots t 2)
abbrev ms0_3 (t : Fin cfg0.N) : Memref sig .tc .vmem S2048x256 .f32 := win0_3.stage (cfg0.slots t 3)
abbrev scM0_0 : Memref sig .tc .vmem S2048x256 .f32 := Memref.whole cc0_scratch0

-- The region invariant splits into the accumulator, owned at some contents, and a remainder that stays closed.
theorem PhiA0_eq (c : Dev nD) :
    (Pipeline.ΦA spec0 c : sProp 𝕄)
      = iprop(iprop(iprop((∃ d, owns c scM0_0 fullShare d))
          ∗ Pipeline.scopedRestBut spec0 c [cc0_scratch0]) ∗ (∃ r, prngReg c r)) := by
  unfold Pipeline.ΦA; rw [scopedRest0_split]; simp only [scM0_0, owns_whole]; try rfl

section Body
variable (c : Dev nD) (i : grid0.Coords) (arg2 : Memref sig .tc .vmem S2048x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond0_0 i) (hc1 : cond0_1 i)
    (x0 : Vec F S2048x512 .f32) (x1 : Vec F S512x256 .f32) (x2 : Vec F S1x256 .f32)
include hc0 hc1

set_option maxHeartbeats 1000000 in
-- On whole memrefs the body leaves the inputs as found and the output and the accumulator at the pieces its stores wrote.
noncomputable def kernelRun0 :
    Σ' (L3 : List (View.Piece (Elt F) S2048x256 .f32)), { LS0 : List (View.Piece (Elt F) S2048x256 .f32) //
      ∀ (E : Set ℕ) (K : PUnit → sProp 𝕄),
        iprop(owns c arg2 fullShare x0 ∗ owns c arg3 fullShare x1 ∗ owns c arg4 fullShare x2
            ∗ (∃ d, owns c arg5 fullShare d) ∗ (∃ d, owns c arg6 fullShare d)
            ∗ (iprop(owns c arg2 fullShare x0 ∗ owns c arg3 fullShare x1 ∗ owns c arg4 fullShare x2
                ∗ (∃ f, arg5.view.loc c ↦[arg5.view.set]{fullShare} arg5.view.writes (Elt F) f L3)
                ∗ (∃ f, arg6.view.loc c ↦[arg6.view.set]{fullShare} arg6.view.writes (Elt F) f LS0)) -∗ K ⟨⟩))
          ⊢ wp frame (wpE (defs₀ (F := F)) Variants.none c none) E (cc0__mm_kernel i arg2 harg2 arg3 harg3 arg4 harg4 arg5 harg5 arg6 harg6) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, H2, ⟨%d3, %f3, -, H3⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    isplitl [H3]; · iexists _; iexact H3
    iexists _; iexact HS0

-- The output's pieces are one store of the whole block, so they cover it.
theorem cover0_3 (y : S2048x256.Idx) :
    ∃ pc ∈ (kernelRun0 c i arg2 harg2 arg3 harg3 arg4 harg4 arg5 harg5 arg6 harg6 hc0 hc1 x0 x1 x2).1, y ∈ pc.1.set :=
  View.cover_of_tiledL _ S2048x256.size (by sl_kernel_rfl) y

def out0_3 : Vec F S2048x256 .f32 :=
  View.canon (kernelRun0 c i arg2 harg2 arg3 harg3 arg4 harg4 arg5 harg5 arg6 harg6 hc0 hc1 x0 x1 x2).1

end Body

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def outsAt0 (c : Dev nD) (t : Fin cfg0.N) : Vec F S2048x256 .f32 :=
  out0_3 c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) scM0_0 (Memref.isWhole_whole _) (hcond0_0 t) (hcond0_1 t) (iblk0 V c 0 t) (iblk0 V c 1 t) (iblk0 V c 2 t)

-- The proof data: the arrays as the region finds them; each input left at its block, the output at what the body wrote.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outsAt0 V c t
  Φ _ := Pipeline.ΦA spec0 c
  q _ := fullShare
  owed _ := 0

theorem A_eq0 (c : Dev nD) (w : Fin cfg0.W) : (dat0 V c).A w = V c (Pipeline.arrRef spec0 w) := rfl
theorem after0_3 (c : Dev nD) (t : Fin cfg0.N) : (dat0 V c).after 3 t = outsAt0 V c t := by dsimp only [dat0]
theorem owed0 (c : Dev nD) (t : Fin (cfg0.N + 1)) : (dat0 V c).owed t = 0 := rfl
theorem q0 (c : Dev nD) (w : Fin cfg0.W) : (dat0 V c).q w = fullShare := rfl

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

set_option maxHeartbeats 1600000 in
-- The body at a point: the invariant lends the accumulator at anything and takes it back at anything; the output is left at what its pieces, which cover it, write.
theorem sound_body0 (c : Dev nD) (t : Fin cfg0.N) :
    iprop(Pipeline.ΦA spec0 c ∗ (dat0 V c).owesAt () t.castSucc
      ∗ (∃ d, owns c (ms0_0 t) fullShare ((dat0 V c).before 0 t d))
      ∗ (∃ d, owns c (ms0_1 t) fullShare ((dat0 V c).before 1 t d))
      ∗ (∃ d, owns c (ms0_2 t) fullShare ((dat0 V c).before 2 t d))
      ∗ (∃ d, owns c (ms0_3 t) fullShare ((dat0 V c).before 3 t d)))
    ⊢ wp frame (wpE (defs₀ (F := F)) Variants.none c none) Set.univ (bodyAt0 t) (fun _ =>
      iprop(Pipeline.ΦA spec0 c ∗ (dat0 V c).owesAt () t.castSucc
        ∗ owns c (ms0_0 t) fullShare (iblk0 V c 0 t)
        ∗ owns c (ms0_1 t) fullShare (iblk0 V c 1 t)
        ∗ owns c (ms0_2 t) fullShare (iblk0 V c 2 t)
        ∗ owns c (ms0_3 t) fullShare ((dat0 V c).after 3 t))) := by
  simp only [before0_0, before0_1, before0_2]
  rw [PhiA0_eq, after0_3]
  unfold outsAt0 out0_3 bodyAt0
  iintro ⟨⟨⟨HS0, HR⟩, Hg⟩, Ho, ⟨%d0, H0⟩, ⟨%d1, H1⟩, ⟨%d2, H2⟩, ⟨%d3, H3⟩⟩
  iapply ((kernelRun0 c (grid0.coords t) _ _ _ _ _ _ _ _ _ _ (hcond0_0 t) (hcond0_1 t) (iblk0 V c 0 t) (iblk0 V c 1 t) (iblk0 V c 2 t)).2.2 Set.univ _)
  iframe H0 H1 H2 HS0
  isplitl [H3]; · iexists _; iexact H3
  iintro ⟨H0, H1, H2, ⟨%e3, H3⟩, ⟨%es0, HS0⟩⟩
  iframe HR Hg Ho H0 H1 H2
  isplitl [HS0]
  · iexists _; unfold owns; iexists _; isplitr
    swap; · iexact HS0
    ipureintro; rfl
  unfold owns; iexists _; isplitr
  swap; · iexact H3
  ipureintro; exact View.read_writes_eq_canon _ _ _ (cover0_3 c _ _ _ _ _ _ _ _ _ _ _ _ _ _ _ _)

theorem body_obligation0 (c : Dev nD) : BodyObligation (dat0 (F := F) V c) (defs₀ (F := F)) Variants.none () Set.univ := fun t => by
  rw [bigSep_W0, bigSep_W0, liveAt0_3 t]
  exact sound_body0 V c t

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Region

end Cert.Kernel.Hand

end
-- ==== Proof.K.R1Kit.lean ====
import proofs.«132928_j20143396618969_2_alg».proof.Proof.Gen.Kernel.Launch
import proofs.«132928_j20143396618969_2_alg».proof.Proof.Gen.Kernel.Skeleton
import proofs.«132928_j20143396618969_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
end Blocks

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬ t.val % 4 = 3 → cfg1.idle 3 (grid1.coords t) = true :=
  (by decide +kernel : ∀ t : Fin grid1.N, ¬ t.val % 4 = 3 → cfg1.idle 3 (grid1.coords t) = true)
theorem noFlush1_3 : ∀ t : Fin cfg1.N, ¬ t.val % 4 = 3 → (cfg1.win 3).flush t = false :=
  (by decide +kernel : ∀ t : Fin grid1.N, ¬ t.val % 4 = 3 → win1_3.flush t = false)
theorem liveAt1_3 : ∀ t : Fin cfg1.N, t.val % 4 = 3 → cfg1.idle 3 (grid1.coords t) = false :=
  (by decide +kernel : ∀ t : Fin grid1.N, t.val % 4 = 3 → cfg1.idle 3 (grid1.coords t) = false)

abbrev VO1_3 : View sig .tc .vmem S2048x256 .f32 := (Memref.whole cc1_stg3_0 : Memref sig .tc .vmem S2048x256 .f32).view
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)
abbrev scM1_0 : Memref sig .tc .vmem S2048x256 .f32 := Memref.whole cc1_scratch0
abbrev VS1_0 : View sig .tc .vmem S2048x256 .f32 := scM1_0.view

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop(iprop((∃ d, owns (c : Thread nD τ) scM1_0 fullShare d)) ∗ rest1 (F := F) c) ∗ (∃ r, prngReg c r)) := by
  unfold Pipeline.ΦA; rw [scopedRest1_split]; simp only [scM1_0, owns_whole]; try rfl

end Cert.Kernel.Hand

end
-- ==== Proof.K.R1RunA.lean ====
import proofs.«132928_j20143396618969_2_alg».proof.Proof.K.R1Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i)
    (x0 : Vec F S2048x2048 .bf16) (x1 : Vec F S2048x256 .f32) (x2 : Vec F S1x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__mm_kernel i arg2 harg2 arg3 harg3 arg4 harg4 arg5 harg5 arg6 harg6) K } := by
  refine ⟨[], ?_, fun xi3 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R1RunB.lean ====
import proofs.«132928_j20143396618969_2_alg».proof.Proof.K.R1Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : ¬cond1_1 i)
    (x0 : Vec F S2048x2048 .bf16) (x1 : Vec F S2048x256 .f32) (x2 : Vec F S1x256 .f32) (xs0 : Vec F S2048x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__mm_kernel i arg2 harg2 arg3 harg3 arg4 harg4 arg5 harg5 arg6 harg6) K } := by
  refine ⟨[], ?_, fun xi3 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R1RunC.lean ====
import proofs.«132928_j20143396618969_2_alg».proof.Proof.K.R1Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i)
    (x0 : Vec F S2048x2048 .bf16) (x1 : Vec F S2048x256 .f32) (x2 : Vec F S1x256 .f32) (xs0 : Vec F S2048x256 .f32) :
    Σ' (L3 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__mm_kernel i arg2 harg2 arg3 harg3 arg4 harg4 arg5 harg5 arg6 harg6) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R1.lean ====
import proofs.«132928_j20143396618969_2_alg».proof.Proof.K.R1RunA
import proofs.«132928_j20143396618969_2_alg».proof.Proof.K.R1RunB
import proofs.«132928_j20143396618969_2_alg».proof.Proof.K.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)

section
variable (hc0 : cond1_0 i) (hc1 : ¬cond1_1 i) (x0 : Vec F S2048x2048 .bf16) (x1 : Vec F S2048x256 .f32) (x2 : Vec F S1x256 .f32)

def out1_A_3 : Vec F S2048x256 .f32 :=
  VO1_3.read (Elt F) (VO1_3.writes (Elt F) VO1_3.junk (kernelRun1_A c i arg2 harg2 arg3 harg3 arg4 harg4 arg5 harg5 arg6 harg6 hc0 hc1 x0 x1 x2).1)

theorem scover1_A_0 (y : S2048x256.Idx) : ∃ pc ∈ (kernelRun1_A c i arg2 harg2 arg3 harg3 arg4 harg4 arg5 harg5 arg6 harg6 hc0 hc1 x0 x1 x2).2.1, y ∈ pc.1.set :=
  View.cover_of_tiledL _ S2048x256.size (by sl_kernel_rfl) y

def sout1_A_0 : Vec F S2048x256 .f32 :=
  VS1_0.read (Elt F) (VS1_0.writes (Elt F) VS1_0.junk (kernelRun1_A c i arg2 harg2 arg3 harg3 arg4 harg4 arg5 harg5 arg6 harg6 hc0 hc1 x0 x1 x2).2.1)
end

section
variable (hc0 : ¬cond1_0 i) (hc1 : ¬cond1_1 i) (x0 : Vec F S2048x2048 .bf16) (x1 : Vec F S2048x256 .f32) (x2 : Vec F S1x256 .f32) (xs0 : Vec F S2048x256 .f32)

def out1_B_3 : Vec F S2048x256 .f32 :=
  VO1_3.read (Elt F) (VO1_3.writes (Elt F) VO1_3.junk (kernelRun1_B c i arg2 harg2 arg3 harg3 arg4 harg4 arg5 harg5 arg6 harg6 hc0 hc1 x0 x1 x2 xs0).1)

theorem scover1_B_0 (y : S2048x256.Idx) : ∃ pc ∈ (kernelRun1_B c i arg2 harg2 arg3 harg3 arg4 harg4 arg5 harg5 arg6 harg6 hc0 hc1 x0 x1 x2 xs0).2.1, y ∈ pc.1.set :=
  View.cover_of_tiledL _ S2048x256.size (by sl_kernel_rfl) y

def sout1_B_0 : Vec F S2048x256 .f32 :=
  VS1_0.read (Elt F) (VS1_0.writes (Elt F) VS1_0.junk (kernelRun1_B c i arg2 harg2 arg3 harg3 arg4 harg4 arg5 harg5 arg6 harg6 hc0 hc1 x0 x1 x2 xs0).2.1)
end

section
variable (hc0 : ¬cond1_0 i) (hc1 : cond1_1 i) (x0 : Vec F S2048x2048 .bf16) (x1 : Vec F S2048x256 .f32) (x2 : Vec F S1x256 .f32) (xs0 : Vec F S2048x256 .f32)

theorem cover1_C_3 (y : S2048x256.Idx) : ∃ pc ∈ (kernelRun1_C c i arg2 harg2 arg3 harg3 arg4 harg4 arg5 harg5 arg6 harg6 hc0 hc1 x0 x1 x2 xs0).1, y ∈ pc.1.set :=
  View.cover_of_tiledL _ S2048x256.size (by sl_kernel_rfl) y

def out1_C_3 : Vec F S2048x256 .f32 :=
  VO1_3.read (Elt F) (VO1_3.writes (Elt F) VO1_3.junk (kernelRun1_C c i arg2 harg2 arg3 harg3 arg4 harg4 arg5 harg5 arg6 harg6 hc0 hc1 x0 x1 x2 xs0).1)

theorem scover1_C_0 (y : S2048x256.Idx) : ∃ pc ∈ (kernelRun1_C c i arg2 harg2 arg3 harg3 arg4 harg4 arg5 harg5 arg6 harg6 hc0 hc1 x0 x1 x2 xs0).2.1, y ∈ pc.1.set :=
  View.cover_of_tiledL _ S2048x256.size (by sl_kernel_rfl) y

def sout1_C_0 : Vec F S2048x256 .f32 :=
  VS1_0.read (Elt F) (VS1_0.writes (Elt F) VS1_0.junk (kernelRun1_C c i arg2 harg2 arg3 harg3 arg4 harg4 arg5 harg5 arg6 harg6 hc0 hc1 x0 x1 x2 xs0).2.1)
end
end

-- A run's two piece lists read back: (the output block, the accumulator).
def back1 {P : List (View.Piece (Elt F) S2048x256 .f32) → List (View.Piece (Elt F) S2048x256 .f32) → Prop}
    (r : Σ' L3, { LS0 // P L3 LS0 }) : Vec F S2048x256 .f32 × Vec F S2048x256 .f32 :=
  (VO1_3.read (Elt F) (VO1_3.writes (Elt F) VO1_3.junk r.1), VS1_0.read (Elt F) (VS1_0.writes (Elt F) VS1_0.junk r.2.1))

variable (V : (c : Dev nD) → (b : Ref sig .tc) → Buf (Elt F) ((c : Thread nD τ).loc b))

-- One point: the case its position mod 4 selects, run on the point's blocks over the carried accumulator `a`.
def step1 (c : Dev nD) (t : Fin cfg1.N) (a : Vec F S2048x256 .f32) : Vec F S2048x256 .f32 × Vec F S2048x256 .f32 :=
  if h0 : t.val % 4 = 0 then
    back1 (kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => by have := (hcond1_1 t).mp h; omega) (iblk1 V c 0 t) (iblk1 V c 1 t) (iblk1 V c 2 t))
  else if h1 : t.val % 4 = 3 then
    back1 (kernelRun1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) a)
  else
    back1 (kernelRun1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) a)

def outsAt1 (c : Dev nD) : (n : ℕ) → n < cfg1.N → Vec F S2048x256 .f32 × Vec F S2048x256 .f32
  | 0, hn => step1 V c ⟨0, hn⟩ (VS1_0.read (Elt F) VS1_0.junk)
  | n + 1, hn => step1 V c ⟨n + 1, hn⟩ (outsAt1 c n (Nat.lt_of_succ_lt hn)).2

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n <;> (show step1 V c _ _ = _; exact (dif_pos h0).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

-- The invariant before position `n`: the launch's at 0; afterwards the accumulator at what the point before left.
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 (F := F) c) ∗ (∃ r, prngReg c r))

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 (F := F) c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

-- At every position the invariant gives the launch's back: the accumulator's named contents are forgotten.
theorem Phi_open1 (c : Dev nD) (t : Fin (cfg1.N + 1)) : (dat1 V c).Φ t ⊢ Pipeline.ΦA spec1 c := by
  obtain ⟨n, hn⟩ := t
  cases n with
  | zero => exact Idealize.SL.BI.Entails.refl _
  | succ n =>
    rw [show (dat1 V c).Φ ⟨n + 1, hn⟩ = PhiS1 V c (n + 1) (Nat.le_of_lt_succ hn) from rfl, PhiS1_pos V c _ _ (Nat.succ_ne_zero n), PhiA1_eq]
    iintro ⟨⟨HS0, HR⟩, Hg⟩
    isplitl [HS0 HR]
    · isplitl [HS0]
      · iexists _; iexact HS0
      iexact HR
    iexact Hg

theorem A_eq1 (c : Dev nD) (w : Fin cfg1.W) : (dat1 V c).A w = V c (Pipeline.arrRef spec1 w) := rfl

theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = iblk1 V c 2 t := rfl
theorem after1_3 (c : Dev nD) (t : Fin cfg1.N) : (dat1 V c).after 3 t = (outsAt1 V c t.val t.isLt).1 := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

-- The body at every point: the inputs keep their blocks, the accumulator goes from what the point before left to this point's, and the output block is stored at the points 3 mod 4 only.
set_option maxHeartbeats 4800000 in
theorem body_obligation1 (c : Dev nD) : BodyObligation (dat1 (F := F) V c) (defs₀ (F := F)) Variants.none () Set.univ := fun t => by
  rw [bigSep_W1, bigSep_W1]
  show bodyPre1 V c t ⊢ wp frame (wpE (defs₀ (F := F)) Variants.none c none) Set.univ (bodyAt1 t) (fun _ => bodyPost1 V c t)
  unfold bodyPre1 bodyPost1 bodyAt1
  simp only [before1_0, before1_1, before1_2]
  rw [show (dat1 V c).owesAt () t.succ = (dat1 V c).owesAt () t.castSucc from rfl,
    show (dat1 V c).Φ t.succ = iprop(iprop(owns (c : Thread nD τ) scM1_0 fullShare (outsAt1 V c t.val t.isLt).2 ∗ rest1 (F := F) c) ∗ (∃ r, prngReg c r)) from rfl,
    show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1,
    show (dat1 V c).leavesExact 2 t = owns (c : Thread nD τ) (ms1_2 t) fullShare ((dat1 V c).after 2 t) from by
      unfold Dat.leavesExact; rw [liveAt1_2 t], after1_2]
  by_cases h1 : t.val % 4 = 3
  · have h0 : ¬t.val % 4 = 0 := by omega
    rw [show (dat1 V c).leavesExact 3 t = owns (c : Thread nD τ) (ms1_3 t) fullShare ((dat1 V c).after 3 t) from by
      unfold Dat.leavesExact; rw [liveAt1_3 t h1], after1_3, outsAt1_C V c t h0 h1]
    unfold out1_C_3 sout1_C_0; dsimp only
    rw [show (dat1 V c).Φ t.castSucc = PhiS1 V c t.val (Nat.le_of_lt t.isLt) from rfl, PhiS1_pos V c _ _ fun h => h0 (by rw [h])]
    iintro ⟨⟨⟨HS0, HR⟩, Hg⟩, Ho, ⟨%d0, H0⟩, ⟨%d1, H1⟩, ⟨%d2, H2⟩, ⟨%d3, H3⟩⟩
    iapply ((kernelRun1_C _ _ _ _ _ _ _ _ _ _ _ _ (fun h => h0 ((hcond1_0 t).mp h)) ((hcond1_1 t).mpr h1) _ _ _ _).2.2 _ _)
    iframe H0 H1 H2 HS0
    isplitl [H3]; · iexists _; iexact H3
    iintro ⟨H0, H1, H2, ⟨%e3, H3⟩, ⟨%es0, HS0⟩⟩
    iframe HR Hg Ho H0 H1 H2
    isplitl [HS0]
    · unfold owns; iexists _; isplitr
      swap; · iexact HS0
      ipureintro; exact View.read_writes_of_cover _ _ _ _ _ (scover1_C_0 _ _ _ _ _ _ _ _ _ _ _ _ _ _ _ _ _ _)
    unfold owns; iexists _; isplitr
    swap; · iexact H3
    ipureintro; exact View.read_writes_of_cover _ _ _ _ _ (cover1_C_3 _ _ _ _ _ _ _ _ _ _ _ _ _ _ _ _ _ _)
  rw [Dat.leavesExact_idle (dat1 V c) 3 t (idleAt1_3 t h1) (noFlush1_3 t h1)]
  by_cases h0 : t.val % 4 = 0
  · rw [outsAt1_A V c t h0 h1]
    unfold sout1_A_0; dsimp only
    refine (sep_mono_left (Phi_open1 V c t.castSucc)).trans ?_
    rw [PhiA1_eq]
    iintro ⟨⟨⟨HS0, HR⟩, Hg⟩, Ho, ⟨%d0, H0⟩, ⟨%d1, H1⟩, ⟨%d2, H2⟩, ⟨%d3, H3⟩⟩
    iapply ((kernelRun1_A _ _ _ _ _ _ _ _ _ _ _ _ ((hcond1_0 t).mpr h0) (fun h => h1 ((hcond1_1 t).mp h)) _ _ _).2.2 ((dat1 V c).before 3 t d3) _ _)
    iframe H0 H1 H2 H3 HS0
    iintro ⟨H0, H1, H2, H3, ⟨%es0, HS0⟩⟩
    iframe HR Hg Ho H0 H1 H2
    isplitl [HS0]
    · unfold owns; iexists _; isplitr
      swap; · iexact HS0
      ipureintro; exact View.read_writes_of_cover _ _ _ _ _ (scover1_A_0 _ _ _ _ _ _ _ _ _ _ _ _ _ _ _ _ _)
    iexists _; iexact H3
  rw [outsAt1_B V c t h0 h1]
  unfold sout1_B_0; dsimp only
  rw [show (dat1 V c).Φ t.castSucc = PhiS1 V c t.val (Nat.le_of_lt t.isLt) from rfl, PhiS1_pos V c _ _ fun h => h0 (by rw [h])]
  iintro ⟨⟨⟨HS0, HR⟩, Hg⟩, Ho, ⟨%d0, H0⟩, ⟨%d1, H1⟩, ⟨%d2, H2⟩, ⟨%d3, H3⟩⟩
  iapply ((kernelRun1_B _ _ _ _ _ _ _ _ _ _ _ _ (fun h => h0 ((hcond1_0 t).mp h)) (fun h => h1 ((hcond1_1 t).mp h)) _ _ _ _).2.2 ((dat1 V c).before 3 t d3) _ _)
  iframe H0 H1 H2 H3 HS0
  iintro ⟨H0, H1, H2, H3, ⟨%es0, HS0⟩⟩
  iframe HR Hg Ho H0 H1 H2
  isplitl [HS0]
  · unfold owns; iexists _; isplitr
    swap; · iexact HS0
    ipureintro; exact View.read_writes_of_cover _ _ _ _ _ (scover1_B_0 _ _ _ _ _ _ _ _ _ _ _ _ _ _ _ _ _ _)
  iexists _; iexact H3

theorem hin1 (c : Dev nD) : Pipeline.ΦA spec1 c ⊢ (dat1 V c).Φ 0 := Idealize.SL.BI.Entails.refl _

theorem hout1 (c : Dev nD) : (dat1 V c).Φ (Fin.last cfg1.N) ⊢ Pipeline.ΦA spec1 c := Phi_open1 V c _

theorem owed1 (c : Dev nD) (t : Fin (cfg1.N + 1)) : (dat1 V c).owed t = 0 := rfl
theorem q1 (c : Dev nD) (w : Fin cfg1.W) : (dat1 V c).q w = fullShare := rfl

end Cert.Kernel.Hand

end
-- ==== Proof.K.R2.lean ====
import proofs.«132928_j20143396618969_2_alg».proof.Proof.Gen.Kernel.Launch
import proofs.«132928_j20143396618969_2_alg».proof.Proof.Gen.Kernel.Skeleton
import proofs.«132928_j20143396618969_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) :=
  (by decide +kernel : ∀ t : Fin grid2.N, cond2_0 (grid2.coords t))

abbrev cond2_1 (i : grid2.Coords) : Prop := k2_cond2 i = 1#1
theorem hcond2_1 : ∀ t : Fin cfg2.N, cond2_1 (grid2.coords t) :=
  (by decide +kernel : ∀ t : Fin grid2.N, cond2_1 (grid2.coords t))

theorem liveAt2_3 : ∀ t : Fin cfg2.N, cfg2.idle 3 (grid2.coords t) = false := by decide +kernel

abbrev ms2_0 (t : Fin cfg2.N) : Memref sig .tc .vmem S2048x256 .f32 := win2_0.stage (cfg2.slots t 0)
abbrev ms2_1 (t : Fin cfg2.N) : Memref sig .tc .vmem S256x256 .f32 := win2_1.stage (cfg2.slots t 1)
abbrev ms2_2 (t : Fin cfg2.N) : Memref sig .tc .vmem S1x256 .f32 := win2_2.stage (cfg2.slots t 2)
abbrev ms2_3 (t : Fin cfg2.N) : Memref sig .tc .vmem S2048x256 .f32 := win2_3.stage (cfg2.slots t 3)
abbrev scM2_0 : Memref sig .tc .vmem S2048x256 .f32 := Memref.whole cc2_scratch0

-- The region invariant splits into the accumulator, owned at some contents, and a remainder that stays closed.
theorem PhiA2_eq (c : Dev nD) :
    (Pipeline.ΦA spec2 c : sProp 𝕄)
      = iprop(iprop(iprop((∃ d, owns c scM2_0 fullShare d))
          ∗ Pipeline.scopedRestBut spec2 c [cc2_scratch0]) ∗ (∃ r, prngReg c r)) := by
  unfold Pipeline.ΦA; rw [scopedRest2_split]; simp only [scM2_0, owns_whole]; try rfl

section Body
variable (c : Dev nD) (i : grid2.Coords) (arg2 : Memref sig .tc .vmem S2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : cond2_1 i)
    (x0 : Vec F S2048x256 .f32) (x1 : Vec F S256x256 .f32) (x2 : Vec F S1x256 .f32)
include hc0 hc1

set_option maxHeartbeats 1000000 in
-- On whole memrefs the body leaves the inputs as found and the output and the accumulator at the pieces its stores wrote.
noncomputable def kernelRun2 :
    Σ' (L3 : List (View.Piece (Elt F) S2048x256 .f32)), { LS0 : List (View.Piece (Elt F) S2048x256 .f32) //
      ∀ (E : Set ℕ) (K : PUnit → sProp 𝕄),
        iprop(owns c arg2 fullShare x0 ∗ owns c arg3 fullShare x1 ∗ owns c arg4 fullShare x2
            ∗ (∃ d, owns c arg5 fullShare d) ∗ (∃ d, owns c arg6 fullShare d)
            ∗ (iprop(owns c arg2 fullShare x0 ∗ owns c arg3 fullShare x1 ∗ owns c arg4 fullShare x2
                ∗ (∃ f, arg5.view.loc c ↦[arg5.view.set]{fullShare} arg5.view.writes (Elt F) f L3)
                ∗ (∃ f, arg6.view.loc c ↦[arg6.view.set]{fullShare} arg6.view.writes (Elt F) f LS0)) -∗ K ⟨⟩))
          ⊢ wp frame (wpE (defs₀ (F := F)) Variants.none c none) E (cc2__mm_kernel i arg2 harg2 arg3 harg3 arg4 harg4 arg5 harg5 arg6 harg6) K } := by
  refine ⟨?_, ?_, fun E K => ?run⟩
  case run =>
    simp only [cc2__mm_kernel_eq_skeleton]; unfold cc2__mm_kernel_skel
    unfold owns
    iintro ⟨⟨%f0, %hf0, H0⟩, ⟨%f1, %hf1, H1⟩, H2, ⟨%d3, %f3, -, H3⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    isplitl [H3]; · iexists _; iexact H3
    iexists _; iexact HS0

-- The output's pieces are one store of the whole block, so they cover it.
theorem cover2_3 (y : S2048x256.Idx) :
    ∃ pc ∈ (kernelRun2 c i arg2 harg2 arg3 harg3 arg4 harg4 arg5 harg5 arg6 harg6 hc0 hc1 x0 x1 x2).1, y ∈ pc.1.set :=
  View.cover_of_tiledL _ S2048x256.size (by sl_kernel_rfl) y

def out2_3 : Vec F S2048x256 .f32 :=
  View.canon (kernelRun2 c i arg2 harg2 arg3 harg3 arg4 harg4 arg5 harg5 arg6 harg6 hc0 hc1 x0 x1 x2).1

end Body

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def outsAt2 (c : Dev nD) (t : Fin cfg2.N) : Vec F S2048x256 .f32 :=
  out2_3 c (grid2.coords t) (ms2_0 t) (hstage2_0 ((cfg2.slots t 0).cast nbuf2_0)) (ms2_1 t) (hstage2_1 ((cfg2.slots t 1).cast nbuf2_1)) (ms2_2 t) (hstage2_2 ((cfg2.slots t 2).cast nbuf2_2)) (ms2_3 t) (hstage2_3 ((cfg2.slots t 3).cast nbuf2_3)) scM2_0 (Memref.isWhole_whole _) (hcond2_0 t) (hcond2_1 t) (iblk2 V c 0 t) (iblk2 V c 1 t) (iblk2 V c 2 t)

-- The proof data: the arrays as the region finds them; each input left at its block, the output at what the body wrote.
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outsAt2 V c t
  Φ _ := Pipeline.ΦA spec2 c
  q _ := fullShare
  owed _ := 0

theorem A_eq2 (c : Dev nD) (w : Fin cfg2.W) : (dat2 V c).A w = V c (Pipeline.arrRef spec2 w) := rfl
theorem after2_3 (c : Dev nD) (t : Fin cfg2.N) : (dat2 V c).after 3 t = outsAt2 V c t := by dsimp only [dat2]
theorem owed2 (c : Dev nD) (t : Fin (cfg2.N + 1)) : (dat2 V c).owed t = 0 := rfl
theorem q2 (c : Dev nD) (w : Fin cfg2.W) : (dat2 V c).q w = fullShare := rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

set_option maxHeartbeats 1600000 in
-- The body at a point: the invariant lends the accumulator at anything and takes it back at anything; the output is left at what its pieces, which cover it, write.
theorem sound_body2 (c : Dev nD) (t : Fin cfg2.N) :
    iprop(Pipeline.ΦA spec2 c ∗ (dat2 V c).owesAt () t.castSucc
      ∗ (∃ d, owns c (ms2_0 t) fullShare ((dat2 V c).before 0 t d))
      ∗ (∃ d, owns c (ms2_1 t) fullShare ((dat2 V c).before 1 t d))
      ∗ (∃ d, owns c (ms2_2 t) fullShare ((dat2 V c).before 2 t d))
      ∗ (∃ d, owns c (ms2_3 t) fullShare ((dat2 V c).before 3 t d)))
    ⊢ wp frame (wpE (defs₀ (F := F)) Variants.none c none) Set.univ (bodyAt2 t) (fun _ =>
      iprop(Pipeline.ΦA spec2 c ∗ (dat2 V c).owesAt () t.castSucc
        ∗ owns c (ms2_0 t) fullShare (iblk2 V c 0 t)
        ∗ owns c (ms2_1 t) fullShare (iblk2 V c 1 t)
        ∗ owns c (ms2_2 t) fullShare (iblk2 V c 2 t)
        ∗ owns c (ms2_3 t) fullShare ((dat2 V c).after 3 t))) := by
  simp only [before2_0, before2_1, before2_2]
  rw [PhiA2_eq, after2_3]
  unfold outsAt2 out2_3 bodyAt2
  iintro ⟨⟨⟨HS0, HR⟩, Hg⟩, Ho, ⟨%d0, H0⟩, ⟨%d1, H1⟩, ⟨%d2, H2⟩, ⟨%d3, H3⟩⟩
  iapply ((kernelRun2 c (grid2.coords t) _ _ _ _ _ _ _ _ _ _ (hcond2_0 t) (hcond2_1 t) (iblk2 V c 0 t) (iblk2 V c 1 t) (iblk2 V c 2 t)).2.2 Set.univ _)
  iframe H0 H1 H2 HS0
  isplitl [H3]; · iexists _; iexact H3
  iintro ⟨H0, H1, H2, ⟨%e3, H3⟩, ⟨%es0, HS0⟩⟩
  iframe HR Hg Ho H0 H1 H2
  isplitl [HS0]
  · iexists _; unfold owns; iexists _; isplitr
    swap; · iexact HS0
    ipureintro; rfl
  unfold owns; iexists _; isplitr
  swap; · iexact H3
  ipureintro; exact View.read_writes_eq_canon _ _ _ (cover2_3 c _ _ _ _ _ _ _ _ _ _ _ _ _ _ _ _)

theorem body_obligation2 (c : Dev nD) : BodyObligation (dat2 (F := F) V c) (defs₀ (F := F)) Variants.none () Set.univ := fun t => by
  rw [bigSep_W2, bigSep_W2, liveAt2_3 t]
  exact sound_body2 V c t

theorem hin2 (c : Dev nD) : Pipeline.ΦA spec2 c ⊢ (dat2 V c).Φ 0 := .rfl
theorem hout2 (c : Dev nD) : (dat2 V c).Φ (Fin.last cfg2.N) ⊢ Pipeline.ΦA spec2 c := .rfl

end Region

end Cert.Kernel.Hand

end
-- ==== Proof.K.R3Kit.lean ====
import proofs.«132928_j20143396618969_2_alg».proof.Proof.Gen.Kernel.Launch
import proofs.«132928_j20143396618969_2_alg».proof.Proof.Gen.Kernel.Skeleton
import proofs.«132928_j20143396618969_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))
end Blocks

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)

abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3 : ∀ t : Fin cfg3.N, ¬ t.val % 4 = 3 → cfg3.idle 3 (grid3.coords t) = true :=
  (by decide +kernel : ∀ t : Fin grid3.N, ¬ t.val % 4 = 3 → cfg3.idle 3 (grid3.coords t) = true)
theorem noFlush3_3 : ∀ t : Fin cfg3.N, ¬ t.val % 4 = 3 → (cfg3.win 3).flush t = false :=
  (by decide +kernel : ∀ t : Fin grid3.N, ¬ t.val % 4 = 3 → win3_3.flush t = false)
theorem liveAt3_3 : ∀ t : Fin cfg3.N, t.val % 4 = 3 → cfg3.idle 3 (grid3.coords t) = false :=
  (by decide +kernel : ∀ t : Fin grid3.N, t.val % 4 = 3 → cfg3.idle 3 (grid3.coords t) = false)

abbrev VO3_3 : View sig .tc .vmem S2048x256 .f32 := (Memref.whole cc3_stg3_0 : Memref sig .tc .vmem S2048x256 .f32).view
abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x256 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x256 .f32 := win3_3.stage (cfg3.slots t 3)
abbrev hs3_3 (t : Fin cfg3.N) : (ms3_3 t).IsWhole := hstage3_3 ((cfg3.slots t 3).cast nbuf3_3)
abbrev scM3_0 : Memref sig .tc .vmem S2048x256 .f32 := Memref.whole cc3_scratch0
abbrev VS3_0 : View sig .tc .vmem S2048x256 .f32 := scM3_0.view

abbrev rest3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop(iprop((∃ d, owns (c : Thread nD τ) scM3_0 fullShare d)) ∗ rest3 (F := F) c) ∗ (∃ r, prngReg c r)) := by
  unfold Pipeline.ΦA; rw [scopedRest3_split]; simp only [scM3_0, owns_whole]; try rfl

end Cert.Kernel.Hand

end
-- ==== Proof.K.R3RunA.lean ====
import proofs.«132928_j20143396618969_2_alg».proof.Proof.K.R3Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun3_A (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond3_0 i) (hc1 : ¬cond3_1 i)
    (x0 : Vec F S2048x2048 .bf16) (x1 : Vec F S2048x256 .f32) (x2 : Vec F S1x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__mm_kernel i arg2 harg2 arg3 harg3 arg4 harg4 arg5 harg5 arg6 harg6) K } := by
  refine ⟨[], ?_, fun xi3 E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R3RunB.lean ====
import proofs.«132928_j20143396618969_2_alg».proof.Proof.K.R3Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun3_B (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : ¬cond3_1 i)
    (x0 : Vec F S2048x2048 .bf16) (x1 : Vec F S2048x256 .f32) (x2 : Vec F S1x256 .f32) (xs0 : Vec F S2048x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__mm_kernel i arg2 harg2 arg3 harg3 arg4 harg4 arg5 harg5 arg6 harg6) K } := by
  refine ⟨[], ?_, fun xi3 E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R3RunC.lean ====
import proofs.«132928_j20143396618969_2_alg».proof.Proof.K.R3Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun3_C (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : cond3_1 i)
    (x0 : Vec F S2048x2048 .bf16) (x1 : Vec F S2048x256 .f32) (x2 : Vec F S1x256 .f32) (xs0 : Vec F S2048x256 .f32) :
    Σ' (L3 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__mm_kernel i arg2 harg2 arg3 harg3 arg4 harg4 arg5 harg5 arg6 harg6) K } := by
  refine ⟨?_, ?_, fun E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R3.lean ====
import proofs.«132928_j20143396618969_2_alg».proof.Proof.K.R3RunA
import proofs.«132928_j20143396618969_2_alg».proof.Proof.K.R3RunB
import proofs.«132928_j20143396618969_2_alg».proof.Proof.K.R3RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)

section
variable (hc0 : cond3_0 i) (hc1 : ¬cond3_1 i) (x0 : Vec F S2048x2048 .bf16) (x1 : Vec F S2048x256 .f32) (x2 : Vec F S1x256 .f32)

def out3_A_3 : Vec F S2048x256 .f32 :=
  VO3_3.read (Elt F) (VO3_3.writes (Elt F) VO3_3.junk (kernelRun3_A c i arg2 harg2 arg3 harg3 arg4 harg4 arg5 harg5 arg6 harg6 hc0 hc1 x0 x1 x2).1)

theorem scover3_A_0 (y : S2048x256.Idx) : ∃ pc ∈ (kernelRun3_A c i arg2 harg2 arg3 harg3 arg4 harg4 arg5 harg5 arg6 harg6 hc0 hc1 x0 x1 x2).2.1, y ∈ pc.1.set :=
  View.cover_of_tiledL _ S2048x256.size (by sl_kernel_rfl) y

def sout3_A_0 : Vec F S2048x256 .f32 :=
  VS3_0.read (Elt F) (VS3_0.writes (Elt F) VS3_0.junk (kernelRun3_A c i arg2 harg2 arg3 harg3 arg4 harg4 arg5 harg5 arg6 harg6 hc0 hc1 x0 x1 x2).2.1)
end

section
variable (hc0 : ¬cond3_0 i) (hc1 : ¬cond3_1 i) (x0 : Vec F S2048x2048 .bf16) (x1 : Vec F S2048x256 .f32) (x2 : Vec F S1x256 .f32) (xs0 : Vec F S2048x256 .f32)

def out3_B_3 : Vec F S2048x256 .f32 :=
  VO3_3.read (Elt F) (VO3_3.writes (Elt F) VO3_3.junk (kernelRun3_B c i arg2 harg2 arg3 harg3 arg4 harg4 arg5 harg5 arg6 harg6 hc0 hc1 x0 x1 x2 xs0).1)

theorem scover3_B_0 (y : S2048x256.Idx) : ∃ pc ∈ (kernelRun3_B c i arg2 harg2 arg3 harg3 arg4 harg4 arg5 harg5 arg6 harg6 hc0 hc1 x0 x1 x2 xs0).2.1, y ∈ pc.1.set :=
  View.cover_of_tiledL _ S2048x256.size (by sl_kernel_rfl) y

def sout3_B_0 : Vec F S2048x256 .f32 :=
  VS3_0.read (Elt F) (VS3_0.writes (Elt F) VS3_0.junk (kernelRun3_B c i arg2 harg2 arg3 harg3 arg4 harg4 arg5 harg5 arg6 harg6 hc0 hc1 x0 x1 x2 xs0).2.1)
end

section
variable (hc0 : ¬cond3_0 i) (hc1 : cond3_1 i) (x0 : Vec F S2048x2048 .bf16) (x1 : Vec F S2048x256 .f32) (x2 : Vec F S1x256 .f32) (xs0 : Vec F S2048x256 .f32)

theorem cover3_C_3 (y : S2048x256.Idx) : ∃ pc ∈ (kernelRun3_C c i arg2 harg2 arg3 harg3 arg4 harg4 arg5 harg5 arg6 harg6 hc0 hc1 x0 x1 x2 xs0).1, y ∈ pc.1.set :=
  View.cover_of_tiledL _ S2048x256.size (by sl_kernel_rfl) y

def out3_C_3 : Vec F S2048x256 .f32 :=
  VO3_3.read (Elt F) (VO3_3.writes (Elt F) VO3_3.junk (kernelRun3_C c i arg2 harg2 arg3 harg3 arg4 harg4 arg5 harg5 arg6 harg6 hc0 hc1 x0 x1 x2 xs0).1)

theorem scover3_C_0 (y : S2048x256.Idx) : ∃ pc ∈ (kernelRun3_C c i arg2 harg2 arg3 harg3 arg4 harg4 arg5 harg5 arg6 harg6 hc0 hc1 x0 x1 x2 xs0).2.1, y ∈ pc.1.set :=
  View.cover_of_tiledL _ S2048x256.size (by sl_kernel_rfl) y

def sout3_C_0 : Vec F S2048x256 .f32 :=
  VS3_0.read (Elt F) (VS3_0.writes (Elt F) VS3_0.junk (kernelRun3_C c i arg2 harg2 arg3 harg3 arg4 harg4 arg5 harg5 arg6 harg6 hc0 hc1 x0 x1 x2 xs0).2.1)
end
end

-- A run's two piece lists read back: (the output block, the accumulator).
def back3 {P : List (View.Piece (Elt F) S2048x256 .f32) → List (View.Piece (Elt F) S2048x256 .f32) → Prop}
    (r : Σ' L3, { LS0 // P L3 LS0 }) : Vec F S2048x256 .f32 × Vec F S2048x256 .f32 :=
  (VO3_3.read (Elt F) (VO3_3.writes (Elt F) VO3_3.junk r.1), VS3_0.read (Elt F) (VS3_0.writes (Elt F) VS3_0.junk r.2.1))

variable (V : (c : Dev nD) → (b : Ref sig .tc) → Buf (Elt F) ((c : Thread nD τ).loc b))

-- One point: the case its position mod 4 selects, run on the point's blocks over the carried accumulator `a`.
def step3 (c : Dev nD) (t : Fin cfg3.N) (a : Vec F S2048x256 .f32) : Vec F S2048x256 .f32 × Vec F S2048x256 .f32 :=
  if h0 : t.val % 4 = 0 then
    back3 (kernelRun3_A c (grid3.coords t) (ms3_0 t) (hs3_0 t) (ms3_1 t) (hs3_1 t) (ms3_2 t) (hs3_2 t) (ms3_3 t) (hs3_3 t) scM3_0 (Memref.isWhole_whole _) ((hcond3_0 t).mpr h0) (fun h => by have := (hcond3_1 t).mp h; omega) (iblk3 V c 0 t) (iblk3 V c 1 t) (iblk3 V c 2 t))
  else if h1 : t.val % 4 = 3 then
    back3 (kernelRun3_C c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) a)
  else
    back3 (kernelRun3_B c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) a)

def outsAt3 (c : Dev nD) : (n : ℕ) → n < cfg3.N → Vec F S2048x256 .f32 × Vec F S2048x256 .f32
  | 0, hn => step3 V c ⟨0, hn⟩ (VS3_0.read (Elt F) VS3_0.junk)
  | n + 1, hn => step3 V c ⟨n + 1, hn⟩ (outsAt3 c n (Nat.lt_of_succ_lt hn)).2

theorem outsAt3_A (c : Dev nD) (t : Fin cfg3.N) (h0 : t.val % 4 = 0) (h1 : ¬t.val % 4 = 3) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n <;> (show step3 V c _ _ = _; exact (dif_pos h0).trans rfl)

theorem outsAt3_B (c : Dev nD) (t : Fin cfg3.N) (h0 : ¬t.val % 4 = 0) (h1 : ¬t.val % 4 = 3) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt3_C (c : Dev nD) (t : Fin cfg3.N) (h0 : ¬t.val % 4 = 0) (h1 : t.val % 4 = 3) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

-- The invariant before position `n`: the launch's at 0; afterwards the accumulator at what the point before left.
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ rest3 (F := F) c) ∗ (∃ r, prngReg c r))

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ rest3 (F := F) c) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

-- At every position the invariant gives the launch's back: the accumulator's named contents are forgotten.
theorem Phi_open3 (c : Dev nD) (t : Fin (cfg3.N + 1)) : (dat3 V c).Φ t ⊢ Pipeline.ΦA spec3 c := by
  obtain ⟨n, hn⟩ := t
  cases n with
  | zero => exact Idealize.SL.BI.Entails.refl _
  | succ n =>
    rw [show (dat3 V c).Φ ⟨n + 1, hn⟩ = PhiS3 V c (n + 1) (Nat.le_of_lt_succ hn) from rfl, PhiS3_pos V c _ _ (Nat.succ_ne_zero n), PhiA3_eq]
    iintro ⟨⟨HS0, HR⟩, Hg⟩
    isplitl [HS0 HR]
    · isplitl [HS0]
      · iexists _; iexact HS0
      iexact HR
    iexact Hg

theorem A_eq3 (c : Dev nD) (w : Fin cfg3.W) : (dat3 V c).A w = V c (Pipeline.arrRef spec3 w) := rfl

theorem after3_0 (c : Dev nD) (t : Fin cfg3.N) : (dat3 V c).after 0 t = iblk3 V c 0 t := rfl
theorem after3_1 (c : Dev nD) (t : Fin cfg3.N) : (dat3 V c).after 1 t = iblk3 V c 1 t := rfl
theorem after3_2 (c : Dev nD) (t : Fin cfg3.N) : (dat3 V c).after 2 t = iblk3 V c 2 t := rfl
theorem after3_3 (c : Dev nD) (t : Fin cfg3.N) : (dat3 V c).after 3 t = (outsAt3 V c t.val t.isLt).1 := rfl

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

-- The body at every point: the inputs keep their blocks, the accumulator goes from what the point before left to this point's, and the output block is stored at the points 3 mod 4 only.
set_option maxHeartbeats 4800000 in
theorem body_obligation3 (c : Dev nD) : BodyObligation (dat3 (F := F) V c) (defs₀ (F := F)) Variants.none () Set.univ := fun t => by
  rw [bigSep_W3, bigSep_W3]
  show bodyPre3 V c t ⊢ wp frame (wpE (defs₀ (F := F)) Variants.none c none) Set.univ (bodyAt3 t) (fun _ => bodyPost3 V c t)
  unfold bodyPre3 bodyPost3 bodyAt3
  simp only [before3_0, before3_1, before3_2]
  rw [show (dat3 V c).owesAt () t.succ = (dat3 V c).owesAt () t.castSucc from rfl,
    show (dat3 V c).Φ t.succ = iprop(iprop(owns (c : Thread nD τ) scM3_0 fullShare (outsAt3 V c t.val t.isLt).2 ∗ rest3 (F := F) c) ∗ (∃ r, prngReg c r)) from rfl,
    show (dat3 V c).leavesExact 0 t = owns (c : Thread nD τ) (ms3_0 t) fullShare ((dat3 V c).after 0 t) from by
      unfold Dat.leavesExact; rw [liveAt3_0 t], after3_0,
    show (dat3 V c).leavesExact 1 t = owns (c : Thread nD τ) (ms3_1 t) fullShare ((dat3 V c).after 1 t) from by
      unfold Dat.leavesExact; rw [liveAt3_1 t], after3_1,
    show (dat3 V c).leavesExact 2 t = owns (c : Thread nD τ) (ms3_2 t) fullShare ((dat3 V c).after 2 t) from by
      unfold Dat.leavesExact; rw [liveAt3_2 t], after3_2]
  by_cases h1 : t.val % 4 = 3
  · have h0 : ¬t.val % 4 = 0 := by omega
    rw [show (dat3 V c).leavesExact 3 t = owns (c : Thread nD τ) (ms3_3 t) fullShare ((dat3 V c).after 3 t) from by
      unfold Dat.leavesExact; rw [liveAt3_3 t h1], after3_3, outsAt3_C V c t h0 h1]
    unfold out3_C_3 sout3_C_0; dsimp only
    rw [show (dat3 V c).Φ t.castSucc = PhiS3 V c t.val (Nat.le_of_lt t.isLt) from rfl, PhiS3_pos V c _ _ fun h => h0 (by rw [h])]
    iintro ⟨⟨⟨HS0, HR⟩, Hg⟩, Ho, ⟨%d0, H0⟩, ⟨%d1, H1⟩, ⟨%d2, H2⟩, ⟨%d3, H3⟩⟩
    iapply ((kernelRun3_C _ _ _ _ _ _ _ _ _ _ _ _ (fun h => h0 ((hcond3_0 t).mp h)) ((hcond3_1 t).mpr h1) _ _ _ _).2.2 _ _)
    iframe H0 H1 H2 HS0
    isplitl [H3]; · iexists _; iexact H3
    iintro ⟨H0, H1, H2, ⟨%e3, H3⟩, ⟨%es0, HS0⟩⟩
    iframe HR Hg Ho H0 H1 H2
    isplitl [HS0]
    · unfold owns; iexists _; isplitr
      swap; · iexact HS0
      ipureintro; exact View.read_writes_of_cover _ _ _ _ _ (scover3_C_0 _ _ _ _ _ _ _ _ _ _ _ _ _ _ _ _ _ _)
    unfold owns; iexists _; isplitr
    swap; · iexact H3
    ipureintro; exact View.read_writes_of_cover _ _ _ _ _ (cover3_C_3 _ _ _ _ _ _ _ _ _ _ _ _ _ _ _ _ _ _)
  rw [Dat.leavesExact_idle (dat3 V c) 3 t (idleAt3_3 t h1) (noFlush3_3 t h1)]
  by_cases h0 : t.val % 4 = 0
  · rw [outsAt3_A V c t h0 h1]
    unfold sout3_A_0; dsimp only
    refine (sep_mono_left (Phi_open3 V c t.castSucc)).trans ?_
    rw [PhiA3_eq]
    iintro ⟨⟨⟨HS0, HR⟩, Hg⟩, Ho, ⟨%d0, H0⟩, ⟨%d1, H1⟩, ⟨%d2, H2⟩, ⟨%d3, H3⟩⟩
    iapply ((kernelRun3_A _ _ _ _ _ _ _ _ _ _ _ _ ((hcond3_0 t).mpr h0) (fun h => h1 ((hcond3_1 t).mp h)) _ _ _).2.2 ((dat3 V c).before 3 t d3) _ _)
    iframe H0 H1 H2 H3 HS0
    iintro ⟨H0, H1, H2, H3, ⟨%es0, HS0⟩⟩
    iframe HR Hg Ho H0 H1 H2
    isplitl [HS0]
    · unfold owns; iexists _; isplitr
      swap; · iexact HS0
      ipureintro; exact View.read_writes_of_cover _ _ _ _ _ (scover3_A_0 _ _ _ _ _ _ _ _ _ _ _ _ _ _ _ _ _)
    iexists _; iexact H3
  rw [outsAt3_B V c t h0 h1]
  unfold sout3_B_0; dsimp only
  rw [show (dat3 V c).Φ t.castSucc = PhiS3 V c t.val (Nat.le_of_lt t.isLt) from rfl, PhiS3_pos V c _ _ fun h => h0 (by rw [h])]
  iintro ⟨⟨⟨HS0, HR⟩, Hg⟩, Ho, ⟨%d0, H0⟩, ⟨%d1, H1⟩, ⟨%d2, H2⟩, ⟨%d3, H3⟩⟩
  iapply ((kernelRun3_B _ _ _ _ _ _ _ _ _ _ _ _ (fun h => h0 ((hcond3_0 t).mp h)) (fun h => h1 ((hcond3_1 t).mp h)) _ _ _ _).2.2 ((dat3 V c).before 3 t d3) _ _)
  iframe H0 H1 H2 H3 HS0
  iintro ⟨H0, H1, H2, H3, ⟨%es0, HS0⟩⟩
  iframe HR Hg Ho H0 H1 H2
  isplitl [HS0]
  · unfold owns; iexists _; isplitr
    swap; · iexact HS0
    ipureintro; exact View.read_writes_of_cover _ _ _ _ _ (scover3_B_0 _ _ _ _ _ _ _ _ _ _ _ _ _ _ _ _ _ _)
  iexists _; iexact H3

theorem hin3 (c : Dev nD) : Pipeline.ΦA spec3 c ⊢ (dat3 V c).Φ 0 := Idealize.SL.BI.Entails.refl _

theorem hout3 (c : Dev nD) : (dat3 V c).Φ (Fin.last cfg3.N) ⊢ Pipeline.ΦA spec3 c := Phi_open3 V c _

theorem owed3 (c : Dev nD) (t : Fin (cfg3.N + 1)) : (dat3 V c).owed t = 0 := rfl
theorem q3 (c : Dev nD) (w : Fin cfg3.W) : (dat3 V c).q w = fullShare := rfl

end Cert.Kernel.Hand

end
-- ==== Proof.K.R4.lean ====
import proofs.«132928_j20143396618969_2_alg».proof.Proof.Gen.Kernel.Launch
import proofs.«132928_j20143396618969_2_alg».proof.Proof.Gen.Kernel.Skeleton
import proofs.«132928_j20143396618969_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) :=
  (by decide +kernel : ∀ t : Fin grid4.N, cond4_0 (grid4.coords t))

abbrev cond4_1 (i : grid4.Coords) : Prop := k4_cond2 i = 1#1
theorem hcond4_1 : ∀ t : Fin cfg4.N, cond4_1 (grid4.coords t) :=
  (by decide +kernel : ∀ t : Fin grid4.N, cond4_1 (grid4.coords t))

theorem liveAt4_3 : ∀ t : Fin cfg4.N, cfg4.idle 3 (grid4.coords t) = false := by decide +kernel

abbrev ms4_0 (t : Fin cfg4.N) : Memref sig .tc .vmem S2048x256 .f32 := win4_0.stage (cfg4.slots t 0)
abbrev ms4_1 (t : Fin cfg4.N) : Memref sig .tc .vmem S256x128 .f32 := win4_1.stage (cfg4.slots t 1)
abbrev ms4_2 (t : Fin cfg4.N) : Memref sig .tc .vmem S1x128 .f32 := win4_2.stage (cfg4.slots t 2)
abbrev ms4_3 (t : Fin cfg4.N) : Memref sig .tc .vmem S2048x128 .f32 := win4_3.stage (cfg4.slots t 3)
abbrev scM4_0 : Memref sig .tc .vmem S2048x128 .f32 := Memref.whole cc4_scratch0

-- The region invariant splits into the accumulator, owned at some contents, and a remainder that stays closed.
theorem PhiA4_eq (c : Dev nD) :
    (Pipeline.ΦA spec4 c : sProp 𝕄)
      = iprop(iprop(iprop((∃ d, owns c scM4_0 fullShare d))
          ∗ Pipeline.scopedRestBut spec4 c [cc4_scratch0]) ∗ (∃ r, prngReg c r)) := by
  unfold Pipeline.ΦA; rw [scopedRest4_split]; simp only [scM4_0, owns_whole]; try rfl

section Body
variable (c : Dev nD) (i : grid4.Coords) (arg2 : Memref sig .tc .vmem S2048x256 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond4_0 i) (hc1 : cond4_1 i)
    (x0 : Vec F S2048x256 .f32) (x1 : Vec F S256x128 .f32) (x2 : Vec F S1x128 .f32)
include hc0 hc1

set_option maxHeartbeats 1000000 in
-- On whole memrefs the body leaves the inputs as found and the output and the accumulator at the pieces its stores wrote.
noncomputable def kernelRun4 :
    Σ' (L3 : List (View.Piece (Elt F) S2048x128 .f32)), { LS0 : List (View.Piece (Elt F) S2048x128 .f32) //
      ∀ (E : Set ℕ) (K : PUnit → sProp 𝕄),
        iprop(owns c arg2 fullShare x0 ∗ owns c arg3 fullShare x1 ∗ owns c arg4 fullShare x2
            ∗ (∃ d, owns c arg5 fullShare d) ∗ (∃ d, owns c arg6 fullShare d)
            ∗ (iprop(owns c arg2 fullShare x0 ∗ owns c arg3 fullShare x1 ∗ owns c arg4 fullShare x2
                ∗ (∃ f, arg5.view.loc c ↦[arg5.view.set]{fullShare} arg5.view.writes (Elt F) f L3)
                ∗ (∃ f, arg6.view.loc c ↦[arg6.view.set]{fullShare} arg6.view.writes (Elt F) f LS0)) -∗ K ⟨⟩))
          ⊢ wp frame (wpE (defs₀ (F := F)) Variants.none c none) E (cc4__mm_kernel i arg2 harg2 arg3 harg3 arg4 harg4 arg5 harg5 arg6 harg6) K } := by
  refine ⟨?_, ?_, fun E K => ?run⟩
  case run =>
    simp only [cc4__mm_kernel_eq_skeleton]; unfold cc4__mm_kernel_skel
    unfold owns
    iintro ⟨⟨%f0, %hf0, H0⟩, ⟨%f1, %hf1, H1⟩, H2, ⟨%d3, %f3, -, H3⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    isplitl [H3]; · iexists _; iexact H3
    iexists _; iexact HS0

-- The output's pieces are one store of the whole block, so they cover it.
theorem cover4_3 (y : S2048x128.Idx) :
    ∃ pc ∈ (kernelRun4 c i arg2 harg2 arg3 harg3 arg4 harg4 arg5 harg5 arg6 harg6 hc0 hc1 x0 x1 x2).1, y ∈ pc.1.set :=
  View.cover_of_tiledL _ S2048x128.size (by sl_kernel_rfl) y

def out4_3 : Vec F S2048x128 .f32 :=
  View.canon (kernelRun4 c i arg2 harg2 arg3 harg3 arg4 harg4 arg5 harg5 arg6 harg6 hc0 hc1 x0 x1 x2).1

end Body

section Region
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def outsAt4 (c : Dev nD) (t : Fin cfg4.N) : Vec F S2048x128 .f32 :=
  out4_3 c (grid4.coords t) (ms4_0 t) (hstage4_0 ((cfg4.slots t 0).cast nbuf4_0)) (ms4_1 t) (hstage4_1 ((cfg4.slots t 1).cast nbuf4_1)) (ms4_2 t) (hstage4_2 ((cfg4.slots t 2).cast nbuf4_2)) (ms4_3 t) (hstage4_3 ((cfg4.slots t 3).cast nbuf4_3)) scM4_0 (Memref.isWhole_whole _) (hcond4_0 t) (hcond4_1 t) (iblk4 V c 0 t) (iblk4 V c 1 t) (iblk4 V c 2 t)

-- The proof data: the arrays as the region finds them; each input left at its block, the output at what the body wrote.
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => outsAt4 V c t
  Φ _ := Pipeline.ΦA spec4 c
  q _ := fullShare
  owed _ := 0

theorem A_eq4 (c : Dev nD) (w : Fin cfg4.W) : (dat4 V c).A w = V c (Pipeline.arrRef spec4 w) := rfl
theorem after4_3 (c : Dev nD) (t : Fin cfg4.N) : (dat4 V c).after 3 t = outsAt4 V c t := by dsimp only [dat4]
theorem owed4 (c : Dev nD) (t : Fin (cfg4.N + 1)) : (dat4 V c).owed t = 0 := rfl
theorem q4 (c : Dev nD) (w : Fin cfg4.W) : (dat4 V c).q w = fullShare := rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

set_option maxHeartbeats 1600000 in
-- The body at a point: the invariant lends the accumulator at anything and takes it back at anything; the output is left at what its pieces, which cover it, write.
theorem sound_body4 (c : Dev nD) (t : Fin cfg4.N) :
    iprop(Pipeline.ΦA spec4 c ∗ (dat4 V c).owesAt () t.castSucc
      ∗ (∃ d, owns c (ms4_0 t) fullShare ((dat4 V c).before 0 t d))
      ∗ (∃ d, owns c (ms4_1 t) fullShare ((dat4 V c).before 1 t d))
      ∗ (∃ d, owns c (ms4_2 t) fullShare ((dat4 V c).before 2 t d))
      ∗ (∃ d, owns c (ms4_3 t) fullShare ((dat4 V c).before 3 t d)))
    ⊢ wp frame (wpE (defs₀ (F := F)) Variants.none c none) Set.univ (bodyAt4 t) (fun _ =>
      iprop(Pipeline.ΦA spec4 c ∗ (dat4 V c).owesAt () t.castSucc
        ∗ owns c (ms4_0 t) fullShare (iblk4 V c 0 t)
        ∗ owns c (ms4_1 t) fullShare (iblk4 V c 1 t)
        ∗ owns c (ms4_2 t) fullShare (iblk4 V c 2 t)
        ∗ owns c (ms4_3 t) fullShare ((dat4 V c).after 3 t))) := by
  simp only [before4_0, before4_1, before4_2]
  rw [PhiA4_eq, after4_3]
  unfold outsAt4 out4_3 bodyAt4
  iintro ⟨⟨⟨HS0, HR⟩, Hg⟩, Ho, ⟨%d0, H0⟩, ⟨%d1, H1⟩, ⟨%d2, H2⟩, ⟨%d3, H3⟩⟩
  iapply ((kernelRun4 c (grid4.coords t) _ _ _ _ _ _ _ _ _ _ (hcond4_0 t) (hcond4_1 t) (iblk4 V c 0 t) (iblk4 V c 1 t) (iblk4 V c 2 t)).2.2 Set.univ _)
  iframe H0 H1 H2 HS0
  isplitl [H3]; · iexists _; iexact H3
  iintro ⟨H0, H1, H2, ⟨%e3, H3⟩, ⟨%es0, HS0⟩⟩
  iframe HR Hg Ho H0 H1 H2
  isplitl [HS0]
  · iexists _; unfold owns; iexists _; isplitr
    swap; · iexact HS0
    ipureintro; rfl
  unfold owns; iexists _; isplitr
  swap; · iexact H3
  ipureintro; exact View.read_writes_eq_canon _ _ _ (cover4_3 c _ _ _ _ _ _ _ _ _ _ _ _ _ _ _ _)

theorem body_obligation4 (c : Dev nD) : BodyObligation (dat4 (F := F) V c) (defs₀ (F := F)) Variants.none () Set.univ := fun t => by
  rw [bigSep_W4, bigSep_W4, liveAt4_3 t]
  exact sound_body4 V c t

theorem hin4 (c : Dev nD) : Pipeline.ΦA spec4 c ⊢ (dat4 V c).Φ 0 := .rfl
theorem hout4 (c : Dev nD) : (dat4 V c).Φ (Fin.last cfg4.N) ⊢ Pipeline.ΦA spec4 c := .rfl

end Region

end Cert.Kernel.Hand

end
-- ==== Proof.K.R5Kit.lean ====
import proofs.«132928_j20143396618969_2_alg».proof.Proof.Gen.Kernel.Launch
import proofs.«132928_j20143396618969_2_alg».proof.Proof.Gen.Kernel.Skeleton
import proofs.«132928_j20143396618969_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))
end Blocks

abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 4 = 0 :=
  (by decide +kernel : ∀ t : Fin grid5.N, cond5_0 (grid5.coords t) ↔ t.val % 4 = 0)

abbrev cond5_1 (i : grid5.Coords) : Prop := k5_cond2 i = 1#1
theorem hcond5_1 : ∀ t : Fin cfg5.N, cond5_1 (grid5.coords t) ↔ t.val % 4 = 3 :=
  (by decide +kernel : ∀ t : Fin grid5.N, cond5_1 (grid5.coords t) ↔ t.val % 4 = 3)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem idleAt5_3 : ∀ t : Fin cfg5.N, ¬ t.val % 4 = 3 → cfg5.idle 3 (grid5.coords t) = true :=
  (by decide +kernel : ∀ t : Fin grid5.N, ¬ t.val % 4 = 3 → cfg5.idle 3 (grid5.coords t) = true)
theorem noFlush5_3 : ∀ t : Fin cfg5.N, ¬ t.val % 4 = 3 → (cfg5.win 3).flush t = false :=
  (by decide +kernel : ∀ t : Fin grid5.N, ¬ t.val % 4 = 3 → win5_3.flush t = false)
theorem liveAt5_3 : ∀ t : Fin cfg5.N, t.val % 4 = 3 → cfg5.idle 3 (grid5.coords t) = false :=
  (by decide +kernel : ∀ t : Fin grid5.N, t.val % 4 = 3 → cfg5.idle 3 (grid5.coords t) = false)

abbrev VO5_3 : View sig .tc .vmem S2048x128 .f32 := (Memref.whole cc5_stg3_0 : Memref sig .tc .vmem S2048x128 .f32).view
abbrev ms5_0 (t : Fin cfg5.N) : Memref sig .tc .vmem S2048x2048 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2048x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2048x128 .f32 := win5_3.stage (cfg5.slots t 3)
abbrev hs5_3 (t : Fin cfg5.N) : (ms5_3 t).IsWhole := hstage5_3 ((cfg5.slots t 3).cast nbuf5_3)
abbrev scM5_0 : Memref sig .tc .vmem S2048x128 .f32 := Memref.whole cc5_scratch0
abbrev VS5_0 : View sig .tc .vmem S2048x128 .f32 := scM5_0.view

abbrev rest5 (c : Dev nD) : sProp 𝕄 :=
  Pipeline.scopedRestBut (Ix := Unit) (Name := ℕ) (U := UR sig nD τ) (Lvl := ℕ) (Val := Elt F) spec5 c [cc5_scratch0]

theorem PhiA5_eq (c : Dev nD) :
    (Pipeline.ΦA spec5 c : sProp 𝕄)
      = iprop(iprop(iprop((∃ d, owns (c : Thread nD τ) scM5_0 fullShare d)) ∗ rest5 (F := F) c) ∗ (∃ r, prngReg c r)) := by
  unfold Pipeline.ΦA; rw [scopedRest5_split]; simp only [scM5_0, owns_whole]; try rfl

end Cert.Kernel.Hand

end
-- ==== Proof.K.R5RunA.lean ====
import proofs.«132928_j20143396618969_2_alg».proof.Proof.K.R5Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun5_A (c : Dev nD) (i : grid5.Coords) (arg2 : Memref sig .tc .vmem S2048x2048 .bf16) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond5_0 i) (hc1 : ¬cond5_1 i)
    (x0 : Vec F S2048x2048 .bf16) (x1 : Vec F S2048x128 .f32) (x2 : Vec F S1x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__mm_kernel i arg2 harg2 arg3 harg3 arg4 harg4 arg5 harg5 arg6 harg6) K } := by
  refine ⟨[], ?_, fun xi3 E K => ?run⟩
  case run =>
    simp only [cc5__mm_kernel_eq_skeleton]; unfold cc5__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R5RunB.lean ====
import proofs.«132928_j20143396618969_2_alg».proof.Proof.K.R5Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun5_B (c : Dev nD) (i : grid5.Coords) (arg2 : Memref sig .tc .vmem S2048x2048 .bf16) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond5_0 i) (hc1 : ¬cond5_1 i)
    (x0 : Vec F S2048x2048 .bf16) (x1 : Vec F S2048x128 .f32) (x2 : Vec F S1x128 .f32) (xs0 : Vec F S2048x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__mm_kernel i arg2 harg2 arg3 harg3 arg4 harg4 arg5 harg5 arg6 harg6) K } := by
  refine ⟨[], ?_, fun xi3 E K => ?run⟩
  case run =>
    simp only [cc5__mm_kernel_eq_skeleton]; unfold cc5__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R5RunC.lean ====
import proofs.«132928_j20143396618969_2_alg».proof.Proof.K.R5Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun5_C (c : Dev nD) (i : grid5.Coords) (arg2 : Memref sig .tc .vmem S2048x2048 .bf16) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond5_0 i) (hc1 : cond5_1 i)
    (x0 : Vec F S2048x2048 .bf16) (x1 : Vec F S2048x128 .f32) (x2 : Vec F S1x128 .f32) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc5__mm_kernel i arg2 harg2 arg3 harg3 arg4 harg4 arg5 harg5 arg6 harg6) K } := by
  refine ⟨?_, ?_, fun E K => ?run⟩
  case run =>
    simp only [cc5__mm_kernel_eq_skeleton]; unfold cc5__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R5.lean ====
import proofs.«132928_j20143396618969_2_alg».proof.Proof.K.R5RunA
import proofs.«132928_j20143396618969_2_alg».proof.Proof.K.R5RunB
import proofs.«132928_j20143396618969_2_alg».proof.Proof.K.R5RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (c : Dev nD) (i : grid5.Coords) (arg2 : Memref sig .tc .vmem S2048x2048 .bf16) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole)

section
variable (hc0 : cond5_0 i) (hc1 : ¬cond5_1 i) (x0 : Vec F S2048x2048 .bf16) (x1 : Vec F S2048x128 .f32) (x2 : Vec F S1x128 .f32)

def out5_A_3 : Vec F S2048x128 .f32 :=
  VO5_3.read (Elt F) (VO5_3.writes (Elt F) VO5_3.junk (kernelRun5_A c i arg2 harg2 arg3 harg3 arg4 harg4 arg5 harg5 arg6 harg6 hc0 hc1 x0 x1 x2).1)

theorem scover5_A_0 (y : S2048x128.Idx) : ∃ pc ∈ (kernelRun5_A c i arg2 harg2 arg3 harg3 arg4 harg4 arg5 harg5 arg6 harg6 hc0 hc1 x0 x1 x2).2.1, y ∈ pc.1.set :=
  View.cover_of_tiledL _ S2048x128.size (by sl_kernel_rfl) y

def sout5_A_0 : Vec F S2048x128 .f32 :=
  VS5_0.read (Elt F) (VS5_0.writes (Elt F) VS5_0.junk (kernelRun5_A c i arg2 harg2 arg3 harg3 arg4 harg4 arg5 harg5 arg6 harg6 hc0 hc1 x0 x1 x2).2.1)
end

section
variable (hc0 : ¬cond5_0 i) (hc1 : ¬cond5_1 i) (x0 : Vec F S2048x2048 .bf16) (x1 : Vec F S2048x128 .f32) (x2 : Vec F S1x128 .f32) (xs0 : Vec F S2048x128 .f32)

def out5_B_3 : Vec F S2048x128 .f32 :=
  VO5_3.read (Elt F) (VO5_3.writes (Elt F) VO5_3.junk (kernelRun5_B c i arg2 harg2 arg3 harg3 arg4 harg4 arg5 harg5 arg6 harg6 hc0 hc1 x0 x1 x2 xs0).1)

theorem scover5_B_0 (y : S2048x128.Idx) : ∃ pc ∈ (kernelRun5_B c i arg2 harg2 arg3 harg3 arg4 harg4 arg5 harg5 arg6 harg6 hc0 hc1 x0 x1 x2 xs0).2.1, y ∈ pc.1.set :=
  View.cover_of_tiledL _ S2048x128.size (by sl_kernel_rfl) y

def sout5_B_0 : Vec F S2048x128 .f32 :=
  VS5_0.read (Elt F) (VS5_0.writes (Elt F) VS5_0.junk (kernelRun5_B c i arg2 harg2 arg3 harg3 arg4 harg4 arg5 harg5 arg6 harg6 hc0 hc1 x0 x1 x2 xs0).2.1)
end

section
variable (hc0 : ¬cond5_0 i) (hc1 : cond5_1 i) (x0 : Vec F S2048x2048 .bf16) (x1 : Vec F S2048x128 .f32) (x2 : Vec F S1x128 .f32) (xs0 : Vec F S2048x128 .f32)

theorem cover5_C_3 (y : S2048x128.Idx) : ∃ pc ∈ (kernelRun5_C c i arg2 harg2 arg3 harg3 arg4 harg4 arg5 harg5 arg6 harg6 hc0 hc1 x0 x1 x2 xs0).1, y ∈ pc.1.set :=
  View.cover_of_tiledL _ S2048x128.size (by sl_kernel_rfl) y

def out5_C_3 : Vec F S2048x128 .f32 :=
  VO5_3.read (Elt F) (VO5_3.writes (Elt F) VO5_3.junk (kernelRun5_C c i arg2 harg2 arg3 harg3 arg4 harg4 arg5 harg5 arg6 harg6 hc0 hc1 x0 x1 x2 xs0).1)

theorem scover5_C_0 (y : S2048x128.Idx) : ∃ pc ∈ (kernelRun5_C c i arg2 harg2 arg3 harg3 arg4 harg4 arg5 harg5 arg6 harg6 hc0 hc1 x0 x1 x2 xs0).2.1, y ∈ pc.1.set :=
  View.cover_of_tiledL _ S2048x128.size (by sl_kernel_rfl) y

def sout5_C_0 : Vec F S2048x128 .f32 :=
  VS5_0.read (Elt F) (VS5_0.writes (Elt F) VS5_0.junk (kernelRun5_C c i arg2 harg2 arg3 harg3 arg4 harg4 arg5 harg5 arg6 harg6 hc0 hc1 x0 x1 x2 xs0).2.1)
end
end

-- A run's two piece lists read back: (the output block, the accumulator).
def back5 {P : List (View.Piece (Elt F) S2048x128 .f32) → List (View.Piece (Elt F) S2048x128 .f32) → Prop}
    (r : Σ' L3, { LS0 // P L3 LS0 }) : Vec F S2048x128 .f32 × Vec F S2048x128 .f32 :=
  (VO5_3.read (Elt F) (VO5_3.writes (Elt F) VO5_3.junk r.1), VS5_0.read (Elt F) (VS5_0.writes (Elt F) VS5_0.junk r.2.1))

variable (V : (c : Dev nD) → (b : Ref sig .tc) → Buf (Elt F) ((c : Thread nD τ).loc b))

-- One point: the case its position mod 4 selects, run on the point's blocks over the carried accumulator `a`.
def step5 (c : Dev nD) (t : Fin cfg5.N) (a : Vec F S2048x128 .f32) : Vec F S2048x128 .f32 × Vec F S2048x128 .f32 :=
  if h0 : t.val % 4 = 0 then
    back5 (kernelRun5_A c (grid5.coords t) (ms5_0 t) (hs5_0 t) (ms5_1 t) (hs5_1 t) (ms5_2 t) (hs5_2 t) (ms5_3 t) (hs5_3 t) scM5_0 (Memref.isWhole_whole _) ((hcond5_0 t).mpr h0) (fun h => by have := (hcond5_1 t).mp h; omega) (iblk5 V c 0 t) (iblk5 V c 1 t) (iblk5 V c 2 t))
  else if h1 : t.val % 4 = 3 then
    back5 (kernelRun5_C c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) a)
  else
    back5 (kernelRun5_B c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) a)

def outsAt5 (c : Dev nD) : (n : ℕ) → n < cfg5.N → Vec F S2048x128 .f32 × Vec F S2048x128 .f32
  | 0, hn => step5 V c ⟨0, hn⟩ (VS5_0.read (Elt F) VS5_0.junk)
  | n + 1, hn => step5 V c ⟨n + 1, hn⟩ (outsAt5 c n (Nat.lt_of_succ_lt hn)).2

theorem outsAt5_A (c : Dev nD) (t : Fin cfg5.N) (h0 : t.val % 4 = 0) (h1 : ¬t.val % 4 = 3) :
    outsAt5 V c t.val t.isLt = (out5_A_3 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t), sout5_A_0 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)) := by
  obtain ⟨n, hn⟩ := t
  cases n <;> (show step5 V c _ _ = _; exact (dif_pos h0).trans rfl)

theorem outsAt5_B (c : Dev nD) (t : Fin cfg5.N) (h0 : ¬t.val % 4 = 0) (h1 : ¬t.val % 4 = 3) :
    outsAt5 V c t.val t.isLt = (out5_B_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt5_C (c : Dev nD) (t : Fin cfg5.N) (h0 : ¬t.val % 4 = 0) (h1 : t.val % 4 = 3) :
    outsAt5 V c t.val t.isLt = (out5_C_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

-- The invariant before position `n`: the launch's at 0; afterwards the accumulator at what the point before left.
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ rest5 (F := F) c) ∗ (∃ r, prngReg c r))

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ rest5 (F := F) c) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

-- At every position the invariant gives the launch's back: the accumulator's named contents are forgotten.
theorem Phi_open5 (c : Dev nD) (t : Fin (cfg5.N + 1)) : (dat5 V c).Φ t ⊢ Pipeline.ΦA spec5 c := by
  obtain ⟨n, hn⟩ := t
  cases n with
  | zero => exact Idealize.SL.BI.Entails.refl _
  | succ n =>
    rw [show (dat5 V c).Φ ⟨n + 1, hn⟩ = PhiS5 V c (n + 1) (Nat.le_of_lt_succ hn) from rfl, PhiS5_pos V c _ _ (Nat.succ_ne_zero n), PhiA5_eq]
    iintro ⟨⟨HS0, HR⟩, Hg⟩
    isplitl [HS0 HR]
    · isplitl [HS0]
      · iexists _; iexact HS0
      iexact HR
    iexact Hg

theorem A_eq5 (c : Dev nD) (w : Fin cfg5.W) : (dat5 V c).A w = V c (Pipeline.arrRef spec5 w) := rfl

theorem after5_0 (c : Dev nD) (t : Fin cfg5.N) : (dat5 V c).after 0 t = iblk5 V c 0 t := rfl
theorem after5_1 (c : Dev nD) (t : Fin cfg5.N) : (dat5 V c).after 1 t = iblk5 V c 1 t := rfl
theorem after5_2 (c : Dev nD) (t : Fin cfg5.N) : (dat5 V c).after 2 t = iblk5 V c 2 t := rfl
theorem after5_3 (c : Dev nD) (t : Fin cfg5.N) : (dat5 V c).after 3 t = (outsAt5 V c t.val t.isLt).1 := rfl

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

-- The body at every point: the inputs keep their blocks, the accumulator goes from what the point before left to this point's, and the output block is stored at the points 3 mod 4 only.
set_option maxHeartbeats 4800000 in
theorem body_obligation5 (c : Dev nD) : BodyObligation (dat5 (F := F) V c) (defs₀ (F := F)) Variants.none () Set.univ := fun t => by
  rw [bigSep_W5, bigSep_W5]
  show bodyPre5 V c t ⊢ wp frame (wpE (defs₀ (F := F)) Variants.none c none) Set.univ (bodyAt5 t) (fun _ => bodyPost5 V c t)
  unfold bodyPre5 bodyPost5 bodyAt5
  simp only [before5_0, before5_1, before5_2]
  rw [show (dat5 V c).owesAt () t.succ = (dat5 V c).owesAt () t.castSucc from rfl,
    show (dat5 V c).Φ t.succ = iprop(iprop(owns (c : Thread nD τ) scM5_0 fullShare (outsAt5 V c t.val t.isLt).2 ∗ rest5 (F := F) c) ∗ (∃ r, prngReg c r)) from rfl,
    show (dat5 V c).leavesExact 0 t = owns (c : Thread nD τ) (ms5_0 t) fullShare ((dat5 V c).after 0 t) from by
      unfold Dat.leavesExact; rw [liveAt5_0 t], after5_0,
    show (dat5 V c).leavesExact 1 t = owns (c : Thread nD τ) (ms5_1 t) fullShare ((dat5 V c).after 1 t) from by
      unfold Dat.leavesExact; rw [liveAt5_1 t], after5_1,
    show (dat5 V c).leavesExact 2 t = owns (c : Thread nD τ) (ms5_2 t) fullShare ((dat5 V c).after 2 t) from by
      unfold Dat.leavesExact; rw [liveAt5_2 t], after5_2]
  by_cases h1 : t.val % 4 = 3
  · have h0 : ¬t.val % 4 = 0 := by omega
    rw [show (dat5 V c).leavesExact 3 t = owns (c : Thread nD τ) (ms5_3 t) fullShare ((dat5 V c).after 3 t) from by
      unfold Dat.leavesExact; rw [liveAt5_3 t h1], after5_3, outsAt5_C V c t h0 h1]
    unfold out5_C_3 sout5_C_0; dsimp only
    rw [show (dat5 V c).Φ t.castSucc = PhiS5 V c t.val (Nat.le_of_lt t.isLt) from rfl, PhiS5_pos V c _ _ fun h => h0 (by rw [h])]
    iintro ⟨⟨⟨HS0, HR⟩, Hg⟩, Ho, ⟨%d0, H0⟩, ⟨%d1, H1⟩, ⟨%d2, H2⟩, ⟨%d3, H3⟩⟩
    iapply ((kernelRun5_C _ _ _ _ _ _ _ _ _ _ _ _ (fun h => h0 ((hcond5_0 t).mp h)) ((hcond5_1 t).mpr h1) _ _ _ _).2.2 _ _)
    iframe H0 H1 H2 HS0
    isplitl [H3]; · iexists _; iexact H3
    iintro ⟨H0, H1, H2, ⟨%e3, H3⟩, ⟨%es0, HS0⟩⟩
    iframe HR Hg Ho H0 H1 H2
    isplitl [HS0]
    · unfold owns; iexists _; isplitr
      swap; · iexact HS0
      ipureintro; exact View.read_writes_of_cover _ _ _ _ _ (scover5_C_0 _ _ _ _ _ _ _ _ _ _ _ _ _ _ _ _ _ _)
    unfold owns; iexists _; isplitr
    swap; · iexact H3
    ipureintro; exact View.read_writes_of_cover _ _ _ _ _ (cover5_C_3 _ _ _ _ _ _ _ _ _ _ _ _ _ _ _ _ _ _)
  rw [Dat.leavesExact_idle (dat5 V c) 3 t (idleAt5_3 t h1) (noFlush5_3 t h1)]
  by_cases h0 : t.val % 4 = 0
  · rw [outsAt5_A V c t h0 h1]
    unfold sout5_A_0; dsimp only
    refine (sep_mono_left (Phi_open5 V c t.castSucc)).trans ?_
    rw [PhiA5_eq]
    iintro ⟨⟨⟨HS0, HR⟩, Hg⟩, Ho, ⟨%d0, H0⟩, ⟨%d1, H1⟩, ⟨%d2, H2⟩, ⟨%d3, H3⟩⟩
    iapply ((kernelRun5_A _ _ _ _ _ _ _ _ _ _ _ _ ((hcond5_0 t).mpr h0) (fun h => h1 ((hcond5_1 t).mp h)) _ _ _).2.2 ((dat5 V c).before 3 t d3) _ _)
    iframe H0 H1 H2 H3 HS0
    iintro ⟨H0, H1, H2, H3, ⟨%es0, HS0⟩⟩
    iframe HR Hg Ho H0 H1 H2
    isplitl [HS0]
    · unfold owns; iexists _; isplitr
      swap; · iexact HS0
      ipureintro; exact View.read_writes_of_cover _ _ _ _ _ (scover5_A_0 _ _ _ _ _ _ _ _ _ _ _ _ _ _ _ _ _)
    iexists _; iexact H3
  rw [outsAt5_B V c t h0 h1]
  unfold sout5_B_0; dsimp only
  rw [show (dat5 V c).Φ t.castSucc = PhiS5 V c t.val (Nat.le_of_lt t.isLt) from rfl, PhiS5_pos V c _ _ fun h => h0 (by rw [h])]
  iintro ⟨⟨⟨HS0, HR⟩, Hg⟩, Ho, ⟨%d0, H0⟩, ⟨%d1, H1⟩, ⟨%d2, H2⟩, ⟨%d3, H3⟩⟩
  iapply ((kernelRun5_B _ _ _ _ _ _ _ _ _ _ _ _ (fun h => h0 ((hcond5_0 t).mp h)) (fun h => h1 ((hcond5_1 t).mp h)) _ _ _ _).2.2 ((dat5 V c).before 3 t d3) _ _)
  iframe H0 H1 H2 H3 HS0
  iintro ⟨H0, H1, H2, H3, ⟨%es0, HS0⟩⟩
  iframe HR Hg Ho H0 H1 H2
  isplitl [HS0]
  · unfold owns; iexists _; isplitr
    swap; · iexact HS0
    ipureintro; exact View.read_writes_of_cover _ _ _ _ _ (scover5_B_0 _ _ _ _ _ _ _ _ _ _ _ _ _ _ _ _ _ _)
  iexists _; iexact H3

theorem hin5 (c : Dev nD) : Pipeline.ΦA spec5 c ⊢ (dat5 V c).Φ 0 := Idealize.SL.BI.Entails.refl _

theorem hout5 (c : Dev nD) : (dat5 V c).Φ (Fin.last cfg5.N) ⊢ Pipeline.ΦA spec5 c := Phi_open5 V c _

theorem owed5 (c : Dev nD) (t : Fin (cfg5.N + 1)) : (dat5 V c).owed t = 0 := rfl
theorem q5 (c : Dev nD) (w : Fin cfg5.W) : (dat5 V c).q w = fullShare := rfl

end Cert.Kernel.Hand

end
-- ==== Proof.K.R6Kit.lean ====
import proofs.«132928_j20143396618969_2_alg».proof.Proof.Gen.Kernel.Launch
import proofs.«132928_j20143396618969_2_alg».proof.Proof.Gen.Kernel.Skeleton
import proofs.«132928_j20143396618969_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window w's block at grid point t, read off the array's contents at entry.
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev cond6_0 (i : grid6.Coords) : Prop := k6_cond1 i = 1#1
-- The first branch is taken exactly strictly below the block diagonal.
theorem hcond6_0 : ∀ t : Fin cfg6.N, cond6_0 (grid6.coords t) ↔ t.val / 8 > t.val % 8 :=
  (by decide +kernel : ∀ t : Fin grid6.N, cond6_0 (grid6.coords t) ↔ t.val / 8 > t.val % 8)

abbrev cond6_1 (i : grid6.Coords) : Prop := k6_cond2 i = 1#1
-- The second branch is taken exactly on and above the block diagonal.
theorem hcond6_1 : ∀ t : Fin cfg6.N, cond6_1 (grid6.coords t) ↔ t.val / 8 ≤ t.val % 8 :=
  (by decide +kernel : ∀ t : Fin grid6.N, cond6_1 (grid6.coords t) ↔ t.val / 8 ≤ t.val % 8)

-- Exactly one branch is taken at each point.
theorem liveAt6 : ∀ (w : Fin cfg6.W) (t : Fin cfg6.N), cfg6.idle w (grid6.coords t) = false := by decide +kernel

abbrev VO6_2 : View sig .tc .vmem S1024x1024 .f32 := (Memref.whole cc6_stg2_0 : Memref sig .tc .vmem S1024x1024 .f32).view
abbrev ms6_0 (t : Fin cfg6.N) : Memref sig .tc .vmem S1024x64 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1024x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1024x1024 .f32 := win6_2.stage (cfg6.slots t 2)
abbrev hs6_2 (t : Fin cfg6.N) : (ms6_2 t).IsWhole := hstage6_2 ((cfg6.slots t 2).cast nbuf6_2)

-- A run of the body on whole memrefs: the inputs at x0, x1 are kept, and the output ends as the pieces L2 its stores wrote.
abbrev Run6 (c : Dev nD) (i : grid6.Coords) (arg2 : Memref sig .tc .vmem S1024x64 .f32) (harg2 : arg2.IsWhole) (arg3 : Memref sig .tc .vmem S1024x64 .f32) (harg3 : arg3.IsWhole) (arg4 : Memref sig .tc .vmem S1024x1024 .f32) (harg4 : arg4.IsWhole)
    (x0 x1 : Vec F S1024x64 .f32) :=
  { L2 : List (View.Piece (Elt F) S1024x1024 .f32) //
    ∀ (E : Set ℕ) (K : PUnit → sProp 𝕄),
      iprop(owns (c : Thread nD τ) arg2 fullShare x0 ∗ owns (c : Thread nD τ) arg3 fullShare x1 ∗ (∃ d, owns (c : Thread nD τ) arg4 fullShare d)
          ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
        ⊢ wp frame (wpE (defs₀ (F := F)) Variants.none c none) E (cc6__zzt_kernel i arg2 harg2 arg3 harg3 arg4 harg4) K }

end Cert.Kernel.Hand

end
-- ==== Proof.K.R6RunA.lean ====
import proofs.«132928_j20143396618969_2_alg».proof.Proof.K.R6Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

set_option maxHeartbeats 1000000 in
-- Strictly below the block diagonal only the first branch runs; the pieces are whatever its stores wrote.
noncomputable def kernelRun6_A (c : Dev nD) (i : grid6.Coords) (arg2 : Memref sig .tc .vmem S1024x64 .f32) (harg2 : arg2.IsWhole) (arg3 : Memref sig .tc .vmem S1024x64 .f32) (harg3 : arg3.IsWhole) (arg4 : Memref sig .tc .vmem S1024x1024 .f32) (harg4 : arg4.IsWhole) (hc0 : cond6_0 i) (hc1 : ¬cond6_1 i)
    (x0 x1 : Vec F S1024x64 .f32) : Run6 c i arg2 harg2 arg3 harg3 arg4 harg4 x0 x1 := by
  refine ⟨?_, fun E K => ?run⟩
  case run =>
    simp only [cc6__zzt_kernel_eq_skeleton]; unfold cc6__zzt_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.K.R6RunB.lean ====
import proofs.«132928_j20143396618969_2_alg».proof.Proof.K.R6RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

set_option maxHeartbeats 1000000 in
-- On and above the block diagonal only the second branch runs; the pieces are whatever its stores wrote.
noncomputable def kernelRun6_B (c : Dev nD) (i : grid6.Coords) (arg2 : Memref sig .tc .vmem S1024x64 .f32) (harg2 : arg2.IsWhole) (arg3 : Memref sig .tc .vmem S1024x64 .f32) (harg3 : arg3.IsWhole) (arg4 : Memref sig .tc .vmem S1024x1024 .f32) (harg4 : arg4.IsWhole) (hc0 : ¬cond6_0 i) (hc1 : cond6_1 i)
    (x0 x1 : Vec F S1024x64 .f32) : Run6 c i arg2 harg2 arg3 harg3 arg4 harg4 x0 x1 := by
  refine ⟨?_, fun E K => ?run⟩
  case run =>
    simp only [cc6__zzt_kernel_eq_skeleton]; unfold cc6__zzt_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.K.R6.lean ====
import proofs.«132928_j20143396618969_2_alg».proof.Proof.K.R6RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The run the closed forms select at point t (block row t / 8, block column t % 8), on the point's memrefs and input blocks.
def run6At (c : Dev nD) (t : Fin cfg6.N) : Run6 c (grid6.coords t) (ms6_0 t) (hs6_0 t) (ms6_1 t) (hs6_1 t) (ms6_2 t) (hs6_2 t) (iblk6 V c 0 t) (iblk6 V c 1 t) :=
  if h : t.val / 8 > t.val % 8 then kernelRun6_A c _ _ _ _ _ _ _ ((hcond6_0 t).mpr h) (fun h' => Nat.not_le.mpr h ((hcond6_1 t).mp h')) _ _
  else kernelRun6_B c _ _ _ _ _ _ _ (fun h' => h ((hcond6_0 t).mp h')) ((hcond6_1 t).mpr (Nat.le_of_not_lt h)) _ _

-- Either run's stores tile the output block (one whole-block store), so they cover it.
theorem cover6 (c : Dev nD) (t : Fin cfg6.N) (y : S1024x1024.Idx) : ∃ pc ∈ (run6At V c t).1, y ∈ pc.1.set := by
  unfold run6At; split <;> exact View.cover_of_tiledL _ S1024x1024.size (by sl_kernel_rfl) y

-- What the output block holds after the body at point t: the selected run's pieces read back; nothing is carried between points.
def outAt6 (c : Dev nD) (t : Fin cfg6.N) : Vec F S1024x1024 .f32 :=
  VO6_2.read (Elt F) (VO6_2.writes (Elt F) VO6_2.junk (run6At V c t).1)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => outAt6 V c t
  Φ _ := Pipeline.ΦA spec6 c
  q w := match w with
    | ⟨0, _⟩ => fullShare.left
    | ⟨1, _⟩ => fullShare.right
    | ⟨2, _⟩ => fullShare
  owed _ := 0

theorem A_eq6 (c : Dev nD) (w : Fin cfg6.W) : (dat6 V c).A w = V c (Pipeline.arrRef spec6 w) := rfl

theorem owed6 (c : Dev nD) (t : Fin (cfg6.N + 1)) : (dat6 V c).owed t = 0 := rfl

theorem Phi6 (c : Dev nD) (t : Fin (cfg6.N + 1)) : (dat6 V c).Φ t = Pipeline.ΦA spec6 c := rfl

theorem after6_2 (c : Dev nD) (t : Fin cfg6.N) : (dat6 V c).after 2 t = outAt6 V c t := rfl

theorem leaves6 (c : Dev nD) (w : Fin cfg6.W) (t : Fin cfg6.N) :
    (dat6 V c).leavesExact w t = owns (c : Thread nD τ) ((cfg6.win w).stage (cfg6.slots t w)) fullShare ((dat6 V c).after w t) := by
  unfold Dat.leavesExact; rw [liveAt6 w t]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d

set_option maxHeartbeats 4800000 in
-- The inputs hold their blocks, so the selected run applies whatever the output held; its pieces cover the output block.
theorem sound_body6 (c : Dev nD) (t : Fin cfg6.N) :
    (iprop((dat6 V c).Φ t.castSucc ∗ (dat6 V c).owesAt () t.castSucc
      ∗ (∃ d, owns (c : Thread nD τ) (ms6_0 t) fullShare ((dat6 V c).before 0 t d))
      ∗ (∃ d, owns (c : Thread nD τ) (ms6_1 t) fullShare ((dat6 V c).before 1 t d))
      ∗ (∃ d, owns (c : Thread nD τ) (ms6_2 t) fullShare ((dat6 V c).before 2 t d))) : sProp 𝕄)
      ⊢ wp frame (wpE (defs₀ (F := F)) Variants.none c none) Set.univ (bodyAt6 t) (fun _ => iprop((dat6 V c).Φ t.succ ∗ (dat6 V c).owesAt () t.succ
        ∗ (dat6 V c).leavesExact 0 t ∗ (dat6 V c).leavesExact 1 t ∗ (dat6 V c).leavesExact 2 t)) := by
  unfold bodyAt6
  simp only [before6_0, before6_1]
  rw [show (dat6 V c).owesAt () t.succ = (dat6 V c).owesAt () t.castSucc from rfl, Phi6 V c t.succ, Phi6 V c t.castSucc,
    leaves6 V c 0 t, leaves6 V c 1 t, leaves6 V c 2 t, after6_2]
  unfold outAt6
  iintro ⟨HΦ, Ho, ⟨%d0, H0⟩, ⟨%d1, H1⟩, ⟨%d2, H2⟩⟩
  iapply ((run6At V c t).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover6 V c t)

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.R6Seg.lean ====
import proofs.«132928_j20143396618969_2_alg».proof.Proof.K.R6
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The windows' arrays are two distinct buffers (both inputs read the same one), each whole at the full share.
theorem arrBufs6_eq (c : Dev nD) (W : (b : Ref sig .tc) → Buf (Elt F) ((c : Thread nD τ).loc b)) :
    (Pipeline.arrBufs spec6 c W : sProp 𝕄)
      = iprop((((c : Thread nD τ).loc main_v66) ↦{fullShare} W main_v66) ∗ (((c : Thread nD τ).loc main_v67) ↦{fullShare} W main_v67)) := by
  unfold Pipeline.arrBufs
  exact BI.bigSep_eq_bigSepL_of_eq [main_v66, main_v67] (by decide) (by decide) _

-- Window by window: the shared input array at its two half shares, the output array whole.
theorem arrays6_eq (c : Dev nD) (Fs : (w : Fin cfg6.W) → Buf (Elt F) ((cfg6.win w).arr.view.loc (c : Thread nD τ))) :
    ((dat6 V c).arrays Fs : sProp 𝕄)
      = iprop((((c : Thread nD τ).loc main_v66) ↦{fullShare.left} Fs 0) ∗ (((c : Thread nD τ).loc main_v66) ↦{fullShare.right} Fs 1)
          ∗ (((c : Thread nD τ).loc main_v67) ↦{fullShare} Fs 2)) := by
  have h : ((dat6 V c).arrays Fs : sProp 𝕄)
      = bigSep Finset.univ fun w : Fin cfg6.W => ((cfg6.win w).arr.view.loc (c : Thread nD τ) ↦{(dat6 V c).share w} Fs w) := by
    unfold Dat.arrays
    exact BI.bigSep_congr fun w _ => by rw [(arr_whole6 w).set_eq_univ]
  rw [h, bigSep_W6]
  rfl

-- At entry the shared input array's full share splits into its two halves.
theorem arrays_of_unscopedBufs6 (c : Dev nD) :
    (unscopedBufs c (V c) : sProp 𝕄) ⊢ iprop((dat6 V c).arrays ((dat6 V c).arrAt · 0) ∗ Pipeline.unscopedRest spec6 c (V c)) := by
  rw [show (unscopedBufs c (V c) : sProp 𝕄) = iprop(Pipeline.arrBufs spec6 c (V c) ∗ Pipeline.unscopedRest spec6 c (V c)) from
      Pipeline.unscopedBufs_split₀ cfgs 6 winFacts₀6.arr_unscoped c (V c), arrBufs6_eq, arrays6_eq]
  iintro ⟨⟨Hz, Ho⟩, Hrest⟩
  ihave Hz := (pointsTo_share (PosShare.mem_left_op_right fullShare)).1 $$ Hz
  icases Hz with ⟨Hz0, Hz1⟩
  isplitr [Hrest]
  · isplitl [Hz0]; · iexact Hz0
    isplitl [Hz1]; · iexact Hz1
    iexact Ho
  iexact Hrest

-- At exit the two halves join again; only the output array has changed.
theorem unscopedBufs_of_arrays6 (c : Dev nD) (V' : (b : Ref sig .tc) → Buf (Elt F) ((c : Thread nD τ).loc b))
    (hout : V' main_v67 = (dat6 V c).arrAt 2 cfg6.N)
    (hrest : ∀ b, b ≠ main_v67 → V' b = V c b) :
    iprop((dat6 V c).arrays ((dat6 V c).arrAt · cfg6.N) ∗ Pipeline.unscopedRest spec6 c (V c)) ⊢ (unscopedBufs c V' : sProp 𝕄) := by
  rw [show (unscopedBufs c V' : sProp 𝕄) = iprop(Pipeline.arrBufs spec6 c V' ∗ Pipeline.unscopedRest spec6 c V') from
      Pipeline.unscopedBufs_split₀ cfgs 6 winFacts₀6.arr_unscoped c V', arrBufs6_eq, arrays6_eq,
    (dat6 V c).arrAt_in 0 rfl cfg6.N, (dat6 V c).arrAt_in 1 rfl cfg6.N, A_eq6, A_eq6, hout, hrest main_v66 (by decide)]
  have hR : (Pipeline.unscopedRest spec6 c V' : sProp 𝕄) = Pipeline.unscopedRest spec6 c (V c) := by
    unfold Pipeline.unscopedRest
    refine BI.bigSep_congr fun b hb => ?_
    rw [hrest b (fun e => (Finset.mem_sdiff.mp hb).2 (e ▸ Finset.mem_image.mpr ⟨2, Finset.mem_univ _, rfl⟩))]
  rw [hR]
  iintro ⟨⟨Hz0, Hz1, Ho⟩, Hrest⟩
  isplitr [Hrest]
  · isplitl [Hz0 Hz1]
    · iapply (pointsTo_share (PosShare.mem_left_op_right fullShare)).2
      isplitl [Hz0] <;> iassumption
    iexact Ho
  iexact Hrest

end Cert.Kernel.Hand

end
-- ==== Proof.K.Run.lean ====
import proofs.«132928_j20143396618969_2_alg».proof.Proof.K.R0
import proofs.«132928_j20143396618969_2_alg».proof.Proof.K.R1
import proofs.«132928_j20143396618969_2_alg».proof.Proof.K.R2
import proofs.«132928_j20143396618969_2_alg».proof.Proof.K.R3
import proofs.«132928_j20143396618969_2_alg».proof.Proof.K.R4
import proofs.«132928_j20143396618969_2_alg».proof.Proof.K.R5
import proofs.«132928_j20143396618969_2_alg».proof.Proof.K.R6
import proofs.«132928_j20143396618969_2_alg».proof.Proof.K.R6Seg
import proofs.«132928_j20143396618969_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev rd (U : Dev nD → Valuation τ sig (Elt F)) : (c : Dev nD) → (b : Ref sig .tc) → Buf (Elt F) ((c : Thread nD τ).loc b) := fun c b => U c b

abbrev W3 (c : Dev nD) : Valuation τ sig (Elt F) := Gen.V3 m c
def W4 (c : Dev nD) : Valuation τ sig (Elt F) := Function.update (W3 m c) main_v51 ((dat0 (rd (W3 m)) c).arrAt 3 cfg0.N)
abbrev W5 (c : Dev nD) : Valuation τ sig (Elt F) := StableHlo.after hostOps1 (W4 m c)
def W6 (c : Dev nD) : Valuation τ sig (Elt F) := Function.update (W5 m c) main_v53 ((dat1 (rd (W5 m)) c).arrAt 3 cfg1.N)
abbrev W7 (c : Dev nD) : Valuation τ sig (Elt F) := StableHlo.after hostOps2 (W6 m c)
def W8 (c : Dev nD) : Valuation τ sig (Elt F) := Function.update (W7 m c) main_v55 ((dat2 (rd (W7 m)) c).arrAt 3 cfg2.N)
abbrev W9 (c : Dev nD) : Valuation τ sig (Elt F) := StableHlo.after hostOps3 (W8 m c)
def W10 (c : Dev nD) : Valuation τ sig (Elt F) := Function.update (W9 m c) main_v57 ((dat3 (rd (W9 m)) c).arrAt 3 cfg3.N)
abbrev W11 (c : Dev nD) : Valuation τ sig (Elt F) := StableHlo.after hostOps4 (W10 m c)
def W12 (c : Dev nD) : Valuation τ sig (Elt F) := Function.update (W11 m c) main_v59 ((dat4 (rd (W11 m)) c).arrAt 3 cfg4.N)
abbrev W13 (c : Dev nD) : Valuation τ sig (Elt F) := StableHlo.after hostOps5 (W12 m c)
def W14 (c : Dev nD) : Valuation τ sig (Elt F) := Function.update (W13 m c) main_v61 ((dat5 (rd (W13 m)) c).arrAt 3 cfg5.N)
abbrev W15 (c : Dev nD) : Valuation τ sig (Elt F) := StableHlo.after hostOps6 (W14 m c)
def W16 (c : Dev nD) : Valuation τ sig (Elt F) := Function.update (W15 m c) main_v67 ((dat6 (rd (W15 m)) c).arrAt 2 cfg6.N)

def outs : Gen.Outs (F := F) := fun J r c => match J with
  | 4 => W4 m c r | 6 => W6 m c r | 8 => W8 m c r | 10 => W10 m c r | 12 => W12 m c r | 14 => W14 m c r | 16 => W16 m c r | _ => W3 m c r

theorem V4_eq (c : Dev nD) : Gen.V4 m (outs m) c = W4 m c := by
  show Function.update (Gen.V3 m c) main_v51 (W4 m c main_v51) = W4 m c
  unfold W4; rw [Function.update_self]
theorem V5_eq (c : Dev nD) : Gen.V5 m (outs m) c = W5 m c := by
  show StableHlo.after hostOps1 (Gen.V4 m (outs m) c) = _
  rw [V4_eq]
theorem V6_eq (c : Dev nD) : Gen.V6 m (outs m) c = W6 m c := by
  show Function.update (Gen.V5 m (outs m) c) main_v53 (W6 m c main_v53) = W6 m c
  rw [V5_eq]; unfold W6; rw [Function.update_self]
theorem V7_eq (c : Dev nD) : Gen.V7 m (outs m) c = W7 m c := by
  show StableHlo.after hostOps2 (Gen.V6 m (outs m) c) = _
  rw [V6_eq]
theorem V8_eq (c : Dev nD) : Gen.V8 m (outs m) c = W8 m c := by
  show Function.update (Gen.V7 m (outs m) c) main_v55 (W8 m c main_v55) = W8 m c
  rw [V7_eq]; unfold W8; rw [Function.update_self]
theorem V9_eq (c : Dev nD) : Gen.V9 m (outs m) c = W9 m c := by
  show StableHlo.after hostOps3 (Gen.V8 m (outs m) c) = _
  rw [V8_eq]
theorem V10_eq (c : Dev nD) : Gen.V10 m (outs m) c = W10 m c := by
  show Function.update (Gen.V9 m (outs m) c) main_v57 (W10 m c main_v57) = W10 m c
  rw [V9_eq]; unfold W10; rw [Function.update_self]
theorem V11_eq (c : Dev nD) : Gen.V11 m (outs m) c = W11 m c := by
  show StableHlo.after hostOps4 (Gen.V10 m (outs m) c) = _
  rw [V10_eq]
theorem V12_eq (c : Dev nD) : Gen.V12 m (outs m) c = W12 m c := by
  show Function.update (Gen.V11 m (outs m) c) main_v59 (W12 m c main_v59) = W12 m c
  rw [V11_eq]; unfold W12; rw [Function.update_self]
theorem V13_eq (c : Dev nD) : Gen.V13 m (outs m) c = W13 m c := by
  show StableHlo.after hostOps5 (Gen.V12 m (outs m) c) = _
  rw [V12_eq]
theorem V14_eq (c : Dev nD) : Gen.V14 m (outs m) c = W14 m c := by
  show Function.update (Gen.V13 m (outs m) c) main_v61 (W14 m c main_v61) = W14 m c
  rw [V13_eq]; unfold W14; rw [Function.update_self]
theorem V15_eq (c : Dev nD) : Gen.V15 m (outs m) c = W15 m c := by
  show StableHlo.after hostOps6 (Gen.V14 m (outs m) c) = _
  rw [V14_eq]
theorem V16_eq (c : Dev nD) : Gen.V16 m (outs m) c = W16 m c := by
  show Function.update (Gen.V15 m (outs m) c) main_v67 (W16 m c main_v67) = W16 m c
  rw [V15_eq]; unfold W16; rw [Function.update_self]

def pdats : (p : Fin 7) → (c : Dev nD) → Dat τ (Elt F) Unit ℕ (UR sig nD τ) ℕ (Pipeline.pin (pcfgs (F := F)) adm p) c
  | ⟨0, _⟩ => fun c => dat0 (rd (W3 m)) c
  | ⟨1, _⟩ => fun c => dat1 (rd (W5 m)) c
  | ⟨2, _⟩ => fun c => dat2 (rd (W7 m)) c
  | ⟨3, _⟩ => fun c => dat3 (rd (W9 m)) c
  | ⟨4, _⟩ => fun c => dat4 (rd (W11 m)) c
  | ⟨5, _⟩ => fun c => dat5 (rd (W13 m)) c
  | ⟨6, _⟩ => fun c => dat6 (rd (W15 m)) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev pc (p : Fin 7) := Pipeline.pin (pcfgs (F := F)) adm p

set_option backward.isDefEq.respectTransparency.types false in
/-- A region as a segment of the program, entered with every unscoped buffer at `Wi` and left with them at `Wo`: its
    arrays are split out of the buffers at entry (`hsplit`) and put back at exit (`hjoin`); nothing is owed. -/
def regCore (p : Fin 7) (win : Pipeline.WinFacts₀ (pc (F := F) p).spec)
    (block_pos : ∀ w : Fin (pc (F := F) p).W, 0 < ((pc (F := F) p).spec w).block.numel)
    (stage_whole : ∀ (w : Fin (pc (F := F) p).W) (s : Fin ((pc (F := F) p).spec w).nbuf), (((pc (F := F) p).spec w).stage s).IsWhole)
    (Wi Wo : Dev nD → Valuation τ sig (Elt F))
    (hbody : ∀ c, BodyObligation (pdats m p c) (defs₀ (F := F)) Variants.none () Set.univ)
    (howed : ∀ c t, (pdats m p c).owed t = 0) (hrec : ∀ c, (pdats m p c).recorded 0 = Set.univ)
    (hsplit : ∀ c, (unscopedBufs c (rd Wi c) : sProp 𝕄)
      ⊢ iprop((pdats m p c).arrays ((pdats m p c).arrAt · 0) ∗ Pipeline.unscopedRest (pc (F := F) p).spec c (rd Wi c)))
    (hjoin : ∀ c, iprop((pdats m p c).arrays ((pdats m p c).arrAt · (pc (F := F) p).N) ∗ Pipeline.unscopedRest (pc (F := F) p).spec c (rd Wi c))
      ⊢ (unscopedBufs c (rd Wo c) : sProp 𝕄))
    (hΦi : ∀ c, Pipeline.ΦA (pc (F := F) p).spec c ⊢ (pdats m p c).Φ 0)
    (hΦo : ∀ c, (pdats m p c).Φ (Fin.last (pc (F := F) p).N) ⊢ Pipeline.ΦA (pc (F := F) p).spec c) :
    Pipeline.RegionSeg (pcfgs (F := F)) adm (pdats m) () defs₀ 𝒱₀ L lv p where
  win := win
  block_pos := block_pos
  stage_whole := stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (pc (F := F) p).spec c (rd Wi c)
  hentry c := by
    rw [Pipeline.ownSems0_none]
    have hs := hsplit c
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((hrec c).symm ▸ trivial)
      rw [howed c 0]
      iexact HO
    isplitl [Hp]; · iexact Hp
    iexact Hrest
  hin c := by
    have h := hΦi c
    unfold Pipeline.ΦA at h
    iintro ⟨Hp, -, Hr⟩
    iapply h
    isplitl [Hr]; · iexact Hr
    iexact Hp
  hout c := by
    rw [Pipeline.ownSems0_none]
    have h := hΦo c
    unfold Pipeline.ΦA at h
    iintro H
    ihave H' := h $$ H
    icases H' with ⟨Hr, Hp⟩
    isplitl [Hp]; · iexact Hp
    isplitr; · iempintro
    iexact Hr
  hexit c := by
    have hj := hjoin c
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W
    rw [howed c (Fin.last _)]
    iexact HO

set_option backward.isDefEq.respectTransparency.types false in
/-- A tiled-product region writes back its last window only: `Wo` is `Wi` with that one array replaced by what the
    write-backs leave; an input array is never written back and the windows' arrays are distinct buffers. -/
def regMM (p : Fin 7) (lf : Pipeline.LaunchFacts (nD := nD) (τ := τ) cfgs p) (Wi Wo : Dev nD → Valuation τ sig (Elt F))
    (o : Fin (cfgs p).W) (hin : ∀ w : Fin (cfgs p).W, w ≠ o → ((cfgs p).win w).isOut = false)
    (hWo : ∀ c, Wo c = Function.update (Wi c) (Proc.devRef .tc (Pipeline.arrRef (pc (F := F) p).spec o) : DevRef τ sig) ((pdats m p c).arrAt o (pc (F := F) p).N))
    (hbody : ∀ c, BodyObligation (pdats m p c) (defs₀ (F := F)) Variants.none () Set.univ)
    (howed : ∀ c t, (pdats m p c).owed t = 0) (hrec : ∀ c, (pdats m p c).recorded 0 = Set.univ) (hq : ∀ c w, (pdats m p c).q w = fullShare)
    (hA : ∀ c w, (pdats m p c).A w = rd Wi c (Pipeline.arrRef (pc (F := F) p).spec w))
    (hΦi : ∀ c, Pipeline.ΦA (pc (F := F) p).spec c ⊢ (pdats m p c).Φ 0)
    (hΦo : ∀ c, (pdats m p c).Φ (Fin.last (pc (F := F) p).N) ⊢ Pipeline.ΦA (pc (F := F) p).spec c) :
    Pipeline.RegionSeg (pcfgs (F := F)) adm (pdats m) () defs₀ 𝒱₀ L lv p :=
  regCore m p lf.win.to₀ lf.block_pos lf.stage_whole Wi Wo hbody howed hrec
    (fun c => Pipeline.arrays_of_unscopedBufs (p := p) (pcfgs (F := F)) adm (pdats m) lf.win lf.arr_whole c
      ((pdats m p c).share_full (hq c)) (rd Wi c) (hA c))
    (fun c => Pipeline.unscopedBufs_of_arrays (p := p) (pcfgs (F := F)) adm (Ix := Unit) (Name := ℕ) (U := UR sig nD τ) (Lvl := ℕ)
      lf.win lf.arr_whole c (pdats m) ((pdats m p c).share_full (hq c)) (rd Wi c) (rd Wo c) ((pdats m p c).arrAt · (pc (F := F) p).N)
      (fun w => by
        unfold rd; rw [hWo c]
        by_cases h : w = o
        · subst h; exact (Function.update_self (Proc.devRef .tc (Pipeline.arrRef (pc (F := F) p).spec w) : DevRef τ sig) _ (Wi c)).symm
        · rw [Function.update_of_ne (StableHlo.devRef_ne_of_ne (lf.win.arr_inj.ne h))]
          exact ((pdats m p c).arrAt_in w (hin w h) _).trans (hA c w))
      (fun b hb => by
        unfold rd; rw [hWo c]
        exact Function.update_of_ne (StableHlo.devRef_ne_of_ne fun e => hb (Finset.mem_image.mpr ⟨o, Finset.mem_univ _, e.symm⟩)) _ _))
    hΦi hΦo

def reg0 : Pipeline.RegionSeg (pcfgs (F := F)) adm (pdats m) () defs₀ 𝒱₀ L lv 0 :=
  regMM m 0 launch0 (W3 m) (W4 m) 3 (by decide) (fun _ => rfl) (body_obligation0 (rd (W3 m))) (owed0 (rd (W3 m))) (fun _ => rfl)
    (q0 (rd (W3 m))) (A_eq0 (rd (W3 m))) (hin0 (rd (W3 m))) (hout0 (rd (W3 m)))
def reg1 : Pipeline.RegionSeg (pcfgs (F := F)) adm (pdats m) () defs₀ 𝒱₀ L lv 1 :=
  regMM m 1 launch1 (W5 m) (W6 m) 3 (by decide) (fun _ => rfl) (body_obligation1 (rd (W5 m))) (owed1 (rd (W5 m))) (fun _ => rfl)
    (q1 (rd (W5 m))) (A_eq1 (rd (W5 m))) (hin1 (rd (W5 m))) (hout1 (rd (W5 m)))
def reg2 : Pipeline.RegionSeg (pcfgs (F := F)) adm (pdats m) () defs₀ 𝒱₀ L lv 2 :=
  regMM m 2 launch2 (W7 m) (W8 m) 3 (by decide) (fun _ => rfl) (body_obligation2 (rd (W7 m))) (owed2 (rd (W7 m))) (fun _ => rfl)
    (q2 (rd (W7 m))) (A_eq2 (rd (W7 m))) (hin2 (rd (W7 m))) (hout2 (rd (W7 m)))
def reg3 : Pipeline.RegionSeg (pcfgs (F := F)) adm (pdats m) () defs₀ 𝒱₀ L lv 3 :=
  regMM m 3 launch3 (W9 m) (W10 m) 3 (by decide) (fun _ => rfl) (body_obligation3 (rd (W9 m))) (owed3 (rd (W9 m))) (fun _ => rfl)
    (q3 (rd (W9 m))) (A_eq3 (rd (W9 m))) (hin3 (rd (W9 m))) (hout3 (rd (W9 m)))
def reg4 : Pipeline.RegionSeg (pcfgs (F := F)) adm (pdats m) () defs₀ 𝒱₀ L lv 4 :=
  regMM m 4 launch4 (W11 m) (W12 m) 3 (by decide) (fun _ => rfl) (body_obligation4 (rd (W11 m))) (owed4 (rd (W11 m))) (fun _ => rfl)
    (q4 (rd (W11 m))) (A_eq4 (rd (W11 m))) (hin4 (rd (W11 m))) (hout4 (rd (W11 m)))
def reg5 : Pipeline.RegionSeg (pcfgs (F := F)) adm (pdats m) () defs₀ 𝒱₀ L lv 5 :=
  regMM m 5 launch5 (W13 m) (W14 m) 3 (by decide) (fun _ => rfl) (body_obligation5 (rd (W13 m))) (owed5 (rd (W13 m))) (fun _ => rfl)
    (q5 (rd (W13 m))) (A_eq5 (rd (W13 m))) (hin5 (rd (W13 m))) (hout5 (rd (W13 m)))

theorem hout16 (c : Dev nD) : rd (W16 m) c main_v67 = (dat6 (rd (W15 m)) c).arrAt 2 cfg6.N :=
  Function.update_self (Proc.devRef .tc main_v67 : DevRef τ sig) _ (W15 m c)
theorem hrest16 (c : Dev nD) : ∀ b, b ≠ main_v67 → rd (W16 m) c b = rd (W15 m) c b :=
  fun b hb => Function.update_of_ne (StableHlo.devRef_ne_of_ne hb : (Proc.devRef .tc b : DevRef τ sig) ≠ Proc.devRef .tc main_v67) _ _

def reg6 : Pipeline.RegionSeg (pcfgs (F := F)) adm (pdats m) () defs₀ 𝒱₀ L lv 6 :=
  regCore m 6 winFacts₀6 block_pos6 stage_whole6 (W15 m) (W16 m) (body_obligation6 (rd (W15 m))) (owed6 (rd (W15 m))) (fun _ => rfl)
    (arrays_of_unscopedBufs6 (rd (W15 m))) (fun c => unscopedBufs_of_arrays6 (rd (W15 m)) c (rd (W16 m) c) (hout16 m c) (hrest16 m c))
    (fun c => Entails.of_eq (Phi6 (rd (W15 m)) c 0).symm) (fun c => Entails.of_eq (Phi6 (rd (W15 m)) c _))

set_option backward.isDefEq.respectTransparency.types false in
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      refine Pipeline.initEach L lv fun c => ?_
      iintro ⟨⟨-, HO, -, Hp, -⟩, -⟩
      imodintro
      isplitl [Hp]; · iexists _; iexact Hp
      iexists ∅; iexact HO)
    (hE7 := fun c => by iintro ⟨-, HO⟩; iexact HO)
    (reg0 m) (fun c => by exact .rfl) (fun c => by rw [V4_eq]; exact .rfl)
    (reg1 m) (fun c => by rw [V5_eq]; exact .rfl) (fun c => by rw [V6_eq]; exact .rfl)
    (reg2 m) (fun c => by rw [V7_eq]; exact .rfl) (fun c => by rw [V8_eq]; exact .rfl)
    (reg3 m) (fun c => by rw [V9_eq]; exact .rfl) (fun c => by rw [V10_eq]; exact .rfl)
    (reg4 m) (fun c => by rw [V11_eq]; exact .rfl) (fun c => by rw [V12_eq]; exact .rfl)
    (reg5 m) (fun c => by rw [V13_eq]; exact .rfl) (fun c => by rw [V14_eq]; exact .rfl)
    (reg6 m) (fun c => by rw [V15_eq]; exact .rfl) (fun c => by rw [V16_eq]; exact .rfl)

end Cert.Kernel.Hand

end
-- ==== Proof.KI.R0.lean ====
import proofs.«132928_j20143396618969_2_alg».proof.Proof.Gen.KernelIdeal.Launch
import proofs.«132928_j20143396618969_2_alg».proof.Proof.Gen.KernelIdeal.Skeleton
import proofs.«132928_j20143396618969_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) :=
  (by decide +kernel : ∀ t : Fin grid0.N, cond0_0 (grid0.coords t))

abbrev cond0_1 (i : grid0.Coords) : Prop := k0_cond2 i = 1#1
theorem hcond0_1 : ∀ t : Fin cfg0.N, cond0_1 (grid0.coords t) :=
  (by decide +kernel : ∀ t : Fin grid0.N, cond0_1 (grid0.coords t))

theorem liveAt0_3 : ∀ t : Fin cfg0.N, cfg0.idle 3 (grid0.coords t) = false := by decide +kernel

abbrev ms0_0 (t : Fin cfg0.N) : Memref sig .tc .vmem S2048x512 .f32 := win0_0.stage (cfg0.slots t 0)
abbrev ms0_1 (t : Fin cfg0.N) : Memref sig .tc .vmem S512x256 .f32 := win0_1.stage (cfg0.slots t 1)
abbrev ms0_2 (t : Fin cfg0.N) : Memref sig .tc .vmem S1x256 .f32 := win0_2.stage (cfg0.slots t 2)
abbrev ms0_3 (t : Fin cfg0.N) : Memref sig .tc .vmem S2048x256 .f32 := win0_3.stage (cfg0.slots t 3)
abbrev scM0_0 : Memref sig .tc .vmem S2048x256 .f32 := Memref.whole cc0_scratch0

-- The region invariant splits into the accumulator, owned at some contents, and a remainder that stays closed.
theorem PhiA0_eq (c : Dev nD) :
    (Pipeline.ΦA spec0 c : sProp 𝕄)
      = iprop(iprop(iprop((∃ d, owns c scM0_0 fullShare d))
          ∗ Pipeline.scopedRestBut spec0 c [cc0_scratch0]) ∗ (∃ r, prngReg c r)) := by
  unfold Pipeline.ΦA; rw [scopedRest0_split]; simp only [scM0_0, owns_whole]; try rfl

section Body
variable (c : Dev nD) (i : grid0.Coords) (arg2 : Memref sig .tc .vmem S2048x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond0_0 i) (hc1 : cond0_1 i)
    (x0 : Vec F S2048x512 .f32) (x1 : Vec F S512x256 .f32) (x2 : Vec F S1x256 .f32)
include hc0 hc1

set_option maxHeartbeats 1000000 in
-- On whole memrefs the body leaves the inputs as found and the output and the accumulator at the pieces its stores wrote.
noncomputable def kernelRun0 :
    Σ' (L3 : List (View.Piece (Elt F) S2048x256 .f32)), { LS0 : List (View.Piece (Elt F) S2048x256 .f32) //
      ∀ (E : Set ℕ) (K : PUnit → sProp 𝕄),
        iprop(owns c arg2 fullShare x0 ∗ owns c arg3 fullShare x1 ∗ owns c arg4 fullShare x2
            ∗ (∃ d, owns c arg5 fullShare d) ∗ (∃ d, owns c arg6 fullShare d)
            ∗ (iprop(owns c arg2 fullShare x0 ∗ owns c arg3 fullShare x1 ∗ owns c arg4 fullShare x2
                ∗ (∃ f, arg5.view.loc c ↦[arg5.view.set]{fullShare} arg5.view.writes (Elt F) f L3)
                ∗ (∃ f, arg6.view.loc c ↦[arg6.view.set]{fullShare} arg6.view.writes (Elt F) f LS0)) -∗ K ⟨⟩))
          ⊢ wp frame (wpE (defs₀ (F := F)) Variants.none c none) E (cc0__mm_kernel i arg2 harg2 arg3 harg3 arg4 harg4 arg5 harg5 arg6 harg6) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, H2, ⟨%d3, %f3, -, H3⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    isplitl [H3]; · iexists _; iexact H3
    iexists _; iexact HS0

-- The output's pieces are one store of the whole block, so they cover it.
theorem cover0_3 (y : S2048x256.Idx) :
    ∃ pc ∈ (kernelRun0 c i arg2 harg2 arg3 harg3 arg4 harg4 arg5 harg5 arg6 harg6 hc0 hc1 x0 x1 x2).1, y ∈ pc.1.set :=
  View.cover_of_tiledL _ S2048x256.size (by sl_kernel_rfl) y

def out0_3 : Vec F S2048x256 .f32 :=
  View.canon (kernelRun0 c i arg2 harg2 arg3 harg3 arg4 harg4 arg5 harg5 arg6 harg6 hc0 hc1 x0 x1 x2).1

end Body

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def outsAt0 (c : Dev nD) (t : Fin cfg0.N) : Vec F S2048x256 .f32 :=
  out0_3 c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) scM0_0 (Memref.isWhole_whole _) (hcond0_0 t) (hcond0_1 t) (iblk0 V c 0 t) (iblk0 V c 1 t) (iblk0 V c 2 t)

-- The proof data: the arrays as the region finds them; each input left at its block, the output at what the body wrote.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outsAt0 V c t
  Φ _ := Pipeline.ΦA spec0 c
  q _ := fullShare
  owed _ := 0

theorem A_eq0 (c : Dev nD) (w : Fin cfg0.W) : (dat0 V c).A w = V c (Pipeline.arrRef spec0 w) := rfl
theorem after0_3 (c : Dev nD) (t : Fin cfg0.N) : (dat0 V c).after 3 t = outsAt0 V c t := by dsimp only [dat0]
theorem owed0 (c : Dev nD) (t : Fin (cfg0.N + 1)) : (dat0 V c).owed t = 0 := rfl
theorem q0 (c : Dev nD) (w : Fin cfg0.W) : (dat0 V c).q w = fullShare := rfl

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

set_option maxHeartbeats 1600000 in
-- The body at a point: the invariant lends the accumulator at anything and takes it back at anything; the output is left at what its pieces, which cover it, write.
theorem sound_body0 (c : Dev nD) (t : Fin cfg0.N) :
    iprop(Pipeline.ΦA spec0 c ∗ (dat0 V c).owesAt () t.castSucc
      ∗ (∃ d, owns c (ms0_0 t) fullShare ((dat0 V c).before 0 t d))
      ∗ (∃ d, owns c (ms0_1 t) fullShare ((dat0 V c).before 1 t d))
      ∗ (∃ d, owns c (ms0_2 t) fullShare ((dat0 V c).before 2 t d))
      ∗ (∃ d, owns c (ms0_3 t) fullShare ((dat0 V c).before 3 t d)))
    ⊢ wp frame (wpE (defs₀ (F := F)) Variants.none c none) Set.univ (bodyAt0 t) (fun _ =>
      iprop(Pipeline.ΦA spec0 c ∗ (dat0 V c).owesAt () t.castSucc
        ∗ owns c (ms0_0 t) fullShare (iblk0 V c 0 t)
        ∗ owns c (ms0_1 t) fullShare (iblk0 V c 1 t)
        ∗ owns c (ms0_2 t) fullShare (iblk0 V c 2 t)
        ∗ owns c (ms0_3 t) fullShare ((dat0 V c).after 3 t))) := by
  simp only [before0_0, before0_1, before0_2]
  rw [PhiA0_eq, after0_3]
  unfold outsAt0 out0_3 bodyAt0
  iintro ⟨⟨⟨HS0, HR⟩, Hg⟩, Ho, ⟨%d0, H0⟩, ⟨%d1, H1⟩, ⟨%d2, H2⟩, ⟨%d3, H3⟩⟩
  iapply ((kernelRun0 c (grid0.coords t) _ _ _ _ _ _ _ _ _ _ (hcond0_0 t) (hcond0_1 t) (iblk0 V c 0 t) (iblk0 V c 1 t) (iblk0 V c 2 t)).2.2 Set.univ _)
  iframe H0 H1 H2 HS0
  isplitl [H3]; · iexists _; iexact H3
  iintro ⟨H0, H1, H2, ⟨%e3, H3⟩, ⟨%es0, HS0⟩⟩
  iframe HR Hg Ho H0 H1 H2
  isplitl [HS0]
  · iexists _; unfold owns; iexists _; isplitr
    swap; · iexact HS0
    ipureintro; rfl
  unfold owns; iexists _; isplitr
  swap; · iexact H3
  ipureintro; exact View.read_writes_eq_canon _ _ _ (cover0_3 c _ _ _ _ _ _ _ _ _ _ _ _ _ _ _ _)

theorem body_obligation0 (c : Dev nD) : BodyObligation (dat0 (F := F) V c) (defs₀ (F := F)) Variants.none () Set.univ := fun t => by
  rw [bigSep_W0, bigSep_W0, liveAt0_3 t]
  exact sound_body0 V c t

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Region

end Cert.KernelIdeal.Hand

end
-- ==== Proof.KI.R1Kit.lean ====
import proofs.«132928_j20143396618969_2_alg».proof.Proof.Gen.KernelIdeal.Launch
import proofs.«132928_j20143396618969_2_alg».proof.Proof.Gen.KernelIdeal.Skeleton
import proofs.«132928_j20143396618969_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
end Blocks

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬ t.val % 4 = 3 → cfg1.idle 3 (grid1.coords t) = true :=
  (by decide +kernel : ∀ t : Fin grid1.N, ¬ t.val % 4 = 3 → cfg1.idle 3 (grid1.coords t) = true)
theorem noFlush1_3 : ∀ t : Fin cfg1.N, ¬ t.val % 4 = 3 → (cfg1.win 3).flush t = false :=
  (by decide +kernel : ∀ t : Fin grid1.N, ¬ t.val % 4 = 3 → win1_3.flush t = false)
theorem liveAt1_3 : ∀ t : Fin cfg1.N, t.val % 4 = 3 → cfg1.idle 3 (grid1.coords t) = false :=
  (by decide +kernel : ∀ t : Fin grid1.N, t.val % 4 = 3 → cfg1.idle 3 (grid1.coords t) = false)

abbrev VO1_3 : View sig .tc .vmem S2048x256 .f32 := (Memref.whole cc1_stg3_0 : Memref sig .tc .vmem S2048x256 .f32).view
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)
abbrev scM1_0 : Memref sig .tc .vmem S2048x256 .f32 := Memref.whole cc1_scratch0
abbrev VS1_0 : View sig .tc .vmem S2048x256 .f32 := scM1_0.view

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop(iprop((∃ d, owns (c : Thread nD τ) scM1_0 fullShare d)) ∗ rest1 (F := F) c) ∗ (∃ r, prngReg c r)) := by
  unfold Pipeline.ΦA; rw [scopedRest1_split]; simp only [scM1_0, owns_whole]; try rfl

end Cert.KernelIdeal.Hand

end
-- ==== Proof.KI.R1RunA.lean ====
import proofs.«132928_j20143396618969_2_alg».proof.Proof.KI.R1Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i)
    (x0 : Vec F S2048x2048 .bf16) (x1 : Vec F S2048x256 .f32) (x2 : Vec F S1x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__mm_kernel i arg2 harg2 arg3 harg3 arg4 harg4 arg5 harg5 arg6 harg6) K } := by
  refine ⟨[], ?_, fun xi3 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R1RunB.lean ====
import proofs.«132928_j20143396618969_2_alg».proof.Proof.KI.R1Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : ¬cond1_1 i)
    (x0 : Vec F S2048x2048 .bf16) (x1 : Vec F S2048x256 .f32) (x2 : Vec F S1x256 .f32) (xs0 : Vec F S2048x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__mm_kernel i arg2 harg2 arg3 harg3 arg4 harg4 arg5 harg5 arg6 harg6) K } := by
  refine ⟨[], ?_, fun xi3 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R1RunC.lean ====
import proofs.«132928_j20143396618969_2_alg».proof.Proof.KI.R1Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i)
    (x0 : Vec F S2048x2048 .bf16) (x1 : Vec F S2048x256 .f32) (x2 : Vec F S1x256 .f32) (xs0 : Vec F S2048x256 .f32) :
    Σ' (L3 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__mm_kernel i arg2 harg2 arg3 harg3 arg4 harg4 arg5 harg5 arg6 harg6) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R1.lean ====
import proofs.«132928_j20143396618969_2_alg».proof.Proof.KI.R1RunA
import proofs.«132928_j20143396618969_2_alg».proof.Proof.KI.R1RunB
import proofs.«132928_j20143396618969_2_alg».proof.Proof.KI.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)

section
variable (hc0 : cond1_0 i) (hc1 : ¬cond1_1 i) (x0 : Vec F S2048x2048 .bf16) (x1 : Vec F S2048x256 .f32) (x2 : Vec F S1x256 .f32)

def out1_A_3 : Vec F S2048x256 .f32 :=
  VO1_3.read (Elt F) (VO1_3.writes (Elt F) VO1_3.junk (kernelRun1_A c i arg2 harg2 arg3 harg3 arg4 harg4 arg5 harg5 arg6 harg6 hc0 hc1 x0 x1 x2).1)

theorem scover1_A_0 (y : S2048x256.Idx) : ∃ pc ∈ (kernelRun1_A c i arg2 harg2 arg3 harg3 arg4 harg4 arg5 harg5 arg6 harg6 hc0 hc1 x0 x1 x2).2.1, y ∈ pc.1.set :=
  View.cover_of_tiledL _ S2048x256.size (by sl_kernel_rfl) y

def sout1_A_0 : Vec F S2048x256 .f32 :=
  VS1_0.read (Elt F) (VS1_0.writes (Elt F) VS1_0.junk (kernelRun1_A c i arg2 harg2 arg3 harg3 arg4 harg4 arg5 harg5 arg6 harg6 hc0 hc1 x0 x1 x2).2.1)
end

section
variable (hc0 : ¬cond1_0 i) (hc1 : ¬cond1_1 i) (x0 : Vec F S2048x2048 .bf16) (x1 : Vec F S2048x256 .f32) (x2 : Vec F S1x256 .f32) (xs0 : Vec F S2048x256 .f32)

def out1_B_3 : Vec F S2048x256 .f32 :=
  VO1_3.read (Elt F) (VO1_3.writes (Elt F) VO1_3.junk (kernelRun1_B c i arg2 harg2 arg3 harg3 arg4 harg4 arg5 harg5 arg6 harg6 hc0 hc1 x0 x1 x2 xs0).1)

theorem scover1_B_0 (y : S2048x256.Idx) : ∃ pc ∈ (kernelRun1_B c i arg2 harg2 arg3 harg3 arg4 harg4 arg5 harg5 arg6 harg6 hc0 hc1 x0 x1 x2 xs0).2.1, y ∈ pc.1.set :=
  View.cover_of_tiledL _ S2048x256.size (by sl_kernel_rfl) y

def sout1_B_0 : Vec F S2048x256 .f32 :=
  VS1_0.read (Elt F) (VS1_0.writes (Elt F) VS1_0.junk (kernelRun1_B c i arg2 harg2 arg3 harg3 arg4 harg4 arg5 harg5 arg6 harg6 hc0 hc1 x0 x1 x2 xs0).2.1)
end

section
variable (hc0 : ¬cond1_0 i) (hc1 : cond1_1 i) (x0 : Vec F S2048x2048 .bf16) (x1 : Vec F S2048x256 .f32) (x2 : Vec F S1x256 .f32) (xs0 : Vec F S2048x256 .f32)

theorem cover1_C_3 (y : S2048x256.Idx) : ∃ pc ∈ (kernelRun1_C c i arg2 harg2 arg3 harg3 arg4 harg4 arg5 harg5 arg6 harg6 hc0 hc1 x0 x1 x2 xs0).1, y ∈ pc.1.set :=
  View.cover_of_tiledL _ S2048x256.size (by sl_kernel_rfl) y

def out1_C_3 : Vec F S2048x256 .f32 :=
  VO1_3.read (Elt F) (VO1_3.writes (Elt F) VO1_3.junk (kernelRun1_C c i arg2 harg2 arg3 harg3 arg4 harg4 arg5 harg5 arg6 harg6 hc0 hc1 x0 x1 x2 xs0).1)

theorem scover1_C_0 (y : S2048x256.Idx) : ∃ pc ∈ (kernelRun1_C c i arg2 harg2 arg3 harg3 arg4 harg4 arg5 harg5 arg6 harg6 hc0 hc1 x0 x1 x2 xs0).2.1, y ∈ pc.1.set :=
  View.cover_of_tiledL _ S2048x256.size (by sl_kernel_rfl) y

def sout1_C_0 : Vec F S2048x256 .f32 :=
  VS1_0.read (Elt F) (VS1_0.writes (Elt F) VS1_0.junk (kernelRun1_C c i arg2 harg2 arg3 harg3 arg4 harg4 arg5 harg5 arg6 harg6 hc0 hc1 x0 x1 x2 xs0).2.1)
end
end

-- A run's two piece lists read back: (the output block, the accumulator).
def back1 {P : List (View.Piece (Elt F) S2048x256 .f32) → List (View.Piece (Elt F) S2048x256 .f32) → Prop}
    (r : Σ' L3, { LS0 // P L3 LS0 }) : Vec F S2048x256 .f32 × Vec F S2048x256 .f32 :=
  (VO1_3.read (Elt F) (VO1_3.writes (Elt F) VO1_3.junk r.1), VS1_0.read (Elt F) (VS1_0.writes (Elt F) VS1_0.junk r.2.1))

variable (V : (c : Dev nD) → (b : Ref sig .tc) → Buf (Elt F) ((c : Thread nD τ).loc b))

-- One point: the case its position mod 4 selects, run on the point's blocks over the carried accumulator `a`.
def step1 (c : Dev nD) (t : Fin cfg1.N) (a : Vec F S2048x256 .f32) : Vec F S2048x256 .f32 × Vec F S2048x256 .f32 :=
  if h0 : t.val % 4 = 0 then
    back1 (kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => by have := (hcond1_1 t).mp h; omega) (iblk1 V c 0 t) (iblk1 V c 1 t) (iblk1 V c 2 t))
  else if h1 : t.val % 4 = 3 then
    back1 (kernelRun1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) a)
  else
    back1 (kernelRun1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) a)

def outsAt1 (c : Dev nD) : (n : ℕ) → n < cfg1.N → Vec F S2048x256 .f32 × Vec F S2048x256 .f32
  | 0, hn => step1 V c ⟨0, hn⟩ (VS1_0.read (Elt F) VS1_0.junk)
  | n + 1, hn => step1 V c ⟨n + 1, hn⟩ (outsAt1 c n (Nat.lt_of_succ_lt hn)).2

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n <;> (show step1 V c _ _ = _; exact (dif_pos h0).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

-- The invariant before position `n`: the launch's at 0; afterwards the accumulator at what the point before left.
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 (F := F) c) ∗ (∃ r, prngReg c r))

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 (F := F) c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

-- At every position the invariant gives the launch's back: the accumulator's named contents are forgotten.
theorem Phi_open1 (c : Dev nD) (t : Fin (cfg1.N + 1)) : (dat1 V c).Φ t ⊢ Pipeline.ΦA spec1 c := by
  obtain ⟨n, hn⟩ := t
  cases n with
  | zero => exact Idealize.SL.BI.Entails.refl _
  | succ n =>
    rw [show (dat1 V c).Φ ⟨n + 1, hn⟩ = PhiS1 V c (n + 1) (Nat.le_of_lt_succ hn) from rfl, PhiS1_pos V c _ _ (Nat.succ_ne_zero n), PhiA1_eq]
    iintro ⟨⟨HS0, HR⟩, Hg⟩
    isplitl [HS0 HR]
    · isplitl [HS0]
      · iexists _; iexact HS0
      iexact HR
    iexact Hg

theorem A_eq1 (c : Dev nD) (w : Fin cfg1.W) : (dat1 V c).A w = V c (Pipeline.arrRef spec1 w) := rfl

theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = iblk1 V c 2 t := rfl
theorem after1_3 (c : Dev nD) (t : Fin cfg1.N) : (dat1 V c).after 3 t = (outsAt1 V c t.val t.isLt).1 := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

-- The body at every point: the inputs keep their blocks, the accumulator goes from what the point before left to this point's, and the output block is stored at the points 3 mod 4 only.
set_option maxHeartbeats 4800000 in
theorem body_obligation1 (c : Dev nD) : BodyObligation (dat1 (F := F) V c) (defs₀ (F := F)) Variants.none () Set.univ := fun t => by
  rw [bigSep_W1, bigSep_W1]
  show bodyPre1 V c t ⊢ wp frame (wpE (defs₀ (F := F)) Variants.none c none) Set.univ (bodyAt1 t) (fun _ => bodyPost1 V c t)
  unfold bodyPre1 bodyPost1 bodyAt1
  simp only [before1_0, before1_1, before1_2]
  rw [show (dat1 V c).owesAt () t.succ = (dat1 V c).owesAt () t.castSucc from rfl,
    show (dat1 V c).Φ t.succ = iprop(iprop(owns (c : Thread nD τ) scM1_0 fullShare (outsAt1 V c t.val t.isLt).2 ∗ rest1 (F := F) c) ∗ (∃ r, prngReg c r)) from rfl,
    show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1,
    show (dat1 V c).leavesExact 2 t = owns (c : Thread nD τ) (ms1_2 t) fullShare ((dat1 V c).after 2 t) from by
      unfold Dat.leavesExact; rw [liveAt1_2 t], after1_2]
  by_cases h1 : t.val % 4 = 3
  · have h0 : ¬t.val % 4 = 0 := by omega
    rw [show (dat1 V c).leavesExact 3 t = owns (c : Thread nD τ) (ms1_3 t) fullShare ((dat1 V c).after 3 t) from by
      unfold Dat.leavesExact; rw [liveAt1_3 t h1], after1_3, outsAt1_C V c t h0 h1]
    unfold out1_C_3 sout1_C_0; dsimp only
    rw [show (dat1 V c).Φ t.castSucc = PhiS1 V c t.val (Nat.le_of_lt t.isLt) from rfl, PhiS1_pos V c _ _ fun h => h0 (by rw [h])]
    iintro ⟨⟨⟨HS0, HR⟩, Hg⟩, Ho, ⟨%d0, H0⟩, ⟨%d1, H1⟩, ⟨%d2, H2⟩, ⟨%d3, H3⟩⟩
    iapply ((kernelRun1_C _ _ _ _ _ _ _ _ _ _ _ _ (fun h => h0 ((hcond1_0 t).mp h)) ((hcond1_1 t).mpr h1) _ _ _ _).2.2 _ _)
    iframe H0 H1 H2 HS0
    isplitl [H3]; · iexists _; iexact H3
    iintro ⟨H0, H1, H2, ⟨%e3, H3⟩, ⟨%es0, HS0⟩⟩
    iframe HR Hg Ho H0 H1 H2
    isplitl [HS0]
    · unfold owns; iexists _; isplitr
      swap; · iexact HS0
      ipureintro; exact View.read_writes_of_cover _ _ _ _ _ (scover1_C_0 _ _ _ _ _ _ _ _ _ _ _ _ _ _ _ _ _ _)
    unfold owns; iexists _; isplitr
    swap; · iexact H3
    ipureintro; exact View.read_writes_of_cover _ _ _ _ _ (cover1_C_3 _ _ _ _ _ _ _ _ _ _ _ _ _ _ _ _ _ _)
  rw [Dat.leavesExact_idle (dat1 V c) 3 t (idleAt1_3 t h1) (noFlush1_3 t h1)]
  by_cases h0 : t.val % 4 = 0
  · rw [outsAt1_A V c t h0 h1]
    unfold sout1_A_0; dsimp only
    refine (sep_mono_left (Phi_open1 V c t.castSucc)).trans ?_
    rw [PhiA1_eq]
    iintro ⟨⟨⟨HS0, HR⟩, Hg⟩, Ho, ⟨%d0, H0⟩, ⟨%d1, H1⟩, ⟨%d2, H2⟩, ⟨%d3, H3⟩⟩
    iapply ((kernelRun1_A _ _ _ _ _ _ _ _ _ _ _ _ ((hcond1_0 t).mpr h0) (fun h => h1 ((hcond1_1 t).mp h)) _ _ _).2.2 ((dat1 V c).before 3 t d3) _ _)
    iframe H0 H1 H2 H3 HS0
    iintro ⟨H0, H1, H2, H3, ⟨%es0, HS0⟩⟩
    iframe HR Hg Ho H0 H1 H2
    isplitl [HS0]
    · unfold owns; iexists _; isplitr
      swap; · iexact HS0
      ipureintro; exact View.read_writes_of_cover _ _ _ _ _ (scover1_A_0 _ _ _ _ _ _ _ _ _ _ _ _ _ _ _ _ _)
    iexists _; iexact H3
  rw [outsAt1_B V c t h0 h1]
  unfold sout1_B_0; dsimp only
  rw [show (dat1 V c).Φ t.castSucc = PhiS1 V c t.val (Nat.le_of_lt t.isLt) from rfl, PhiS1_pos V c _ _ fun h => h0 (by rw [h])]
  iintro ⟨⟨⟨HS0, HR⟩, Hg⟩, Ho, ⟨%d0, H0⟩, ⟨%d1, H1⟩, ⟨%d2, H2⟩, ⟨%d3, H3⟩⟩
  iapply ((kernelRun1_B _ _ _ _ _ _ _ _ _ _ _ _ (fun h => h0 ((hcond1_0 t).mp h)) (fun h => h1 ((hcond1_1 t).mp h)) _ _ _ _).2.2 ((dat1 V c).before 3 t d3) _ _)
  iframe H0 H1 H2 H3 HS0
  iintro ⟨H0, H1, H2, H3, ⟨%es0, HS0⟩⟩
  iframe HR Hg Ho H0 H1 H2
  isplitl [HS0]
  · unfold owns; iexists _; isplitr
    swap; · iexact HS0
    ipureintro; exact View.read_writes_of_cover _ _ _ _ _ (scover1_B_0 _ _ _ _ _ _ _ _ _ _ _ _ _ _ _ _ _ _)
  iexists _; iexact H3

theorem hin1 (c : Dev nD) : Pipeline.ΦA spec1 c ⊢ (dat1 V c).Φ 0 := Idealize.SL.BI.Entails.refl _

theorem hout1 (c : Dev nD) : (dat1 V c).Φ (Fin.last cfg1.N) ⊢ Pipeline.ΦA spec1 c := Phi_open1 V c _

theorem owed1 (c : Dev nD) (t : Fin (cfg1.N + 1)) : (dat1 V c).owed t = 0 := rfl
theorem q1 (c : Dev nD) (w : Fin cfg1.W) : (dat1 V c).q w = fullShare := rfl

end Cert.KernelIdeal.Hand

end
-- ==== Proof.KI.R2.lean ====
import proofs.«132928_j20143396618969_2_alg».proof.Proof.Gen.KernelIdeal.Launch
import proofs.«132928_j20143396618969_2_alg».proof.Proof.Gen.KernelIdeal.Skeleton
import proofs.«132928_j20143396618969_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) :=
  (by decide +kernel : ∀ t : Fin grid2.N, cond2_0 (grid2.coords t))

abbrev cond2_1 (i : grid2.Coords) : Prop := k2_cond2 i = 1#1
theorem hcond2_1 : ∀ t : Fin cfg2.N, cond2_1 (grid2.coords t) :=
  (by decide +kernel : ∀ t : Fin grid2.N, cond2_1 (grid2.coords t))

theorem liveAt2_3 : ∀ t : Fin cfg2.N, cfg2.idle 3 (grid2.coords t) = false := by decide +kernel

abbrev ms2_0 (t : Fin cfg2.N) : Memref sig .tc .vmem S2048x256 .f32 := win2_0.stage (cfg2.slots t 0)
abbrev ms2_1 (t : Fin cfg2.N) : Memref sig .tc .vmem S256x256 .f32 := win2_1.stage (cfg2.slots t 1)
abbrev ms2_2 (t : Fin cfg2.N) : Memref sig .tc .vmem S1x256 .f32 := win2_2.stage (cfg2.slots t 2)
abbrev ms2_3 (t : Fin cfg2.N) : Memref sig .tc .vmem S2048x256 .f32 := win2_3.stage (cfg2.slots t 3)
abbrev scM2_0 : Memref sig .tc .vmem S2048x256 .f32 := Memref.whole cc2_scratch0

-- The region invariant splits into the accumulator, owned at some contents, and a remainder that stays closed.
theorem PhiA2_eq (c : Dev nD) :
    (Pipeline.ΦA spec2 c : sProp 𝕄)
      = iprop(iprop(iprop((∃ d, owns c scM2_0 fullShare d))
          ∗ Pipeline.scopedRestBut spec2 c [cc2_scratch0]) ∗ (∃ r, prngReg c r)) := by
  unfold Pipeline.ΦA; rw [scopedRest2_split]; simp only [scM2_0, owns_whole]; try rfl

section Body
variable (c : Dev nD) (i : grid2.Coords) (arg2 : Memref sig .tc .vmem S2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : cond2_1 i)
    (x0 : Vec F S2048x256 .f32) (x1 : Vec F S256x256 .f32) (x2 : Vec F S1x256 .f32)
include hc0 hc1

set_option maxHeartbeats 1000000 in
-- On whole memrefs the body leaves the inputs as found and the output and the accumulator at the pieces its stores wrote.
noncomputable def kernelRun2 :
    Σ' (L3 : List (View.Piece (Elt F) S2048x256 .f32)), { LS0 : List (View.Piece (Elt F) S2048x256 .f32) //
      ∀ (E : Set ℕ) (K : PUnit → sProp 𝕄),
        iprop(owns c arg2 fullShare x0 ∗ owns c arg3 fullShare x1 ∗ owns c arg4 fullShare x2
            ∗ (∃ d, owns c arg5 fullShare d) ∗ (∃ d, owns c arg6 fullShare d)
            ∗ (iprop(owns c arg2 fullShare x0 ∗ owns c arg3 fullShare x1 ∗ owns c arg4 fullShare x2
                ∗ (∃ f, arg5.view.loc c ↦[arg5.view.set]{fullShare} arg5.view.writes (Elt F) f L3)
                ∗ (∃ f, arg6.view.loc c ↦[arg6.view.set]{fullShare} arg6.view.writes (Elt F) f LS0)) -∗ K ⟨⟩))
          ⊢ wp frame (wpE (defs₀ (F := F)) Variants.none c none) E (cc2__mm_kernel i arg2 harg2 arg3 harg3 arg4 harg4 arg5 harg5 arg6 harg6) K } := by
  refine ⟨?_, ?_, fun E K => ?run⟩
  case run =>
    simp only [cc2__mm_kernel_eq_skeleton]; unfold cc2__mm_kernel_skel
    unfold owns
    iintro ⟨⟨%f0, %hf0, H0⟩, ⟨%f1, %hf1, H1⟩, H2, ⟨%d3, %f3, -, H3⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    isplitl [H3]; · iexists _; iexact H3
    iexists _; iexact HS0

-- The output's pieces are one store of the whole block, so they cover it.
theorem cover2_3 (y : S2048x256.Idx) :
    ∃ pc ∈ (kernelRun2 c i arg2 harg2 arg3 harg3 arg4 harg4 arg5 harg5 arg6 harg6 hc0 hc1 x0 x1 x2).1, y ∈ pc.1.set :=
  View.cover_of_tiledL _ S2048x256.size (by sl_kernel_rfl) y

def out2_3 : Vec F S2048x256 .f32 :=
  View.canon (kernelRun2 c i arg2 harg2 arg3 harg3 arg4 harg4 arg5 harg5 arg6 harg6 hc0 hc1 x0 x1 x2).1

end Body

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def outsAt2 (c : Dev nD) (t : Fin cfg2.N) : Vec F S2048x256 .f32 :=
  out2_3 c (grid2.coords t) (ms2_0 t) (hstage2_0 ((cfg2.slots t 0).cast nbuf2_0)) (ms2_1 t) (hstage2_1 ((cfg2.slots t 1).cast nbuf2_1)) (ms2_2 t) (hstage2_2 ((cfg2.slots t 2).cast nbuf2_2)) (ms2_3 t) (hstage2_3 ((cfg2.slots t 3).cast nbuf2_3)) scM2_0 (Memref.isWhole_whole _) (hcond2_0 t) (hcond2_1 t) (iblk2 V c 0 t) (iblk2 V c 1 t) (iblk2 V c 2 t)

-- The proof data: the arrays as the region finds them; each input left at its block, the output at what the body wrote.
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outsAt2 V c t
  Φ _ := Pipeline.ΦA spec2 c
  q _ := fullShare
  owed _ := 0

theorem A_eq2 (c : Dev nD) (w : Fin cfg2.W) : (dat2 V c).A w = V c (Pipeline.arrRef spec2 w) := rfl
theorem after2_3 (c : Dev nD) (t : Fin cfg2.N) : (dat2 V c).after 3 t = outsAt2 V c t := by dsimp only [dat2]
theorem owed2 (c : Dev nD) (t : Fin (cfg2.N + 1)) : (dat2 V c).owed t = 0 := rfl
theorem q2 (c : Dev nD) (w : Fin cfg2.W) : (dat2 V c).q w = fullShare := rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

set_option maxHeartbeats 1600000 in
-- The body at a point: the invariant lends the accumulator at anything and takes it back at anything; the output is left at what its pieces, which cover it, write.
theorem sound_body2 (c : Dev nD) (t : Fin cfg2.N) :
    iprop(Pipeline.ΦA spec2 c ∗ (dat2 V c).owesAt () t.castSucc
      ∗ (∃ d, owns c (ms2_0 t) fullShare ((dat2 V c).before 0 t d))
      ∗ (∃ d, owns c (ms2_1 t) fullShare ((dat2 V c).before 1 t d))
      ∗ (∃ d, owns c (ms2_2 t) fullShare ((dat2 V c).before 2 t d))
      ∗ (∃ d, owns c (ms2_3 t) fullShare ((dat2 V c).before 3 t d)))
    ⊢ wp frame (wpE (defs₀ (F := F)) Variants.none c none) Set.univ (bodyAt2 t) (fun _ =>
      iprop(Pipeline.ΦA spec2 c ∗ (dat2 V c).owesAt () t.castSucc
        ∗ owns c (ms2_0 t) fullShare (iblk2 V c 0 t)
        ∗ owns c (ms2_1 t) fullShare (iblk2 V c 1 t)
        ∗ owns c (ms2_2 t) fullShare (iblk2 V c 2 t)
        ∗ owns c (ms2_3 t) fullShare ((dat2 V c).after 3 t))) := by
  simp only [before2_0, before2_1, before2_2]
  rw [PhiA2_eq, after2_3]
  unfold outsAt2 out2_3 bodyAt2
  iintro ⟨⟨⟨HS0, HR⟩, Hg⟩, Ho, ⟨%d0, H0⟩, ⟨%d1, H1⟩, ⟨%d2, H2⟩, ⟨%d3, H3⟩⟩
  iapply ((kernelRun2 c (grid2.coords t) _ _ _ _ _ _ _ _ _ _ (hcond2_0 t) (hcond2_1 t) (iblk2 V c 0 t) (iblk2 V c 1 t) (iblk2 V c 2 t)).2.2 Set.univ _)
  iframe H0 H1 H2 HS0
  isplitl [H3]; · iexists _; iexact H3
  iintro ⟨H0, H1, H2, ⟨%e3, H3⟩, ⟨%es0, HS0⟩⟩
  iframe HR Hg Ho H0 H1 H2
  isplitl [HS0]
  · iexists _; unfold owns; iexists _; isplitr
    swap; · iexact HS0
    ipureintro; rfl
  unfold owns; iexists _; isplitr
  swap; · iexact H3
  ipureintro; exact View.read_writes_eq_canon _ _ _ (cover2_3 c _ _ _ _ _ _ _ _ _ _ _ _ _ _ _ _)

theorem body_obligation2 (c : Dev nD) : BodyObligation (dat2 (F := F) V c) (defs₀ (F := F)) Variants.none () Set.univ := fun t => by
  rw [bigSep_W2, bigSep_W2, liveAt2_3 t]
  exact sound_body2 V c t

theorem hin2 (c : Dev nD) : Pipeline.ΦA spec2 c ⊢ (dat2 V c).Φ 0 := .rfl
theorem hout2 (c : Dev nD) : (dat2 V c).Φ (Fin.last cfg2.N) ⊢ Pipeline.ΦA spec2 c := .rfl

end Region

end Cert.KernelIdeal.Hand

end
-- ==== Proof.KI.R3Kit.lean ====
import proofs.«132928_j20143396618969_2_alg».proof.Proof.Gen.KernelIdeal.Launch
import proofs.«132928_j20143396618969_2_alg».proof.Proof.Gen.KernelIdeal.Skeleton
import proofs.«132928_j20143396618969_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))
end Blocks

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)

abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3 : ∀ t : Fin cfg3.N, ¬ t.val % 4 = 3 → cfg3.idle 3 (grid3.coords t) = true :=
  (by decide +kernel : ∀ t : Fin grid3.N, ¬ t.val % 4 = 3 → cfg3.idle 3 (grid3.coords t) = true)
theorem noFlush3_3 : ∀ t : Fin cfg3.N, ¬ t.val % 4 = 3 → (cfg3.win 3).flush t = false :=
  (by decide +kernel : ∀ t : Fin grid3.N, ¬ t.val % 4 = 3 → win3_3.flush t = false)
theorem liveAt3_3 : ∀ t : Fin cfg3.N, t.val % 4 = 3 → cfg3.idle 3 (grid3.coords t) = false :=
  (by decide +kernel : ∀ t : Fin grid3.N, t.val % 4 = 3 → cfg3.idle 3 (grid3.coords t) = false)

abbrev VO3_3 : View sig .tc .vmem S2048x256 .f32 := (Memref.whole cc3_stg3_0 : Memref sig .tc .vmem S2048x256 .f32).view
abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x256 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x256 .f32 := win3_3.stage (cfg3.slots t 3)
abbrev hs3_3 (t : Fin cfg3.N) : (ms3_3 t).IsWhole := hstage3_3 ((cfg3.slots t 3).cast nbuf3_3)
abbrev scM3_0 : Memref sig .tc .vmem S2048x256 .f32 := Memref.whole cc3_scratch0
abbrev VS3_0 : View sig .tc .vmem S2048x256 .f32 := scM3_0.view

abbrev rest3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop(iprop((∃ d, owns (c : Thread nD τ) scM3_0 fullShare d)) ∗ rest3 (F := F) c) ∗ (∃ r, prngReg c r)) := by
  unfold Pipeline.ΦA; rw [scopedRest3_split]; simp only [scM3_0, owns_whole]; try rfl

end Cert.KernelIdeal.Hand

end
-- ==== Proof.KI.R3RunA.lean ====
import proofs.«132928_j20143396618969_2_alg».proof.Proof.KI.R3Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun3_A (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond3_0 i) (hc1 : ¬cond3_1 i)
    (x0 : Vec F S2048x2048 .bf16) (x1 : Vec F S2048x256 .f32) (x2 : Vec F S1x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__mm_kernel i arg2 harg2 arg3 harg3 arg4 harg4 arg5 harg5 arg6 harg6) K } := by
  refine ⟨[], ?_, fun xi3 E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R3RunB.lean ====
import proofs.«132928_j20143396618969_2_alg».proof.Proof.KI.R3Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun3_B (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : ¬cond3_1 i)
    (x0 : Vec F S2048x2048 .bf16) (x1 : Vec F S2048x256 .f32) (x2 : Vec F S1x256 .f32) (xs0 : Vec F S2048x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__mm_kernel i arg2 harg2 arg3 harg3 arg4 harg4 arg5 harg5 arg6 harg6) K } := by
  refine ⟨[], ?_, fun xi3 E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R3RunC.lean ====
import proofs.«132928_j20143396618969_2_alg».proof.Proof.KI.R3Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun3_C (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : cond3_1 i)
    (x0 : Vec F S2048x2048 .bf16) (x1 : Vec F S2048x256 .f32) (x2 : Vec F S1x256 .f32) (xs0 : Vec F S2048x256 .f32) :
    Σ' (L3 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__mm_kernel i arg2 harg2 arg3 harg3 arg4 harg4 arg5 harg5 arg6 harg6) K } := by
  refine ⟨?_, ?_, fun E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R3.lean ====
import proofs.«132928_j20143396618969_2_alg».proof.Proof.KI.R3RunA
import proofs.«132928_j20143396618969_2_alg».proof.Proof.KI.R3RunB
import proofs.«132928_j20143396618969_2_alg».proof.Proof.KI.R3RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)

section
variable (hc0 : cond3_0 i) (hc1 : ¬cond3_1 i) (x0 : Vec F S2048x2048 .bf16) (x1 : Vec F S2048x256 .f32) (x2 : Vec F S1x256 .f32)

def out3_A_3 : Vec F S2048x256 .f32 :=
  VO3_3.read (Elt F) (VO3_3.writes (Elt F) VO3_3.junk (kernelRun3_A c i arg2 harg2 arg3 harg3 arg4 harg4 arg5 harg5 arg6 harg6 hc0 hc1 x0 x1 x2).1)

theorem scover3_A_0 (y : S2048x256.Idx) : ∃ pc ∈ (kernelRun3_A c i arg2 harg2 arg3 harg3 arg4 harg4 arg5 harg5 arg6 harg6 hc0 hc1 x0 x1 x2).2.1, y ∈ pc.1.set :=
  View.cover_of_tiledL _ S2048x256.size (by sl_kernel_rfl) y

def sout3_A_0 : Vec F S2048x256 .f32 :=
  VS3_0.read (Elt F) (VS3_0.writes (Elt F) VS3_0.junk (kernelRun3_A c i arg2 harg2 arg3 harg3 arg4 harg4 arg5 harg5 arg6 harg6 hc0 hc1 x0 x1 x2).2.1)
end

section
variable (hc0 : ¬cond3_0 i) (hc1 : ¬cond3_1 i) (x0 : Vec F S2048x2048 .bf16) (x1 : Vec F S2048x256 .f32) (x2 : Vec F S1x256 .f32) (xs0 : Vec F S2048x256 .f32)

def out3_B_3 : Vec F S2048x256 .f32 :=
  VO3_3.read (Elt F) (VO3_3.writes (Elt F) VO3_3.junk (kernelRun3_B c i arg2 harg2 arg3 harg3 arg4 harg4 arg5 harg5 arg6 harg6 hc0 hc1 x0 x1 x2 xs0).1)

theorem scover3_B_0 (y : S2048x256.Idx) : ∃ pc ∈ (kernelRun3_B c i arg2 harg2 arg3 harg3 arg4 harg4 arg5 harg5 arg6 harg6 hc0 hc1 x0 x1 x2 xs0).2.1, y ∈ pc.1.set :=
  View.cover_of_tiledL _ S2048x256.size (by sl_kernel_rfl) y

def sout3_B_0 : Vec F S2048x256 .f32 :=
  VS3_0.read (Elt F) (VS3_0.writes (Elt F) VS3_0.junk (kernelRun3_B c i arg2 harg2 arg3 harg3 arg4 harg4 arg5 harg5 arg6 harg6 hc0 hc1 x0 x1 x2 xs0).2.1)
end

section
variable (hc0 : ¬cond3_0 i) (hc1 : cond3_1 i) (x0 : Vec F S2048x2048 .bf16) (x1 : Vec F S2048x256 .f32) (x2 : Vec F S1x256 .f32) (xs0 : Vec F S2048x256 .f32)

theorem cover3_C_3 (y : S2048x256.Idx) : ∃ pc ∈ (kernelRun3_C c i arg2 harg2 arg3 harg3 arg4 harg4 arg5 harg5 arg6 harg6 hc0 hc1 x0 x1 x2 xs0).1, y ∈ pc.1.set :=
  View.cover_of_tiledL _ S2048x256.size (by sl_kernel_rfl) y

def out3_C_3 : Vec F S2048x256 .f32 :=
  VO3_3.read (Elt F) (VO3_3.writes (Elt F) VO3_3.junk (kernelRun3_C c i arg2 harg2 arg3 harg3 arg4 harg4 arg5 harg5 arg6 harg6 hc0 hc1 x0 x1 x2 xs0).1)

theorem scover3_C_0 (y : S2048x256.Idx) : ∃ pc ∈ (kernelRun3_C c i arg2 harg2 arg3 harg3 arg4 harg4 arg5 harg5 arg6 harg6 hc0 hc1 x0 x1 x2 xs0).2.1, y ∈ pc.1.set :=
  View.cover_of_tiledL _ S2048x256.size (by sl_kernel_rfl) y

def sout3_C_0 : Vec F S2048x256 .f32 :=
  VS3_0.read (Elt F) (VS3_0.writes (Elt F) VS3_0.junk (kernelRun3_C c i arg2 harg2 arg3 harg3 arg4 harg4 arg5 harg5 arg6 harg6 hc0 hc1 x0 x1 x2 xs0).2.1)
end
end

-- A run's two piece lists read back: (the output block, the accumulator).
def back3 {P : List (View.Piece (Elt F) S2048x256 .f32) → List (View.Piece (Elt F) S2048x256 .f32) → Prop}
    (r : Σ' L3, { LS0 // P L3 LS0 }) : Vec F S2048x256 .f32 × Vec F S2048x256 .f32 :=
  (VO3_3.read (Elt F) (VO3_3.writes (Elt F) VO3_3.junk r.1), VS3_0.read (Elt F) (VS3_0.writes (Elt F) VS3_0.junk r.2.1))

variable (V : (c : Dev nD) → (b : Ref sig .tc) → Buf (Elt F) ((c : Thread nD τ).loc b))

-- One point: the case its position mod 4 selects, run on the point's blocks over the carried accumulator `a`.
def step3 (c : Dev nD) (t : Fin cfg3.N) (a : Vec F S2048x256 .f32) : Vec F S2048x256 .f32 × Vec F S2048x256 .f32 :=
  if h0 : t.val % 4 = 0 then
    back3 (kernelRun3_A c (grid3.coords t) (ms3_0 t) (hs3_0 t) (ms3_1 t) (hs3_1 t) (ms3_2 t) (hs3_2 t) (ms3_3 t) (hs3_3 t) scM3_0 (Memref.isWhole_whole _) ((hcond3_0 t).mpr h0) (fun h => by have := (hcond3_1 t).mp h; omega) (iblk3 V c 0 t) (iblk3 V c 1 t) (iblk3 V c 2 t))
  else if h1 : t.val % 4 = 3 then
    back3 (kernelRun3_C c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) a)
  else
    back3 (kernelRun3_B c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) a)

def outsAt3 (c : Dev nD) : (n : ℕ) → n < cfg3.N → Vec F S2048x256 .f32 × Vec F S2048x256 .f32
  | 0, hn => step3 V c ⟨0, hn⟩ (VS3_0.read (Elt F) VS3_0.junk)
  | n + 1, hn => step3 V c ⟨n + 1, hn⟩ (outsAt3 c n (Nat.lt_of_succ_lt hn)).2

theorem outsAt3_A (c : Dev nD) (t : Fin cfg3.N) (h0 : t.val % 4 = 0) (h1 : ¬t.val % 4 = 3) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n <;> (show step3 V c _ _ = _; exact (dif_pos h0).trans rfl)

theorem outsAt3_B (c : Dev nD) (t : Fin cfg3.N) (h0 : ¬t.val % 4 = 0) (h1 : ¬t.val % 4 = 3) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt3_C (c : Dev nD) (t : Fin cfg3.N) (h0 : ¬t.val % 4 = 0) (h1 : t.val % 4 = 3) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

-- The invariant before position `n`: the launch's at 0; afterwards the accumulator at what the point before left.
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ rest3 (F := F) c) ∗ (∃ r, prngReg c r))

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ rest3 (F := F) c) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

-- At every position the invariant gives the launch's back: the accumulator's named contents are forgotten.
theorem Phi_open3 (c : Dev nD) (t : Fin (cfg3.N + 1)) : (dat3 V c).Φ t ⊢ Pipeline.ΦA spec3 c := by
  obtain ⟨n, hn⟩ := t
  cases n with
  | zero => exact Idealize.SL.BI.Entails.refl _
  | succ n =>
    rw [show (dat3 V c).Φ ⟨n + 1, hn⟩ = PhiS3 V c (n + 1) (Nat.le_of_lt_succ hn) from rfl, PhiS3_pos V c _ _ (Nat.succ_ne_zero n), PhiA3_eq]
    iintro ⟨⟨HS0, HR⟩, Hg⟩
    isplitl [HS0 HR]
    · isplitl [HS0]
      · iexists _; iexact HS0
      iexact HR
    iexact Hg

theorem A_eq3 (c : Dev nD) (w : Fin cfg3.W) : (dat3 V c).A w = V c (Pipeline.arrRef spec3 w) := rfl

theorem after3_0 (c : Dev nD) (t : Fin cfg3.N) : (dat3 V c).after 0 t = iblk3 V c 0 t := rfl
theorem after3_1 (c : Dev nD) (t : Fin cfg3.N) : (dat3 V c).after 1 t = iblk3 V c 1 t := rfl
theorem after3_2 (c : Dev nD) (t : Fin cfg3.N) : (dat3 V c).after 2 t = iblk3 V c 2 t := rfl
theorem after3_3 (c : Dev nD) (t : Fin cfg3.N) : (dat3 V c).after 3 t = (outsAt3 V c t.val t.isLt).1 := rfl

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

-- The body at every point: the inputs keep their blocks, the accumulator goes from what the point before left to this point's, and the output block is stored at the points 3 mod 4 only.
set_option maxHeartbeats 4800000 in
theorem body_obligation3 (c : Dev nD) : BodyObligation (dat3 (F := F) V c) (defs₀ (F := F)) Variants.none () Set.univ := fun t => by
  rw [bigSep_W3, bigSep_W3]
  show bodyPre3 V c t ⊢ wp frame (wpE (defs₀ (F := F)) Variants.none c none) Set.univ (bodyAt3 t) (fun _ => bodyPost3 V c t)
  unfold bodyPre3 bodyPost3 bodyAt3
  simp only [before3_0, before3_1, before3_2]
  rw [show (dat3 V c).owesAt () t.succ = (dat3 V c).owesAt () t.castSucc from rfl,
    show (dat3 V c).Φ t.succ = iprop(iprop(owns (c : Thread nD τ) scM3_0 fullShare (outsAt3 V c t.val t.isLt).2 ∗ rest3 (F := F) c) ∗ (∃ r, prngReg c r)) from rfl,
    show (dat3 V c).leavesExact 0 t = owns (c : Thread nD τ) (ms3_0 t) fullShare ((dat3 V c).after 0 t) from by
      unfold Dat.leavesExact; rw [liveAt3_0 t], after3_0,
    show (dat3 V c).leavesExact 1 t = owns (c : Thread nD τ) (ms3_1 t) fullShare ((dat3 V c).after 1 t) from by
      unfold Dat.leavesExact; rw [liveAt3_1 t], after3_1,
    show (dat3 V c).leavesExact 2 t = owns (c : Thread nD τ) (ms3_2 t) fullShare ((dat3 V c).after 2 t) from by
      unfold Dat.leavesExact; rw [liveAt3_2 t], after3_2]
  by_cases h1 : t.val % 4 = 3
  · have h0 : ¬t.val % 4 = 0 := by omega
    rw [show (dat3 V c).leavesExact 3 t = owns (c : Thread nD τ) (ms3_3 t) fullShare ((dat3 V c).after 3 t) from by
      unfold Dat.leavesExact; rw [liveAt3_3 t h1], after3_3, outsAt3_C V c t h0 h1]
    unfold out3_C_3 sout3_C_0; dsimp only
    rw [show (dat3 V c).Φ t.castSucc = PhiS3 V c t.val (Nat.le_of_lt t.isLt) from rfl, PhiS3_pos V c _ _ fun h => h0 (by rw [h])]
    iintro ⟨⟨⟨HS0, HR⟩, Hg⟩, Ho, ⟨%d0, H0⟩, ⟨%d1, H1⟩, ⟨%d2, H2⟩, ⟨%d3, H3⟩⟩
    iapply ((kernelRun3_C _ _ _ _ _ _ _ _ _ _ _ _ (fun h => h0 ((hcond3_0 t).mp h)) ((hcond3_1 t).mpr h1) _ _ _ _).2.2 _ _)
    iframe H0 H1 H2 HS0
    isplitl [H3]; · iexists _; iexact H3
    iintro ⟨H0, H1, H2, ⟨%e3, H3⟩, ⟨%es0, HS0⟩⟩
    iframe HR Hg Ho H0 H1 H2
    isplitl [HS0]
    · unfold owns; iexists _; isplitr
      swap; · iexact HS0
      ipureintro; exact View.read_writes_of_cover _ _ _ _ _ (scover3_C_0 _ _ _ _ _ _ _ _ _ _ _ _ _ _ _ _ _ _)
    unfold owns; iexists _; isplitr
    swap; · iexact H3
    ipureintro; exact View.read_writes_of_cover _ _ _ _ _ (cover3_C_3 _ _ _ _ _ _ _ _ _ _ _ _ _ _ _ _ _ _)
  rw [Dat.leavesExact_idle (dat3 V c) 3 t (idleAt3_3 t h1) (noFlush3_3 t h1)]
  by_cases h0 : t.val % 4 = 0
  · rw [outsAt3_A V c t h0 h1]
    unfold sout3_A_0; dsimp only
    refine (sep_mono_left (Phi_open3 V c t.castSucc)).trans ?_
    rw [PhiA3_eq]
    iintro ⟨⟨⟨HS0, HR⟩, Hg⟩, Ho, ⟨%d0, H0⟩, ⟨%d1, H1⟩, ⟨%d2, H2⟩, ⟨%d3, H3⟩⟩
    iapply ((kernelRun3_A _ _ _ _ _ _ _ _ _ _ _ _ ((hcond3_0 t).mpr h0) (fun h => h1 ((hcond3_1 t).mp h)) _ _ _).2.2 ((dat3 V c).before 3 t d3) _ _)
    iframe H0 H1 H2 H3 HS0
    iintro ⟨H0, H1, H2, H3, ⟨%es0, HS0⟩⟩
    iframe HR Hg Ho H0 H1 H2
    isplitl [HS0]
    · unfold owns; iexists _; isplitr
      swap; · iexact HS0
      ipureintro; exact View.read_writes_of_cover _ _ _ _ _ (scover3_A_0 _ _ _ _ _ _ _ _ _ _ _ _ _ _ _ _ _)
    iexists _; iexact H3
  rw [outsAt3_B V c t h0 h1]
  unfold sout3_B_0; dsimp only
  rw [show (dat3 V c).Φ t.castSucc = PhiS3 V c t.val (Nat.le_of_lt t.isLt) from rfl, PhiS3_pos V c _ _ fun h => h0 (by rw [h])]
  iintro ⟨⟨⟨HS0, HR⟩, Hg⟩, Ho, ⟨%d0, H0⟩, ⟨%d1, H1⟩, ⟨%d2, H2⟩, ⟨%d3, H3⟩⟩
  iapply ((kernelRun3_B _ _ _ _ _ _ _ _ _ _ _ _ (fun h => h0 ((hcond3_0 t).mp h)) (fun h => h1 ((hcond3_1 t).mp h)) _ _ _ _).2.2 ((dat3 V c).before 3 t d3) _ _)
  iframe H0 H1 H2 H3 HS0
  iintro ⟨H0, H1, H2, H3, ⟨%es0, HS0⟩⟩
  iframe HR Hg Ho H0 H1 H2
  isplitl [HS0]
  · unfold owns; iexists _; isplitr
    swap; · iexact HS0
    ipureintro; exact View.read_writes_of_cover _ _ _ _ _ (scover3_B_0 _ _ _ _ _ _ _ _ _ _ _ _ _ _ _ _ _ _)
  iexists _; iexact H3

theorem hin3 (c : Dev nD) : Pipeline.ΦA spec3 c ⊢ (dat3 V c).Φ 0 := Idealize.SL.BI.Entails.refl _

theorem hout3 (c : Dev nD) : (dat3 V c).Φ (Fin.last cfg3.N) ⊢ Pipeline.ΦA spec3 c := Phi_open3 V c _

theorem owed3 (c : Dev nD) (t : Fin (cfg3.N + 1)) : (dat3 V c).owed t = 0 := rfl
theorem q3 (c : Dev nD) (w : Fin cfg3.W) : (dat3 V c).q w = fullShare := rfl

end Cert.KernelIdeal.Hand

end
-- ==== Proof.KI.R4.lean ====
import proofs.«132928_j20143396618969_2_alg».proof.Proof.Gen.KernelIdeal.Launch
import proofs.«132928_j20143396618969_2_alg».proof.Proof.Gen.KernelIdeal.Skeleton
import proofs.«132928_j20143396618969_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) :=
  (by decide +kernel : ∀ t : Fin grid4.N, cond4_0 (grid4.coords t))

abbrev cond4_1 (i : grid4.Coords) : Prop := k4_cond2 i = 1#1
theorem hcond4_1 : ∀ t : Fin cfg4.N, cond4_1 (grid4.coords t) :=
  (by decide +kernel : ∀ t : Fin grid4.N, cond4_1 (grid4.coords t))

theorem liveAt4_3 : ∀ t : Fin cfg4.N, cfg4.idle 3 (grid4.coords t) = false := by decide +kernel

abbrev ms4_0 (t : Fin cfg4.N) : Memref sig .tc .vmem S2048x256 .f32 := win4_0.stage (cfg4.slots t 0)
abbrev ms4_1 (t : Fin cfg4.N) : Memref sig .tc .vmem S256x128 .f32 := win4_1.stage (cfg4.slots t 1)
abbrev ms4_2 (t : Fin cfg4.N) : Memref sig .tc .vmem S1x128 .f32 := win4_2.stage (cfg4.slots t 2)
abbrev ms4_3 (t : Fin cfg4.N) : Memref sig .tc .vmem S2048x128 .f32 := win4_3.stage (cfg4.slots t 3)
abbrev scM4_0 : Memref sig .tc .vmem S2048x128 .f32 := Memref.whole cc4_scratch0

-- The region invariant splits into the accumulator, owned at some contents, and a remainder that stays closed.
theorem PhiA4_eq (c : Dev nD) :
    (Pipeline.ΦA spec4 c : sProp 𝕄)
      = iprop(iprop(iprop((∃ d, owns c scM4_0 fullShare d))
          ∗ Pipeline.scopedRestBut spec4 c [cc4_scratch0]) ∗ (∃ r, prngReg c r)) := by
  unfold Pipeline.ΦA; rw [scopedRest4_split]; simp only [scM4_0, owns_whole]; try rfl

section Body
variable (c : Dev nD) (i : grid4.Coords) (arg2 : Memref sig .tc .vmem S2048x256 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond4_0 i) (hc1 : cond4_1 i)
    (x0 : Vec F S2048x256 .f32) (x1 : Vec F S256x128 .f32) (x2 : Vec F S1x128 .f32)
include hc0 hc1

set_option maxHeartbeats 1000000 in
-- On whole memrefs the body leaves the inputs as found and the output and the accumulator at the pieces its stores wrote.
noncomputable def kernelRun4 :
    Σ' (L3 : List (View.Piece (Elt F) S2048x128 .f32)), { LS0 : List (View.Piece (Elt F) S2048x128 .f32) //
      ∀ (E : Set ℕ) (K : PUnit → sProp 𝕄),
        iprop(owns c arg2 fullShare x0 ∗ owns c arg3 fullShare x1 ∗ owns c arg4 fullShare x2
            ∗ (∃ d, owns c arg5 fullShare d) ∗ (∃ d, owns c arg6 fullShare d)
            ∗ (iprop(owns c arg2 fullShare x0 ∗ owns c arg3 fullShare x1 ∗ owns c arg4 fullShare x2
                ∗ (∃ f, arg5.view.loc c ↦[arg5.view.set]{fullShare} arg5.view.writes (Elt F) f L3)
                ∗ (∃ f, arg6.view.loc c ↦[arg6.view.set]{fullShare} arg6.view.writes (Elt F) f LS0)) -∗ K ⟨⟩))
          ⊢ wp frame (wpE (defs₀ (F := F)) Variants.none c none) E (cc4__mm_kernel i arg2 harg2 arg3 harg3 arg4 harg4 arg5 harg5 arg6 harg6) K } := by
  refine ⟨?_, ?_, fun E K => ?run⟩
  case run =>
    simp only [cc4__mm_kernel_eq_skeleton]; unfold cc4__mm_kernel_skel
    unfold owns
    iintro ⟨⟨%f0, %hf0, H0⟩, ⟨%f1, %hf1, H1⟩, H2, ⟨%d3, %f3, -, H3⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    isplitl [H3]; · iexists _; iexact H3
    iexists _; iexact HS0

-- The output's pieces are one store of the whole block, so they cover it.
theorem cover4_3 (y : S2048x128.Idx) :
    ∃ pc ∈ (kernelRun4 c i arg2 harg2 arg3 harg3 arg4 harg4 arg5 harg5 arg6 harg6 hc0 hc1 x0 x1 x2).1, y ∈ pc.1.set :=
  View.cover_of_tiledL _ S2048x128.size (by sl_kernel_rfl) y

def out4_3 : Vec F S2048x128 .f32 :=
  View.canon (kernelRun4 c i arg2 harg2 arg3 harg3 arg4 harg4 arg5 harg5 arg6 harg6 hc0 hc1 x0 x1 x2).1

end Body

section Region
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def outsAt4 (c : Dev nD) (t : Fin cfg4.N) : Vec F S2048x128 .f32 :=
  out4_3 c (grid4.coords t) (ms4_0 t) (hstage4_0 ((cfg4.slots t 0).cast nbuf4_0)) (ms4_1 t) (hstage4_1 ((cfg4.slots t 1).cast nbuf4_1)) (ms4_2 t) (hstage4_2 ((cfg4.slots t 2).cast nbuf4_2)) (ms4_3 t) (hstage4_3 ((cfg4.slots t 3).cast nbuf4_3)) scM4_0 (Memref.isWhole_whole _) (hcond4_0 t) (hcond4_1 t) (iblk4 V c 0 t) (iblk4 V c 1 t) (iblk4 V c 2 t)

-- The proof data: the arrays as the region finds them; each input left at its block, the output at what the body wrote.
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => outsAt4 V c t
  Φ _ := Pipeline.ΦA spec4 c
  q _ := fullShare
  owed _ := 0

theorem A_eq4 (c : Dev nD) (w : Fin cfg4.W) : (dat4 V c).A w = V c (Pipeline.arrRef spec4 w) := rfl
theorem after4_3 (c : Dev nD) (t : Fin cfg4.N) : (dat4 V c).after 3 t = outsAt4 V c t := by dsimp only [dat4]
theorem owed4 (c : Dev nD) (t : Fin (cfg4.N + 1)) : (dat4 V c).owed t = 0 := rfl
theorem q4 (c : Dev nD) (w : Fin cfg4.W) : (dat4 V c).q w = fullShare := rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

set_option maxHeartbeats 1600000 in
-- The body at a point: the invariant lends the accumulator at anything and takes it back at anything; the output is left at what its pieces, which cover it, write.
theorem sound_body4 (c : Dev nD) (t : Fin cfg4.N) :
    iprop(Pipeline.ΦA spec4 c ∗ (dat4 V c).owesAt () t.castSucc
      ∗ (∃ d, owns c (ms4_0 t) fullShare ((dat4 V c).before 0 t d))
      ∗ (∃ d, owns c (ms4_1 t) fullShare ((dat4 V c).before 1 t d))
      ∗ (∃ d, owns c (ms4_2 t) fullShare ((dat4 V c).before 2 t d))
      ∗ (∃ d, owns c (ms4_3 t) fullShare ((dat4 V c).before 3 t d)))
    ⊢ wp frame (wpE (defs₀ (F := F)) Variants.none c none) Set.univ (bodyAt4 t) (fun _ =>
      iprop(Pipeline.ΦA spec4 c ∗ (dat4 V c).owesAt () t.castSucc
        ∗ owns c (ms4_0 t) fullShare (iblk4 V c 0 t)
        ∗ owns c (ms4_1 t) fullShare (iblk4 V c 1 t)
        ∗ owns c (ms4_2 t) fullShare (iblk4 V c 2 t)
        ∗ owns c (ms4_3 t) fullShare ((dat4 V c).after 3 t))) := by
  simp only [before4_0, before4_1, before4_2]
  rw [PhiA4_eq, after4_3]
  unfold outsAt4 out4_3 bodyAt4
  iintro ⟨⟨⟨HS0, HR⟩, Hg⟩, Ho, ⟨%d0, H0⟩, ⟨%d1, H1⟩, ⟨%d2, H2⟩, ⟨%d3, H3⟩⟩
  iapply ((kernelRun4 c (grid4.coords t) _ _ _ _ _ _ _ _ _ _ (hcond4_0 t) (hcond4_1 t) (iblk4 V c 0 t) (iblk4 V c 1 t) (iblk4 V c 2 t)).2.2 Set.univ _)
  iframe H0 H1 H2 HS0
  isplitl [H3]; · iexists _; iexact H3
  iintro ⟨H0, H1, H2, ⟨%e3, H3⟩, ⟨%es0, HS0⟩⟩
  iframe HR Hg Ho H0 H1 H2
  isplitl [HS0]
  · iexists _; unfold owns; iexists _; isplitr
    swap; · iexact HS0
    ipureintro; rfl
  unfold owns; iexists _; isplitr
  swap; · iexact H3
  ipureintro; exact View.read_writes_eq_canon _ _ _ (cover4_3 c _ _ _ _ _ _ _ _ _ _ _ _ _ _ _ _)

theorem body_obligation4 (c : Dev nD) : BodyObligation (dat4 (F := F) V c) (defs₀ (F := F)) Variants.none () Set.univ := fun t => by
  rw [bigSep_W4, bigSep_W4, liveAt4_3 t]
  exact sound_body4 V c t

theorem hin4 (c : Dev nD) : Pipeline.ΦA spec4 c ⊢ (dat4 V c).Φ 0 := .rfl
theorem hout4 (c : Dev nD) : (dat4 V c).Φ (Fin.last cfg4.N) ⊢ Pipeline.ΦA spec4 c := .rfl

end Region

end Cert.KernelIdeal.Hand

end
-- ==== Proof.KI.R5Kit.lean ====
import proofs.«132928_j20143396618969_2_alg».proof.Proof.Gen.KernelIdeal.Launch
import proofs.«132928_j20143396618969_2_alg».proof.Proof.Gen.KernelIdeal.Skeleton
import proofs.«132928_j20143396618969_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))
end Blocks

abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 4 = 0 :=
  (by decide +kernel : ∀ t : Fin grid5.N, cond5_0 (grid5.coords t) ↔ t.val % 4 = 0)

abbrev cond5_1 (i : grid5.Coords) : Prop := k5_cond2 i = 1#1
theorem hcond5_1 : ∀ t : Fin cfg5.N, cond5_1 (grid5.coords t) ↔ t.val % 4 = 3 :=
  (by decide +kernel : ∀ t : Fin grid5.N, cond5_1 (grid5.coords t) ↔ t.val % 4 = 3)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem idleAt5_3 : ∀ t : Fin cfg5.N, ¬ t.val % 4 = 3 → cfg5.idle 3 (grid5.coords t) = true :=
  (by decide +kernel : ∀ t : Fin grid5.N, ¬ t.val % 4 = 3 → cfg5.idle 3 (grid5.coords t) = true)
theorem noFlush5_3 : ∀ t : Fin cfg5.N, ¬ t.val % 4 = 3 → (cfg5.win 3).flush t = false :=
  (by decide +kernel : ∀ t : Fin grid5.N, ¬ t.val % 4 = 3 → win5_3.flush t = false)
theorem liveAt5_3 : ∀ t : Fin cfg5.N, t.val % 4 = 3 → cfg5.idle 3 (grid5.coords t) = false :=
  (by decide +kernel : ∀ t : Fin grid5.N, t.val % 4 = 3 → cfg5.idle 3 (grid5.coords t) = false)

abbrev VO5_3 : View sig .tc .vmem S2048x128 .f32 := (Memref.whole cc5_stg3_0 : Memref sig .tc .vmem S2048x128 .f32).view
abbrev ms5_0 (t : Fin cfg5.N) : Memref sig .tc .vmem S2048x2048 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2048x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2048x128 .f32 := win5_3.stage (cfg5.slots t 3)
abbrev hs5_3 (t : Fin cfg5.N) : (ms5_3 t).IsWhole := hstage5_3 ((cfg5.slots t 3).cast nbuf5_3)
abbrev scM5_0 : Memref sig .tc .vmem S2048x128 .f32 := Memref.whole cc5_scratch0
abbrev VS5_0 : View sig .tc .vmem S2048x128 .f32 := scM5_0.view

abbrev rest5 (c : Dev nD) : sProp 𝕄 :=
  Pipeline.scopedRestBut (Ix := Unit) (Name := ℕ) (U := UR sig nD τ) (Lvl := ℕ) (Val := Elt F) spec5 c [cc5_scratch0]

theorem PhiA5_eq (c : Dev nD) :
    (Pipeline.ΦA spec5 c : sProp 𝕄)
      = iprop(iprop(iprop((∃ d, owns (c : Thread nD τ) scM5_0 fullShare d)) ∗ rest5 (F := F) c) ∗ (∃ r, prngReg c r)) := by
  unfold Pipeline.ΦA; rw [scopedRest5_split]; simp only [scM5_0, owns_whole]; try rfl

end Cert.KernelIdeal.Hand

end
-- ==== Proof.KI.R5RunA.lean ====
import proofs.«132928_j20143396618969_2_alg».proof.Proof.KI.R5Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun5_A (c : Dev nD) (i : grid5.Coords) (arg2 : Memref sig .tc .vmem S2048x2048 .bf16) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond5_0 i) (hc1 : ¬cond5_1 i)
    (x0 : Vec F S2048x2048 .bf16) (x1 : Vec F S2048x128 .f32) (x2 : Vec F S1x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__mm_kernel i arg2 harg2 arg3 harg3 arg4 harg4 arg5 harg5 arg6 harg6) K } := by
  refine ⟨[], ?_, fun xi3 E K => ?run⟩
  case run =>
    simp only [cc5__mm_kernel_eq_skeleton]; unfold cc5__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R5RunB.lean ====
import proofs.«132928_j20143396618969_2_alg».proof.Proof.KI.R5Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun5_B (c : Dev nD) (i : grid5.Coords) (arg2 : Memref sig .tc .vmem S2048x2048 .bf16) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond5_0 i) (hc1 : ¬cond5_1 i)
    (x0 : Vec F S2048x2048 .bf16) (x1 : Vec F S2048x128 .f32) (x2 : Vec F S1x128 .f32) (xs0 : Vec F S2048x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__mm_kernel i arg2 harg2 arg3 harg3 arg4 harg4 arg5 harg5 arg6 harg6) K } := by
  refine ⟨[], ?_, fun xi3 E K => ?run⟩
  case run =>
    simp only [cc5__mm_kernel_eq_skeleton]; unfold cc5__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R5RunC.lean ====
import proofs.«132928_j20143396618969_2_alg».proof.Proof.KI.R5Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun5_C (c : Dev nD) (i : grid5.Coords) (arg2 : Memref sig .tc .vmem S2048x2048 .bf16) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond5_0 i) (hc1 : cond5_1 i)
    (x0 : Vec F S2048x2048 .bf16) (x1 : Vec F S2048x128 .f32) (x2 : Vec F S1x128 .f32) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc5__mm_kernel i arg2 harg2 arg3 harg3 arg4 harg4 arg5 harg5 arg6 harg6) K } := by
  refine ⟨?_, ?_, fun E K => ?run⟩
  case run =>
    simp only [cc5__mm_kernel_eq_skeleton]; unfold cc5__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R5.lean ====
import proofs.«132928_j20143396618969_2_alg».proof.Proof.KI.R5RunA
import proofs.«132928_j20143396618969_2_alg».proof.Proof.KI.R5RunB
import proofs.«132928_j20143396618969_2_alg».proof.Proof.KI.R5RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (c : Dev nD) (i : grid5.Coords) (arg2 : Memref sig .tc .vmem S2048x2048 .bf16) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole)

section
variable (hc0 : cond5_0 i) (hc1 : ¬cond5_1 i) (x0 : Vec F S2048x2048 .bf16) (x1 : Vec F S2048x128 .f32) (x2 : Vec F S1x128 .f32)

def out5_A_3 : Vec F S2048x128 .f32 :=
  VO5_3.read (Elt F) (VO5_3.writes (Elt F) VO5_3.junk (kernelRun5_A c i arg2 harg2 arg3 harg3 arg4 harg4 arg5 harg5 arg6 harg6 hc0 hc1 x0 x1 x2).1)

theorem scover5_A_0 (y : S2048x128.Idx) : ∃ pc ∈ (kernelRun5_A c i arg2 harg2 arg3 harg3 arg4 harg4 arg5 harg5 arg6 harg6 hc0 hc1 x0 x1 x2).2.1, y ∈ pc.1.set :=
  View.cover_of_tiledL _ S2048x128.size (by sl_kernel_rfl) y

def sout5_A_0 : Vec F S2048x128 .f32 :=
  VS5_0.read (Elt F) (VS5_0.writes (Elt F) VS5_0.junk (kernelRun5_A c i arg2 harg2 arg3 harg3 arg4 harg4 arg5 harg5 arg6 harg6 hc0 hc1 x0 x1 x2).2.1)
end

section
variable (hc0 : ¬cond5_0 i) (hc1 : ¬cond5_1 i) (x0 : Vec F S2048x2048 .bf16) (x1 : Vec F S2048x128 .f32) (x2 : Vec F S1x128 .f32) (xs0 : Vec F S2048x128 .f32)

def out5_B_3 : Vec F S2048x128 .f32 :=
  VO5_3.read (Elt F) (VO5_3.writes (Elt F) VO5_3.junk (kernelRun5_B c i arg2 harg2 arg3 harg3 arg4 harg4 arg5 harg5 arg6 harg6 hc0 hc1 x0 x1 x2 xs0).1)

theorem scover5_B_0 (y : S2048x128.Idx) : ∃ pc ∈ (kernelRun5_B c i arg2 harg2 arg3 harg3 arg4 harg4 arg5 harg5 arg6 harg6 hc0 hc1 x0 x1 x2 xs0).2.1, y ∈ pc.1.set :=
  View.cover_of_tiledL _ S2048x128.size (by sl_kernel_rfl) y

def sout5_B_0 : Vec F S2048x128 .f32 :=
  VS5_0.read (Elt F) (VS5_0.writes (Elt F) VS5_0.junk (kernelRun5_B c i arg2 harg2 arg3 harg3 arg4 harg4 arg5 harg5 arg6 harg6 hc0 hc1 x0 x1 x2 xs0).2.1)
end

section
variable (hc0 : ¬cond5_0 i) (hc1 : cond5_1 i) (x0 : Vec F S2048x2048 .bf16) (x1 : Vec F S2048x128 .f32) (x2 : Vec F S1x128 .f32) (xs0 : Vec F S2048x128 .f32)

theorem cover5_C_3 (y : S2048x128.Idx) : ∃ pc ∈ (kernelRun5_C c i arg2 harg2 arg3 harg3 arg4 harg4 arg5 harg5 arg6 harg6 hc0 hc1 x0 x1 x2 xs0).1, y ∈ pc.1.set :=
  View.cover_of_tiledL _ S2048x128.size (by sl_kernel_rfl) y

def out5_C_3 : Vec F S2048x128 .f32 :=
  VO5_3.read (Elt F) (VO5_3.writes (Elt F) VO5_3.junk (kernelRun5_C c i arg2 harg2 arg3 harg3 arg4 harg4 arg5 harg5 arg6 harg6 hc0 hc1 x0 x1 x2 xs0).1)

theorem scover5_C_0 (y : S2048x128.Idx) : ∃ pc ∈ (kernelRun5_C c i arg2 harg2 arg3 harg3 arg4 harg4 arg5 harg5 arg6 harg6 hc0 hc1 x0 x1 x2 xs0).2.1, y ∈ pc.1.set :=
  View.cover_of_tiledL _ S2048x128.size (by sl_kernel_rfl) y

def sout5_C_0 : Vec F S2048x128 .f32 :=
  VS5_0.read (Elt F) (VS5_0.writes (Elt F) VS5_0.junk (kernelRun5_C c i arg2 harg2 arg3 harg3 arg4 harg4 arg5 harg5 arg6 harg6 hc0 hc1 x0 x1 x2 xs0).2.1)
end
end

-- A run's two piece lists read back: (the output block, the accumulator).
def back5 {P : List (View.Piece (Elt F) S2048x128 .f32) → List (View.Piece (Elt F) S2048x128 .f32) → Prop}
    (r : Σ' L3, { LS0 // P L3 LS0 }) : Vec F S2048x128 .f32 × Vec F S2048x128 .f32 :=
  (VO5_3.read (Elt F) (VO5_3.writes (Elt F) VO5_3.junk r.1), VS5_0.read (Elt F) (VS5_0.writes (Elt F) VS5_0.junk r.2.1))

variable (V : (c : Dev nD) → (b : Ref sig .tc) → Buf (Elt F) ((c : Thread nD τ).loc b))

-- One point: the case its position mod 4 selects, run on the point's blocks over the carried accumulator `a`.
def step5 (c : Dev nD) (t : Fin cfg5.N) (a : Vec F S2048x128 .f32) : Vec F S2048x128 .f32 × Vec F S2048x128 .f32 :=
  if h0 : t.val % 4 = 0 then
    back5 (kernelRun5_A c (grid5.coords t) (ms5_0 t) (hs5_0 t) (ms5_1 t) (hs5_1 t) (ms5_2 t) (hs5_2 t) (ms5_3 t) (hs5_3 t) scM5_0 (Memref.isWhole_whole _) ((hcond5_0 t).mpr h0) (fun h => by have := (hcond5_1 t).mp h; omega) (iblk5 V c 0 t) (iblk5 V c 1 t) (iblk5 V c 2 t))
  else if h1 : t.val % 4 = 3 then
    back5 (kernelRun5_C c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) a)
  else
    back5 (kernelRun5_B c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) a)

def outsAt5 (c : Dev nD) : (n : ℕ) → n < cfg5.N → Vec F S2048x128 .f32 × Vec F S2048x128 .f32
  | 0, hn => step5 V c ⟨0, hn⟩ (VS5_0.read (Elt F) VS5_0.junk)
  | n + 1, hn => step5 V c ⟨n + 1, hn⟩ (outsAt5 c n (Nat.lt_of_succ_lt hn)).2

theorem outsAt5_A (c : Dev nD) (t : Fin cfg5.N) (h0 : t.val % 4 = 0) (h1 : ¬t.val % 4 = 3) :
    outsAt5 V c t.val t.isLt = (out5_A_3 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t), sout5_A_0 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)) := by
  obtain ⟨n, hn⟩ := t
  cases n <;> (show step5 V c _ _ = _; exact (dif_pos h0).trans rfl)

theorem outsAt5_B (c : Dev nD) (t : Fin cfg5.N) (h0 : ¬t.val % 4 = 0) (h1 : ¬t.val % 4 = 3) :
    outsAt5 V c t.val t.isLt = (out5_B_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt5_C (c : Dev nD) (t : Fin cfg5.N) (h0 : ¬t.val % 4 = 0) (h1 : t.val % 4 = 3) :
    outsAt5 V c t.val t.isLt = (out5_C_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

-- The invariant before position `n`: the launch's at 0; afterwards the accumulator at what the point before left.
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ rest5 (F := F) c) ∗ (∃ r, prngReg c r))

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ rest5 (F := F) c) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

-- At every position the invariant gives the launch's back: the accumulator's named contents are forgotten.
theorem Phi_open5 (c : Dev nD) (t : Fin (cfg5.N + 1)) : (dat5 V c).Φ t ⊢ Pipeline.ΦA spec5 c := by
  obtain ⟨n, hn⟩ := t
  cases n with
  | zero => exact Idealize.SL.BI.Entails.refl _
  | succ n =>
    rw [show (dat5 V c).Φ ⟨n + 1, hn⟩ = PhiS5 V c (n + 1) (Nat.le_of_lt_succ hn) from rfl, PhiS5_pos V c _ _ (Nat.succ_ne_zero n), PhiA5_eq]
    iintro ⟨⟨HS0, HR⟩, Hg⟩
    isplitl [HS0 HR]
    · isplitl [HS0]
      · iexists _; iexact HS0
      iexact HR
    iexact Hg

theorem A_eq5 (c : Dev nD) (w : Fin cfg5.W) : (dat5 V c).A w = V c (Pipeline.arrRef spec5 w) := rfl

theorem after5_0 (c : Dev nD) (t : Fin cfg5.N) : (dat5 V c).after 0 t = iblk5 V c 0 t := rfl
theorem after5_1 (c : Dev nD) (t : Fin cfg5.N) : (dat5 V c).after 1 t = iblk5 V c 1 t := rfl
theorem after5_2 (c : Dev nD) (t : Fin cfg5.N) : (dat5 V c).after 2 t = iblk5 V c 2 t := rfl
theorem after5_3 (c : Dev nD) (t : Fin cfg5.N) : (dat5 V c).after 3 t = (outsAt5 V c t.val t.isLt).1 := rfl

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

-- The body at every point: the inputs keep their blocks, the accumulator goes from what the point before left to this point's, and the output block is stored at the points 3 mod 4 only.
set_option maxHeartbeats 4800000 in
theorem body_obligation5 (c : Dev nD) : BodyObligation (dat5 (F := F) V c) (defs₀ (F := F)) Variants.none () Set.univ := fun t => by
  rw [bigSep_W5, bigSep_W5]
  show bodyPre5 V c t ⊢ wp frame (wpE (defs₀ (F := F)) Variants.none c none) Set.univ (bodyAt5 t) (fun _ => bodyPost5 V c t)
  unfold bodyPre5 bodyPost5 bodyAt5
  simp only [before5_0, before5_1, before5_2]
  rw [show (dat5 V c).owesAt () t.succ = (dat5 V c).owesAt () t.castSucc from rfl,
    show (dat5 V c).Φ t.succ = iprop(iprop(owns (c : Thread nD τ) scM5_0 fullShare (outsAt5 V c t.val t.isLt).2 ∗ rest5 (F := F) c) ∗ (∃ r, prngReg c r)) from rfl,
    show (dat5 V c).leavesExact 0 t = owns (c : Thread nD τ) (ms5_0 t) fullShare ((dat5 V c).after 0 t) from by
      unfold Dat.leavesExact; rw [liveAt5_0 t], after5_0,
    show (dat5 V c).leavesExact 1 t = owns (c : Thread nD τ) (ms5_1 t) fullShare ((dat5 V c).after 1 t) from by
      unfold Dat.leavesExact; rw [liveAt5_1 t], after5_1,
    show (dat5 V c).leavesExact 2 t = owns (c : Thread nD τ) (ms5_2 t) fullShare ((dat5 V c).after 2 t) from by
      unfold Dat.leavesExact; rw [liveAt5_2 t], after5_2]
  by_cases h1 : t.val % 4 = 3
  · have h0 : ¬t.val % 4 = 0 := by omega
    rw [show (dat5 V c).leavesExact 3 t = owns (c : Thread nD τ) (ms5_3 t) fullShare ((dat5 V c).after 3 t) from by
      unfold Dat.leavesExact; rw [liveAt5_3 t h1], after5_3, outsAt5_C V c t h0 h1]
    unfold out5_C_3 sout5_C_0; dsimp only
    rw [show (dat5 V c).Φ t.castSucc = PhiS5 V c t.val (Nat.le_of_lt t.isLt) from rfl, PhiS5_pos V c _ _ fun h => h0 (by rw [h])]
    iintro ⟨⟨⟨HS0, HR⟩, Hg⟩, Ho, ⟨%d0, H0⟩, ⟨%d1, H1⟩, ⟨%d2, H2⟩, ⟨%d3, H3⟩⟩
    iapply ((kernelRun5_C _ _ _ _ _ _ _ _ _ _ _ _ (fun h => h0 ((hcond5_0 t).mp h)) ((hcond5_1 t).mpr h1) _ _ _ _).2.2 _ _)
    iframe H0 H1 H2 HS0
    isplitl [H3]; · iexists _; iexact H3
    iintro ⟨H0, H1, H2, ⟨%e3, H3⟩, ⟨%es0, HS0⟩⟩
    iframe HR Hg Ho H0 H1 H2
    isplitl [HS0]
    · unfold owns; iexists _; isplitr
      swap; · iexact HS0
      ipureintro; exact View.read_writes_of_cover _ _ _ _ _ (scover5_C_0 _ _ _ _ _ _ _ _ _ _ _ _ _ _ _ _ _ _)
    unfold owns; iexists _; isplitr
    swap; · iexact H3
    ipureintro; exact View.read_writes_of_cover _ _ _ _ _ (cover5_C_3 _ _ _ _ _ _ _ _ _ _ _ _ _ _ _ _ _ _)
  rw [Dat.leavesExact_idle (dat5 V c) 3 t (idleAt5_3 t h1) (noFlush5_3 t h1)]
  by_cases h0 : t.val % 4 = 0
  · rw [outsAt5_A V c t h0 h1]
    unfold sout5_A_0; dsimp only
    refine (sep_mono_left (Phi_open5 V c t.castSucc)).trans ?_
    rw [PhiA5_eq]
    iintro ⟨⟨⟨HS0, HR⟩, Hg⟩, Ho, ⟨%d0, H0⟩, ⟨%d1, H1⟩, ⟨%d2, H2⟩, ⟨%d3, H3⟩⟩
    iapply ((kernelRun5_A _ _ _ _ _ _ _ _ _ _ _ _ ((hcond5_0 t).mpr h0) (fun h => h1 ((hcond5_1 t).mp h)) _ _ _).2.2 ((dat5 V c).before 3 t d3) _ _)
    iframe H0 H1 H2 H3 HS0
    iintro ⟨H0, H1, H2, H3, ⟨%es0, HS0⟩⟩
    iframe HR Hg Ho H0 H1 H2
    isplitl [HS0]
    · unfold owns; iexists _; isplitr
      swap; · iexact HS0
      ipureintro; exact View.read_writes_of_cover _ _ _ _ _ (scover5_A_0 _ _ _ _ _ _ _ _ _ _ _ _ _ _ _ _ _)
    iexists _; iexact H3
  rw [outsAt5_B V c t h0 h1]
  unfold sout5_B_0; dsimp only
  rw [show (dat5 V c).Φ t.castSucc = PhiS5 V c t.val (Nat.le_of_lt t.isLt) from rfl, PhiS5_pos V c _ _ fun h => h0 (by rw [h])]
  iintro ⟨⟨⟨HS0, HR⟩, Hg⟩, Ho, ⟨%d0, H0⟩, ⟨%d1, H1⟩, ⟨%d2, H2⟩, ⟨%d3, H3⟩⟩
  iapply ((kernelRun5_B _ _ _ _ _ _ _ _ _ _ _ _ (fun h => h0 ((hcond5_0 t).mp h)) (fun h => h1 ((hcond5_1 t).mp h)) _ _ _ _).2.2 ((dat5 V c).before 3 t d3) _ _)
  iframe H0 H1 H2 H3 HS0
  iintro ⟨H0, H1, H2, H3, ⟨%es0, HS0⟩⟩
  iframe HR Hg Ho H0 H1 H2
  isplitl [HS0]
  · unfold owns; iexists _; isplitr
    swap; · iexact HS0
    ipureintro; exact View.read_writes_of_cover _ _ _ _ _ (scover5_B_0 _ _ _ _ _ _ _ _ _ _ _ _ _ _ _ _ _ _)
  iexists _; iexact H3

theorem hin5 (c : Dev nD) : Pipeline.ΦA spec5 c ⊢ (dat5 V c).Φ 0 := Idealize.SL.BI.Entails.refl _

theorem hout5 (c : Dev nD) : (dat5 V c).Φ (Fin.last cfg5.N) ⊢ Pipeline.ΦA spec5 c := Phi_open5 V c _

theorem owed5 (c : Dev nD) (t : Fin (cfg5.N + 1)) : (dat5 V c).owed t = 0 := rfl
theorem q5 (c : Dev nD) (w : Fin cfg5.W) : (dat5 V c).q w = fullShare := rfl

end Cert.KernelIdeal.Hand

end
-- ==== Proof.KI.R6Kit.lean ====
import proofs.«132928_j20143396618969_2_alg».proof.Proof.Gen.KernelIdeal.Launch
import proofs.«132928_j20143396618969_2_alg».proof.Proof.Gen.KernelIdeal.Skeleton
import proofs.«132928_j20143396618969_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window w's block at grid point t, read off the array's contents at entry.
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev cond6_0 (i : grid6.Coords) : Prop := k6_cond1 i = 1#1
-- The first branch is taken exactly strictly below the block diagonal.
theorem hcond6_0 : ∀ t : Fin cfg6.N, cond6_0 (grid6.coords t) ↔ t.val / 8 > t.val % 8 :=
  (by decide +kernel : ∀ t : Fin grid6.N, cond6_0 (grid6.coords t) ↔ t.val / 8 > t.val % 8)

abbrev cond6_1 (i : grid6.Coords) : Prop := k6_cond2 i = 1#1
-- The second branch is taken exactly on and above the block diagonal.
theorem hcond6_1 : ∀ t : Fin cfg6.N, cond6_1 (grid6.coords t) ↔ t.val / 8 ≤ t.val % 8 :=
  (by decide +kernel : ∀ t : Fin grid6.N, cond6_1 (grid6.coords t) ↔ t.val / 8 ≤ t.val % 8)

-- Exactly one branch is taken at each point.
theorem liveAt6 : ∀ (w : Fin cfg6.W) (t : Fin cfg6.N), cfg6.idle w (grid6.coords t) = false := by decide +kernel

abbrev VO6_2 : View sig .tc .vmem S1024x1024 .f32 := (Memref.whole cc6_stg2_0 : Memref sig .tc .vmem S1024x1024 .f32).view
abbrev ms6_0 (t : Fin cfg6.N) : Memref sig .tc .vmem S1024x64 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1024x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1024x1024 .f32 := win6_2.stage (cfg6.slots t 2)
abbrev hs6_2 (t : Fin cfg6.N) : (ms6_2 t).IsWhole := hstage6_2 ((cfg6.slots t 2).cast nbuf6_2)

-- A run of the body on whole memrefs: the inputs at x0, x1 are kept, and the output ends as the pieces L2 its stores wrote.
abbrev Run6 (c : Dev nD) (i : grid6.Coords) (arg2 : Memref sig .tc .vmem S1024x64 .f32) (harg2 : arg2.IsWhole) (arg3 : Memref sig .tc .vmem S1024x64 .f32) (harg3 : arg3.IsWhole) (arg4 : Memref sig .tc .vmem S1024x1024 .f32) (harg4 : arg4.IsWhole)
    (x0 x1 : Vec F S1024x64 .f32) :=
  { L2 : List (View.Piece (Elt F) S1024x1024 .f32) //
    ∀ (E : Set ℕ) (K : PUnit → sProp 𝕄),
      iprop(owns (c : Thread nD τ) arg2 fullShare x0 ∗ owns (c : Thread nD τ) arg3 fullShare x1 ∗ (∃ d, owns (c : Thread nD τ) arg4 fullShare d)
          ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
        ⊢ wp frame (wpE (defs₀ (F := F)) Variants.none c none) E (cc6__zzt_kernel i arg2 harg2 arg3 harg3 arg4 harg4) K }

end Cert.KernelIdeal.Hand

end
-- ==== Proof.KI.R6RunA.lean ====
import proofs.«132928_j20143396618969_2_alg».proof.Proof.KI.R6Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 1000000 in
-- Strictly below the block diagonal only the first branch runs; the pieces are whatever its stores wrote.
noncomputable def kernelRun6_A (c : Dev nD) (i : grid6.Coords) (arg2 : Memref sig .tc .vmem S1024x64 .f32) (harg2 : arg2.IsWhole) (arg3 : Memref sig .tc .vmem S1024x64 .f32) (harg3 : arg3.IsWhole) (arg4 : Memref sig .tc .vmem S1024x1024 .f32) (harg4 : arg4.IsWhole) (hc0 : cond6_0 i) (hc1 : ¬cond6_1 i)
    (x0 x1 : Vec F S1024x64 .f32) : Run6 c i arg2 harg2 arg3 harg3 arg4 harg4 x0 x1 := by
  refine ⟨?_, fun E K => ?run⟩
  case run =>
    simp only [cc6__zzt_kernel_eq_skeleton]; unfold cc6__zzt_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KI.R6RunB.lean ====
import proofs.«132928_j20143396618969_2_alg».proof.Proof.KI.R6RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 1000000 in
-- On and above the block diagonal only the second branch runs; the pieces are whatever its stores wrote.
noncomputable def kernelRun6_B (c : Dev nD) (i : grid6.Coords) (arg2 : Memref sig .tc .vmem S1024x64 .f32) (harg2 : arg2.IsWhole) (arg3 : Memref sig .tc .vmem S1024x64 .f32) (harg3 : arg3.IsWhole) (arg4 : Memref sig .tc .vmem S1024x1024 .f32) (harg4 : arg4.IsWhole) (hc0 : ¬cond6_0 i) (hc1 : cond6_1 i)
    (x0 x1 : Vec F S1024x64 .f32) : Run6 c i arg2 harg2 arg3 harg3 arg4 harg4 x0 x1 := by
  refine ⟨?_, fun E K => ?run⟩
  case run =>
    simp only [cc6__zzt_kernel_eq_skeleton]; unfold cc6__zzt_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KI.R6.lean ====
import proofs.«132928_j20143396618969_2_alg».proof.Proof.KI.R6RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The run the closed forms select at point t (block row t / 8, block column t % 8), on the point's memrefs and input blocks.
def run6At (c : Dev nD) (t : Fin cfg6.N) : Run6 c (grid6.coords t) (ms6_0 t) (hs6_0 t) (ms6_1 t) (hs6_1 t) (ms6_2 t) (hs6_2 t) (iblk6 V c 0 t) (iblk6 V c 1 t) :=
  if h : t.val / 8 > t.val % 8 then kernelRun6_A c _ _ _ _ _ _ _ ((hcond6_0 t).mpr h) (fun h' => Nat.not_le.mpr h ((hcond6_1 t).mp h')) _ _
  else kernelRun6_B c _ _ _ _ _ _ _ (fun h' => h ((hcond6_0 t).mp h')) ((hcond6_1 t).mpr (Nat.le_of_not_lt h)) _ _

-- Either run's stores tile the output block (one whole-block store), so they cover it.
theorem cover6 (c : Dev nD) (t : Fin cfg6.N) (y : S1024x1024.Idx) : ∃ pc ∈ (run6At V c t).1, y ∈ pc.1.set := by
  unfold run6At; split <;> exact View.cover_of_tiledL _ S1024x1024.size (by sl_kernel_rfl) y

-- What the output block holds after the body at point t: the selected run's pieces read back; nothing is carried between points.
def outAt6 (c : Dev nD) (t : Fin cfg6.N) : Vec F S1024x1024 .f32 :=
  VO6_2.read (Elt F) (VO6_2.writes (Elt F) VO6_2.junk (run6At V c t).1)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => outAt6 V c t
  Φ _ := Pipeline.ΦA spec6 c
  q w := match w with
    | ⟨0, _⟩ => fullShare.left
    | ⟨1, _⟩ => fullShare.right
    | ⟨2, _⟩ => fullShare
  owed _ := 0

theorem A_eq6 (c : Dev nD) (w : Fin cfg6.W) : (dat6 V c).A w = V c (Pipeline.arrRef spec6 w) := rfl

theorem owed6 (c : Dev nD) (t : Fin (cfg6.N + 1)) : (dat6 V c).owed t = 0 := rfl

theorem Phi6 (c : Dev nD) (t : Fin (cfg6.N + 1)) : (dat6 V c).Φ t = Pipeline.ΦA spec6 c := rfl

theorem after6_2 (c : Dev nD) (t : Fin cfg6.N) : (dat6 V c).after 2 t = outAt6 V c t := rfl

theorem leaves6 (c : Dev nD) (w : Fin cfg6.W) (t : Fin cfg6.N) :
    (dat6 V c).leavesExact w t = owns (c : Thread nD τ) ((cfg6.win w).stage (cfg6.slots t w)) fullShare ((dat6 V c).after w t) := by
  unfold Dat.leavesExact; rw [liveAt6 w t]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d

set_option maxHeartbeats 4800000 in
-- The inputs hold their blocks, so the selected run applies whatever the output held; its pieces cover the output block.
theorem sound_body6 (c : Dev nD) (t : Fin cfg6.N) :
    (iprop((dat6 V c).Φ t.castSucc ∗ (dat6 V c).owesAt () t.castSucc
      ∗ (∃ d, owns (c : Thread nD τ) (ms6_0 t) fullShare ((dat6 V c).before 0 t d))
      ∗ (∃ d, owns (c : Thread nD τ) (ms6_1 t) fullShare ((dat6 V c).before 1 t d))
      ∗ (∃ d, owns (c : Thread nD τ) (ms6_2 t) fullShare ((dat6 V c).before 2 t d))) : sProp 𝕄)
      ⊢ wp frame (wpE (defs₀ (F := F)) Variants.none c none) Set.univ (bodyAt6 t) (fun _ => iprop((dat6 V c).Φ t.succ ∗ (dat6 V c).owesAt () t.succ
        ∗ (dat6 V c).leavesExact 0 t ∗ (dat6 V c).leavesExact 1 t ∗ (dat6 V c).leavesExact 2 t)) := by
  unfold bodyAt6
  simp only [before6_0, before6_1]
  rw [show (dat6 V c).owesAt () t.succ = (dat6 V c).owesAt () t.castSucc from rfl, Phi6 V c t.succ, Phi6 V c t.castSucc,
    leaves6 V c 0 t, leaves6 V c 1 t, leaves6 V c 2 t, after6_2]
  unfold outAt6
  iintro ⟨HΦ, Ho, ⟨%d0, H0⟩, ⟨%d1, H1⟩, ⟨%d2, H2⟩⟩
  iapply ((run6At V c t).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover6 V c t)

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.R6Seg.lean ====
import proofs.«132928_j20143396618969_2_alg».proof.Proof.KI.R6
import Idealize.ShloMosaic.Lib.Pipeline.Regions
import Idealize.ShloMosaic.Lib.Pipeline.RegionsLoop
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The windows' arrays are two distinct buffers (both inputs read the same one), each whole at the full share.
theorem arrBufs6_eq (c : Dev nD) (W : (b : Ref sig .tc) → Buf (Elt F) ((c : Thread nD τ).loc b)) :
    (Pipeline.arrBufs spec6 c W : sProp 𝕄)
      = iprop((((c : Thread nD τ).loc main_v66) ↦{fullShare} W main_v66) ∗ (((c : Thread nD τ).loc main_v67) ↦{fullShare} W main_v67)) := by
  unfold Pipeline.arrBufs
  exact BI.bigSep_eq_bigSepL_of_eq [main_v66, main_v67] (by decide) (by decide) _

-- Window by window: the shared input array at its two half shares, the output array whole.
theorem arrays6_eq (c : Dev nD) (Fs : (w : Fin cfg6.W) → Buf (Elt F) ((cfg6.win w).arr.view.loc (c : Thread nD τ))) :
    ((dat6 V c).arrays Fs : sProp 𝕄)
      = iprop((((c : Thread nD τ).loc main_v66) ↦{fullShare.left} Fs 0) ∗ (((c : Thread nD τ).loc main_v66) ↦{fullShare.right} Fs 1)
          ∗ (((c : Thread nD τ).loc main_v67) ↦{fullShare} Fs 2)) := by
  have h : ((dat6 V c).arrays Fs : sProp 𝕄)
      = bigSep Finset.univ fun w : Fin cfg6.W => ((cfg6.win w).arr.view.loc (c : Thread nD τ) ↦{(dat6 V c).share w} Fs w) := by
    unfold Dat.arrays
    exact BI.bigSep_congr fun w _ => by rw [(arr_whole6 w).set_eq_univ]
  rw [h, bigSep_W6]
  rfl

-- At entry the shared input array's full share splits into its two halves.
theorem arrays_of_unscopedBufs6 (c : Dev nD) :
    (unscopedBufs c (V c) : sProp 𝕄) ⊢ iprop((dat6 V c).arrays ((dat6 V c).arrAt · 0) ∗ Pipeline.unscopedRest spec6 c (V c)) := by
  rw [show (unscopedBufs c (V c) : sProp 𝕄) = iprop(Pipeline.arrBufs spec6 c (V c) ∗ Pipeline.unscopedRest spec6 c (V c)) from
      Pipeline.unscopedBufs_split₀ cfgs 6 winFacts₀6.arr_unscoped c (V c), arrBufs6_eq, arrays6_eq]
  iintro ⟨⟨Hz, Ho⟩, Hrest⟩
  ihave Hz := (pointsTo_share (PosShare.mem_left_op_right fullShare)).1 $$ Hz
  icases Hz with ⟨Hz0, Hz1⟩
  isplitr [Hrest]
  · isplitl [Hz0]; · iexact Hz0
    isplitl [Hz1]; · iexact Hz1
    iexact Ho
  iexact Hrest

-- At exit the two halves join again; only the output array has changed.
theorem unscopedBufs_of_arrays6 (c : Dev nD) (V' : (b : Ref sig .tc) → Buf (Elt F) ((c : Thread nD τ).loc b))
    (hout : V' main_v67 = (dat6 V c).arrAt 2 cfg6.N)
    (hrest : ∀ b, b ≠ main_v67 → V' b = V c b) :
    iprop((dat6 V c).arrays ((dat6 V c).arrAt · cfg6.N) ∗ Pipeline.unscopedRest spec6 c (V c)) ⊢ (unscopedBufs c V' : sProp 𝕄) := by
  rw [show (unscopedBufs c V' : sProp 𝕄) = iprop(Pipeline.arrBufs spec6 c V' ∗ Pipeline.unscopedRest spec6 c V') from
      Pipeline.unscopedBufs_split₀ cfgs 6 winFacts₀6.arr_unscoped c V', arrBufs6_eq, arrays6_eq,
    (dat6 V c).arrAt_in 0 rfl cfg6.N, (dat6 V c).arrAt_in 1 rfl cfg6.N, A_eq6, A_eq6, hout, hrest main_v66 (by decide)]
  have hR : (Pipeline.unscopedRest spec6 c V' : sProp 𝕄) = Pipeline.unscopedRest spec6 c (V c) := by
    unfold Pipeline.unscopedRest
    refine BI.bigSep_congr fun b hb => ?_
    rw [hrest b (fun e => (Finset.mem_sdiff.mp hb).2 (e ▸ Finset.mem_image.mpr ⟨2, Finset.mem_univ _, rfl⟩))]
  rw [hR]
  iintro ⟨⟨Hz0, Hz1, Ho⟩, Hrest⟩
  isplitr [Hrest]
  · isplitl [Hz0 Hz1]
    · iapply (pointsTo_share (PosShare.mem_left_op_right fullShare)).2
      isplitl [Hz0] <;> iassumption
    iexact Ho
  iexact Hrest

end Cert.KernelIdeal.Hand

end
-- ==== Proof.KI.Run.lean ====
import proofs.«132928_j20143396618969_2_alg».proof.Proof.KI.R0
import proofs.«132928_j20143396618969_2_alg».proof.Proof.KI.R1
import proofs.«132928_j20143396618969_2_alg».proof.Proof.KI.R2
import proofs.«132928_j20143396618969_2_alg».proof.Proof.KI.R3
import proofs.«132928_j20143396618969_2_alg».proof.Proof.KI.R4
import proofs.«132928_j20143396618969_2_alg».proof.Proof.KI.R5
import proofs.«132928_j20143396618969_2_alg».proof.Proof.KI.R6
import proofs.«132928_j20143396618969_2_alg».proof.Proof.KI.R6Seg
import proofs.«132928_j20143396618969_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev rd (U : Dev nD → Valuation τ sig (Elt F)) : (c : Dev nD) → (b : Ref sig .tc) → Buf (Elt F) ((c : Thread nD τ).loc b) := fun c b => U c b

abbrev W3 (c : Dev nD) : Valuation τ sig (Elt F) := Gen.V3 m c
def W4 (c : Dev nD) : Valuation τ sig (Elt F) := Function.update (W3 m c) main_v51 ((dat0 (rd (W3 m)) c).arrAt 3 cfg0.N)
abbrev W5 (c : Dev nD) : Valuation τ sig (Elt F) := StableHlo.after hostOps1 (W4 m c)
def W6 (c : Dev nD) : Valuation τ sig (Elt F) := Function.update (W5 m c) main_v53 ((dat1 (rd (W5 m)) c).arrAt 3 cfg1.N)
abbrev W7 (c : Dev nD) : Valuation τ sig (Elt F) := StableHlo.after hostOps2 (W6 m c)
def W8 (c : Dev nD) : Valuation τ sig (Elt F) := Function.update (W7 m c) main_v55 ((dat2 (rd (W7 m)) c).arrAt 3 cfg2.N)
abbrev W9 (c : Dev nD) : Valuation τ sig (Elt F) := StableHlo.after hostOps3 (W8 m c)
def W10 (c : Dev nD) : Valuation τ sig (Elt F) := Function.update (W9 m c) main_v57 ((dat3 (rd (W9 m)) c).arrAt 3 cfg3.N)
abbrev W11 (c : Dev nD) : Valuation τ sig (Elt F) := StableHlo.after hostOps4 (W10 m c)
def W12 (c : Dev nD) : Valuation τ sig (Elt F) := Function.update (W11 m c) main_v59 ((dat4 (rd (W11 m)) c).arrAt 3 cfg4.N)
abbrev W13 (c : Dev nD) : Valuation τ sig (Elt F) := StableHlo.after hostOps5 (W12 m c)
def W14 (c : Dev nD) : Valuation τ sig (Elt F) := Function.update (W13 m c) main_v61 ((dat5 (rd (W13 m)) c).arrAt 3 cfg5.N)
abbrev W15 (c : Dev nD) : Valuation τ sig (Elt F) := StableHlo.after hostOps6 (W14 m c)
def W16 (c : Dev nD) : Valuation τ sig (Elt F) := Function.update (W15 m c) main_v67 ((dat6 (rd (W15 m)) c).arrAt 2 cfg6.N)

def outs : Gen.Outs (F := F) := fun J r c => match J with
  | 4 => W4 m c r | 6 => W6 m c r | 8 => W8 m c r | 10 => W10 m c r | 12 => W12 m c r | 14 => W14 m c r | 16 => W16 m c r | _ => W3 m c r

theorem V4_eq (c : Dev nD) : Gen.V4 m (outs m) c = W4 m c := by
  show Function.update (Gen.V3 m c) main_v51 (W4 m c main_v51) = W4 m c
  unfold W4; rw [Function.update_self]
theorem V5_eq (c : Dev nD) : Gen.V5 m (outs m) c = W5 m c := by
  show StableHlo.after hostOps1 (Gen.V4 m (outs m) c) = _
  rw [V4_eq]
theorem V6_eq (c : Dev nD) : Gen.V6 m (outs m) c = W6 m c := by
  show Function.update (Gen.V5 m (outs m) c) main_v53 (W6 m c main_v53) = W6 m c
  rw [V5_eq]; unfold W6; rw [Function.update_self]
theorem V7_eq (c : Dev nD) : Gen.V7 m (outs m) c = W7 m c := by
  show StableHlo.after hostOps2 (Gen.V6 m (outs m) c) = _
  rw [V6_eq]
theorem V8_eq (c : Dev nD) : Gen.V8 m (outs m) c = W8 m c := by
  show Function.update (Gen.V7 m (outs m) c) main_v55 (W8 m c main_v55) = W8 m c
  rw [V7_eq]; unfold W8; rw [Function.update_self]
theorem V9_eq (c : Dev nD) : Gen.V9 m (outs m) c = W9 m c := by
  show StableHlo.after hostOps3 (Gen.V8 m (outs m) c) = _
  rw [V8_eq]
theorem V10_eq (c : Dev nD) : Gen.V10 m (outs m) c = W10 m c := by
  show Function.update (Gen.V9 m (outs m) c) main_v57 (W10 m c main_v57) = W10 m c
  rw [V9_eq]; unfold W10; rw [Function.update_self]
theorem V11_eq (c : Dev nD) : Gen.V11 m (outs m) c = W11 m c := by
  show StableHlo.after hostOps4 (Gen.V10 m (outs m) c) = _
  rw [V10_eq]
theorem V12_eq (c : Dev nD) : Gen.V12 m (outs m) c = W12 m c := by
  show Function.update (Gen.V11 m (outs m) c) main_v59 (W12 m c main_v59) = W12 m c
  rw [V11_eq]; unfold W12; rw [Function.update_self]
theorem V13_eq (c : Dev nD) : Gen.V13 m (outs m) c = W13 m c := by
  show StableHlo.after hostOps5 (Gen.V12 m (outs m) c) = _
  rw [V12_eq]
theorem V14_eq (c : Dev nD) : Gen.V14 m (outs m) c = W14 m c := by
  show Function.update (Gen.V13 m (outs m) c) main_v61 (W14 m c main_v61) = W14 m c
  rw [V13_eq]; unfold W14; rw [Function.update_self]
theorem V15_eq (c : Dev nD) : Gen.V15 m (outs m) c = W15 m c := by
  show StableHlo.after hostOps6 (Gen.V14 m (outs m) c) = _
  rw [V14_eq]
theorem V16_eq (c : Dev nD) : Gen.V16 m (outs m) c = W16 m c := by
  show Function.update (Gen.V15 m (outs m) c) main_v67 (W16 m c main_v67) = W16 m c
  rw [V15_eq]; unfold W16; rw [Function.update_self]

def pdats : (p : Fin 7) → (c : Dev nD) → Dat τ (Elt F) Unit ℕ (UR sig nD τ) ℕ (Pipeline.pin (pcfgs (F := F)) adm p) c
  | ⟨0, _⟩ => fun c => dat0 (rd (W3 m)) c
  | ⟨1, _⟩ => fun c => dat1 (rd (W5 m)) c
  | ⟨2, _⟩ => fun c => dat2 (rd (W7 m)) c
  | ⟨3, _⟩ => fun c => dat3 (rd (W9 m)) c
  | ⟨4, _⟩ => fun c => dat4 (rd (W11 m)) c
  | ⟨5, _⟩ => fun c => dat5 (rd (W13 m)) c
  | ⟨6, _⟩ => fun c => dat6 (rd (W15 m)) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev pc (p : Fin 7) := Pipeline.pin (pcfgs (F := F)) adm p

set_option backward.isDefEq.respectTransparency.types false in
/-- A region as a segment of the program, entered with every unscoped buffer at `Wi` and left with them at `Wo`: its
    arrays are split out of the buffers at entry (`hsplit`) and put back at exit (`hjoin`); nothing is owed. -/
def regCore (p : Fin 7) (win : Pipeline.WinFacts₀ (pc (F := F) p).spec)
    (block_pos : ∀ w : Fin (pc (F := F) p).W, 0 < ((pc (F := F) p).spec w).block.numel)
    (stage_whole : ∀ (w : Fin (pc (F := F) p).W) (s : Fin ((pc (F := F) p).spec w).nbuf), (((pc (F := F) p).spec w).stage s).IsWhole)
    (Wi Wo : Dev nD → Valuation τ sig (Elt F))
    (hbody : ∀ c, BodyObligation (pdats m p c) (defs₀ (F := F)) Variants.none () Set.univ)
    (howed : ∀ c t, (pdats m p c).owed t = 0) (hrec : ∀ c, (pdats m p c).recorded 0 = Set.univ)
    (hsplit : ∀ c, (unscopedBufs c (rd Wi c) : sProp 𝕄)
      ⊢ iprop((pdats m p c).arrays ((pdats m p c).arrAt · 0) ∗ Pipeline.unscopedRest (pc (F := F) p).spec c (rd Wi c)))
    (hjoin : ∀ c, iprop((pdats m p c).arrays ((pdats m p c).arrAt · (pc (F := F) p).N) ∗ Pipeline.unscopedRest (pc (F := F) p).spec c (rd Wi c))
      ⊢ (unscopedBufs c (rd Wo c) : sProp 𝕄))
    (hΦi : ∀ c, Pipeline.ΦA (pc (F := F) p).spec c ⊢ (pdats m p c).Φ 0)
    (hΦo : ∀ c, (pdats m p c).Φ (Fin.last (pc (F := F) p).N) ⊢ Pipeline.ΦA (pc (F := F) p).spec c) :
    Pipeline.RegionSeg (pcfgs (F := F)) adm (pdats m) () defs₀ 𝒱₀ L lv p where
  win := win
  block_pos := block_pos
  stage_whole := stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (pc (F := F) p).spec c (rd Wi c)
  hentry c := by
    rw [Pipeline.ownSems0_none]
    have hs := hsplit c
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((hrec c).symm ▸ trivial)
      rw [howed c 0]
      iexact HO
    isplitl [Hp]; · iexact Hp
    iexact Hrest
  hin c := by
    have h := hΦi c
    unfold Pipeline.ΦA at h
    iintro ⟨Hp, -, Hr⟩
    iapply h
    isplitl [Hr]; · iexact Hr
    iexact Hp
  hout c := by
    rw [Pipeline.ownSems0_none]
    have h := hΦo c
    unfold Pipeline.ΦA at h
    iintro H
    ihave H' := h $$ H
    icases H' with ⟨Hr, Hp⟩
    isplitl [Hp]; · iexact Hp
    isplitr; · iempintro
    iexact Hr
  hexit c := by
    have hj := hjoin c
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W
    rw [howed c (Fin.last _)]
    iexact HO

set_option backward.isDefEq.respectTransparency.types false in
/-- A tiled-product region writes back its last window only: `Wo` is `Wi` with that one array replaced by what the
    write-backs leave; an input array is never written back and the windows' arrays are distinct buffers. -/
def regMM (p : Fin 7) (lf : Pipeline.LaunchFacts (nD := nD) (τ := τ) cfgs p) (Wi Wo : Dev nD → Valuation τ sig (Elt F))
    (o : Fin (cfgs p).W) (hin : ∀ w : Fin (cfgs p).W, w ≠ o → ((cfgs p).win w).isOut = false)
    (hWo : ∀ c, Wo c = Function.update (Wi c) (Proc.devRef .tc (Pipeline.arrRef (pc (F := F) p).spec o) : DevRef τ sig) ((pdats m p c).arrAt o (pc (F := F) p).N))
    (hbody : ∀ c, BodyObligation (pdats m p c) (defs₀ (F := F)) Variants.none () Set.univ)
    (howed : ∀ c t, (pdats m p c).owed t = 0) (hrec : ∀ c, (pdats m p c).recorded 0 = Set.univ) (hq : ∀ c w, (pdats m p c).q w = fullShare)
    (hA : ∀ c w, (pdats m p c).A w = rd Wi c (Pipeline.arrRef (pc (F := F) p).spec w))
    (hΦi : ∀ c, Pipeline.ΦA (pc (F := F) p).spec c ⊢ (pdats m p c).Φ 0)
    (hΦo : ∀ c, (pdats m p c).Φ (Fin.last (pc (F := F) p).N) ⊢ Pipeline.ΦA (pc (F := F) p).spec c) :
    Pipeline.RegionSeg (pcfgs (F := F)) adm (pdats m) () defs₀ 𝒱₀ L lv p :=
  regCore m p lf.win.to₀ lf.block_pos lf.stage_whole Wi Wo hbody howed hrec
    (fun c => Pipeline.arrays_of_unscopedBufs (p := p) (pcfgs (F := F)) adm (pdats m) lf.win lf.arr_whole c
      ((pdats m p c).share_full (hq c)) (rd Wi c) (hA c))
    (fun c => Pipeline.unscopedBufs_of_arrays (p := p) (pcfgs (F := F)) adm (Ix := Unit) (Name := ℕ) (U := UR sig nD τ) (Lvl := ℕ)
      lf.win lf.arr_whole c (pdats m) ((pdats m p c).share_full (hq c)) (rd Wi c) (rd Wo c) ((pdats m p c).arrAt · (pc (F := F) p).N)
      (fun w => by
        unfold rd; rw [hWo c]
        by_cases h : w = o
        · subst h; exact (Function.update_self (Proc.devRef .tc (Pipeline.arrRef (pc (F := F) p).spec w) : DevRef τ sig) _ (Wi c)).symm
        · rw [Function.update_of_ne (StableHlo.devRef_ne_of_ne (lf.win.arr_inj.ne h))]
          exact ((pdats m p c).arrAt_in w (hin w h) _).trans (hA c w))
      (fun b hb => by
        unfold rd; rw [hWo c]
        exact Function.update_of_ne (StableHlo.devRef_ne_of_ne fun e => hb (Finset.mem_image.mpr ⟨o, Finset.mem_univ _, e.symm⟩)) _ _))
    hΦi hΦo

def reg0 : Pipeline.RegionSeg (pcfgs (F := F)) adm (pdats m) () defs₀ 𝒱₀ L lv 0 :=
  regMM m 0 launch0 (W3 m) (W4 m) 3 (by decide) (fun _ => rfl) (body_obligation0 (rd (W3 m))) (owed0 (rd (W3 m))) (fun _ => rfl)
    (q0 (rd (W3 m))) (A_eq0 (rd (W3 m))) (hin0 (rd (W3 m))) (hout0 (rd (W3 m)))
def reg1 : Pipeline.RegionSeg (pcfgs (F := F)) adm (pdats m) () defs₀ 𝒱₀ L lv 1 :=
  regMM m 1 launch1 (W5 m) (W6 m) 3 (by decide) (fun _ => rfl) (body_obligation1 (rd (W5 m))) (owed1 (rd (W5 m))) (fun _ => rfl)
    (q1 (rd (W5 m))) (A_eq1 (rd (W5 m))) (hin1 (rd (W5 m))) (hout1 (rd (W5 m)))
def reg2 : Pipeline.RegionSeg (pcfgs (F := F)) adm (pdats m) () defs₀ 𝒱₀ L lv 2 :=
  regMM m 2 launch2 (W7 m) (W8 m) 3 (by decide) (fun _ => rfl) (body_obligation2 (rd (W7 m))) (owed2 (rd (W7 m))) (fun _ => rfl)
    (q2 (rd (W7 m))) (A_eq2 (rd (W7 m))) (hin2 (rd (W7 m))) (hout2 (rd (W7 m)))
def reg3 : Pipeline.RegionSeg (pcfgs (F := F)) adm (pdats m) () defs₀ 𝒱₀ L lv 3 :=
  regMM m 3 launch3 (W9 m) (W10 m) 3 (by decide) (fun _ => rfl) (body_obligation3 (rd (W9 m))) (owed3 (rd (W9 m))) (fun _ => rfl)
    (q3 (rd (W9 m))) (A_eq3 (rd (W9 m))) (hin3 (rd (W9 m))) (hout3 (rd (W9 m)))
def reg4 : Pipeline.RegionSeg (pcfgs (F := F)) adm (pdats m) () defs₀ 𝒱₀ L lv 4 :=
  regMM m 4 launch4 (W11 m) (W12 m) 3 (by decide) (fun _ => rfl) (body_obligation4 (rd (W11 m))) (owed4 (rd (W11 m))) (fun _ => rfl)
    (q4 (rd (W11 m))) (A_eq4 (rd (W11 m))) (hin4 (rd (W11 m))) (hout4 (rd (W11 m)))
def reg5 : Pipeline.RegionSeg (pcfgs (F := F)) adm (pdats m) () defs₀ 𝒱₀ L lv 5 :=
  regMM m 5 launch5 (W13 m) (W14 m) 3 (by decide) (fun _ => rfl) (body_obligation5 (rd (W13 m))) (owed5 (rd (W13 m))) (fun _ => rfl)
    (q5 (rd (W13 m))) (A_eq5 (rd (W13 m))) (hin5 (rd (W13 m))) (hout5 (rd (W13 m)))

theorem hout16 (c : Dev nD) : rd (W16 m) c main_v67 = (dat6 (rd (W15 m)) c).arrAt 2 cfg6.N :=
  Function.update_self (Proc.devRef .tc main_v67 : DevRef τ sig) _ (W15 m c)
theorem hrest16 (c : Dev nD) : ∀ b, b ≠ main_v67 → rd (W16 m) c b = rd (W15 m) c b :=
  fun b hb => Function.update_of_ne (StableHlo.devRef_ne_of_ne hb : (Proc.devRef .tc b : DevRef τ sig) ≠ Proc.devRef .tc main_v67) _ _

def reg6 : Pipeline.RegionSeg (pcfgs (F := F)) adm (pdats m) () defs₀ 𝒱₀ L lv 6 :=
  regCore m 6 winFacts₀6 block_pos6 stage_whole6 (W15 m) (W16 m) (body_obligation6 (rd (W15 m))) (owed6 (rd (W15 m))) (fun _ => rfl)
    (arrays_of_unscopedBufs6 (rd (W15 m))) (fun c => unscopedBufs_of_arrays6 (rd (W15 m)) c (rd (W16 m) c) (hout16 m c) (hrest16 m c))
    (fun c => Entails.of_eq (Phi6 (rd (W15 m)) c 0).symm) (fun c => Entails.of_eq (Phi6 (rd (W15 m)) c _))

set_option backward.isDefEq.respectTransparency.types false in
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      refine Pipeline.initEach L lv fun c => ?_
      iintro ⟨⟨-, HO, -, Hp, -⟩, -⟩
      imodintro
      isplitl [Hp]; · iexists _; iexact Hp
      iexists ∅; iexact HO)
    (hE7 := fun c => by iintro ⟨-, HO⟩; iexact HO)
    (reg0 m) (fun c => by exact .rfl) (fun c => by rw [V4_eq]; exact .rfl)
    (reg1 m) (fun c => by rw [V5_eq]; exact .rfl) (fun c => by rw [V6_eq]; exact .rfl)
    (reg2 m) (fun c => by rw [V7_eq]; exact .rfl) (fun c => by rw [V8_eq]; exact .rfl)
    (reg3 m) (fun c => by rw [V9_eq]; exact .rfl) (fun c => by rw [V10_eq]; exact .rfl)
    (reg4 m) (fun c => by rw [V11_eq]; exact .rfl) (fun c => by rw [V12_eq]; exact .rfl)
    (reg5 m) (fun c => by rw [V13_eq]; exact .rfl) (fun c => by rw [V14_eq]; exact .rfl)
    (reg6 m) (fun c => by rw [V15_eq]; exact .rfl) (fun c => by rw [V16_eq]; exact .rfl)

end Cert.KernelIdeal.Hand

end
-- ==== Proof.KI.RunValue.lean ====
import proofs.«132928_j20143396618969_2_alg».proof.Proof.KI.Run
import proofs.«132928_j20143396618969_2_alg».proof.Proof.KI.ValueCond

set_option maxRecDepth 16384

noncomputable section

namespace Cert.KernelIdeal.Hand

open Idealize.ShloMosaic Idealize.ShloMosaic.TcCoe
open Idealize.SL Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

-- The generated conditional run read at the chain's valuations: each boundary equation turns one into the other.
set_option backward.isDefEq.respectTransparency.types false in
theorem run_value (ρ : Dev nD → PrngReg) : θ_run defs (onTc (τ := τ) (main (F := F))) ⟨m, fun _ => 0, ρ⟩ (fun r => ∀ c : Dev nD,
      r.2.mem ((c.tc : Thread nD τ).loc main_v67) = W16 m c main_v67
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (congrFun (V16_eq m c) _), (h c).2⟩)
    (Gen.value_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      refine Pipeline.initEach L lv fun c => ?_
      iintro ⟨⟨-, HO, -, Hp, -⟩, -⟩
      imodintro
      isplitl [Hp]; · iexists _; iexact Hp
      iexists ∅; iexact HO)
    (hE7 := fun c => by iintro ⟨-, HO⟩; iexact HO)
    (reg0 m) (fun c => .rfl) (fun c => V4_eq m c ▸ .rfl)
    (reg1 m) (fun c => V5_eq m c ▸ .rfl) (fun c => V6_eq m c ▸ .rfl)
    (reg2 m) (fun c => V7_eq m c ▸ .rfl) (fun c => V8_eq m c ▸ .rfl)
    (reg3 m) (fun c => V9_eq m c ▸ .rfl) (fun c => V10_eq m c ▸ .rfl)
    (reg4 m) (fun c => V11_eq m c ▸ .rfl) (fun c => V12_eq m c ▸ .rfl)
    (reg5 m) (fun c => V13_eq m c ▸ .rfl) (fun c => V14_eq m c ▸ .rfl)
    (reg6 m) (fun c => V15_eq m c ▸ .rfl) (fun c => V16_eq m c ▸ .rfl))

end Cert.KernelIdeal.Hand

end
-- ==== Proof.Spec.lean ====
import Mathlib.Data.EReal.Operations
import Mathlib.Algebra.BigOperators.Fin
import Mathlib.Algebra.BigOperators.Group.Finset.Basic

open scoped BigOperators

noncomputable section

namespace Cert.Spec

abbrev NN : ℕ := 8192
abbrev NE : ℕ := 270336
abbrev NB : ℕ := 4
abbrev NT : ℕ := 2048

def blk (k : Fin NB) (q : Fin NT) : Fin NN := ⟨k.val * NT + q.val, by have := k.isLt; have := q.isLt; simp only [NB, NT, NN] at *; omega⟩

def IsReal (v : EReal) : Prop := ∃ r : ℝ, v = (r : EReal)

def adj (nrm : Fin NE → EReal) (row col : Fin NE → Fin NN) (c r : Fin NN) : EReal :=
  0 + ∑ e : Fin NE, if col e = c ∧ row e = r then nrm e else 0

def blockDot (A : Fin NN → Fin NN → EReal) (h : Fin NN → EReal) (c : Fin NN) (k : Fin NB) : EReal :=
  0 + ∑ q : Fin NT, A c (blk k q) * h (blk k q)

def kerAgg (A : Fin NN → Fin NN → EReal) (h : Fin NN → EReal) (b : EReal) (c : Fin NN) : EReal :=
  max (((((0 + blockDot A h c 0) + blockDot A h c 1) + blockDot A h c 2) + blockDot A h c 3) + b) 0

def refAgg (nrm : Fin NE → EReal) (row col : Fin NE → Fin NN) (h : Fin NN → EReal) (b : EReal) (c : Fin NN) : EReal :=
  max ((0 + ∑ e : Fin NE, if col e = c then nrm e * h (row e) else 0) + b) 0

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (P : Prop) [Decidable P] (x : ℝ) :
    ((if P then x else 0 : ℝ) : EReal) = if P then (x : EReal) else 0 := by
  split_ifs <;> rfl

theorem blk_bijective : Function.Bijective (fun x : Fin NB × Fin NT => blk x.1 x.2) := by
  constructor
  · rintro ⟨k, q⟩ ⟨k', q'⟩ hkq
    have h1 : k.val * NT + q.val = k'.val * NT + q'.val := congrArg Fin.val hkq
    have h2 := q.isLt
    have h3 := q'.isLt
    simp only [NT] at h1 h2 h3
    have hk : k.val = k'.val := by omega
    have hq : q.val = q'.val := by omega
    exact Prod.ext (Fin.ext hk) (Fin.ext hq)
  · intro p
    have hp := p.isLt
    simp only [NN] at hp
    refine ⟨(⟨p.val / NT, ?_⟩, ⟨p.val % NT, ?_⟩), ?_⟩
    · simp only [NT, NB]; omega
    · simp only [NT]; omega
    · apply Fin.ext
      show p.val / NT * NT + p.val % NT = p.val
      simp only [NT]; omega

theorem sum_blk {α : Type*} [AddCommMonoid α] (g : Fin NN → α) :
    ∑ k : Fin NB, ∑ q : Fin NT, g (blk k q) = ∑ p : Fin NN, g p := by
  rw [← Fintype.sum_prod_type' (fun k q => g (blk k q))]
  exact Fintype.sum_bijective (fun x : Fin NB × Fin NT => blk x.1 x.2) blk_bijective _ _ (fun x => rfl)

theorem real_regroup (n : Fin NE → ℝ) (row col : Fin NE → Fin NN) (g : Fin NN → ℝ) (c : Fin NN) :
    ∑ p : Fin NN, (∑ e : Fin NE, if col e = c ∧ row e = p then n e else 0) * g p
      = ∑ e : Fin NE, if col e = c then n e * g (row e) else 0 := by
  rw [Finset.sum_congr rfl (fun p _ => Finset.sum_mul Finset.univ (fun e : Fin NE => if col e = c ∧ row e = p then n e else 0) (g p)),
    Finset.sum_comm]
  refine Finset.sum_congr rfl (fun e _ => ?_)
  by_cases hc : col e = c
  · simp only [hc, true_and, if_true, ite_mul, zero_mul]
    rw [Finset.sum_ite_eq, if_pos (Finset.mem_univ _)]
  · simp only [hc, false_and, if_false, zero_mul, Finset.sum_const_zero]

theorem blocks_eq (A : Fin NN → Fin NN → EReal) (h : Fin NN → EReal) (c : Fin NN) :
    (((0 + blockDot A h c 0) + blockDot A h c 1) + blockDot A h c 2) + blockDot A h c 3
      = ∑ p : Fin NN, A c p * h p := by
  have h4 : ∑ k : Fin NB, blockDot A h c k
      = blockDot A h c 0 + blockDot A h c 1 + blockDot A h c 2 + blockDot A h c 3 :=
    Fin.sum_univ_four (fun k : Fin NB => blockDot A h c k)
  rw [zero_add, ← h4, ← sum_blk (fun p => A c p * h p)]
  exact Finset.sum_congr rfl (fun k _ => zero_add _)

theorem agg_eq (nrm : Fin NE → EReal) (row col : Fin NE → Fin NN) (h : Fin NN → EReal) (b : EReal)
    (hn : ∀ e, IsReal (nrm e)) (hh : ∀ i, IsReal (h i)) (c : Fin NN) :
    kerAgg (adj nrm row col) h b c = refAgg nrm row col h b c := by
  choose n hn' using hn
  choose g hg using hh
  obtain rfl : nrm = fun e => (n e : EReal) := funext hn'
  obtain rfl : h = fun i => (g i : EReal) := funext hg
  have hA : ∀ p : Fin NN, adj (fun e => (n e : EReal)) row col c p * (g p : EReal)
      = (((∑ e : Fin NE, if col e = c ∧ row e = p then n e else 0) * g p : ℝ) : EReal) := by
    intro p
    rw [EReal.coe_mul, coe_sum]
    unfold adj
    rw [zero_add]
    exact congrArg (· * (g p : EReal)) (Finset.sum_congr rfl (fun e _ => (coe_ite _ _).symm))
  have hR : ∀ e : Fin NE, (if col e = c then (n e : EReal) * (g (row e) : EReal) else 0)
      = ((if col e = c then n e * g (row e) else 0 : ℝ) : EReal) := by
    intro e
    rw [coe_ite, EReal.coe_mul]
  unfold kerAgg refAgg
  rw [blocks_eq, zero_add, Finset.sum_congr rfl (fun p _ => hA p), Finset.sum_congr rfl (fun e _ => hR e),
    ← coe_sum, ← coe_sum, real_regroup]

theorem IsReal.zero : IsReal 0 := ⟨0, rfl⟩

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem IsReal.sum {ι : Type*} {s : Finset ι} {f : ι → EReal} (h : ∀ i ∈ s, IsReal (f i)) : IsReal (∑ i ∈ s, f i) :=
  Finset.sum_induction f IsReal (fun _ _ => IsReal.add) IsReal.zero h

-- The reals are closed under every operation of an aggregation: sums, products, a maximum.
theorem refAgg_real (nrm : Fin NE → EReal) (row col : Fin NE → Fin NN) (h : Fin NN → EReal) (b : EReal)
    (hn : ∀ e, IsReal (nrm e)) (hh : ∀ i, IsReal (h i)) (hb : IsReal b) (c : Fin NN) :
    IsReal (refAgg nrm row col h b c) := by
  unfold refAgg
  refine max_rec' IsReal ((IsReal.zero.add (IsReal.sum fun e _ => ?_)).add hb) IsReal.zero
  by_cases hc : col e = c
  · rw [if_pos hc]
    exact (hn e).mul (hh _)
  · rw [if_neg hc]
    exact IsReal.zero

theorem dot_real {K : ℕ} (a w : Fin K → EReal) (ha : ∀ k, IsReal (a k)) (hw : ∀ k, IsReal (w k)) :
    IsReal (∑ k : Fin K, a k * w k) :=
  IsReal.sum fun k _ => (ha k).mul (hw k)

end Cert.Spec

end
-- ==== Proof.Net.lean ====
import proofs.«132928_j20143396618969_2_alg».proof.Proof.Spec
import Idealize.ShloMosaic.PureOps.Ideal

open scoped BigOperators

noncomputable section

namespace Cert.Net

open Cert.Spec Idealize.ShloMosaic

def mm {M K N : ℕ} (a : Fin M → Fin K → EReal) (w : Fin K → Fin N → EReal) (i : Fin M) (j : Fin N) : EReal :=
  ∑ k : Fin K, a i k * w k j

structure Inputs where
  x : Fin NN → Fin 512 → EReal
  W1 : Fin 512 → Fin 256 → EReal
  b1 : Fin 256 → EReal
  W2 : Fin 256 → Fin 256 → EReal
  b2 : Fin 256 → EReal
  Wm : Fin 256 → Fin 64 → EReal
  bm : Fin 64 → EReal
  Ws : Fin 256 → Fin 64 → EReal
  bs : Fin 64 → EReal
  noise : Fin NN → Fin 64 → EReal
  nrm : Fin NE → EReal
  row : Fin NE → Fin NN
  col : Fin NE → Fin NN

structure Inputs.Real (I : Inputs) : Prop where
  x : ∀ i k, IsReal (I.x i k)
  W1 : ∀ k j, IsReal (I.W1 k j)
  b1 : ∀ j, IsReal (I.b1 j)
  W2 : ∀ k j, IsReal (I.W2 k j)
  b2 : ∀ j, IsReal (I.b2 j)
  Wm : ∀ k j, IsReal (I.Wm k j)
  bm : ∀ j, IsReal (I.bm j)
  Ws : ∀ k j, IsReal (I.Ws k j)
  bs : ∀ j, IsReal (I.bs j)
  noise : ∀ i j, IsReal (I.noise i j)
  nrm : ∀ e, IsReal (I.nrm e)

def layer {K C : ℕ} (agg : (Fin NN → EReal) → EReal → Fin NN → EReal) (hin : Fin NN → Fin K → EReal)
    (W : Fin K → Fin C → EReal) (b : Fin C → EReal) (c : Fin NN) (f : Fin C) : EReal :=
  agg (fun r => mm hin W r f) (b f) c

def sample (noise mean lstd : Fin NN → Fin 64 → EReal) (c : Fin NN) (f : Fin 64) : EReal :=
  noise c f * Ideal.exp (lstd c f) + mean c f

def decode (z : Fin NN → Fin 64 → EReal) (i j : Fin NN) : EReal :=
  if i.val < j.val then Ideal.logistic (∑ k : Fin 64, z i k * z j k) else 0

def net (agg : (Fin NN → EReal) → EReal → Fin NN → EReal) (I : Inputs) : Fin NN → Fin NN → EReal :=
  let h1 := layer agg I.x I.W1 I.b1
  let h2 := layer agg h1 I.W2 I.b2
  decode (sample I.noise (layer agg h2 I.Wm I.bm) (layer agg h2 I.Ws I.bs))

def netR (I : Inputs) : Fin NN → Fin NN → EReal := net (refAgg I.nrm I.row I.col) I

def netK (I : Inputs) : Fin NN → Fin NN → EReal := net (kerAgg (adj I.nrm I.row I.col)) I

theorem mm_real {M K N : ℕ} {a : Fin M → Fin K → EReal} {w : Fin K → Fin N → EReal}
    (ha : ∀ i k, IsReal (a i k)) (hw : ∀ k j, IsReal (w k j)) (i : Fin M) (j : Fin N) : IsReal (mm a w i j) :=
  dot_real (fun k => a i k) (fun k => w k j) (fun k => ha i k) (fun k => hw k j)

theorem layer_eq {K C : ℕ} {nrm : Fin NE → EReal} {row col : Fin NE → Fin NN} {hin : Fin NN → Fin K → EReal}
    {W : Fin K → Fin C → EReal} {b : Fin C → EReal}
    (hn : ∀ e, IsReal (nrm e)) (hh : ∀ i k, IsReal (hin i k)) (hW : ∀ k j, IsReal (W k j)) :
    layer (kerAgg (adj nrm row col)) hin W b = layer (refAgg nrm row col) hin W b := by
  funext c f
  exact agg_eq nrm row col (fun r => mm hin W r f) (b f) hn (fun r => mm_real hh hW r f) c

theorem layer_real {K C : ℕ} {nrm : Fin NE → EReal} {row col : Fin NE → Fin NN} {hin : Fin NN → Fin K → EReal}
    {W : Fin K → Fin C → EReal} {b : Fin C → EReal}
    (hn : ∀ e, IsReal (nrm e)) (hh : ∀ i k, IsReal (hin i k)) (hW : ∀ k j, IsReal (W k j)) (hb : ∀ j, IsReal (b j))
    (c : Fin NN) (f : Fin C) : IsReal (layer (refAgg nrm row col) hin W b c f) :=
  refAgg_real nrm row col (fun r => mm hin W r f) (b f) hn (fun r => mm_real hh hW r f) (hb f) c

theorem net_eq (I : Inputs) (hI : I.Real) : netK I = netR I := by
  have r1 := layer_real (row := I.row) (col := I.col) hI.nrm hI.x hI.W1 hI.b1
  have r2 := layer_real (row := I.row) (col := I.col) hI.nrm r1 hI.W2 hI.b2
  unfold netK netR net
  dsimp only
  rw [layer_eq hI.nrm hI.x hI.W1, layer_eq hI.nrm r1 hI.W2, layer_eq hI.nrm r2 hI.Wm, layer_eq hI.nrm r2 hI.Ws]

end Cert.Net

end
-- ==== Proof.Graph.lean ====
import proofs.«132928_j20143396618969_2_alg».proof.Proof.Gen.ReferenceIdeal.Read
import proofs.«132928_j20143396618969_2_alg».proof.Proof.Net

noncomputable section

namespace Cert.Graph

open Cert.ReferenceIdeal Cert.ReferenceIdeal.Gen Cert.ReferenceIdeal.Read Idealize.ShloMosaic Idealize.ShloMosaic.ValueIdx Cert.Spec

def nodeOf (w : BitVec 32) : Fin NN := ⟨min w.toInt.toNat (NN - 1), by show min w.toInt.toNat (8192 - 1) < 8192; omega⟩

theorem nodeOf_val (w : BitVec 32) (h0 : 0 ≤ w.toInt) (h1 : w.toInt < 8192) : ((nodeOf w).val : Int) = w.toInt := by
  show ((min w.toInt.toNat (8192 - 1) : Nat) : Int) = w.toInt
  omega

def inputsOf (x0 : (⟨S8192x512, .f32⟩ : BufTy).Contents (Elt Ideal)) (x1 : (⟨S2x262144, .i32⟩ : BufTy).Contents (Elt Ideal)) (x2 : (⟨S262144, .f32⟩ : BufTy).Contents (Elt Ideal)) (x3 : (⟨S8192x64, .f32⟩ : BufTy).Contents (Elt Ideal)) (x4 : (⟨S512x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x64, .f32⟩ : BufTy).Contents (Elt Ideal)) (x9 : (⟨S64, .f32⟩ : BufTy).Contents (Elt Ideal)) (x10 : (⟨S256x64, .f32⟩ : BufTy).Contents (Elt Ideal)) (x11 : (⟨S64, .f32⟩ : BufTy).Contents (Elt Ideal)) : Net.Inputs where
  x i k := x0 (ix2 i k)
  W1 k j := x4 (ix2 k j)
  b1 j := x5 (ix1 j)
  W2 k j := x6 (ix2 k j)
  b2 j := x7 (ix1 j)
  Wm k j := x8 (ix2 k j)
  bm j := x9 (ix1 j)
  Ws k j := x10 (ix2 k j)
  bs j := x11 (ix1 j)
  noise i j := x3 (ix2 i j)
  nrm e := val_main_v32 (F := Ideal) x1 x2 (ix1 e)
  row e := nodeOf (val_main_v3 (F := Ideal) x1 (ix1 e))
  col e := nodeOf (val_main_v6 (F := Ideal) x1 (ix1 e))

structure InRange (x1 : (⟨S2x262144, .i32⟩ : BufTy).Contents (Elt Ideal)) : Prop where
  row : ∀ e : Fin NE, 0 ≤ (val_main_v3 (F := Ideal) x1 (ix1 e)).toInt ∧ (val_main_v3 (F := Ideal) x1 (ix1 e)).toInt < 8192
  col : ∀ e : Fin NE, 0 ≤ (val_main_v6 (F := Ideal) x1 (ix1 e)).toInt ∧ (val_main_v6 (F := Ideal) x1 (ix1 e)).toInt < 8192

end Cert.Graph

end
-- ==== Proof.LibGatherScatter.lean ====
import Idealize.ShloMosaic.PureOps.Ideal
import Idealize.ShloMosaic.PureOps.Ideal.Laws
import Idealize.ShloMosaic.Lib.ValueIdx
import Idealize.ShloMosaic.Lib.StableHlo.Predicate

noncomputable section

namespace Cert.LibGatherScatter

open Idealize.ShloMosaic Idealize.ShloMosaic.ValueIdx

theorem one_not_mem_zero : (1 : Fin 2) ∉ [(0 : Fin 2)] := by decide
theorem zero_not_mem_one : (0 : Fin 2) ∉ [(1 : Fin 2)] := by decide

-- Operand axis 0 is collapsed and start-indexed (slice size 1, clamped into [0, N − 1]); axis 1 is an offset axis starting at 0.
theorem rowGather_apply {α : Type} {N C R w : Nat} (d : GatherDims ⟨2, ![N, C]⟩ ⟨2, ![R, 1]⟩ ⟨2, ![R, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![R, 1]⟩ w) (r : Fin R) (c : Fin C) (hN : 0 < N) :
    Host.gather d x idx (ix2 r c) = x (ix2 ⟨min (idx (ix2 r (0 : Fin 1))).toInt.toNat (N - 1), by omega⟩ c) := by
  obtain ⟨od, cd, ob, sb, sm, iv, ss, wf⟩ := d
  simp only at hoff hcoll hob hsb hsim hivd
  subst hoff hcoll hob hsb hsim hivd
  generalize hd : (⟨[1], [0], [], [], [0], 1, ss, wf⟩ : GatherDims ⟨2, ![N, C]⟩ ⟨2, ![R, 1]⟩ ⟨2, ![R, C]⟩) = d
  have hb : ∀ a : Fin 2, a ∉ d.operandBatchingDims := by subst hd; exact fun a => List.not_mem_nil
  unfold Host.gather
  congr 1
  funext a
  refine Fin.ext ?_
  match a with
  | ⟨0, _⟩ =>
    show d.start (ix2 r c) idx 0 + d.batchCoord (ix2 r c) 0 + d.offCoord (ix2 r c) 0 = min (idx (ix2 r 0)).toInt.toNat (N - 1)
    have hc : (0 : Fin 2) ∈ d.collapsedSliceDims := by subst hd; exact List.mem_singleton.mpr rfl
    have hm : (0 : Fin 2) ∈ d.startIndexMap := by subst hd; exact List.mem_singleton.mpr rfl
    rw [d.batchCoord_eq_zero _ _ (hb 0), d.offCoord_eq_zero _ _ (fun h => ((d.mem_sKept _).mp h).1 hc), Nat.add_zero]
    unfold GatherDims.start
    rw [dif_pos hm, d.slice_collapsed 0 hc]
    have hsi : d.siIdx (ix2 r c) ⟨List.idxOf (0 : Fin 2) d.startIndexMap, List.idxOf_lt_length_iff.2 hm⟩ = ix2 r 0 := by
      subst hd
      funext b; refine Fin.ext ?_
      match b with
      | ⟨0, _⟩ => rfl
      | ⟨1, _⟩ => rfl
    rw [hsi]
    rfl
  | ⟨1, _⟩ =>
    show d.start (ix2 r c) idx 1 + d.batchCoord (ix2 r c) 1 + d.offCoord (ix2 r c) 1 = c.val
    have hm : (1 : Fin 2) ∉ d.startIndexMap := by subst hd; exact one_not_mem_zero
    have hk : (1 : Fin 2) ∈ d.sKept := (d.mem_sKept _).mpr ⟨by subst hd; exact one_not_mem_zero, hb 1⟩
    rw [d.batchCoord_eq_zero _ _ (hb 1), Nat.add_zero]
    unfold GatherDims.start GatherDims.offCoord
    rw [dif_neg hm, dif_pos hk, Nat.zero_add]
    subst hd
    rfl

-- An update lands on an entry exactly when, on every axis, its window start plus window coordinate is the entry's coordinate.
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hh
      have hn : (d.start j idx a + (d.window j a : Int)).toNat = (i a).val := congrArg (fun f => (f a).val) (Option.some.inj h)
      have hp := (hh a).1
      omega
    · exact absurd h (by simp)
  · intro h
    have hh : ∀ a, 0 ≤ d.start j idx a + (d.window j a : Int) ∧ d.start j idx a + (d.window j a : Int) < (s.size a : Int) :=
      fun a => by rw [h a]; exact ⟨Int.natCast_nonneg _, Int.ofNat_lt.2 (i a).isLt⟩
    rw [dif_pos hh]
    refine congrArg some (funext fun a => Fin.ext ?_)
    show (d.start j idx a + (d.window j a : Int)).toNat = (i a).val
    rw [h a]
    exact Int.toNat_natCast _

-- Operand axis 0 is inserted and start-indexed by the row's index word; axis 1 is the update's window axis.
theorem rowScatterAdd_apply {N C R w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1)
    (x : FVec Ideal ⟨2, ![N, C]⟩ .f32) (idx : IVec ⟨2, ![R, 1]⟩ w) (upd : FVec Ideal ⟨2, ![R, C]⟩ .f32) (n : Fin N) (c : Fin C) :
    Host.scatterAdd d x idx upd (ix2 n c)
      = x (ix2 n c) + ∑ r : Fin R, if (idx (ix2 r (0 : Fin 1))).toInt = (n.val : Int) then upd (ix2 r c) else 0 := by
  obtain ⟨uw, iw, sd, iv, wf⟩ := d
  simp only at huw hiw hsd hivd
  subst huw hiw hsd hivd
  generalize hd : (⟨[1], [0], [0], 1, wf⟩ : ScatterDims ⟨2, ![N, C]⟩ ⟨2, ![R, 1]⟩ ⟨2, ![R, C]⟩) = d
  have hfst : ∀ (r : Fin R) (c' : Fin C),
      d.start (ix2 r c') idx 0 + (d.window (ix2 r c') 0 : Int) = (idx (ix2 r (0 : Fin 1))).toInt := by
    intro r c'
    have hm : (0 : Fin 2) ∈ d.scatterDimsToOperandDims := by subst hd; exact List.mem_singleton.mpr rfl
    have hk : (0 : Fin 2) ∉ d.sKept := by subst hd; exact zero_not_mem_one
    have hsi : d.siIdx (ix2 r c') ⟨List.idxOf (0 : Fin 2) d.scatterDimsToOperandDims, List.idxOf_lt_length_iff.2 hm⟩ = ix2 r 0 := by
      subst hd
      funext b; refine Fin.ext ?_
      match b with
      | ⟨0, _⟩ => rfl
      | ⟨1, _⟩ => rfl
    unfold ScatterDims.start ScatterDims.window
    rw [dif_pos hm, dif_neg hk, hsi, Nat.cast_zero, add_zero]
  have hsnd : ∀ (r : Fin R) (c' : Fin C), d.start (ix2 r c') idx 1 + (d.window (ix2 r c') 1 : Int) = (c'.val : Int) := by
    intro r c'
    have hm : (1 : Fin 2) ∉ d.scatterDimsToOperandDims := by subst hd; exact one_not_mem_zero
    have hk : (1 : Fin 2) ∈ d.sKept := by subst hd; exact List.mem_singleton.mpr rfl
    unfold ScatterDims.start ScatterDims.window
    rw [dif_neg hm, dif_pos hk, zero_add]
    subst hd
    rfl
  have hiff : ∀ (r : Fin R) (c' : Fin C), d.resultIdx? (ix2 r c') idx = some (ix2 n c) ↔
      ((idx (ix2 r (0 : Fin 1))).toInt = (n.val : Int) ∧ c' = c) := fun r c' => by
    rw [resultIdx?_eq_some_iff, Fin.forall_fin_two, hfst, hsnd]
    exact and_congr Iff.rfl (Nat.cast_inj.trans Fin.val_inj)
  unfold Host.scatterAdd
  rw [Ideal.hostScatterAdd_def]
  unfold Ideal.hostScatterAdd
  congr 1
  rw [Finset.sum_filter, sum_idx2]
  refine Finset.sum_congr rfl fun r _ => ?_
  by_cases hA : (idx (ix2 r (0 : Fin 1))).toInt = (n.val : Int)
  · rw [if_pos hA, Finset.sum_eq_single c]
    · rw [if_pos ((hiff r c).2 ⟨hA, rfl⟩)]
    · intro c' _ hne
      rw [if_neg (fun h => hne ((hiff r c').1 h).2)]
    · intro h
      exact absurd (Finset.mem_univ c) h
  · rw [if_neg hA]
    refine Finset.sum_eq_zero fun c' _ => ?_
    rw [if_neg (fun h => hA ((hiff r c').1 h).1)]

end Cert.LibGatherScatter

end
-- ==== Proof.LibPairScatter.lean ====
import proofs.«132928_j20143396618969_2_alg».proof.Proof.LibGatherScatter
import Idealize.ShloMosaic.PureOps.Ideal
import Idealize.ShloMosaic.PureOps.Ideal.Laws
import Idealize.ShloMosaic.Lib.ValueIdx
import Idealize.ShloMosaic.Lib.ValueIdxRank1
import Idealize.ShloMosaic.Lib.StableHlo.Predicate

noncomputable section

namespace Cert.LibPairScatter

open Idealize.ShloMosaic Idealize.ShloMosaic.ValueIdx

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem mem_zero_one : ∀ a : Fin 2, a ∈ [(0 : Fin 2), 1] := by decide

-- Both operand axes are inserted and start-indexed: on axis `a` update `r` starts at word `a` of its index row, with window coordinate 0.
theorem pairScatterAdd_apply {N1 N2 R w : Nat} (d : ScatterDims ⟨2, ![N1, N2]⟩ ⟨2, ![R, 2]⟩ ⟨1, ![R]⟩)
    (huw : d.updateWindowDims = []) (hiw : d.insertedWindowDims = [0, 1]) (hsd : d.scatterDimsToOperandDims = [0, 1])
    (hivd : d.indexVectorDim = 1)
    (x : FVec Ideal ⟨2, ![N1, N2]⟩ .f32) (idx : IVec ⟨2, ![R, 2]⟩ w) (upd : FVec Ideal ⟨1, ![R]⟩ .f32) (n1 : Fin N1) (n2 : Fin N2) :
    Host.scatterAdd d x idx upd (ix2 n1 n2)
      = x (ix2 n1 n2) + ∑ r : Fin R, if (idx (ix2 r (0 : Fin 2))).toInt = (n1.val : Int) ∧ (idx (ix2 r (1 : Fin 2))).toInt = (n2.val : Int) then upd (ix1 r) else 0 := by
  obtain ⟨uw, iw, sd, iv, wf⟩ := d
  simp only at huw hiw hsd hivd
  subst huw hiw hsd hivd
  generalize hd : (⟨[], [0, 1], [0, 1], 1, wf⟩ : ScatterDims ⟨2, ![N1, N2]⟩ ⟨2, ![R, 2]⟩ ⟨1, ![R]⟩) = d
  have hs : ∀ (r : Fin R) (a : Fin 2), d.start (ix1 r) idx a + (d.window (ix1 r) a : Int) = (idx (ix2 r a)).toInt := by
    intro r a
    have hm : a ∈ d.scatterDimsToOperandDims := by subst hd; exact mem_zero_one a
    have hk : a ∉ d.sKept := by subst hd; exact List.not_mem_nil
    have hsi : ∀ h, d.siIdx (ix1 r) ⟨List.idxOf a d.scatterDimsToOperandDims, h⟩ = ix2 r a := by
      subst hd
      intro h; funext b; refine Fin.ext ?_
      match a, b with
      | ⟨0, _⟩, ⟨0, _⟩ => rfl
      | ⟨0, _⟩, ⟨1, _⟩ => rfl
      | ⟨1, _⟩, ⟨0, _⟩ => rfl
      | ⟨1, _⟩, ⟨1, _⟩ => rfl
    unfold ScatterDims.start ScatterDims.window
    rw [dif_pos hm, dif_neg hk, hsi, Nat.cast_zero, add_zero]
  unfold Host.scatterAdd
  rw [Ideal.hostScatterAdd_def]
  unfold Ideal.hostScatterAdd
  congr 1
  rw [Finset.sum_filter, sum_idx1]
  refine Finset.sum_congr rfl fun r _ => if_congr ?_ rfl rfl
  rw [LibGatherScatter.resultIdx?_eq_some_iff, Fin.forall_fin_two, hs r 0, hs r 1]

end Cert.LibPairScatter

end
-- ==== Proof.KI.HostStretch.lean ====
import proofs.«132928_j20143396618969_2_alg».proof.Proof.Gen.KernelIdeal.Regions
import proofs.«132928_j20143396618969_2_alg».proof.Proof.Graph
import Idealize.ShloMosaic.Lib.Pipeline.Value
import Idealize.ShloMosaic.Lib.ValueIdx
import Idealize.ShloMosaic.Lib.StableHlo.Run

set_option maxRecDepth 16384

noncomputable section

namespace Cert.KernelIdeal.Val

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ) (c : Dev nD)

-- Evaluated at the joined matrix, the stretch leaves the two head matrices concatenated along the columns.
theorem host0_2_v48 (X : Valuation τ sig (Elt Ideal)) :
    StableHlo.after hostOps0_2 X (Proc.devRef .tc main_v48)
      = (concatenate S256x128 1 [⟨S256x64, (X main_arg8 : S256x64.Idx → EReal)⟩, ⟨S256x64, (X main_arg10 : S256x64.Idx → EReal)⟩]
          concatenates_S256x64_S256x64_S256x128_d1 : S256x128.Idx → EReal) := by
  dsimp only [Gen.hostOps0_2]
  after_results_simp
  rfl

-- Likewise the two head biases, concatenated.
theorem host0_2_v49 (X : Valuation τ sig (Elt Ideal)) :
    StableHlo.after hostOps0_2 X (Proc.devRef .tc main_v49)
      = (concatenate S128 0 [⟨S64, (X main_arg9 : S64.Idx → EReal)⟩, ⟨S64, (X main_arg11 : S64.Idx → EReal)⟩]
          concatenates_S64_S64_S128_d0 : S128.Idx → EReal) := by
  dsimp only [Gen.hostOps0_2]
  after_results_simp
  rfl

-- Neither of the first two stretches writes `r`, so it keeps its launch contents.
theorem V2_launch (r : Ref sig .tc) (h2 : r ∉ hostOps0_1_W) (h1 : r ∉ hostOps0_W) :
    Gen.V2 m c r = m ((c : Thread nD τ).loc r) :=
  (V2_of m c r h2).trans ((V1_of m c r h1).trans rfl)

theorem wcat_left_pf (k : Fin 256) (j : Fin 64) :
    Gen.V3 m c main_v48 (ix2 k (⟨j.val, by omega⟩ : Fin 128)) = m ((c : Thread nD τ).loc main_arg8) (ix2 k j) :=
  (congrFun (host0_2_v48 (Gen.V2 m c)) _).trans <| Eq.trans
    (concatenate_pair_apply_left 1 _ _ concatenates_S256x64_S256x64_S256x128_d1 _ rfl (ix2 k j)
      fun b => by match b with | ⟨0, _⟩ => rfl | ⟨1, _⟩ => rfl)
    (congrFun (V2_launch m c main_arg8 (by decide) (by decide)) _)

theorem wcat_right_pf (k : Fin 256) (j : Fin 64) :
    Gen.V3 m c main_v48 (ix2 k (⟨64 + j.val, by omega⟩ : Fin 128)) = m ((c : Thread nD τ).loc main_arg10) (ix2 k j) :=
  (congrFun (host0_2_v48 (Gen.V2 m c)) _).trans <| Eq.trans
    (concatenate_pair_apply_right 1 _ _ concatenates_S256x64_S256x64_S256x128_d1 _ rfl rfl (ix2 k j)
      (fun b hb => by match b with | ⟨0, _⟩ => rfl | ⟨1, _⟩ => exact absurd rfl hb) (Nat.add_comm j.val 64))
    (congrFun (V2_launch m c main_arg10 (by decide) (by decide)) _)

theorem bcat_left_pf (j : Fin 64) :
    Gen.V3 m c main_v49 (ix1 (⟨j.val, by omega⟩ : Fin 128)) = m ((c : Thread nD τ).loc main_arg9) (ix1 j) :=
  (congrFun (host0_2_v49 (Gen.V2 m c)) _).trans <| Eq.trans
    (concatenate_pair_apply_left 0 _ _ concatenates_S64_S64_S128_d0 _ rfl (ix1 j) fun b => by match b with | ⟨0, _⟩ => rfl)
    (congrFun (V2_launch m c main_arg9 (by decide) (by decide)) _)

theorem bcat_right_pf (j : Fin 64) :
    Gen.V3 m c main_v49 (ix1 (⟨64 + j.val, by omega⟩ : Fin 128)) = m ((c : Thread nD τ).loc main_arg11) (ix1 j) :=
  (congrFun (host0_2_v49 (Gen.V2 m c)) _).trans <| Eq.trans
    (concatenate_pair_apply_right 0 _ _ concatenates_S64_S64_S128_d0 _ rfl rfl (ix1 j)
      (fun b hb => by match b with | ⟨0, _⟩ => exact absurd rfl hb) (Nat.add_comm j.val 64))
    (congrFun (V2_launch m c main_arg11 (by decide) (by decide)) _)

end Cert.KernelIdeal.Val

end
-- ==== Proof.KI.Adj.lean ====
import proofs.«132928_j20143396618969_2_alg».proof.Proof.Gen.KernelIdeal.Regions
import proofs.«132928_j20143396618969_2_alg».proof.Proof.Graph
import proofs.«132928_j20143396618969_2_alg».proof.Proof.LibPairScatter
import proofs.«132928_j20143396618969_2_alg».proof.Proof.KI.HostStretch
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Val

open Idealize.ShloMosaic Idealize.ShloMosaic.TcCoe Idealize.SL.Sem Idealize.ShloMosaic.StableHlo
open Idealize.ShloMosaic.ValueIdx
open Cert.KernelIdeal Cert.KernelIdeal.Gen Cert.ReferenceIdeal.Read

variable (m : (ℓ : Loc nD τ sig) → Buf (Elt Ideal) ℓ) (c : Dev nD)

abbrev ins : Cert.Net.Inputs :=
  Cert.Graph.inputsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

-- Same operations on the same arguments: the words and weights the stretches compute are the reference's.
theorem v3_V2 : Gen.V2 m c main_v3 = val_main_v3 (F := Ideal) (m ((c : Thread nD τ).loc main_arg1)) :=
  (Gen.V2_of m c _ (by decide)).trans (by dsimp only [Gen.V1, Gen.V0, Gen.hostOps0]; after_results; rfl)

theorem v6_V2 : Gen.V2 m c main_v6 = val_main_v6 (F := Ideal) (m ((c : Thread nD τ).loc main_arg1)) :=
  (Gen.V2_of m c _ (by decide)).trans (by dsimp only [Gen.V1, Gen.V0, Gen.hostOps0]; after_results; rfl)

theorem v8_V2 : Gen.V2 m c main_v8 = val_main_v8 (F := Ideal) (m ((c : Thread nD τ).loc main_arg2)) :=
  (Gen.V2_of m c _ (by decide)).trans (by dsimp only [Gen.V1, Gen.V0, Gen.hostOps0]; after_results; rfl)

theorem v13_V1 : Gen.V1 m c main_v13 = val_main_v14 (F := Ideal) (m ((c : Thread nD τ).loc main_arg1)) (m ((c : Thread nD τ).loc main_arg2)) := by
  dsimp only [Gen.V1, Gen.V0, Gen.hostOps0]; after_results; rfl

theorem v14_V1 : Gen.V1 m c main_v14 = val_main_v15 (F := Ideal) (m ((c : Thread nD τ).loc main_arg1)) (m ((c : Thread nD τ).loc main_arg2)) := by
  dsimp only [Gen.V1, Gen.V0, Gen.hostOps0]; after_results; rfl

theorem cst2_V1 : Gen.V1 m c main_cst_2 = val_main_cst_2 (F := Ideal) := by
  dsimp only [Gen.V1, Gen.V0, Gen.hostOps0]; after_results; rfl

theorem v15_V2 : Gen.V2 m c main_v15 = val_main_v16 (F := Ideal) (m ((c : Thread nD τ).loc main_arg1)) (m ((c : Thread nD τ).loc main_arg2)) := by
  unfold val_main_v16 val_main_call0_v1 val_main_call0_v0
  rw [← v13_V1 m c, ← v14_V1 m c, ← cst2_V1 m c]
  show StableHlo.after Gen.hostOps0_1 (Gen.V1 m c) (Proc.devRef .tc main_v15) = _
  generalize Gen.V1 m c = W
  dsimp only [Gen.hostOps0_1]
  after_results
  rfl

-- So are the edge coefficients, computed from those words, weights and inverse square roots.
theorem norm_eq : Gen.V3 m c main_v31
    = val_main_v32 (F := Ideal) (m ((c : Thread nD τ).loc main_arg1)) (m ((c : Thread nD τ).loc main_arg2)) := by
  unfold val_main_v32 val_main_v24 val_main_v31 val_main_v23 val_main_v30 val_main_v29 val_main_v28 val_main_v27 val_main_v26 val_main_v25
    val_main_c_5 val_main_c_4 val_main_v22 val_main_v21 val_main_v20 val_main_v19 val_main_v18 val_main_v17 val_main_c val_main_c_3
  rw [← v3_V2 m c, ← v6_V2 m c, ← v8_V2 m c, ← v15_V2 m c]
  show StableHlo.after Gen.hostOps0_2 (Gen.V2 m c) (Proc.devRef .tc main_v31) = _
  generalize Gen.V2 m c = W
  dsimp only [Gen.hostOps0_2]
  after_results_simp
  rfl

-- The sign test fails on a non-negative word, so the select returns it.
theorem norm_word (w : BitVec 32) (h : 0 ≤ w.toInt) :
    Scalar.select (IntOp.cmpi .slt w 0#32) (IntOp.addi w 8192#32) w = w := by
  have hs : w.slt 0#32 = false := by
    rw [BitVec.slt, decide_eq_false_iff_not, show (0#32 : BitVec 32).toInt = 0 from rfl]
    omega
  show (if BitVec.ofBool (w.slt 0#32) = 1 then _ else _) = _
  rw [hs]
  exact if_neg (by decide)

def normW (w : IVec S270336 32) : IVec S270336 32 :=
  select (cmpi .slt w (broadcastInDim S270336 ![] bcast_S_S270336 (constantI S_ 32 0#32)))
    (addi w (broadcastInDim S270336 ![] bcast_S_S270336 (constantI S_ 32 8192#32))) w

theorem normW_apply (w : IVec S270336 32) (e : Fin 270336) :
    normW w (ix1 e) = Scalar.select (IntOp.cmpi .slt (w (ix1 e)) 0#32) (IntOp.addi (w (ix1 e)) 8192#32) (w (ix1 e)) := rfl

theorem col1_apply (w : IVec S270336 32) (e : Fin 270336) :
    broadcastInDim S270336x1 ![0] bcast_S270336_S270336x1_0 w (ix2 e (0 : Fin 1)) = w (ix1 e) :=
  broadcastInDim_apply _ bcast_S270336_S270336x1_0 w (ix2 e (0 : Fin 1)) (ix1 e) (fun a => match a with
    | ⟨0, _⟩ => by show e.val = if (270336 : Nat) = 1 then 0 else e.val; rw [if_neg (by decide)])

theorem pair_col0 (x y : IVec S270336x1 32) (e : Fin 270336) :
    concatenate S270336x2 1 [⟨S270336x1, x⟩, ⟨S270336x1, y⟩] concatenates_S270336x1_S270336x1_S270336x2_d1 (ix2 e (0 : Fin 2))
      = x (ix2 e (0 : Fin 1)) :=
  concatenate_pair_apply_left (1 : Fin 2) x y concatenates_S270336x1_S270336x1_S270336x2_d1 (ix2 e (0 : Fin 2)) rfl (ix2 e (0 : Fin 1))
    (fun b => match b with
      | ⟨0, _⟩ => rfl
      | ⟨1, _⟩ => rfl)

theorem pair_col1 (x y : IVec S270336x1 32) (e : Fin 270336) :
    concatenate S270336x2 1 [⟨S270336x1, x⟩, ⟨S270336x1, y⟩] concatenates_S270336x1_S270336x1_S270336x2_d1 (ix2 e (1 : Fin 2))
      = y (ix2 e (0 : Fin 1)) :=
  concatenate_pair_apply_right (1 : Fin 2) x y concatenates_S270336x1_S270336x1_S270336x2_d1 (ix2 e (1 : Fin 2)) rfl rfl (ix2 e (0 : Fin 1))
    (fun b => match b with
      | ⟨0, _⟩ => fun _ => rfl
      | ⟨1, _⟩ => fun h => absurd rfl h)
    rfl

-- Scattering from zero at the normalised word pairs sums, at each entry, the coefficients of the edges that name it.
theorem v47_at (W : Valuation τ sig (Elt Ideal)) {cw sw : IVec S270336 32} {u : FVec Ideal S270336 .f32}
    (hc : W (Proc.devRef .tc main_v6) = cw) (hs : W (Proc.devRef .tc main_v3) = sw)
    (hu : StableHlo.after Gen.hostOps0_2 W (Proc.devRef .tc main_v31) = u) (p r : Fin 8192) :
    StableHlo.after Gen.hostOps0_2 W (Proc.devRef .tc main_v47) (ix2 p r)
      = 0 + ∑ e : Fin 270336, if (normW cw (ix1 e)).toInt = (p.val : Int) ∧ (normW sw (ix1 e)).toInt = (r.val : Int)
        then u (ix1 e) else 0 := by
  subst hc hs
  have e : StableHlo.after Gen.hostOps0_2 W (Proc.devRef .tc main_v47)
      = truncf .bf16 (Host.scatterAdd scatter_S8192x8192_S270336x2_S270336_n_01_01_1
          (broadcastInDim S8192x8192 ![] bcast_S_S8192x8192 (constant (F := Ideal) S_ .f32 0x00000000#32))
          (concatenate S270336x2 1 [⟨S270336x1, broadcastInDim S270336x1 ![0] bcast_S270336_S270336x1_0 (normW (W (Proc.devRef .tc main_v6)))⟩,
            ⟨S270336x1, broadcastInDim S270336x1 ![0] bcast_S270336_S270336x1_0 (normW (W (Proc.devRef .tc main_v3)))⟩] concatenates_S270336x1_S270336x1_S270336x2_d1)
          u) bitsLt_bf16_f32 := by
    subst hu
    unfold normW
    dsimp only [Gen.hostOps0_2]
    after_results_simp
    rfl
  refine (congrFun e _).trans ?_
  show Host.scatterAdd scatter_S8192x8192_S270336x2_S270336_n_01_01_1 _ _ u (ix2 p r) = _
  rw [Cert.LibPairScatter.pairScatterAdd_apply _ rfl rfl rfl rfl]
  refine congrArg₂ (· + ·) Ideal.ofBits_zero_f32 (Finset.sum_congr rfl fun e _ => ?_)
  rw [pair_col0, pair_col1, col1_apply, col1_apply]

-- `nodeOf` of an in-range word has that word's signed value.
theorem toInt_eq_iff_nodeOf (w : BitVec 32) (h0 : 0 ≤ w.toInt) (h1 : w.toInt < 8192) (n : Fin 8192) :
    w.toInt = (n.val : Int) ↔ Cert.Graph.nodeOf w = n :=
  have hv := Cert.Graph.nodeOf_val w h0 h1
  ⟨fun h => Fin.ext (by exact_mod_cast hv.trans h), fun h => h ▸ hv.symm⟩

-- In-range words are fixed by the normalisation and name their nodes, so the scattered sums are the adjacency's.
theorem adj_value (hr : Cert.Graph.InRange (m ((c : Thread nD τ).loc main_arg1))) (p r : Fin 8192) :
    Gen.V3 m c main_v47 (ix2 p r) = Cert.Spec.adj (ins m c).nrm (ins m c).row (ins m c).col p r := by
  refine (v47_at (Gen.V2 m c) (v6_V2 m c) (v3_V2 m c) (norm_eq m c) p r).trans ?_
  unfold Cert.Spec.adj
  refine congrArg (0 + ·) (Finset.sum_congr rfl fun e _ => ?_)
  rw [normW_apply, normW_apply, norm_word _ (hr.col e).1, norm_word _ (hr.row e).1]
  have hc := toInt_eq_iff_nodeOf _ (hr.col e).1 (hr.col e).2 p
  have hw := toInt_eq_iff_nodeOf _ (hr.row e).1 (hr.row e).2 r
  by_cases h : (ins m c).col e = p ∧ (ins m c).row e = r
  · rw [if_pos h, if_pos ⟨hc.2 h.1, hw.2 h.2⟩]
    rfl
  · rw [if_neg h, if_neg (fun h' => h ⟨hc.1 h'.1, hw.1 h'.2⟩)]

end Cert.KernelIdeal.Val

end
-- ==== Proof.KI.Val0.lean ====
import proofs.«132928_j20143396618969_2_alg».proof.Proof.KI.R0
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.ShloMosaic.Tactic
open Idealize.SL Idealize.SL.Sem
open Idealize.ShloMosaic.ValueIdx
open Cert.KernelIdeal Cert.KernelIdeal.Gen Cert.KernelIdeal.Hand

theorem hz0 : (![0, 0] : Fin 2 → Nat) = fun _ => 0 := funext fun a => by fin_cases a <;> rfl

-- At the ideal values the payload at an index is the inner product of the row of the left block with the column of the right block: the zeros it is added to vanish.
theorem pay0_apply (x0 : S2048x512.Idx → EReal) (x1 : S512x256.Idx → EReal) (y : S2048x256.Idx) :
    k0_pay2 (F := Ideal) x0 x1 (k0_pay1 (F := Ideal)) y = ∑ k : Fin 512, x0 (ix2 (y 0) k) * x1 (ix2 k (y 1)) := by
  unfold k0_pay2 k0_pay1
  simp only [shapeCast_self]
  rw [addf_apply, broadcast_apply]
  simp only [matmul]
  rw [Ideal.matmul_constant_zero_apply]
  show Ideal.ofBits .f32 0x00000000#32 + _ = _
  rw [Ideal.ofBits_zero_f32, zero_add,
    ← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  refine congrArg₂ _ (congrArg x0 (funext fun a => Fin.ext ?_)) (congrArg x1 (funext fun a => Fin.ext ?_))
  · match a with
    | ⟨0, _⟩ => rfl
    | ⟨1, _⟩ => exact (dot_S2048x512_S512x256_S2048x256_1_0_0_1_n_n.lhsIdx_val_of_single rfl y _).trans hk
  · match a with
    | ⟨0, _⟩ => exact (dot_S2048x512_S512x256_S2048x256_1_0_0_1_n_n.rhsIdx_val_of_single rfl y _).trans hk
    | ⟨1, _⟩ => rfl

section Region
variable (V : (c : Dev nD) → (b : Ref sig .tc) → Buf (Elt Ideal) ((c : Thread nD τ).loc b))

abbrev xarr0 (c : Dev nD) : S8192x512.Idx → EReal := V c main_arg0
abbrev warr0 (c : Dev nD) : S512x256.Idx → EReal := V c main_arg4

def G0 (a : S8192x512.Idx → EReal) (b : S512x256.Idx → EReal) : S8192x256.Idx → EReal :=
  fun i => ∑ k : Fin 512, a (ix2 (i 0) k) * b (ix2 k (i 1))

theorem idx_facts0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_3.index t (0 : Fin 2) ≤ 3
    ∧ win0_3.index t (1 : Fin 2) = 0 :=
  (by decide +kernel : ∀ t : Fin grid0.N, _)

theorem idx_onto0 : ∀ (bi : Fin 4), ∃ t : Fin cfg0.N, win0_3.index t = ![bi.val, 0] :=
  (by decide +kernel : ∀ (bi : Fin 4), ∃ t : Fin grid0.N, win0_3.index t = ![bi.val, 0])

set_option maxHeartbeats 1000000 in
-- The output block at a point is the accumulator's second store, the zero fill plus the block product, read back and copied out.
theorem outsAt0_eq (c : Dev nD) (t : Fin cfg0.N) :
    outsAt0 V c t = k0_pay2 (iblk0 V c 0 t) (iblk0 V c 1 t) (k0_pay1 (F := Ideal)) := by
  unfold outsAt0 out0_3 kernelRun0; dsimp only
  sl_unfold_run_names
  rw [View.canon_unit_zero (S := S2048x256) hz0]
  simp only [View.readCov_cons_toLoadRect, View.readAt_eq_ld, Memref.IsWhole.read_unread,
    View.ld_unit_zero (S := S2048x512) hz0, View.ld_unit_zero (S := S512x256) hz0]

-- What a point writes back is its block of the product of the two argument arrays: the blocks' offsets line up.
theorem flushed0_eq (c : Dev nD) (t : Fin cfg0.N) :
    (dat0 V c).flushed 3 t = ((cfg0.win 3).blk t).view.read (Elt Ideal) (G0 (xarr0 V c) (warr0 V c)) := by
  show (cfg0.win 3).cut (grid0.coords t) ((dat0 V c).after 3 t) = _
  rw [after0_3, outsAt0_eq]
  obtain ⟨e0, e1, e2, e3, e4, e5⟩ := idx_facts0 t
  funext y
  refine (pay0_apply (iblk0 V c 0 t) (iblk0 V c 1 t) y).trans ?_
  show ∑ k : Fin 512, xarr0 V c (((cfg0.win 0).blk t).view.emb (ix2 (y 0) k)) * warr0 V c (((cfg0.win 1).blk t).view.emb (ix2 k (y 1)))
    = ∑ k : Fin 512, xarr0 V c (ix2 (((cfg0.win 3).blk t).view.emb y 0) k) * warr0 V c (ix2 k (((cfg0.win 3).blk t).view.emb y 1))
  refine Finset.sum_congr rfl fun k _ => congrArg₂ _ (congrArg _ (funext fun a => Fin.ext ?_)) (congrArg _ (funext fun a => Fin.ext ?_))
  · match a with
    | ⟨0, _⟩ => show win0_0.index t (0 : Fin 2) * 2048 + 1 * (y 0).val = win0_3.index t (0 : Fin 2) * 2048 + 1 * (y 0).val; omega
    | ⟨1, _⟩ => show win0_0.index t (1 : Fin 2) * 512 + 1 * k.val = k.val; omega
  · match a with
    | ⟨0, _⟩ => show win0_1.index t (0 : Fin 2) * 512 + 1 * k.val = k.val; omega
    | ⟨1, _⟩ => show win0_1.index t (1 : Fin 2) * 256 + 1 * (y 1).val = win0_3.index t (1 : Fin 2) * 256 + 1 * (y 1).val; omega

-- The row blocks tile the output array.
theorem covered0 (i : S8192x256.Idx) :
    ∃ t : Fin cfg0.N, (cfg0.win 3).flush t = true ∧ i ∈ ((cfg0.win 3).blk t).view.set := by
  have hi0 : (i 0).val < 8192 := (i 0).isLt
  have hi1 : (i 1).val < 256 := (i 1).isLt
  obtain ⟨t, ht⟩ := idx_onto0 ⟨(i 0).val / 2048, by omega⟩
  have hb0 : win0_3.index t (0 : Fin 2) = (i 0).val / 2048 := congrFun ht 0
  have hb1 : win0_3.index t (1 : Fin 2) = 0 := congrFun ht 1
  refine ⟨t, flush0_3 t, ?_⟩
  show i ∈ ((View.whole main_v51).slice (win0_3.rect t)).set
  rw [View.set_slice_whole, Rect.mem_set_unit]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 256 ≤ (i 1).val ∧ (i 1).val < win0_3.index t (1 : Fin 2) * 256 + 256; omega

theorem final0 (c : Dev nD) : (dat0 V c).arrAt 3 cfg0.N = G0 (xarr0 V c) (warr0 V c) :=
  (dat0 V c).arrAt_eq_of_cover 3 _ (fun t _ => flushed0_eq V c t) covered0

abbrev oarr0 (c : Dev nD) : S8192x256.Idx → EReal := (dat0 V c).arrAt 3 cfg0.N

-- Entry (i, j) of the output array is the inner product of row i of the first argument with column j of the second.
theorem val0 (c : Dev nD) (i : Fin 8192) (j : Fin 256) :
    oarr0 V c (ix2 i j) = ∑ k : Fin 512, xarr0 V c (ix2 i k) * warr0 V c (ix2 k j) := by
  show (dat0 V c).arrAt 3 cfg0.N (ix2 i j) = _
  rw [final0]; rfl

end Region

end Cert.KernelIdeal.Val

end
-- ==== Proof.KI.Val1.lean ====
import proofs.«132928_j20143396618969_2_alg».proof.Proof.KI.R1
import proofs.«132928_j20143396618969_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Hand
open scoped BigOperators

variable {F : FTy → Type} [FloatOps F]

namespace V1

theorem hz1 : (![0, 0] : Fin 2 → Nat) = fun _ => 0 := funext fun a => by fin_cases a <;> rfl

section Stores
variable (c : Dev nD) (i : grid1.Coords) (arg2 : Memref sig .tc .vmem S2048x2048 .bf16) (harg2 : arg2.IsWhole) (arg3 : Memref sig .tc .vmem S2048x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)
  (x0 : Vec F S2048x2048 .bf16) (x1 : Vec F S2048x256 .f32) (x2 : Vec F S1x256 .f32) (xs0 : Vec F S2048x256 .f32)

-- A whole block read through the full rectangle at offset zero gives back the contents it was given.
theorem rdw1 {S : Shape} {e : EltTy} {m : Memref sig .tc .vmem S e} (h : m.IsWhole) {off : Fin S.rank → Nat}
    (hz : off = fun _ => 0) (inb : ∀ a, off a + S.size a ≤ S.size a) (x : Vec F S e) :
    m.view.readAt (Elt F) (Rect.unit off S.size inb).toLoadRect (h.unread x) = x := by
  rw [View.readAt_eq_ld, h.read_unread, View.ld_unit_zero hz]

-- Each case's stores cover the whole block, so reading them back gives the stored value.
theorem sval1_A (hc0 : cond1_0 i) (hc1 : ¬cond1_1 i) :
    sout1_A_0 c i arg2 harg2 arg3 harg3 arg4 harg4 arg5 harg5 arg6 harg6 hc0 hc1 x0 x1 x2 = k1_pay2 x0 x1 (k1_pay1 (F := F)) := by
  unfold sout1_A_0
  rw [View.read_writes_eq_canon _ _ _ fun y => scover1_A_0 (y := y) ..]
  unfold kernelRun1_A
  dsimp only
  sl_unfold_words
  rw [View.canon_cons_unit_zero (S := S2048x256) hz1, View.readCov_unit_zero (S := S2048x256) _ hz1, rdw1 harg2 hz1, rdw1 harg3 hz1]

theorem sval1_B (hc0 : ¬cond1_0 i) (hc1 : ¬cond1_1 i) :
    sout1_B_0 c i arg2 harg2 arg3 harg3 arg4 harg4 arg5 harg5 arg6 harg6 hc0 hc1 x0 x1 x2 xs0 = k1_pay2 x0 x1 xs0 := by
  unfold sout1_B_0
  rw [View.read_writes_eq_canon _ _ _ fun y => scover1_B_0 (y := y) ..]
  unfold kernelRun1_B
  dsimp only
  sl_unfold_words
  rw [View.canon_unit_zero hz1, rdw1 harg2 hz1, rdw1 harg3 hz1, rdw1 harg6 hz1]

theorem sval1_C (hc0 : ¬cond1_0 i) (hc1 : cond1_1 i) :
    sout1_C_0 c i arg2 harg2 arg3 harg3 arg4 harg4 arg5 harg5 arg6 harg6 hc0 hc1 x0 x1 x2 xs0 = k1_pay2 x0 x1 xs0 := by
  unfold sout1_C_0
  rw [View.read_writes_eq_canon _ _ _ fun y => scover1_C_0 (y := y) ..]
  unfold kernelRun1_C
  dsimp only
  sl_unfold_words
  rw [View.canon_unit_zero hz1, rdw1 harg2 hz1, rdw1 harg3 hz1, rdw1 harg6 hz1]

theorem oval1_C (hc0 : ¬cond1_0 i) (hc1 : cond1_1 i) :
    out1_C_3 c i arg2 harg2 arg3 harg3 arg4 harg4 arg5 harg5 arg6 harg6 hc0 hc1 x0 x1 x2 xs0 = k1_pay3 (k1_pay2 x0 x1 xs0) x2 := by
  unfold out1_C_3
  rw [View.read_writes_eq_canon _ _ _ fun y => cover1_C_3 (y := y) ..]
  unfold kernelRun1_C
  dsimp only
  sl_unfold_words
  rw [View.canon_unit_zero hz1, View.readCov_unit_zero (S := S2048x256) _ hz1, rdw1 harg2 hz1, rdw1 harg3 hz1, rdw1 harg4 hz1, rdw1 harg6 hz1]

end Stores

section AtIdeal
open Idealize.ShloMosaic.ValueIdx

theorem kpay1_1 (y : S2048x256.Idx) : (k1_pay1 (F := Ideal)) y = 0 := by
  unfold k1_pay1
  simp only [shapeCast_self]
  exact Ideal.ofBits_zero_f32

-- The update adds to the accumulator a zero splat plus the block product, summed over the one contracted coordinate.
theorem kpay1_2 (x0 : Vec Ideal S2048x2048 .bf16) (x1 : Vec Ideal S2048x256 .f32) (acc : Vec Ideal S2048x256 .f32)
    (r : Fin 2048) (j : Fin 256) :
    k1_pay2 x0 x1 acc (ix2 r j) = acc (ix2 r j) + (0 + ∑ q : Fin 2048, x0 (ix2 r q) * x1 (ix2 q j)) := by
  unfold k1_pay2
  simp only [shapeCast_self]
  refine (addf_apply _ _ _).trans (congrArg (acc (ix2 r j) + ·) ?_)
  refine (Ideal.matmul_apply _ none _ _ _ (ix2 r j)).trans (congrArg₂ (· + ·) Ideal.ofBits_zero_f32 ?_)
  let e := contrEquiv1 dot_S2048x2048_S2048x256_S2048x256_1_0_0_1_n_n 2048 rfl rfl
  refine (Equiv.sum_comp e.symm _).symm.trans (Finset.sum_congr rfl fun q _ => ?_)
  have hq := contrEquiv1_symm_val dot_S2048x2048_S2048x256_S2048x256_1_0_0_1_n_n 2048 rfl rfl q
  exact congrArg₂ (· * ·) (congrArg x0 (Shape.idx_ext₂ rfl hq)) (congrArg x1 (Shape.idx_ext₂ hq rfl))

theorem kpay1_3 (acc : Vec Ideal S2048x256 .f32) (b : Vec Ideal S1x256 .f32) (r : Fin 2048) (j : Fin 256) :
    k1_pay3 acc b (ix2 r j) = max (acc (ix2 r j) + b (ix2 (0 : Fin 1) j)) 0 := by
  unfold k1_pay3
  simp only [shapeCast_self]
  refine (maximumf_apply _ _ _).trans (congrArg₂ max ?_ Ideal.ofBits_zero_f32)
  exact (addf_apply _ _ _).trans (congrArg (acc (ix2 r j) + ·) (broadcastTo_1b_ab_apply b _ r j))

variable (V : (c : Dev nD) → (b : Ref sig .tc) → Buf (Elt Ideal) ((c : Thread nD τ).loc b))

theorem widx1_0 : ∀ t : Fin cfg1.N, win1_0.index t 0 = t.val / 4 ∧ win1_0.index t 1 = t.val % 4 :=
  (by decide +kernel : ∀ t : Fin grid1.N, win1_0.index t 0 = t.val / 4 ∧ win1_0.index t 1 = t.val % 4)
theorem widx1_1 : ∀ t : Fin cfg1.N, win1_1.index t 0 = t.val % 4 ∧ win1_1.index t 1 = 0 :=
  (by decide +kernel : ∀ t : Fin grid1.N, win1_1.index t 0 = t.val % 4 ∧ win1_1.index t 1 = 0)
theorem widx1_2 : ∀ t : Fin cfg1.N, win1_2.index t 0 = 0 ∧ win1_2.index t 1 = 0 :=
  (by decide +kernel : ∀ t : Fin grid1.N, win1_2.index t 0 = 0 ∧ win1_2.index t 1 = 0)
theorem widx1_3 : ∀ t : Fin cfg1.N, win1_3.index t 0 = t.val / 4 ∧ win1_3.index t 1 = 0 :=
  (by decide +kernel : ∀ t : Fin grid1.N, win1_3.index t 0 = t.val / 4 ∧ win1_3.index t 1 = 0)

abbrev specA1 (c : Dev nD) : Fin Spec.NN → Fin Spec.NN → EReal := fun a r => V c main_v47 (ix2 a r)
abbrev specH1 (c : Dev nD) (j : Fin 256) : Fin Spec.NN → EReal := fun r => V c main_v51 (ix2 r j)
abbrev specB1 (c : Dev nD) (j : Fin 256) : EReal := V c main_v52 (ix2 (0 : Fin 1) j)

-- Point t = 4 a + k works on array rows 2048 a + r and on source nodes q of block k.
def rowOf1 (t : Fin cfg1.N) (r : Fin 2048) : Fin Spec.NN := Spec.blk ⟨t.val / 4, Nat.div_lt_of_lt_mul (lt_of_lt_of_eq t.isLt N_1)⟩ r
def colOf1 (t : Fin cfg1.N) (q : Fin 2048) : Fin Spec.NN := Spec.blk ⟨t.val % 4, Nat.mod_lt _ (by decide)⟩ q

theorem rdblk1_0 (c : Dev nD) (t : Fin cfg1.N) (r q : Fin 2048) :
    (iblk1 V c 0 t : Vec Ideal S2048x2048 .bf16) (ix2 r q) = V c main_v47 (ix2 (rowOf1 t r) (colOf1 t q)) := by
  unfold iblk1
  rw [View.read_apply]
  exact congrArg (V c main_v47) (Shape.idx_ext₂
    (by show win1_0.index t 0 * 2048 + 1 * r.val = t.val / 4 * 2048 + r.val; rw [(widx1_0 t).1]; omega)
    (by show win1_0.index t 1 * 2048 + 1 * q.val = t.val % 4 * 2048 + q.val; rw [(widx1_0 t).2]; omega))

theorem rdblk1_1 (c : Dev nD) (t : Fin cfg1.N) (q : Fin 2048) (j : Fin 256) :
    (iblk1 V c 1 t : Vec Ideal S2048x256 .f32) (ix2 q j) = V c main_v51 (ix2 (colOf1 t q) j) := by
  unfold iblk1
  rw [View.read_apply]
  exact congrArg (V c main_v51) (Shape.idx_ext₂
    (by show win1_1.index t 0 * 2048 + 1 * q.val = t.val % 4 * 2048 + q.val; rw [(widx1_1 t).1]; omega)
    (by show win1_1.index t 1 * 256 + 1 * j.val = j.val; rw [(widx1_1 t).2]; omega))

theorem rdblk1_2 (c : Dev nD) (t : Fin cfg1.N) (j : Fin 256) :
    (iblk1 V c 2 t : Vec Ideal S1x256 .f32) (ix2 (0 : Fin 1) j) = specB1 V c j := by
  unfold iblk1
  rw [View.read_apply]
  exact congrArg (V c main_v52) (Shape.idx_ext₂
    (by show win1_2.index t 0 * 1 + 1 * 0 = 0; rw [(widx1_2 t).1])
    (by show win1_2.index t 1 * 256 + 1 * j.val = j.val; rw [(widx1_2 t).2]; omega))

-- Block k's partial product (zero past the last block), and the accumulator after blocks 0 .. k.
def bd1 (A : Fin Spec.NN → Fin Spec.NN → EReal) (h : Fin Spec.NN → EReal) (i : Fin Spec.NN) (k : ℕ) : EReal :=
  if hk : k < Spec.NB then Spec.blockDot A h i ⟨k, hk⟩ else 0
def chain1 (A : Fin Spec.NN → Fin Spec.NN → EReal) (h : Fin Spec.NN → EReal) (i : Fin Spec.NN) : ℕ → EReal
  | 0 => 0 + bd1 A h i 0
  | k + 1 => chain1 A h i k + bd1 A h i (k + 1)

-- One point's update adds its block's partial product of its array row.
theorem step1 (c : Dev nD) (t : Fin cfg1.N) (acc : Vec Ideal S2048x256 .f32) (r : Fin 2048) (j : Fin 256) :
    k1_pay2 (iblk1 V c 0 t) (iblk1 V c 1 t) acc (ix2 r j)
      = acc (ix2 r j) + bd1 (specA1 V c) (specH1 V c j) (rowOf1 t r) (t.val % 4) := by
  refine (kpay1_2 (iblk1 V c 0 t) (iblk1 V c 1 t) acc r j).trans (congrArg (acc (ix2 r j) + ·) ?_)
  unfold bd1
  rw [dif_pos (Nat.mod_lt _ (by decide))]
  exact congrArg (0 + ·) (Finset.sum_congr rfl fun q _ => congrArg₂ (· * ·) (rdblk1_0 V c t r q) (rdblk1_1 V c t q j))

-- What the accumulator holds after a point: reset where t ≡ 0 mod 4, else carried from the point before.
theorem acc1_A (c : Dev nD) (j : Fin 256) (t : Fin cfg1.N) (h0 : t.val % 4 = 0) (r : Fin 2048) :
    (outsAt1 V c t.val t.isLt).2 (ix2 r j) = chain1 (specA1 V c) (specH1 V c j) (rowOf1 t r) (t.val % 4) := by
  rw [outsAt1_A V c t h0 (by omega), sval1_A]
  dsimp only
  rw [step1, kpay1_1, h0]
  rfl

theorem acc1_BC (c : Dev nD) (t : Fin cfg1.N) (h0 : ¬t.val % 4 = 0) :
    (outsAt1 V c t.val t.isLt).2
      = k1_pay2 (iblk1 V c 0 t) (iblk1 V c 1 t) (outsAt1 V c (t.val - 1) (Nat.lt_of_le_of_lt (Nat.sub_le _ _) t.isLt)).2 := by
  by_cases h1 : t.val % 4 = 3
  · rw [outsAt1_C V c t h0 h1, sval1_C]
  · rw [outsAt1_B V c t h0 h1, sval1_B]

theorem oacc1 (c : Dev nD) (t : Fin cfg1.N) (h1 : t.val % 4 = 3) :
    (outsAt1 V c t.val t.isLt).1 = k1_pay3 (outsAt1 V c t.val t.isLt).2 (iblk1 V c 2 t) := by
  rw [outsAt1_C V c t (by omega) h1, oval1_C, sval1_C]

-- After point n = 4 a + k the accumulator's row r holds the chain of blocks 0 .. k of array row 2048 a + r.
theorem acc1_eq (c : Dev nD) (j : Fin 256) : ∀ (n : ℕ) (hn : n < cfg1.N) (r : Fin 2048),
    (outsAt1 V c n hn).2 (ix2 r j) = chain1 (specA1 V c) (specH1 V c j) (rowOf1 ⟨n, hn⟩ r) (n % 4)
  | 0, hn, r => acc1_A V c j ⟨0, hn⟩ rfl r
  | n + 1, hn, r => by
    by_cases h0 : (n + 1) % 4 = 0
    · exact acc1_A V c j ⟨n + 1, hn⟩ h0 r
    · refine (congrFun (acc1_BC V c ⟨n + 1, hn⟩ h0) _).trans ((step1 V c _ _ r j).trans ?_)
      show (outsAt1 V c n _).2 _ + bd1 _ _ _ ((n + 1) % 4) = chain1 _ _ _ ((n + 1) % 4)
      have e : rowOf1 ⟨n + 1, hn⟩ r = rowOf1 ⟨n, Nat.lt_of_succ_lt hn⟩ r :=
        Fin.ext (by show (n + 1) / 4 * 2048 + r.val = n / 4 * 2048 + r.val; omega)
      rw [acc1_eq c j n _ r, e, show (n + 1) % 4 = n % 4 + 1 from by omega]
      rfl

-- At a point t ≡ 3 mod 4 the stored block is the blocked aggregation of its rows.
theorem oblk1_eq (c : Dev nD) (j : Fin 256) (t : Fin cfg1.N) (h1 : t.val % 4 = 3) (r : Fin 2048) :
    (outsAt1 V c t.val t.isLt).1 (ix2 r j) = Spec.kerAgg (specA1 V c) (specH1 V c j) (specB1 V c j) (rowOf1 t r) := by
  rw [oacc1 V c t h1, kpay1_3, acc1_eq V c j t.val t.isLt r, rdblk1_2, h1]
  rfl

def result1 (c : Dev nD) : Buf (Elt Ideal) ((c : Thread nD τ).loc main_v53) :=
  fun y => Spec.kerAgg (specA1 V c) (specH1 V c (y 1)) (specB1 V c (y 1)) (y 0)

-- Element y of point t's output block sits in the result array at row 2048 (t / 4) + y 0, column y 1.
theorem emb1 (t : Fin cfg1.N) (y : S2048x256.Idx) : ((cfg1.win 3).blk t).view.emb y = ix2 (rowOf1 t (y 0)) (y 1) :=
  Shape.idx_ext₂ (by show win1_3.index t 0 * 2048 + 1 * (y 0).val = t.val / 4 * 2048 + (y 0).val; rw [(widx1_3 t).1]; omega)
    (by show win1_3.index t 1 * 256 + 1 * (y 1).val = (y 1).val; rw [(widx1_3 t).2]; omega)

theorem flushed1_eq (c : Dev nD) (t : Fin cfg1.N) (hf : (cfg1.win 3).flush t = true) :
    (dat1 V c).flushed 3 t = ((cfg1.win 3).blk t).view.read (Elt Ideal) (result1 V c) := by
  show (cfg1.win 3).cut (grid1.coords t) ((dat1 V c).after 3 t) = _
  rw [after1_3]
  funext y
  show (outsAt1 V c t.val t.isLt).1 y = result1 V c (((cfg1.win 3).blk t).view.emb y)
  rw [emb1, eq_ix2 (n0 := 2048) (n1 := 256) y]
  exact oblk1_eq V c (y 1) t ((flush1_3 t).mp hf) (y 0)

-- Row i 0 of the result array lies in the block written back at point 4 (i 0 / 2048) + 3.
theorem covered1 (i : S8192x256.Idx) : ∃ t : Fin cfg1.N, (cfg1.win 3).flush t = true ∧ i ∈ ((cfg1.win 3).blk t).view.set := by
  have hi : (i 0).val < 8192 := (i 0).isLt
  obtain ⟨t, ht⟩ : ∃ t : Fin cfg1.N, t.val = 4 * ((i 0).val / 2048) + 3 :=
    ⟨⟨_, by rw [show cfg1.N = 16 from N_1]; omega⟩, rfl⟩
  refine ⟨t, (flush1_3 t).mpr (by omega), ?_⟩
  have e : i = ((cfg1.win 3).blk t).view.emb (ix2 ⟨(i 0).val % 2048, Nat.mod_lt _ (by decide)⟩ (i 1)) := by
    rw [emb1]
    exact Shape.idx_ext₂ (by show (i 0).val = t.val / 4 * 2048 + (i 0).val % 2048; omega) rfl
  rw [e]
  exact View.emb_mem_set _ _

end AtIdeal

end V1

open Idealize.ShloMosaic.ValueIdx V1 in
theorem val1 (V : (c : Dev nD) → (b : Ref sig .tc) → Buf (Elt Ideal) ((c : Thread nD τ).loc b)) (c : Dev nD) (i : Fin 8192) (j : Fin 256) :
    (Hand.dat1 V c).arrAt 3 cfg1.N (ix2 i j)
      = Cert.Spec.kerAgg (fun a r => V c main_v47 (ix2 a r)) (fun r => V c main_v51 (ix2 r j)) (V c main_v52 (ix2 (0 : Fin 1) j)) i :=
  congrFun ((dat1 V c).arrAt_eq_of_cover 3 (result1 V c) (flushed1_eq V c) covered1) (ix2 i j)

end Cert.KernelIdeal.Val

end
-- ==== Proof.KI.Val2.lean ====
import proofs.«132928_j20143396618969_2_alg».proof.Proof.KI.R2
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.ShloMosaic.Tactic
open Idealize.SL Idealize.SL.Sem
open Idealize.ShloMosaic.ValueIdx
open Cert.KernelIdeal Cert.KernelIdeal.Gen Cert.KernelIdeal.Hand

theorem hz2 : (![0, 0] : Fin 2 → Nat) = fun _ => 0 := funext fun a => by fin_cases a <;> rfl

-- At the ideal values the payload at an index is the inner product of the row of the left block with the column of the right block: the zeros it is added to vanish.
theorem pay2_apply (x0 : S2048x256.Idx → EReal) (x1 : S256x256.Idx → EReal) (y : S2048x256.Idx) :
    k2_pay2 (F := Ideal) x0 x1 (k2_pay1 (F := Ideal)) y = ∑ k : Fin 256, x0 (ix2 (y 0) k) * x1 (ix2 k (y 1)) := by
  unfold k2_pay2 k2_pay1
  simp only [shapeCast_self]
  rw [addf_apply, broadcast_apply]
  simp only [matmul]
  rw [Ideal.matmul_constant_zero_apply]
  show Ideal.ofBits .f32 0x00000000#32 + _ = _
  rw [Ideal.ofBits_zero_f32, zero_add,
    ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  refine congrArg₂ _ (congrArg x0 (funext fun a => Fin.ext ?_)) (congrArg x1 (funext fun a => Fin.ext ?_))
  · match a with
    | ⟨0, _⟩ => rfl
    | ⟨1, _⟩ => exact (dot_S2048x256_S256x256_S2048x256_1_0_0_1_n_n.lhsIdx_val_of_single rfl y _).trans hk
  · match a with
    | ⟨0, _⟩ => exact (dot_S2048x256_S256x256_S2048x256_1_0_0_1_n_n.rhsIdx_val_of_single rfl y _).trans hk
    | ⟨1, _⟩ => rfl

section Region
variable (V : (c : Dev nD) → (b : Ref sig .tc) → Buf (Elt Ideal) ((c : Thread nD τ).loc b))

abbrev xarr2 (c : Dev nD) : S8192x256.Idx → EReal := V c main_v53
abbrev warr2 (c : Dev nD) : S256x256.Idx → EReal := V c main_arg6

def G2 (a : S8192x256.Idx → EReal) (b : S256x256.Idx → EReal) : S8192x256.Idx → EReal :=
  fun i => ∑ k : Fin 256, a (ix2 (i 0) k) * b (ix2 k (i 1))

theorem idx_facts2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_3.index t (0 : Fin 2) ≤ 3
    ∧ win2_3.index t (1 : Fin 2) = 0 :=
  (by decide +kernel : ∀ t : Fin grid2.N, _)

theorem idx_onto2 : ∀ (bi : Fin 4), ∃ t : Fin cfg2.N, win2_3.index t = ![bi.val, 0] :=
  (by decide +kernel : ∀ (bi : Fin 4), ∃ t : Fin grid2.N, win2_3.index t = ![bi.val, 0])

set_option maxHeartbeats 1000000 in
-- The output block at a point is the accumulator's second store, the zero fill plus the block product, read back and copied out.
theorem outsAt2_eq (c : Dev nD) (t : Fin cfg2.N) :
    outsAt2 V c t = k2_pay2 (iblk2 V c 0 t) (iblk2 V c 1 t) (k2_pay1 (F := Ideal)) := by
  unfold outsAt2 out2_3 kernelRun2; dsimp only
  sl_unfold_run_names
  rw [View.canon_unit_zero (S := S2048x256) hz2]
  simp only [View.readCov_cons_toLoadRect, View.readAt_eq_ld, Memref.IsWhole.read_unread,
    View.ld_unit_zero (S := S2048x256) hz2, View.ld_unit_zero (S := S256x256) hz2]

-- What a point writes back is its block of the product of the two argument arrays: the blocks' offsets line up.
theorem flushed2_eq (c : Dev nD) (t : Fin cfg2.N) :
    (dat2 V c).flushed 3 t = ((cfg2.win 3).blk t).view.read (Elt Ideal) (G2 (xarr2 V c) (warr2 V c)) := by
  show (cfg2.win 3).cut (grid2.coords t) ((dat2 V c).after 3 t) = _
  rw [after2_3, outsAt2_eq]
  obtain ⟨e0, e1, e2, e3, e4, e5⟩ := idx_facts2 t
  funext y
  refine (pay2_apply (iblk2 V c 0 t) (iblk2 V c 1 t) y).trans ?_
  show ∑ k : Fin 256, xarr2 V c (((cfg2.win 0).blk t).view.emb (ix2 (y 0) k)) * warr2 V c (((cfg2.win 1).blk t).view.emb (ix2 k (y 1)))
    = ∑ k : Fin 256, xarr2 V c (ix2 (((cfg2.win 3).blk t).view.emb y 0) k) * warr2 V c (ix2 k (((cfg2.win 3).blk t).view.emb y 1))
  refine Finset.sum_congr rfl fun k _ => congrArg₂ _ (congrArg _ (funext fun a => Fin.ext ?_)) (congrArg _ (funext fun a => Fin.ext ?_))
  · match a with
    | ⟨0, _⟩ => show win2_0.index t (0 : Fin 2) * 2048 + 1 * (y 0).val = win2_3.index t (0 : Fin 2) * 2048 + 1 * (y 0).val; omega
    | ⟨1, _⟩ => show win2_0.index t (1 : Fin 2) * 256 + 1 * k.val = k.val; omega
  · match a with
    | ⟨0, _⟩ => show win2_1.index t (0 : Fin 2) * 256 + 1 * k.val = k.val; omega
    | ⟨1, _⟩ => show win2_1.index t (1 : Fin 2) * 256 + 1 * (y 1).val = win2_3.index t (1 : Fin 2) * 256 + 1 * (y 1).val; omega

-- The row blocks tile the output array.
theorem covered2 (i : S8192x256.Idx) :
    ∃ t : Fin cfg2.N, (cfg2.win 3).flush t = true ∧ i ∈ ((cfg2.win 3).blk t).view.set := by
  have hi0 : (i 0).val < 8192 := (i 0).isLt
  have hi1 : (i 1).val < 256 := (i 1).isLt
  obtain ⟨t, ht⟩ := idx_onto2 ⟨(i 0).val / 2048, by omega⟩
  have hb0 : win2_3.index t (0 : Fin 2) = (i 0).val / 2048 := congrFun ht 0
  have hb1 : win2_3.index t (1 : Fin 2) = 0 := congrFun ht 1
  refine ⟨t, flush2_3 t, ?_⟩
  show i ∈ ((View.whole main_v55).slice (win2_3.rect t)).set
  rw [View.set_slice_whole, Rect.mem_set_unit]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 256 ≤ (i 1).val ∧ (i 1).val < win2_3.index t (1 : Fin 2) * 256 + 256; omega

theorem final2 (c : Dev nD) : (dat2 V c).arrAt 3 cfg2.N = G2 (xarr2 V c) (warr2 V c) :=
  (dat2 V c).arrAt_eq_of_cover 3 _ (fun t _ => flushed2_eq V c t) covered2

abbrev oarr2 (c : Dev nD) : S8192x256.Idx → EReal := (dat2 V c).arrAt 3 cfg2.N

-- Entry (i, j) of the output array is the inner product of row i of the first argument with column j of the second.
theorem val2 (c : Dev nD) (i : Fin 8192) (j : Fin 256) :
    oarr2 V c (ix2 i j) = ∑ k : Fin 256, xarr2 V c (ix2 i k) * warr2 V c (ix2 k j) := by
  show (dat2 V c).arrAt 3 cfg2.N (ix2 i j) = _
  rw [final2]; rfl

end Region

end Cert.KernelIdeal.Val

end
-- ==== Proof.KI.Val3.lean ====
import proofs.«132928_j20143396618969_2_alg».proof.Proof.KI.R3
import proofs.«132928_j20143396618969_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Hand
open scoped BigOperators

variable {F : FTy → Type} [FloatOps F]

namespace V3

theorem hz3 : (![0, 0] : Fin 2 → Nat) = fun _ => 0 := funext fun a => by fin_cases a <;> rfl

section Stores
variable (c : Dev nD) (i : grid3.Coords) (arg2 : Memref sig .tc .vmem S2048x2048 .bf16) (harg2 : arg2.IsWhole) (arg3 : Memref sig .tc .vmem S2048x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)
  (x0 : Vec F S2048x2048 .bf16) (x1 : Vec F S2048x256 .f32) (x2 : Vec F S1x256 .f32) (xs0 : Vec F S2048x256 .f32)

-- A whole block read through the full rectangle at offset zero gives back the contents it was given.
theorem rdw3 {S : Shape} {e : EltTy} {m : Memref sig .tc .vmem S e} (h : m.IsWhole) {off : Fin S.rank → Nat}
    (hz : off = fun _ => 0) (inb : ∀ a, off a + S.size a ≤ S.size a) (x : Vec F S e) :
    m.view.readAt (Elt F) (Rect.unit off S.size inb).toLoadRect (h.unread x) = x := by
  rw [View.readAt_eq_ld, h.read_unread, View.ld_unit_zero hz]

-- Each case's stores cover the whole block, so reading them back gives the stored value.
theorem sval3_A (hc0 : cond3_0 i) (hc1 : ¬cond3_1 i) :
    sout3_A_0 c i arg2 harg2 arg3 harg3 arg4 harg4 arg5 harg5 arg6 harg6 hc0 hc1 x0 x1 x2 = k3_pay2 x0 x1 (k3_pay1 (F := F)) := by
  unfold sout3_A_0
  rw [View.read_writes_eq_canon _ _ _ fun y => scover3_A_0 (y := y) ..]
  unfold kernelRun3_A
  dsimp only
  sl_unfold_words
  rw [View.canon_cons_unit_zero (S := S2048x256) hz3, View.readCov_unit_zero (S := S2048x256) _ hz3, rdw3 harg2 hz3, rdw3 harg3 hz3]

theorem sval3_B (hc0 : ¬cond3_0 i) (hc1 : ¬cond3_1 i) :
    sout3_B_0 c i arg2 harg2 arg3 harg3 arg4 harg4 arg5 harg5 arg6 harg6 hc0 hc1 x0 x1 x2 xs0 = k3_pay2 x0 x1 xs0 := by
  unfold sout3_B_0
  rw [View.read_writes_eq_canon _ _ _ fun y => scover3_B_0 (y := y) ..]
  unfold kernelRun3_B
  dsimp only
  sl_unfold_words
  rw [View.canon_unit_zero hz3, rdw3 harg2 hz3, rdw3 harg3 hz3, rdw3 harg6 hz3]

theorem sval3_C (hc0 : ¬cond3_0 i) (hc1 : cond3_1 i) :
    sout3_C_0 c i arg2 harg2 arg3 harg3 arg4 harg4 arg5 harg5 arg6 harg6 hc0 hc1 x0 x1 x2 xs0 = k3_pay2 x0 x1 xs0 := by
  unfold sout3_C_0
  rw [View.read_writes_eq_canon _ _ _ fun y => scover3_C_0 (y := y) ..]
  unfold kernelRun3_C
  dsimp only
  sl_unfold_words
  rw [View.canon_unit_zero hz3, rdw3 harg2 hz3, rdw3 harg3 hz3, rdw3 harg6 hz3]

theorem oval3_C (hc0 : ¬cond3_0 i) (hc1 : cond3_1 i) :
    out3_C_3 c i arg2 harg2 arg3 harg3 arg4 harg4 arg5 harg5 arg6 harg6 hc0 hc1 x0 x1 x2 xs0 = k3_pay3 (k3_pay2 x0 x1 xs0) x2 := by
  unfold out3_C_3
  rw [View.read_writes_eq_canon _ _ _ fun y => cover3_C_3 (y := y) ..]
  unfold kernelRun3_C
  dsimp only
  sl_unfold_words
  rw [View.canon_unit_zero hz3, View.readCov_unit_zero (S := S2048x256) _ hz3, rdw3 harg2 hz3, rdw3 harg3 hz3, rdw3 harg4 hz3, rdw3 harg6 hz3]

end Stores

section AtIdeal
open Idealize.ShloMosaic.ValueIdx

theorem kpay3_1 (y : S2048x256.Idx) : (k3_pay1 (F := Ideal)) y = 0 := by
  unfold k3_pay1
  simp only [shapeCast_self]
  exact Ideal.ofBits_zero_f32

-- The update adds to the accumulator a zero splat plus the block product, summed over the one contracted coordinate.
theorem kpay3_2 (x0 : Vec Ideal S2048x2048 .bf16) (x1 : Vec Ideal S2048x256 .f32) (acc : Vec Ideal S2048x256 .f32)
    (r : Fin 2048) (j : Fin 256) :
    k3_pay2 x0 x1 acc (ix2 r j) = acc (ix2 r j) + (0 + ∑ q : Fin 2048, x0 (ix2 r q) * x1 (ix2 q j)) := by
  unfold k3_pay2
  simp only [shapeCast_self]
  refine (addf_apply _ _ _).trans (congrArg (acc (ix2 r j) + ·) ?_)
  refine (Ideal.matmul_apply _ none _ _ _ (ix2 r j)).trans (congrArg₂ (· + ·) Ideal.ofBits_zero_f32 ?_)
  let e := contrEquiv1 dot_S2048x2048_S2048x256_S2048x256_1_0_0_1_n_n 2048 rfl rfl
  refine (Equiv.sum_comp e.symm _).symm.trans (Finset.sum_congr rfl fun q _ => ?_)
  have hq := contrEquiv1_symm_val dot_S2048x2048_S2048x256_S2048x256_1_0_0_1_n_n 2048 rfl rfl q
  exact congrArg₂ (· * ·) (congrArg x0 (Shape.idx_ext₂ rfl hq)) (congrArg x1 (Shape.idx_ext₂ hq rfl))

theorem kpay3_3 (acc : Vec Ideal S2048x256 .f32) (b : Vec Ideal S1x256 .f32) (r : Fin 2048) (j : Fin 256) :
    k3_pay3 acc b (ix2 r j) = max (acc (ix2 r j) + b (ix2 (0 : Fin 1) j)) 0 := by
  unfold k3_pay3
  simp only [shapeCast_self]
  refine (maximumf_apply _ _ _).trans (congrArg₂ max ?_ Ideal.ofBits_zero_f32)
  exact (addf_apply _ _ _).trans (congrArg (acc (ix2 r j) + ·) (broadcastTo_1b_ab_apply b _ r j))

variable (V : (c : Dev nD) → (b : Ref sig .tc) → Buf (Elt Ideal) ((c : Thread nD τ).loc b))

theorem widx3_0 : ∀ t : Fin cfg3.N, win3_0.index t 0 = t.val / 4 ∧ win3_0.index t 1 = t.val % 4 :=
  (by decide +kernel : ∀ t : Fin grid3.N, win3_0.index t 0 = t.val / 4 ∧ win3_0.index t 1 = t.val % 4)
theorem widx3_1 : ∀ t : Fin cfg3.N, win3_1.index t 0 = t.val % 4 ∧ win3_1.index t 1 = 0 :=
  (by decide +kernel : ∀ t : Fin grid3.N, win3_1.index t 0 = t.val % 4 ∧ win3_1.index t 1 = 0)
theorem widx3_2 : ∀ t : Fin cfg3.N, win3_2.index t 0 = 0 ∧ win3_2.index t 1 = 0 :=
  (by decide +kernel : ∀ t : Fin grid3.N, win3_2.index t 0 = 0 ∧ win3_2.index t 1 = 0)
theorem widx3_3 : ∀ t : Fin cfg3.N, win3_3.index t 0 = t.val / 4 ∧ win3_3.index t 1 = 0 :=
  (by decide +kernel : ∀ t : Fin grid3.N, win3_3.index t 0 = t.val / 4 ∧ win3_3.index t 1 = 0)

abbrev specA3 (c : Dev nD) : Fin Spec.NN → Fin Spec.NN → EReal := fun a r => V c main_v47 (ix2 a r)
abbrev specH3 (c : Dev nD) (j : Fin 256) : Fin Spec.NN → EReal := fun r => V c main_v55 (ix2 r j)
abbrev specB3 (c : Dev nD) (j : Fin 256) : EReal := V c main_v56 (ix2 (0 : Fin 1) j)

-- Point t = 4 a + k works on array rows 2048 a + r and on source nodes q of block k.
def rowOf3 (t : Fin cfg3.N) (r : Fin 2048) : Fin Spec.NN := Spec.blk ⟨t.val / 4, Nat.div_lt_of_lt_mul (lt_of_lt_of_eq t.isLt N_3)⟩ r
def colOf3 (t : Fin cfg3.N) (q : Fin 2048) : Fin Spec.NN := Spec.blk ⟨t.val % 4, Nat.mod_lt _ (by decide)⟩ q

theorem rdblk3_0 (c : Dev nD) (t : Fin cfg3.N) (r q : Fin 2048) :
    (iblk3 V c 0 t : Vec Ideal S2048x2048 .bf16) (ix2 r q) = V c main_v47 (ix2 (rowOf3 t r) (colOf3 t q)) := by
  unfold iblk3
  rw [View.read_apply]
  exact congrArg (V c main_v47) (Shape.idx_ext₂
    (by show win3_0.index t 0 * 2048 + 1 * r.val = t.val / 4 * 2048 + r.val; rw [(widx3_0 t).1]; omega)
    (by show win3_0.index t 1 * 2048 + 1 * q.val = t.val % 4 * 2048 + q.val; rw [(widx3_0 t).2]; omega))

theorem rdblk3_1 (c : Dev nD) (t : Fin cfg3.N) (q : Fin 2048) (j : Fin 256) :
    (iblk3 V c 1 t : Vec Ideal S2048x256 .f32) (ix2 q j) = V c main_v55 (ix2 (colOf3 t q) j) := by
  unfold iblk3
  rw [View.read_apply]
  exact congrArg (V c main_v55) (Shape.idx_ext₂
    (by show win3_1.index t 0 * 2048 + 1 * q.val = t.val % 4 * 2048 + q.val; rw [(widx3_1 t).1]; omega)
    (by show win3_1.index t 1 * 256 + 1 * j.val = j.val; rw [(widx3_1 t).2]; omega))

theorem rdblk3_2 (c : Dev nD) (t : Fin cfg3.N) (j : Fin 256) :
    (iblk3 V c 2 t : Vec Ideal S1x256 .f32) (ix2 (0 : Fin 1) j) = specB3 V c j := by
  unfold iblk3
  rw [View.read_apply]
  exact congrArg (V c main_v56) (Shape.idx_ext₂
    (by show win3_2.index t 0 * 1 + 1 * 0 = 0; rw [(widx3_2 t).1])
    (by show win3_2.index t 1 * 256 + 1 * j.val = j.val; rw [(widx3_2 t).2]; omega))

-- Block k's partial product (zero past the last block), and the accumulator after blocks 0 .. k.
def bd3 (A : Fin Spec.NN → Fin Spec.NN → EReal) (h : Fin Spec.NN → EReal) (i : Fin Spec.NN) (k : ℕ) : EReal :=
  if hk : k < Spec.NB then Spec.blockDot A h i ⟨k, hk⟩ else 0
def chain3 (A : Fin Spec.NN → Fin Spec.NN → EReal) (h : Fin Spec.NN → EReal) (i : Fin Spec.NN) : ℕ → EReal
  | 0 => 0 + bd3 A h i 0
  | k + 1 => chain3 A h i k + bd3 A h i (k + 1)

-- One point's update adds its block's partial product of its array row.
theorem step3 (c : Dev nD) (t : Fin cfg3.N) (acc : Vec Ideal S2048x256 .f32) (r : Fin 2048) (j : Fin 256) :
    k3_pay2 (iblk3 V c 0 t) (iblk3 V c 1 t) acc (ix2 r j)
      = acc (ix2 r j) + bd3 (specA3 V c) (specH3 V c j) (rowOf3 t r) (t.val % 4) := by
  refine (kpay3_2 (iblk3 V c 0 t) (iblk3 V c 1 t) acc r j).trans (congrArg (acc (ix2 r j) + ·) ?_)
  unfold bd3
  rw [dif_pos (Nat.mod_lt _ (by decide))]
  exact congrArg (0 + ·) (Finset.sum_congr rfl fun q _ => congrArg₂ (· * ·) (rdblk3_0 V c t r q) (rdblk3_1 V c t q j))

-- What the accumulator holds after a point: reset where t ≡ 0 mod 4, else carried from the point before.
theorem acc3_A (c : Dev nD) (j : Fin 256) (t : Fin cfg3.N) (h0 : t.val % 4 = 0) (r : Fin 2048) :
    (outsAt3 V c t.val t.isLt).2 (ix2 r j) = chain3 (specA3 V c) (specH3 V c j) (rowOf3 t r) (t.val % 4) := by
  rw [outsAt3_A V c t h0 (by omega), sval3_A]
  dsimp only
  rw [step3, kpay3_1, h0]
  rfl

theorem acc3_BC (c : Dev nD) (t : Fin cfg3.N) (h0 : ¬t.val % 4 = 0) :
    (outsAt3 V c t.val t.isLt).2
      = k3_pay2 (iblk3 V c 0 t) (iblk3 V c 1 t) (outsAt3 V c (t.val - 1) (Nat.lt_of_le_of_lt (Nat.sub_le _ _) t.isLt)).2 := by
  by_cases h1 : t.val % 4 = 3
  · rw [outsAt3_C V c t h0 h1, sval3_C]
  · rw [outsAt3_B V c t h0 h1, sval3_B]

theorem oacc3 (c : Dev nD) (t : Fin cfg3.N) (h1 : t.val % 4 = 3) :
    (outsAt3 V c t.val t.isLt).1 = k3_pay3 (outsAt3 V c t.val t.isLt).2 (iblk3 V c 2 t) := by
  rw [outsAt3_C V c t (by omega) h1, oval3_C, sval3_C]

-- After point n = 4 a + k the accumulator's row r holds the chain of blocks 0 .. k of array row 2048 a + r.
theorem acc3_eq (c : Dev nD) (j : Fin 256) : ∀ (n : ℕ) (hn : n < cfg3.N) (r : Fin 2048),
    (outsAt3 V c n hn).2 (ix2 r j) = chain3 (specA3 V c) (specH3 V c j) (rowOf3 ⟨n, hn⟩ r) (n % 4)
  | 0, hn, r => acc3_A V c j ⟨0, hn⟩ rfl r
  | n + 1, hn, r => by
    by_cases h0 : (n + 1) % 4 = 0
    · exact acc3_A V c j ⟨n + 1, hn⟩ h0 r
    · refine (congrFun (acc3_BC V c ⟨n + 1, hn⟩ h0) _).trans ((step3 V c _ _ r j).trans ?_)
      show (outsAt3 V c n _).2 _ + bd3 _ _ _ ((n + 1) % 4) = chain3 _ _ _ ((n + 1) % 4)
      have e : rowOf3 ⟨n + 1, hn⟩ r = rowOf3 ⟨n, Nat.lt_of_succ_lt hn⟩ r :=
        Fin.ext (by show (n + 1) / 4 * 2048 + r.val = n / 4 * 2048 + r.val; omega)
      rw [acc3_eq c j n _ r, e, show (n + 1) % 4 = n % 4 + 1 from by omega]
      rfl

-- At a point t ≡ 3 mod 4 the stored block is the blocked aggregation of its rows.
theorem oblk3_eq (c : Dev nD) (j : Fin 256) (t : Fin cfg3.N) (h1 : t.val % 4 = 3) (r : Fin 2048) :
    (outsAt3 V c t.val t.isLt).1 (ix2 r j) = Spec.kerAgg (specA3 V c) (specH3 V c j) (specB3 V c j) (rowOf3 t r) := by
  rw [oacc3 V c t h1, kpay3_3, acc3_eq V c j t.val t.isLt r, rdblk3_2, h1]
  rfl

def result3 (c : Dev nD) : Buf (Elt Ideal) ((c : Thread nD τ).loc main_v57) :=
  fun y => Spec.kerAgg (specA3 V c) (specH3 V c (y 1)) (specB3 V c (y 1)) (y 0)

-- Element y of point t's output block sits in the result array at row 2048 (t / 4) + y 0, column y 1.
theorem emb3 (t : Fin cfg3.N) (y : S2048x256.Idx) : ((cfg3.win 3).blk t).view.emb y = ix2 (rowOf3 t (y 0)) (y 1) :=
  Shape.idx_ext₂ (by show win3_3.index t 0 * 2048 + 1 * (y 0).val = t.val / 4 * 2048 + (y 0).val; rw [(widx3_3 t).1]; omega)
    (by show win3_3.index t 1 * 256 + 1 * (y 1).val = (y 1).val; rw [(widx3_3 t).2]; omega)

theorem flushed3_eq (c : Dev nD) (t : Fin cfg3.N) (hf : (cfg3.win 3).flush t = true) :
    (dat3 V c).flushed 3 t = ((cfg3.win 3).blk t).view.read (Elt Ideal) (result3 V c) := by
  show (cfg3.win 3).cut (grid3.coords t) ((dat3 V c).after 3 t) = _
  rw [after3_3]
  funext y
  show (outsAt3 V c t.val t.isLt).1 y = result3 V c (((cfg3.win 3).blk t).view.emb y)
  rw [emb3, eq_ix2 (n0 := 2048) (n1 := 256) y]
  exact oblk3_eq V c (y 1) t ((flush3_3 t).mp hf) (y 0)

-- Row i 0 of the result array lies in the block written back at point 4 (i 0 / 2048) + 3.
theorem covered3 (i : S8192x256.Idx) : ∃ t : Fin cfg3.N, (cfg3.win 3).flush t = true ∧ i ∈ ((cfg3.win 3).blk t).view.set := by
  have hi : (i 0).val < 8192 := (i 0).isLt
  obtain ⟨t, ht⟩ : ∃ t : Fin cfg3.N, t.val = 4 * ((i 0).val / 2048) + 3 :=
    ⟨⟨_, by rw [show cfg3.N = 16 from N_3]; omega⟩, rfl⟩
  refine ⟨t, (flush3_3 t).mpr (by omega), ?_⟩
  have e : i = ((cfg3.win 3).blk t).view.emb (ix2 ⟨(i 0).val % 2048, Nat.mod_lt _ (by decide)⟩ (i 1)) := by
    rw [emb3]
    exact Shape.idx_ext₂ (by show (i 0).val = t.val / 4 * 2048 + (i 0).val % 2048; omega) rfl
  rw [e]
  exact View.emb_mem_set _ _

end AtIdeal

end V3

open Idealize.ShloMosaic.ValueIdx V3 in
theorem val3 (V : (c : Dev nD) → (b : Ref sig .tc) → Buf (Elt Ideal) ((c : Thread nD τ).loc b)) (c : Dev nD) (i : Fin 8192) (j : Fin 256) :
    (Hand.dat3 V c).arrAt 3 cfg3.N (ix2 i j)
      = Cert.Spec.kerAgg (fun a r => V c main_v47 (ix2 a r)) (fun r => V c main_v55 (ix2 r j)) (V c main_v56 (ix2 (0 : Fin 1) j)) i :=
  congrFun ((dat3 V c).arrAt_eq_of_cover 3 (result3 V c) (flushed3_eq V c) covered3) (ix2 i j)

end Cert.KernelIdeal.Val

end
-- ==== Proof.KI.Val4.lean ====
import proofs.«132928_j20143396618969_2_alg».proof.Proof.KI.R4
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.ShloMosaic.Tactic
open Idealize.SL Idealize.SL.Sem
open Idealize.ShloMosaic.ValueIdx
open Cert.KernelIdeal Cert.KernelIdeal.Gen Cert.KernelIdeal.Hand

theorem hz4 : (![0, 0] : Fin 2 → Nat) = fun _ => 0 := funext fun a => by fin_cases a <;> rfl

-- At the ideal values the payload at an index is the inner product of the row of the left block with the column of the right block: the zeros it is added to vanish.
theorem pay4_apply (x0 : S2048x256.Idx → EReal) (x1 : S256x128.Idx → EReal) (y : S2048x128.Idx) :
    k4_pay2 (F := Ideal) x0 x1 (k4_pay1 (F := Ideal)) y = ∑ k : Fin 256, x0 (ix2 (y 0) k) * x1 (ix2 k (y 1)) := by
  unfold k4_pay2 k4_pay1
  simp only [shapeCast_self]
  rw [addf_apply, broadcast_apply]
  simp only [matmul]
  rw [Ideal.matmul_constant_zero_apply]
  show Ideal.ofBits .f32 0x00000000#32 + _ = _
  rw [Ideal.ofBits_zero_f32, zero_add,
    ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  refine congrArg₂ _ (congrArg x0 (funext fun a => Fin.ext ?_)) (congrArg x1 (funext fun a => Fin.ext ?_))
  · match a with
    | ⟨0, _⟩ => rfl
    | ⟨1, _⟩ => exact (dot_S2048x256_S256x128_S2048x128_1_0_0_1_n_n.lhsIdx_val_of_single rfl y _).trans hk
  · match a with
    | ⟨0, _⟩ => exact (dot_S2048x256_S256x128_S2048x128_1_0_0_1_n_n.rhsIdx_val_of_single rfl y _).trans hk
    | ⟨1, _⟩ => rfl

section Region
variable (V : (c : Dev nD) → (b : Ref sig .tc) → Buf (Elt Ideal) ((c : Thread nD τ).loc b))

abbrev xarr4 (c : Dev nD) : S8192x256.Idx → EReal := V c main_v57
abbrev warr4 (c : Dev nD) : S256x128.Idx → EReal := V c main_v48

def G4 (a : S8192x256.Idx → EReal) (b : S256x128.Idx → EReal) : S8192x128.Idx → EReal :=
  fun i => ∑ k : Fin 256, a (ix2 (i 0) k) * b (ix2 k (i 1))

theorem idx_facts4 : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_3.index t (0 : Fin 2) ≤ 3
    ∧ win4_3.index t (1 : Fin 2) = 0 :=
  (by decide +kernel : ∀ t : Fin grid4.N, _)

theorem idx_onto4 : ∀ (bi : Fin 4), ∃ t : Fin cfg4.N, win4_3.index t = ![bi.val, 0] :=
  (by decide +kernel : ∀ (bi : Fin 4), ∃ t : Fin grid4.N, win4_3.index t = ![bi.val, 0])

set_option maxHeartbeats 1000000 in
-- The output block at a point is the accumulator's second store, the zero fill plus the block product, read back and copied out.
theorem outsAt4_eq (c : Dev nD) (t : Fin cfg4.N) :
    outsAt4 V c t = k4_pay2 (iblk4 V c 0 t) (iblk4 V c 1 t) (k4_pay1 (F := Ideal)) := by
  unfold outsAt4 out4_3 kernelRun4; dsimp only
  sl_unfold_run_names
  rw [View.canon_unit_zero (S := S2048x128) hz4]
  simp only [View.readCov_cons_toLoadRect, View.readAt_eq_ld, Memref.IsWhole.read_unread,
    View.ld_unit_zero (S := S2048x256) hz4, View.ld_unit_zero (S := S256x128) hz4]

-- What a point writes back is its block of the product of the two argument arrays: the blocks' offsets line up.
theorem flushed4_eq (c : Dev nD) (t : Fin cfg4.N) :
    (dat4 V c).flushed 3 t = ((cfg4.win 3).blk t).view.read (Elt Ideal) (G4 (xarr4 V c) (warr4 V c)) := by
  show (cfg4.win 3).cut (grid4.coords t) ((dat4 V c).after 3 t) = _
  rw [after4_3, outsAt4_eq]
  obtain ⟨e0, e1, e2, e3, e4, e5⟩ := idx_facts4 t
  funext y
  refine (pay4_apply (iblk4 V c 0 t) (iblk4 V c 1 t) y).trans ?_
  show ∑ k : Fin 256, xarr4 V c (((cfg4.win 0).blk t).view.emb (ix2 (y 0) k)) * warr4 V c (((cfg4.win 1).blk t).view.emb (ix2 k (y 1)))
    = ∑ k : Fin 256, xarr4 V c (ix2 (((cfg4.win 3).blk t).view.emb y 0) k) * warr4 V c (ix2 k (((cfg4.win 3).blk t).view.emb y 1))
  refine Finset.sum_congr rfl fun k _ => congrArg₂ _ (congrArg _ (funext fun a => Fin.ext ?_)) (congrArg _ (funext fun a => Fin.ext ?_))
  · match a with
    | ⟨0, _⟩ => show win4_0.index t (0 : Fin 2) * 2048 + 1 * (y 0).val = win4_3.index t (0 : Fin 2) * 2048 + 1 * (y 0).val; omega
    | ⟨1, _⟩ => show win4_0.index t (1 : Fin 2) * 256 + 1 * k.val = k.val; omega
  · match a with
    | ⟨0, _⟩ => show win4_1.index t (0 : Fin 2) * 256 + 1 * k.val = k.val; omega
    | ⟨1, _⟩ => show win4_1.index t (1 : Fin 2) * 128 + 1 * (y 1).val = win4_3.index t (1 : Fin 2) * 128 + 1 * (y 1).val; omega

-- The row blocks tile the output array.
theorem covered4 (i : S8192x128.Idx) :
    ∃ t : Fin cfg4.N, (cfg4.win 3).flush t = true ∧ i ∈ ((cfg4.win 3).blk t).view.set := by
  have hi0 : (i 0).val < 8192 := (i 0).isLt
  have hi1 : (i 1).val < 128 := (i 1).isLt
  obtain ⟨t, ht⟩ := idx_onto4 ⟨(i 0).val / 2048, by omega⟩
  have hb0 : win4_3.index t (0 : Fin 2) = (i 0).val / 2048 := congrFun ht 0
  have hb1 : win4_3.index t (1 : Fin 2) = 0 := congrFun ht 1
  refine ⟨t, flush4_3 t, ?_⟩
  show i ∈ ((View.whole main_v59).slice (win4_3.rect t)).set
  rw [View.set_slice_whole, Rect.mem_set_unit]
  intro a
  match a with
  | ⟨0, _⟩ => show win4_3.index t (0 : Fin 2) * 2048 ≤ (i 0).val ∧ (i 0).val < win4_3.index t (0 : Fin 2) * 2048 + 2048; omega
  | ⟨1, _⟩ => show win4_3.index t (1 : Fin 2) * 128 ≤ (i 1).val ∧ (i 1).val < win4_3.index t (1 : Fin 2) * 128 + 128; omega

theorem final4 (c : Dev nD) : (dat4 V c).arrAt 3 cfg4.N = G4 (xarr4 V c) (warr4 V c) :=
  (dat4 V c).arrAt_eq_of_cover 3 _ (fun t _ => flushed4_eq V c t) covered4

abbrev oarr4 (c : Dev nD) : S8192x128.Idx → EReal := (dat4 V c).arrAt 3 cfg4.N

-- Entry (i, j) of the output array is the inner product of row i of the first argument with column j of the second.
theorem val4 (c : Dev nD) (i : Fin 8192) (j : Fin 128) :
    oarr4 V c (ix2 i j) = ∑ k : Fin 256, xarr4 V c (ix2 i k) * warr4 V c (ix2 k j) := by
  show (dat4 V c).arrAt 3 cfg4.N (ix2 i j) = _
  rw [final4]; rfl

end Region

end Cert.KernelIdeal.Val

end
-- ==== Proof.KI.Val5.lean ====
import proofs.«132928_j20143396618969_2_alg».proof.Proof.KI.R5
import proofs.«132928_j20143396618969_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Hand
open scoped BigOperators

variable {F : FTy → Type} [FloatOps F]

namespace V5

theorem hz5 : (![0, 0] : Fin 2 → Nat) = fun _ => 0 := funext fun a => by fin_cases a <;> rfl

section Stores
variable (c : Dev nD) (i : grid5.Coords) (arg2 : Memref sig .tc .vmem S2048x2048 .bf16) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole)
  (x0 : Vec F S2048x2048 .bf16) (x1 : Vec F S2048x128 .f32) (x2 : Vec F S1x128 .f32) (xs0 : Vec F S2048x128 .f32)

-- A whole block read through the full rectangle at offset zero gives back the contents it was given.
theorem rdw5 {S : Shape} {e : EltTy} {m : Memref sig .tc .vmem S e} (h : m.IsWhole) {off : Fin S.rank → Nat}
    (hz : off = fun _ => 0) (inb : ∀ a, off a + S.size a ≤ S.size a) (x : Vec F S e) :
    m.view.readAt (Elt F) (Rect.unit off S.size inb).toLoadRect (h.unread x) = x := by
  rw [View.readAt_eq_ld, h.read_unread, View.ld_unit_zero hz]

-- Each case's stores cover the whole block, so reading them back gives the stored value.
theorem sval5_A (hc0 : cond5_0 i) (hc1 : ¬cond5_1 i) :
    sout5_A_0 c i arg2 harg2 arg3 harg3 arg4 harg4 arg5 harg5 arg6 harg6 hc0 hc1 x0 x1 x2 = k5_pay2 x0 x1 (k5_pay1 (F := F)) := by
  unfold sout5_A_0
  rw [View.read_writes_eq_canon _ _ _ fun y => scover5_A_0 (y := y) ..]
  unfold kernelRun5_A
  dsimp only
  sl_unfold_words
  rw [View.canon_cons_unit_zero (S := S2048x128) hz5, View.readCov_unit_zero (S := S2048x128) _ hz5, rdw5 harg2 hz5, rdw5 harg3 hz5]

theorem sval5_B (hc0 : ¬cond5_0 i) (hc1 : ¬cond5_1 i) :
    sout5_B_0 c i arg2 harg2 arg3 harg3 arg4 harg4 arg5 harg5 arg6 harg6 hc0 hc1 x0 x1 x2 xs0 = k5_pay2 x0 x1 xs0 := by
  unfold sout5_B_0
  rw [View.read_writes_eq_canon _ _ _ fun y => scover5_B_0 (y := y) ..]
  unfold kernelRun5_B
  dsimp only
  sl_unfold_words
  rw [View.canon_unit_zero hz5, rdw5 harg2 hz5, rdw5 harg3 hz5, rdw5 harg6 hz5]

theorem sval5_C (hc0 : ¬cond5_0 i) (hc1 : cond5_1 i) :
    sout5_C_0 c i arg2 harg2 arg3 harg3 arg4 harg4 arg5 harg5 arg6 harg6 hc0 hc1 x0 x1 x2 xs0 = k5_pay2 x0 x1 xs0 := by
  unfold sout5_C_0
  rw [View.read_writes_eq_canon _ _ _ fun y => scover5_C_0 (y := y) ..]
  unfold kernelRun5_C
  dsimp only
  sl_unfold_words
  rw [View.canon_unit_zero hz5, rdw5 harg2 hz5, rdw5 harg3 hz5, rdw5 harg6 hz5]

theorem oval5_C (hc0 : ¬cond5_0 i) (hc1 : cond5_1 i) :
    out5_C_3 c i arg2 harg2 arg3 harg3 arg4 harg4 arg5 harg5 arg6 harg6 hc0 hc1 x0 x1 x2 xs0 = k5_pay3 (k5_pay2 x0 x1 xs0) x2 := by
  unfold out5_C_3
  rw [View.read_writes_eq_canon _ _ _ fun y => cover5_C_3 (y := y) ..]
  unfold kernelRun5_C
  dsimp only
  sl_unfold_words
  rw [View.canon_unit_zero hz5, View.readCov_unit_zero (S := S2048x128) _ hz5, rdw5 harg2 hz5, rdw5 harg3 hz5, rdw5 harg4 hz5, rdw5 harg6 hz5]

end Stores

section AtIdeal
open Idealize.ShloMosaic.ValueIdx

theorem kpay5_1 (y : S2048x128.Idx) : (k5_pay1 (F := Ideal)) y = 0 := by
  unfold k5_pay1
  simp only [shapeCast_self]
  exact Ideal.ofBits_zero_f32

-- The update adds to the accumulator a zero splat plus the block product, summed over the one contracted coordinate.
theorem kpay5_2 (x0 : Vec Ideal S2048x2048 .bf16) (x1 : Vec Ideal S2048x128 .f32) (acc : Vec Ideal S2048x128 .f32)
    (r : Fin 2048) (j : Fin 128) :
    k5_pay2 x0 x1 acc (ix2 r j) = acc (ix2 r j) + (0 + ∑ q : Fin 2048, x0 (ix2 r q) * x1 (ix2 q j)) := by
  unfold k5_pay2
  simp only [shapeCast_self]
  refine (addf_apply _ _ _).trans (congrArg (acc (ix2 r j) + ·) ?_)
  refine (Ideal.matmul_apply _ none _ _ _ (ix2 r j)).trans (congrArg₂ (· + ·) Ideal.ofBits_zero_f32 ?_)
  let e := contrEquiv1 dot_S2048x2048_S2048x128_S2048x128_1_0_0_1_n_n 2048 rfl rfl
  refine (Equiv.sum_comp e.symm _).symm.trans (Finset.sum_congr rfl fun q _ => ?_)
  have hq := contrEquiv1_symm_val dot_S2048x2048_S2048x128_S2048x128_1_0_0_1_n_n 2048 rfl rfl q
  exact congrArg₂ (· * ·) (congrArg x0 (Shape.idx_ext₂ rfl hq)) (congrArg x1 (Shape.idx_ext₂ hq rfl))

theorem kpay5_3 (acc : Vec Ideal S2048x128 .f32) (b : Vec Ideal S1x128 .f32) (r : Fin 2048) (j : Fin 128) :
    k5_pay3 acc b (ix2 r j) = max (acc (ix2 r j) + b (ix2 (0 : Fin 1) j)) 0 := by
  unfold k5_pay3
  simp only [shapeCast_self]
  refine (maximumf_apply _ _ _).trans (congrArg₂ max ?_ Ideal.ofBits_zero_f32)
  exact (addf_apply _ _ _).trans (congrArg (acc (ix2 r j) + ·) (broadcastTo_1b_ab_apply b _ r j))

variable (V : (c : Dev nD) → (b : Ref sig .tc) → Buf (Elt Ideal) ((c : Thread nD τ).loc b))

theorem widx5_0 : ∀ t : Fin cfg5.N, win5_0.index t 0 = t.val / 4 ∧ win5_0.index t 1 = t.val % 4 :=
  (by decide +kernel : ∀ t : Fin grid5.N, win5_0.index t 0 = t.val / 4 ∧ win5_0.index t 1 = t.val % 4)
theorem widx5_1 : ∀ t : Fin cfg5.N, win5_1.index t 0 = t.val % 4 ∧ win5_1.index t 1 = 0 :=
  (by decide +kernel : ∀ t : Fin grid5.N, win5_1.index t 0 = t.val % 4 ∧ win5_1.index t 1 = 0)
theorem widx5_2 : ∀ t : Fin cfg5.N, win5_2.index t 0 = 0 ∧ win5_2.index t 1 = 0 :=
  (by decide +kernel : ∀ t : Fin grid5.N, win5_2.index t 0 = 0 ∧ win5_2.index t 1 = 0)
theorem widx5_3 : ∀ t : Fin cfg5.N, win5_3.index t 0 = t.val / 4 ∧ win5_3.index t 1 = 0 :=
  (by decide +kernel : ∀ t : Fin grid5.N, win5_3.index t 0 = t.val / 4 ∧ win5_3.index t 1 = 0)

abbrev specA5 (c : Dev nD) : Fin Spec.NN → Fin Spec.NN → EReal := fun a r => V c main_v47 (ix2 a r)
abbrev specH5 (c : Dev nD) (j : Fin 128) : Fin Spec.NN → EReal := fun r => V c main_v59 (ix2 r j)
abbrev specB5 (c : Dev nD) (j : Fin 128) : EReal := V c main_v60 (ix2 (0 : Fin 1) j)

-- Point t = 4 a + k works on array rows 2048 a + r and on source nodes q of block k.
def rowOf5 (t : Fin cfg5.N) (r : Fin 2048) : Fin Spec.NN := Spec.blk ⟨t.val / 4, Nat.div_lt_of_lt_mul (lt_of_lt_of_eq t.isLt N_5)⟩ r
def colOf5 (t : Fin cfg5.N) (q : Fin 2048) : Fin Spec.NN := Spec.blk ⟨t.val % 4, Nat.mod_lt _ (by decide)⟩ q

theorem rdblk5_0 (c : Dev nD) (t : Fin cfg5.N) (r q : Fin 2048) :
    (iblk5 V c 0 t : Vec Ideal S2048x2048 .bf16) (ix2 r q) = V c main_v47 (ix2 (rowOf5 t r) (colOf5 t q)) := by
  unfold iblk5
  rw [View.read_apply]
  exact congrArg (V c main_v47) (Shape.idx_ext₂
    (by show win5_0.index t 0 * 2048 + 1 * r.val = t.val / 4 * 2048 + r.val; rw [(widx5_0 t).1]; omega)
    (by show win5_0.index t 1 * 2048 + 1 * q.val = t.val % 4 * 2048 + q.val; rw [(widx5_0 t).2]; omega))

theorem rdblk5_1 (c : Dev nD) (t : Fin cfg5.N) (q : Fin 2048) (j : Fin 128) :
    (iblk5 V c 1 t : Vec Ideal S2048x128 .f32) (ix2 q j) = V c main_v59 (ix2 (colOf5 t q) j) := by
  unfold iblk5
  rw [View.read_apply]
  exact congrArg (V c main_v59) (Shape.idx_ext₂
    (by show win5_1.index t 0 * 2048 + 1 * q.val = t.val % 4 * 2048 + q.val; rw [(widx5_1 t).1]; omega)
    (by show win5_1.index t 1 * 128 + 1 * j.val = j.val; rw [(widx5_1 t).2]; omega))

theorem rdblk5_2 (c : Dev nD) (t : Fin cfg5.N) (j : Fin 128) :
    (iblk5 V c 2 t : Vec Ideal S1x128 .f32) (ix2 (0 : Fin 1) j) = specB5 V c j := by
  unfold iblk5
  rw [View.read_apply]
  exact congrArg (V c main_v60) (Shape.idx_ext₂
    (by show win5_2.index t 0 * 1 + 1 * 0 = 0; rw [(widx5_2 t).1])
    (by show win5_2.index t 1 * 128 + 1 * j.val = j.val; rw [(widx5_2 t).2]; omega))

-- Block k's partial product (zero past the last block), and the accumulator after blocks 0 .. k.
def bd5 (A : Fin Spec.NN → Fin Spec.NN → EReal) (h : Fin Spec.NN → EReal) (i : Fin Spec.NN) (k : ℕ) : EReal :=
  if hk : k < Spec.NB then Spec.blockDot A h i ⟨k, hk⟩ else 0
def chain5 (A : Fin Spec.NN → Fin Spec.NN → EReal) (h : Fin Spec.NN → EReal) (i : Fin Spec.NN) : ℕ → EReal
  | 0 => 0 + bd5 A h i 0
  | k + 1 => chain5 A h i k + bd5 A h i (k + 1)

-- One point's update adds its block's partial product of its array row.
theorem step5 (c : Dev nD) (t : Fin cfg5.N) (acc : Vec Ideal S2048x128 .f32) (r : Fin 2048) (j : Fin 128) :
    k5_pay2 (iblk5 V c 0 t) (iblk5 V c 1 t) acc (ix2 r j)
      = acc (ix2 r j) + bd5 (specA5 V c) (specH5 V c j) (rowOf5 t r) (t.val % 4) := by
  refine (kpay5_2 (iblk5 V c 0 t) (iblk5 V c 1 t) acc r j).trans (congrArg (acc (ix2 r j) + ·) ?_)
  unfold bd5
  rw [dif_pos (Nat.mod_lt _ (by decide))]
  exact congrArg (0 + ·) (Finset.sum_congr rfl fun q _ => congrArg₂ (· * ·) (rdblk5_0 V c t r q) (rdblk5_1 V c t q j))

-- What the accumulator holds after a point: reset where t ≡ 0 mod 4, else carried from the point before.
theorem acc5_A (c : Dev nD) (j : Fin 128) (t : Fin cfg5.N) (h0 : t.val % 4 = 0) (r : Fin 2048) :
    (outsAt5 V c t.val t.isLt).2 (ix2 r j) = chain5 (specA5 V c) (specH5 V c j) (rowOf5 t r) (t.val % 4) := by
  rw [outsAt5_A V c t h0 (by omega), sval5_A]
  dsimp only
  rw [step5, kpay5_1, h0]
  rfl

theorem acc5_BC (c : Dev nD) (t : Fin cfg5.N) (h0 : ¬t.val % 4 = 0) :
    (outsAt5 V c t.val t.isLt).2
      = k5_pay2 (iblk5 V c 0 t) (iblk5 V c 1 t) (outsAt5 V c (t.val - 1) (Nat.lt_of_le_of_lt (Nat.sub_le _ _) t.isLt)).2 := by
  by_cases h1 : t.val % 4 = 3
  · rw [outsAt5_C V c t h0 h1, sval5_C]
  · rw [outsAt5_B V c t h0 h1, sval5_B]

theorem oacc5 (c : Dev nD) (t : Fin cfg5.N) (h1 : t.val % 4 = 3) :
    (outsAt5 V c t.val t.isLt).1 = k5_pay3 (outsAt5 V c t.val t.isLt).2 (iblk5 V c 2 t) := by
  rw [outsAt5_C V c t (by omega) h1, oval5_C, sval5_C]

-- After point n = 4 a + k the accumulator's row r holds the chain of blocks 0 .. k of array row 2048 a + r.
theorem acc5_eq (c : Dev nD) (j : Fin 128) : ∀ (n : ℕ) (hn : n < cfg5.N) (r : Fin 2048),
    (outsAt5 V c n hn).2 (ix2 r j) = chain5 (specA5 V c) (specH5 V c j) (rowOf5 ⟨n, hn⟩ r) (n % 4)
  | 0, hn, r => acc5_A V c j ⟨0, hn⟩ rfl r
  | n + 1, hn, r => by
    by_cases h0 : (n + 1) % 4 = 0
    · exact acc5_A V c j ⟨n + 1, hn⟩ h0 r
    · refine (congrFun (acc5_BC V c ⟨n + 1, hn⟩ h0) _).trans ((step5 V c _ _ r j).trans ?_)
      show (outsAt5 V c n _).2 _ + bd5 _ _ _ ((n + 1) % 4) = chain5 _ _ _ ((n + 1) % 4)
      have e : rowOf5 ⟨n + 1, hn⟩ r = rowOf5 ⟨n, Nat.lt_of_succ_lt hn⟩ r :=
        Fin.ext (by show (n + 1) / 4 * 2048 + r.val = n / 4 * 2048 + r.val; omega)
      rw [acc5_eq c j n _ r, e, show (n + 1) % 4 = n % 4 + 1 from by omega]
      rfl

-- At a point t ≡ 3 mod 4 the stored block is the blocked aggregation of its rows.
theorem oblk5_eq (c : Dev nD) (j : Fin 128) (t : Fin cfg5.N) (h1 : t.val % 4 = 3) (r : Fin 2048) :
    (outsAt5 V c t.val t.isLt).1 (ix2 r j) = Spec.kerAgg (specA5 V c) (specH5 V c j) (specB5 V c j) (rowOf5 t r) := by
  rw [oacc5 V c t h1, kpay5_3, acc5_eq V c j t.val t.isLt r, rdblk5_2, h1]
  rfl

def result5 (c : Dev nD) : Buf (Elt Ideal) ((c : Thread nD τ).loc main_v61) :=
  fun y => Spec.kerAgg (specA5 V c) (specH5 V c (y 1)) (specB5 V c (y 1)) (y 0)

-- Element y of point t's output block sits in the result array at row 2048 (t / 4) + y 0, column y 1.
theorem emb5 (t : Fin cfg5.N) (y : S2048x128.Idx) : ((cfg5.win 3).blk t).view.emb y = ix2 (rowOf5 t (y 0)) (y 1) :=
  Shape.idx_ext₂ (by show win5_3.index t 0 * 2048 + 1 * (y 0).val = t.val / 4 * 2048 + (y 0).val; rw [(widx5_3 t).1]; omega)
    (by show win5_3.index t 1 * 128 + 1 * (y 1).val = (y 1).val; rw [(widx5_3 t).2]; omega)

theorem flushed5_eq (c : Dev nD) (t : Fin cfg5.N) (hf : (cfg5.win 3).flush t = true) :
    (dat5 V c).flushed 3 t = ((cfg5.win 3).blk t).view.read (Elt Ideal) (result5 V c) := by
  show (cfg5.win 3).cut (grid5.coords t) ((dat5 V c).after 3 t) = _
  rw [after5_3]
  funext y
  show (outsAt5 V c t.val t.isLt).1 y = result5 V c (((cfg5.win 3).blk t).view.emb y)
  rw [emb5, eq_ix2 (n0 := 2048) (n1 := 128) y]
  exact oblk5_eq V c (y 1) t ((flush5_3 t).mp hf) (y 0)

-- Row i 0 of the result array lies in the block written back at point 4 (i 0 / 2048) + 3.
theorem covered5 (i : S8192x128.Idx) : ∃ t : Fin cfg5.N, (cfg5.win 3).flush t = true ∧ i ∈ ((cfg5.win 3).blk t).view.set := by
  have hi : (i 0).val < 8192 := (i 0).isLt
  obtain ⟨t, ht⟩ : ∃ t : Fin cfg5.N, t.val = 4 * ((i 0).val / 2048) + 3 :=
    ⟨⟨_, by rw [show cfg5.N = 16 from N_5]; omega⟩, rfl⟩
  refine ⟨t, (flush5_3 t).mpr (by omega), ?_⟩
  have e : i = ((cfg5.win 3).blk t).view.emb (ix2 ⟨(i 0).val % 2048, Nat.mod_lt _ (by decide)⟩ (i 1)) := by
    rw [emb5]
    exact Shape.idx_ext₂ (by show (i 0).val = t.val / 4 * 2048 + (i 0).val % 2048; omega) rfl
  rw [e]
  exact View.emb_mem_set _ _

end AtIdeal

end V5

open Idealize.ShloMosaic.ValueIdx V5 in
theorem val5 (V : (c : Dev nD) → (b : Ref sig .tc) → Buf (Elt Ideal) ((c : Thread nD τ).loc b)) (c : Dev nD) (i : Fin 8192) (j : Fin 128) :
    (Hand.dat5 V c).arrAt 3 cfg5.N (ix2 i j)
      = Cert.Spec.kerAgg (fun a r => V c main_v47 (ix2 a r)) (fun r => V c main_v59 (ix2 r j)) (V c main_v60 (ix2 (0 : Fin 1) j)) i :=
  congrFun ((dat5 V c).arrAt_eq_of_cover 3 (result5 V c) (flushed5_eq V c) covered5) (ix2 i j)

end Cert.KernelIdeal.Val

end
-- ==== Proof.KI.Val6Piece.lean ====
import proofs.«132928_j20143396618969_2_alg».proof.Proof.KI.R6
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem

namespace Cert.KernelIdeal.Val.V6

open Cert.KernelIdeal Cert.KernelIdeal.Gen Cert.KernelIdeal.Hand

variable {F : FTy → Type} [FloatOps F]

variable (V : (c : Dev nD) → (b : Ref sig .tc) → Buf (Elt F) ((c : Thread nD τ).loc b))

theorem hz6 : (![0, 0] : Fin 2 → Nat) = fun _ => 0 := funext fun a => by fin_cases a <;> rfl

-- Strictly below the block diagonal the output block is the zero splat.
theorem outAt6_A (c : Dev nD) (t : Fin cfg6.N) (h : t.val / 8 > t.val % 8) : outAt6 V c t = k6_pay1 := by
  unfold outAt6
  rw [View.read_writes_eq_canon _ _ _ (cover6 V c t)]
  unfold run6At
  rw [dif_pos h]
  unfold kernelRun6_A
  dsimp only
  try sl_unfold_words
  rw [View.canon_unit_zero hz6]

-- On and above it, the body's arithmetic of the two input blocks.
theorem outAt6_B (c : Dev nD) (t : Fin cfg6.N) (h : ¬t.val / 8 > t.val % 8) : outAt6 V c t = k6_pay2 (grid6.coords t) (iblk6 V c 0 t) (iblk6 V c 1 t) := by
  unfold outAt6
  rw [View.read_writes_eq_canon _ _ _ (cover6 V c t)]
  unfold run6At
  rw [dif_neg h]
  unfold kernelRun6_B
  dsimp only
  try sl_unfold_words
  rw [View.canon_unit_zero hz6]
  simp only [View.readAt_eq_ld, (hs6_0 t).read_unread, (hs6_1 t).read_unread, View.ld_unit_zero (S := S1024x64) hz6]

end Cert.KernelIdeal.Val.V6

end
-- ==== Proof.KI.Val6Pay.lean ====
import proofs.«132928_j20143396618969_2_alg».proof.Proof.KI.Val6Piece
import Idealize.ShloMosaic.Lib.Affine

set_option maxRecDepth 16384

noncomputable section

open Idealize.ShloMosaic Idealize.ShloMosaic.TcCoe Idealize.SL.Sem

namespace Cert.KernelIdeal.Val.V6

open Cert.KernelIdeal Cert.KernelIdeal.Gen Cert.KernelIdeal.Hand

open Idealize.ShloMosaic.ValueIdx
open scoped BigOperators

-- The zero splat at an element.
theorem pay1_apply (y : S1024x1024.Idx) : (k6_pay1 (F := Ideal)) y = 0 := by
  unfold k6_pay1
  show Ideal.ofBits .f32 0x00000000#32 = 0
  exact Ideal.ofBits_zero_f32

-- On their first axis the operands' indices are the output's row and column.
theorem idx6_0 (i : S1024x1024.Idx) (q : dot_S1024x64_S1024x64_S1024x1024_1_1_0_0_n_n.contr.Idx) :
    (dot_S1024x64_S1024x64_S1024x1024_1_1_0_0_n_n.lhsIdx i q 0).val = (i 0).val ∧ (dot_S1024x64_S1024x64_S1024x1024_1_1_0_0_n_n.rhsIdx i q 0).val = (i 1).val := by
  constructor
  · unfold DotDims.lhsIdx
    rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
    rfl
  · unfold DotDims.rhsIdx
    rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
    rfl

-- Both operands contract their second axis, so element (p, q) of the product is the inner product of row p and row q.
theorem zzt_apply (x0 x1 : FVec Ideal S1024x64 .f32) (p q : Fin 1024) :
    matmul dot_S1024x64_S1024x64_S1024x1024_1_1_0_0_n_n none (truncf .bf16 (shapeCast S1024x64 x0 shapeCasts_S1024x64_S1024x64) bitsLt_bf16_f32)
        (truncf .bf16 (shapeCast S1024x64 x1 shapeCasts_S1024x64_S1024x64) bitsLt_bf16_f32) (constant S1024x1024 .f32 0x00000000#32) (ix2 p q)
      = ∑ k : Fin 64, x0 (ix2 p k) * x1 (ix2 q k) := by
  refine (Ideal.matmul_constant_zero_apply dot_S1024x64_S1024x64_S1024x1024_1_1_0_0_n_n none _ _ (ix2 p q)).trans ?_
  rw [← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 p q) ((contrEquiv1 dot_S1024x64_S1024x64_S1024x1024_1_1_0_0_n_n 64 rfl rfl).symm k) = ix2 p k := funext fun a => Fin.ext (by
    match a with
    | ⟨0, _⟩ => exact (idx6_0 _ _).1
    | ⟨1, _⟩ => exact (dot_S1024x64_S1024x64_S1024x1024_1_1_0_0_n_n.lhsIdx_val_of_single rfl _ _).trans hk)
  have er : dot_S1024x64_S1024x64_S1024x1024_1_1_0_0_n_n.rhsIdx (ix2 p q) ((contrEquiv1 dot_S1024x64_S1024x64_S1024x1024_1_1_0_0_n_n 64 rfl rfl).symm k) = ix2 q k := funext fun a => Fin.ext (by
    match a with
    | ⟨0, _⟩ => exact (idx6_0 _ _).2
    | ⟨1, _⟩ => exact (dot_S1024x64_S1024x64_S1024x1024_1_1_0_0_n_n.rhsIdx_val_of_single rfl _ _).trans hk)
  rw [el, er, shapeCast_self, shapeCast_self]
  rfl

-- Global row 1024·a + p against global column 1024·b + q, as signed 32-bit words that do not overflow.
open Idealize.ShloMosaic.Affine in
theorem mask6 (a b p q : Nat) (ha : a < 8) (hb : b < 8) (hp : p < 1024) (hq : q < 1024) :
    Scalar.cmpi .slt (Scalar.addi (Scalar.muli (BitVec.ofNat 32 a) 1024#32) (BitVec.ofNat 32 (0 * 1024 + p)))
        (Scalar.addi (Scalar.muli (BitVec.ofNat 32 b) 1024#32) (BitVec.ofNat 32 (0 * 1024 + q)))
      = if 1024 * a + p < 1024 * b + q then 1#1 else 0#1 := by
  have H : ∀ a p : Nat, a < 8 → p < 1024 → IsInt (Scalar.addi (Scalar.muli (BitVec.ofNat 32 a) 1024#32) (BitVec.ofNat 32 (0 * 1024 + p))) ((a : Int) * 1024 + p) := fun a p ha hp =>
    Affine.addi (Affine.muli (Affine.ofNat a ⟨rfl, by omega⟩) (Affine.ofNat 1024 ⟨rfl, by omega⟩) ⟨by push_cast; rfl, by omega, by omega⟩)
      (Affine.ofNat (0 * 1024 + p) ⟨rfl, by omega⟩) ⟨by push_cast; omega, by omega, by omega⟩
  by_cases h : 1024 * a + p < 1024 * b + q
  · rw [if_pos h]; exact slt_holds (H a p ha hp) (H b q hb hq) (by omega)
  · rw [if_neg h]; exact eq_zero_of_ne_one (slt_fails (H a p ha hp) (H b q hb hq) (by omega))

-- Element (p, q) of block (i 0, i 1): the logistic of the rows' inner product above the global diagonal, zero elsewhere.
theorem pay2_apply (i : grid6.Coords) (x0 x1 : FVec Ideal S1024x64 .f32) (p q : Fin 1024) :
    k6_pay2 (F := Ideal) i x0 x1 (ix2 p q)
      = if 1024 * (i 0).val + p.val < 1024 * (i 1).val + q.val then Ideal.logistic (∑ k : Fin 64, x0 (ix2 p k) * x1 (ix2 q k)) else 0 := by
  unfold k6_pay2
  show Scalar.select (Scalar.cmpi .slt (Scalar.addi (Scalar.muli (BitVec.ofNat 32 (i 0).val) 1024#32) (BitVec.ofNat 32 (0 * 1024 + p.val)))
        (Scalar.addi (Scalar.muli (BitVec.ofNat 32 (i 1).val) 1024#32) (BitVec.ofNat 32 (0 * 1024 + q.val))))
      (Ideal.logistic (matmul (F := Ideal) dot_S1024x64_S1024x64_S1024x1024_1_1_0_0_n_n none _ _ _ (ix2 p q))) (Ideal.ofBits .f32 0x00000000#32) = _
  rw [mask6 (i 0).val (i 1).val p.val q.val (i 0).isLt (i 1).isLt p.isLt q.isLt, zzt_apply, Ideal.ofBits_zero_f32]
  by_cases h : 1024 * (i 0).val + p.val < 1024 * (i 1).val + q.val
  · rw [if_pos h, if_pos h]; exact select_one _ _
  · rw [if_neg h, if_neg h]; exact select_zero _ _

end Cert.KernelIdeal.Val.V6

end
-- ==== Proof.KI.Val6.lean ====
import proofs.«132928_j20143396618969_2_alg».proof.Proof.KI.Val6Pay

set_option maxRecDepth 16384

noncomputable section

open Idealize.ShloMosaic Idealize.ShloMosaic.TcCoe Idealize.SL.Sem

namespace Cert.KernelIdeal.Val

open Cert.KernelIdeal Cert.KernelIdeal.Gen Cert.KernelIdeal.Hand

open Idealize.ShloMosaic.ValueIdx
open scoped BigOperators
open V6

variable (V : (c : Dev nD) → (b : Ref sig .tc) → Buf (Elt Ideal) ((c : Thread nD τ).loc b))

abbrev Z6 (c : Dev nD) : FVec Ideal S8192x64 .f32 := V c main_v66
-- The decode matrix as one function of z: the logistic of the rows' inner product above the diagonal, zero on and below.
def G6 (c : Dev nD) : FVec Ideal S8192x8192 .f32 := fun i =>
  if (i 0).val < (i 1).val then
    Ideal.logistic (∑ k : Fin 64, Z6 V c (ix2 (⟨(i 0).val, idx2_lt0 i⟩ : Fin 8192) k) * Z6 V c (ix2 (⟨(i 1).val, idx2_lt1 i⟩ : Fin 8192) k))
  else 0

namespace V6

abbrev zi6 (c : Dev nD) (t : Fin cfg6.N) : FVec Ideal S1024x64 .f32 := iblk6 V c 0 t
abbrev zj6 (c : Dev nD) (t : Fin cfg6.N) : FVec Ideal S1024x64 .f32 := iblk6 V c 1 t

theorem G6_apply (c : Dev nD) (i : S8192x8192.Idx) (r s : Fin 8192) (hr : (i 0).val = r.val) (hs : (i 1).val = s.val) :
    G6 V c i = if r.val < s.val then Ideal.logistic (∑ k : Fin 64, Z6 V c (ix2 r k) * Z6 V c (ix2 s k)) else 0 := by
  obtain rfl : r = ⟨(i 0).val, idx2_lt0 i⟩ := Fin.ext hr.symm
  obtain rfl : s = ⟨(i 1).val, idx2_lt1 i⟩ := Fin.ext hs.symm
  rfl

-- Point t is block row t / 8, block column t % 8, in each window's block index and in the grid's coordinates.
theorem idx_facts6 : ∀ t : Fin cfg6.N, win6_0.index t (0 : Fin 2) = t.val / 8 ∧ win6_0.index t (1 : Fin 2) = 0
    ∧ win6_1.index t (0 : Fin 2) = t.val % 8 ∧ win6_1.index t (1 : Fin 2) = 0
    ∧ win6_2.index t (0 : Fin 2) = t.val / 8 ∧ win6_2.index t (1 : Fin 2) = t.val % 8
    ∧ (grid6.coords t 0).val = t.val / 8 ∧ (grid6.coords t 1).val = t.val % 8 :=
  (by decide +kernel : ∀ t : Fin grid6.N, _)

-- Row p of the first input block at point t is row 1024·(t / 8) + p of z.
theorem zi6_apply (c : Dev nD) (t : Fin cfg6.N) (p : Fin 1024) (k : Fin 64) (r : Fin 8192) (hr : r.val = 1024 * (t.val / 8) + p.val) :
    zi6 V c t (ix2 p k) = Z6 V c (ix2 r k) := by
  obtain ⟨e0, e1, -⟩ := idx_facts6 t
  unfold zi6 iblk6
  rw [View.read_apply]
  show V c main_v66 _ = V c main_v66 _
  congr 1
  funext a
  apply Fin.ext
  match a with
  | ⟨0, _⟩ => show win6_0.index t 0 * 1024 + 1 * p.val = r.val; rw [e0, hr]; omega
  | ⟨1, _⟩ => show win6_0.index t 1 * 64 + 1 * k.val = k.val; rw [e1]; omega

-- Row q of the second input block at point t is row 1024·(t % 8) + q of z.
theorem zj6_apply (c : Dev nD) (t : Fin cfg6.N) (q : Fin 1024) (k : Fin 64) (s : Fin 8192) (hs : s.val = 1024 * (t.val % 8) + q.val) :
    zj6 V c t (ix2 q k) = Z6 V c (ix2 s k) := by
  obtain ⟨-, -, e0, e1, -⟩ := idx_facts6 t
  unfold zj6 iblk6
  rw [View.read_apply]
  show V c main_v66 _ = V c main_v66 _
  congr 1
  funext a
  apply Fin.ext
  match a with
  | ⟨0, _⟩ => show win6_1.index t 0 * 1024 + 1 * q.val = s.val; rw [e0, hs]; omega
  | ⟨1, _⟩ => show win6_1.index t 1 * 64 + 1 * k.val = k.val; rw [e1]; omega

-- Below the diagonal every global row of the block exceeds every global column, so the zero fill agrees with the mask.
theorem flushed6_eq (c : Dev nD) (t : Fin cfg6.N) :
    (dat6 V c).flushed 2 t = ((cfg6.win 2).blk t).view.read (Elt Ideal) (G6 V c) := by
  show (cfg6.win 2).cut (grid6.coords t) ((dat6 V c).after 2 t) = _
  rw [after6_2]
  obtain ⟨-, -, -, -, e20, e21, g0, g1⟩ := idx_facts6 t
  have hN : t.val < 64 := lt_of_lt_of_eq t.isLt (show cfg6.N = 64 from N_6)
  funext j
  obtain ⟨p, q, rfl⟩ : ∃ (p q : Fin 1024), j = ix2 p q := ⟨j 0, j 1, eq_ix2 j⟩
  have hr : 1024 * (t.val / 8) + p.val < 8192 := by have := p.isLt; omega
  have hs : 1024 * (t.val % 8) + q.val < 8192 := by have := q.isLt; omega
  have hG : ((cfg6.win 2).blk t).view.read (Elt Ideal) (G6 V c) (ix2 p q)
      = if 1024 * (t.val / 8) + p.val < 1024 * (t.val % 8) + q.val then
          Ideal.logistic (∑ k : Fin 64, Z6 V c (ix2 (⟨1024 * (t.val / 8) + p.val, hr⟩ : Fin 8192) k) * Z6 V c (ix2 (⟨1024 * (t.val % 8) + q.val, hs⟩ : Fin 8192) k))
        else 0 := by
    rw [View.read_apply]
    refine G6_apply V c _ ⟨1024 * (t.val / 8) + p.val, hr⟩ ⟨1024 * (t.val % 8) + q.val, hs⟩ ?_ ?_
    · show win6_2.index t 0 * 1024 + 1 * p.val = 1024 * (t.val / 8) + p.val; rw [e20]; omega
    · show win6_2.index t 1 * 1024 + 1 * q.val = 1024 * (t.val % 8) + q.val; rw [e21]; omega
  rw [hG]
  by_cases h : t.val / 8 > t.val % 8
  · rw [outAt6_A V c t h]
    refine (pay1_apply (ix2 p q)).trans ?_
    rw [if_neg (by have := q.isLt; omega)]
  · rw [outAt6_B V c t h]
    refine (pay2_apply (grid6.coords t) (zi6 V c t) (zj6 V c t) p q).trans ?_
    rw [g0, g1]
    refine if_congr Iff.rfl ?_ rfl
    refine congrArg Ideal.logistic (Finset.sum_congr rfl fun k _ => ?_)
    rw [zi6_apply V c t p k ⟨1024 * (t.val / 8) + p.val, hr⟩ rfl, zj6_apply V c t q k ⟨1024 * (t.val % 8) + q.val, hs⟩ rfl]

end V6

open V6

-- The 64 blocks tile the matrix: element (r, s) lies in the block of point 8·(r / 1024) + s / 1024.
theorem final6 (c : Dev nD) : (dat6 V c).arrAt 2 cfg6.N = G6 V c :=
  (dat6 V c).arrAt_eq_of_cover 2 (G6 V c) (fun t _ => flushed6_eq V c t) fun i => by
    have h0 : (i 0).val < 8192 := idx2_lt0 i
    have h1 : (i 1).val < 8192 := idx2_lt1 i
    have hN : cfg6.N = 64 := N_6
    let t : Fin cfg6.N := ⟨8 * ((i 0).val / 1024) + (i 1).val / 1024, by rw [hN]; omega⟩
    have ht : t.val = 8 * ((i 0).val / 1024) + (i 1).val / 1024 := rfl
    obtain ⟨-, -, -, -, e20, e21, -⟩ := idx_facts6 t
    refine ⟨t, flush6_2 t, ?_⟩
    show i ∈ ((View.whole main_v67).slice (win6_2.rect t)).set
    rw [View.set_slice_whole, Rect.mem_set_unit]
    intro a
    match a with
    | ⟨0, _⟩ => show win6_2.index t 0 * 1024 ≤ (i 0).val ∧ (i 0).val < win6_2.index t 0 * 1024 + 1024; rw [e20, ht]; omega
    | ⟨1, _⟩ => show win6_2.index t 1 * 1024 ≤ (i 1).val ∧ (i 1).val < win6_2.index t 1 * 1024 + 1024; rw [e21, ht]; omega

-- After the region the output holds, at (i, j), the logistic of the inner product of rows i and j of z where i < j, zero elsewhere.
theorem val6 (c : Dev nD) (i j : Fin 8192) :
    (dat6 V c).arrAt 2 cfg6.N (ix2 i j)
      = if i.val < j.val then Ideal.logistic (∑ k : Fin 64, Z6 V c (ix2 i k) * Z6 V c (ix2 j k)) else 0 := by
  rw [final6 V c]
  exact G6_apply V c (ix2 i j) i j rfl rfl

end Cert.KernelIdeal.Val

end
-- ==== Proof.KI.Chain.lean ====
import proofs.«132928_j20143396618969_2_alg».proof.Proof.KI.Run
import proofs.«132928_j20143396618969_2_alg».proof.Proof.KI.Adj
import proofs.«132928_j20143396618969_2_alg».proof.Proof.KI.Val0
import proofs.«132928_j20143396618969_2_alg».proof.Proof.KI.Val1
import proofs.«132928_j20143396618969_2_alg».proof.Proof.KI.Val2
import proofs.«132928_j20143396618969_2_alg».proof.Proof.KI.Val3
import proofs.«132928_j20143396618969_2_alg».proof.Proof.KI.Val4
import proofs.«132928_j20143396618969_2_alg».proof.Proof.KI.Val5
import proofs.«132928_j20143396618969_2_alg».proof.Proof.KI.Val6
import Idealize.ShloMosaic.Lib.Pipeline.Value
import Idealize.ShloMosaic.Lib.ValueIdx
import Idealize.ShloMosaic.Lib.ValueLayout

set_option maxRecDepth 16384

noncomputable section

namespace Cert.KernelIdeal.Val.Chain

open Idealize.ShloMosaic Idealize.ShloMosaic.TcCoe Idealize.ShloMosaic.ValueIdx
open Cert.KernelIdeal Cert.KernelIdeal.Gen Cert.KernelIdeal.Hand Cert.KernelIdeal.Val
open scoped BigOperators

abbrev rl (S : Shape) (x : S.Idx → EReal) : S.Idx → EReal := x

-- `Y` and `X` hold the same contents at every reference outside `L`.
def Off (L : List (Ref sig .tc)) (X Y : Valuation τ sig (Elt Ideal)) : Prop := ∀ r ∉ L, Y r = X r

variable {L : List (Ref sig .tc)} {X Y : Valuation τ sig (Elt Ideal)}

theorem Off.upd (h : Off L X Y) {a : Ref sig .tc} (ha : a ∈ L) (v) : Off L X (Function.update Y a v) :=
  fun r hr => (Function.update_of_ne (StableHlo.devRef_ne_of_ne (x := r) (y := a) fun e => hr (e ▸ ha)) _ _).trans (h r hr)

theorem Off.host (h : Off L X Y) {W : List (Ref sig .tc)} (ops : List (HloOp τ sig (Elt Ideal)))
    (hW : ops.Forall fun op => op.writes ⊆ (W.map (Proc.devRef (τ := τ) .tc)).toFinset) (hs : ∀ x ∈ W, x ∈ L) :
    Off L X (StableHlo.after ops Y) :=
  fun r hr => (StableHlo.after_of_writes_sub ops _ hW fun hm => hr (hs r hm)).trans (h r hr)

-- A sum of products whose factors are entries of `X` and of `W` is an entry of their product.
theorem mm_to {M K N : ℕ} {o : EReal} {x w : Fin K → EReal} (X : Fin M → Fin K → EReal) (W : Fin K → Fin N → EReal) (i : Fin M)
    (j : Fin N) (ho : o = ∑ k, x k * w k) (hx : ∀ k, x k = X i k) (hw : ∀ k, w k = W k j) : o = Cert.Net.mm X W i j :=
  ho.trans (Finset.sum_congr rfl fun k _ => congrArg₂ (· * ·) (hx k) (hw k))

section Host

variable (X : Valuation τ sig (Elt Ideal))

theorem host1_v52 (j : Fin 256) :
    rl S1x256 (StableHlo.after hostOps1 X main_v52) (ix2 (0 : Fin 1) j) = rl S256 (X main_arg5) (ix1 j) :=
  (congrFun (show StableHlo.after hostOps1 X (Proc.devRef .tc main_v52)
      = (shapeCast S1x256 (rl S256 (X main_arg5)) shapeCasts_S256_S1x256 : S1x256.Idx → EReal) by after_results; rfl) _).trans
    (shapeCast_a_1a_apply _ _ 0 j)

theorem host3_v56 (j : Fin 256) :
    rl S1x256 (StableHlo.after hostOps3 X main_v56) (ix2 (0 : Fin 1) j) = rl S256 (X main_arg7) (ix1 j) :=
  (congrFun (show StableHlo.after hostOps3 X (Proc.devRef .tc main_v56)
      = (shapeCast S1x256 (rl S256 (X main_arg7)) shapeCasts_S256_S1x256 : S1x256.Idx → EReal) by after_results; rfl) _).trans
    (shapeCast_a_1a_apply _ _ 0 j)

theorem host5_v60 (j : Fin 128) :
    rl S1x128 (StableHlo.after hostOps5 X main_v60) (ix2 (0 : Fin 1) j) = rl S128 (X main_v49) (ix1 j) :=
  (congrFun (show StableHlo.after hostOps5 X (Proc.devRef .tc main_v60)
      = (shapeCast S1x128 (rl S128 (X main_v49)) shapeCasts_S128_S1x128 : S1x128.Idx → EReal) by after_results; rfl) _).trans
    (shapeCast_a_1a_apply _ _ 0 j)

-- Entry by entry the stretch forms `noise * exp (column 64 + k) + column k` of the heads' array.
theorem host6_v66 (i : Fin 8192) (k : Fin 64) :
    rl S8192x64 (StableHlo.after hostOps6 X main_v66) (ix2 i k)
      = rl S8192x64 (X main_arg3) (ix2 i k) * Ideal.exp (rl S8192x128 (X main_v61) (ix2 i (⟨64 + k.val, by omega⟩ : Fin 128)))
        + rl S8192x128 (X main_v61) (ix2 i (⟨k.val, by omega⟩ : Fin 128)) := by
  have e : StableHlo.after hostOps6 X (Proc.devRef .tc main_v66)
      = (addf (φ := .f32) (mulf (φ := .f32) (rl S8192x64 (X main_arg3))
            (Host.exp (F := Ideal) (φ := .f32) (extractStridedSlice S8192x64 ![0, 64] (rl S8192x128 (X main_v61)) slices_S8192x128_S8192x64_0_64)))
          (extractStridedSlice S8192x64 ![0, 0] (rl S8192x128 (X main_v61)) slices_S8192x128_S8192x64_0_0) : S8192x64.Idx → EReal) := by
    after_results
  exact (congrFun e _).trans (congrArg₂ (· + ·)
    (congrArg (fun t => rl S8192x64 (X main_arg3) (ix2 i k) * Ideal.exp t)
      (slice2_axis1_apply (n1 := 128) 64 _ slices_S8192x128_S8192x64_0_64 i k ⟨64 + k.val, by omega⟩ rfl))
    (slice2_axis1_apply (n1 := 128) 0 _ slices_S8192x128_S8192x64_0_0 i k ⟨k.val, by omega⟩ (Nat.zero_add _).symm))

end Host

variable (m : (ℓ : Loc nD τ sig) → Buf (Elt Ideal) ℓ) (c : Dev nD)

-- None of the three stretches before the first region writes `r`, so it keeps its launch contents.
theorem launch (r : Ref sig .tc) (h3 : r ∉ hostOps0_2_W) (h2 : r ∉ hostOps0_1_W) (h1 : r ∉ hostOps0_W) :
    Gen.V3 m c r = m ((c : Thread nD τ).loc r) :=
  (Gen.V3_of m c r h3).trans (V2_launch m c r h2 h1)

-- Every reference written between the first region and the last host stretch.
abbrev Lw : List (Ref sig .tc) :=
  [main_v51, main_v53, main_v55, main_v57, main_v59, main_v61] ++ hostOps1_W ++ hostOps2_W ++ hostOps3_W ++ hostOps4_W ++ hostOps5_W

theorem off4 : Off Lw (Gen.V3 m c) (W4 m c) := Off.upd (fun _ _ => rfl) (by decide) _
theorem off5 : Off Lw (Gen.V3 m c) (W5 m c) := (off4 m c).host hostOps1 hostOps1_writes (by decide)
theorem off7 : Off Lw (Gen.V3 m c) (W7 m c) := ((off5 m c).upd (by decide) _).host hostOps2 hostOps2_writes (by decide)
theorem off8 : Off Lw (Gen.V3 m c) (W8 m c) := (off7 m c).upd (by decide) _
theorem off9 : Off Lw (Gen.V3 m c) (W9 m c) := (off8 m c).host hostOps3 hostOps3_writes (by decide)
theorem off11 : Off Lw (Gen.V3 m c) (W11 m c) := ((off9 m c).upd (by decide) _).host hostOps4 hostOps4_writes (by decide)
theorem off12 : Off Lw (Gen.V3 m c) (W12 m c) := (off11 m c).upd (by decide) _
theorem off13 : Off Lw (Gen.V3 m c) (W13 m c) := (off12 m c).host hostOps5 hostOps5_writes (by decide)
theorem off14 : Off Lw (Gen.V3 m c) (W14 m c) := (off13 m c).upd (by decide) _

theorem V3_arg0 : Gen.V3 m c main_arg0 = m ((c : Thread nD τ).loc main_arg0) := launch m c _ (by decide) (by decide) (by decide)
theorem V3_arg4 : Gen.V3 m c main_arg4 = m ((c : Thread nD τ).loc main_arg4) := launch m c _ (by decide) (by decide) (by decide)
theorem bias4 : W4 m c main_arg5 = m ((c : Thread nD τ).loc main_arg5) :=
  (off4 m c _ (by decide)).trans (launch m c _ (by decide) (by decide) (by decide))
theorem wts7 : W7 m c main_arg6 = m ((c : Thread nD τ).loc main_arg6) :=
  (off7 m c _ (by decide)).trans (launch m c _ (by decide) (by decide) (by decide))
theorem bias8 : W8 m c main_arg7 = m ((c : Thread nD τ).loc main_arg7) :=
  (off8 m c _ (by decide)).trans (launch m c _ (by decide) (by decide) (by decide))
theorem noise14 : W14 m c main_arg3 = m ((c : Thread nD τ).loc main_arg3) :=
  (off14 m c _ (by decide)).trans (launch m c _ (by decide) (by decide) (by decide))
theorem adj5 : W5 m c main_v47 = Gen.V3 m c main_v47 := off5 m c _ (by decide)
theorem adj9 : W9 m c main_v47 = Gen.V3 m c main_v47 := off9 m c _ (by decide)
theorem adj13 : W13 m c main_v47 = Gen.V3 m c main_v47 := off13 m c _ (by decide)
theorem wts11 : W11 m c main_v48 = Gen.V3 m c main_v48 := off11 m c _ (by decide)
theorem bias12 : W12 m c main_v49 = Gen.V3 m c main_v49 := off12 m c _ (by decide)

abbrev agg : (Fin Cert.Spec.NN → EReal) → EReal → Fin Cert.Spec.NN → EReal :=
  Cert.Spec.kerAgg (Cert.Spec.adj (ins m c).nrm (ins m c).row (ins m c).col)
abbrev H1 : Fin Cert.Spec.NN → Fin 256 → EReal := Cert.Net.layer (agg m c) (ins m c).x (ins m c).W1 (ins m c).b1
abbrev H2 : Fin Cert.Spec.NN → Fin 256 → EReal := Cert.Net.layer (agg m c) (H1 m c) (ins m c).W2 (ins m c).b2
abbrev Wcat : Fin 256 → Fin 128 → EReal := fun k j => Gen.V3 m c main_v48 (ix2 k j)
abbrev bcat : Fin 128 → EReal := fun j => Gen.V3 m c main_v49 (ix1 j)

-- An aggregation through the graph's adjacency of a product's column, plus a bias entry, is a layer entry.
theorem layer_of {K C : ℕ} {o b : EReal} {A : Fin Cert.Spec.NN → Fin Cert.Spec.NN → EReal} {h : Fin Cert.Spec.NN → EReal}
    {i : Fin Cert.Spec.NN} (X : Fin Cert.Spec.NN → Fin K → EReal) (W : Fin K → Fin C → EReal) (bb : Fin C → EReal) (j : Fin C)
    (ho : o = Cert.Spec.kerAgg A h b i) (hA : ∀ a r, A a r = Cert.Spec.adj (ins m c).nrm (ins m c).row (ins m c).col a r)
    (hh : ∀ r, h r = Cert.Net.mm X W r j) (hb : b = bb j) : o = Cert.Net.layer (agg m c) X W bb i j := by
  rw [ho, funext₂ hA, funext hh, hb]; rfl

-- What the chain assumes of the dense array the aggregations read.
def AdjV : Prop := ∀ p r : Fin 8192, Gen.V3 m c main_v47 (ix2 p r) = Cert.Spec.adj (ins m c).nrm (ins m c).row (ins m c).col p r

-- The first 64 columns of the joined weights and biases are the mean head's, so the layers agree there.
theorem head_mean (i : Fin Cert.Spec.NN) (f : Fin 64) :
    Cert.Net.layer (agg m c) (H2 m c) (Wcat m c) (bcat m c) i ⟨f.val, by omega⟩
      = Cert.Net.layer (agg m c) (H2 m c) (ins m c).Wm (ins m c).bm i f :=
  layer_of m c (H2 m c) (ins m c).Wm (ins m c).bm f rfl (fun _ _ => rfl)
    (fun r => mm_to (H2 m c) (ins m c).Wm r f rfl (fun _ => rfl) fun k => wcat_left_pf m c k f) (bcat_left_pf m c f)

-- The last 64 columns are the log-deviation head's.
theorem head_lstd (i : Fin Cert.Spec.NN) (f : Fin 64) :
    Cert.Net.layer (agg m c) (H2 m c) (Wcat m c) (bcat m c) i ⟨64 + f.val, by omega⟩
      = Cert.Net.layer (agg m c) (H2 m c) (ins m c).Ws (ins m c).bs i f :=
  layer_of m c (H2 m c) (ins m c).Ws (ins m c).bs f rfl (fun _ _ => rfl)
    (fun r => mm_to (H2 m c) (ins m c).Ws r f rfl (fun _ => rfl) fun k => wcat_right_pf m c k f) (bcat_right_pf m c f)

theorem step51 (i : Fin 8192) (j : Fin 256) : rl S8192x256 (W4 m c main_v51) (ix2 i j) = Cert.Net.mm (ins m c).x (ins m c).W1 i j := by
  refine (congrFun (Function.update_self _ _ _) _).trans ((val0 (rd (W3 m)) c i j).trans ?_)
  unfold Cert.Net.mm
  refine Finset.sum_congr rfl fun k _ => ?_
  show rl S8192x512 (Gen.V3 m c main_arg0) (ix2 i k) * rl S512x256 (Gen.V3 m c main_arg4) (ix2 k j) = _
  rw [V3_arg0, V3_arg4]
  rfl

theorem step53 (adjv : AdjV m c) (i : Fin 8192) (j : Fin 256) : rl S8192x256 (W6 m c main_v53) (ix2 i j) = H1 m c i j := by
  refine (congrFun (Function.update_self _ _ _) _).trans ((val1 (rd (W5 m)) c i j).trans ?_)
  refine layer_of m c _ _ _ j rfl (fun a r => ?_) (fun r => ?_) ?_
  · show rl S8192x8192 (W5 m c main_v47) (ix2 a r) = _
    rw [adj5]; exact adjv a r
  · show rl S8192x256 (W5 m c main_v51) (ix2 r j) = _
    rw [show W5 m c main_v51 = W4 m c main_v51 from StableHlo.after_of_writes_sub hostOps1 _ hostOps1_writes (by decide)]
    exact step51 m c r j
  · show rl S1x256 (StableHlo.after hostOps1 (W4 m c) main_v52) (ix2 (0 : Fin 1) j) = _
    rw [host1_v52, bias4]
    rfl

theorem step55 (adjv : AdjV m c) (i : Fin 8192) (j : Fin 256) :
    rl S8192x256 (W8 m c main_v55) (ix2 i j) = Cert.Net.mm (H1 m c) (ins m c).W2 i j := by
  refine (congrFun (Function.update_self _ _ _) _).trans ((val2 (rd (W7 m)) c i j).trans ?_)
  unfold Cert.Net.mm
  refine Finset.sum_congr rfl fun k _ => ?_
  show rl S8192x256 (W7 m c main_v53) (ix2 i k) * rl S256x256 (W7 m c main_arg6) (ix2 k j) = _
  rw [show W7 m c main_v53 = W6 m c main_v53 from StableHlo.after_of_writes_sub hostOps2 _ hostOps2_writes (by decide), wts7,
    step53 m c adjv i k]
  rfl

theorem step57 (adjv : AdjV m c) (i : Fin 8192) (j : Fin 256) : rl S8192x256 (W10 m c main_v57) (ix2 i j) = H2 m c i j := by
  refine (congrFun (Function.update_self _ _ _) _).trans ((val3 (rd (W9 m)) c i j).trans ?_)
  refine layer_of m c _ _ _ j rfl (fun a r => ?_) (fun r => ?_) ?_
  · show rl S8192x8192 (W9 m c main_v47) (ix2 a r) = _
    rw [adj9]; exact adjv a r
  · show rl S8192x256 (W9 m c main_v55) (ix2 r j) = _
    rw [show W9 m c main_v55 = W8 m c main_v55 from StableHlo.after_of_writes_sub hostOps3 _ hostOps3_writes (by decide)]
    exact step55 m c adjv r j
  · show rl S1x256 (StableHlo.after hostOps3 (W8 m c) main_v56) (ix2 (0 : Fin 1) j) = _
    rw [host3_v56, bias8]
    rfl

theorem step59 (adjv : AdjV m c) (i : Fin 8192) (j : Fin 128) :
    rl S8192x128 (W12 m c main_v59) (ix2 i j) = Cert.Net.mm (H2 m c) (Wcat m c) i j := by
  refine (congrFun (Function.update_self _ _ _) _).trans ((val4 (rd (W11 m)) c i j).trans ?_)
  unfold Cert.Net.mm
  refine Finset.sum_congr rfl fun k _ => ?_
  show rl S8192x256 (W11 m c main_v57) (ix2 i k) * rl S256x128 (W11 m c main_v48) (ix2 k j) = _
  rw [show W11 m c main_v57 = W10 m c main_v57 from StableHlo.after_of_writes_sub hostOps4 _ hostOps4_writes (by decide), wts11,
    step57 m c adjv i k]

theorem step61 (adjv : AdjV m c) (i : Fin 8192) (j : Fin 128) :
    rl S8192x128 (W14 m c main_v61) (ix2 i j) = Cert.Net.layer (agg m c) (H2 m c) (Wcat m c) (bcat m c) i j := by
  refine (congrFun (Function.update_self _ _ _) _).trans ((val5 (rd (W13 m)) c i j).trans ?_)
  refine layer_of m c _ _ _ j rfl (fun a r => ?_) (fun r => ?_) ?_
  · show rl S8192x8192 (W13 m c main_v47) (ix2 a r) = _
    rw [adj13]; exact adjv a r
  · show rl S8192x128 (W13 m c main_v59) (ix2 r j) = _
    rw [show W13 m c main_v59 = W12 m c main_v59 from StableHlo.after_of_writes_sub hostOps5 _ hostOps5_writes (by decide)]
    exact step59 m c adjv r j
  · show rl S1x128 (StableHlo.after hostOps5 (W12 m c) main_v60) (ix2 (0 : Fin 1) j) = _
    rw [host5_v60, bias12]

theorem step66 (adjv : AdjV m c) (i : Fin 8192) (k : Fin 64) :
    W15 m c main_v66 (ix2 i k)
      = Cert.Net.sample (ins m c).noise (Cert.Net.layer (agg m c) (H2 m c) (ins m c).Wm (ins m c).bm)
          (Cert.Net.layer (agg m c) (H2 m c) (ins m c).Ws (ins m c).bs) i k :=
  (host6_v66 _ i k).trans <| congrArg₂ (· + ·)
    (congrArg₂ (· * ·) (congrFun (noise14 m c) _)
      (congrArg Ideal.exp ((step61 m c adjv i _).trans (head_lstd m c i k))))
    ((step61 m c adjv i _).trans (head_mean m c i k))

theorem chain_value_of (adjv : AdjV m c) (i j : Fin 8192) : W16 m c main_v67 (ix2 i j) = Cert.Net.netK (ins m c) i j :=
  (congrFun (Function.update_self _ _ _) _).trans <| (val6 _ c i j).trans <|
    congrArg (fun s => if i.val < j.val then Ideal.logistic s else 0)
      (Finset.sum_congr rfl fun k _ => congrArg₂ (· * ·) (step66 m c adjv i k) (step66 m c adjv j k))

end Cert.KernelIdeal.Val.Chain

namespace Cert.KernelIdeal.Val

open Idealize.ShloMosaic Idealize.ShloMosaic.TcCoe Idealize.ShloMosaic.ValueIdx
open Cert.KernelIdeal Cert.KernelIdeal.Gen Cert.KernelIdeal.Hand

-- Each region's result rewrites by the previous ones; in-range edge words give the adjacency hypothesis.
theorem chain_value (m : (ℓ : Loc nD τ sig) → Buf (Elt Ideal) ℓ) (c : Dev nD)
    (hr : Cert.Graph.InRange (m ((c : Thread nD τ).loc main_arg1))) (i j : Fin 8192) :
    Hand.W16 m c main_v67 (ix2 i j) = Cert.Net.netK (ins m c) i j :=
  Chain.chain_value_of m c (adj_value m c hr) i j

end Cert.KernelIdeal.Val

end
-- ==== Proof.RefReads.lean ====
import proofs.«132928_j20143396618969_2_alg».proof.Proof.Graph
import Idealize.ShloMosaic.Lib.IdealHost
import Idealize.ShloMosaic.Lib.StableHlo.Predicate

open scoped BigOperators

noncomputable section

namespace Cert.RefValue

open Cert.ReferenceIdeal Cert.ReferenceIdeal.Gen Cert.ReferenceIdeal.Read Idealize.ShloMosaic Idealize.ShloMosaic.ValueIdx Cert.Spec Cert.Graph

variable (x0 : (⟨S8192x512, .f32⟩ : BufTy).Contents (Elt Ideal)) (x1 : (⟨S2x262144, .i32⟩ : BufTy).Contents (Elt Ideal))
  (x2 : (⟨S262144, .f32⟩ : BufTy).Contents (Elt Ideal)) (x3 : (⟨S8192x64, .f32⟩ : BufTy).Contents (Elt Ideal))
  (x4 : (⟨S512x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal))
  (x8 : (⟨S256x64, .f32⟩ : BufTy).Contents (Elt Ideal)) (x9 : (⟨S64, .f32⟩ : BufTy).Contents (Elt Ideal))
  (x10 : (⟨S256x64, .f32⟩ : BufTy).Contents (Elt Ideal)) (x11 : (⟨S64, .f32⟩ : BufTy).Contents (Elt Ideal))

-- A word that is not negative is left alone by the normalisation that adds the node count to negative words.
theorem select_nonneg {α : Type} (w : BitVec 32) (h : 0 ≤ w.toInt) (a b : α) :
    Scalar.select (IntOp.cmpi .slt w 0#32) a b = b := by
  have hlt : ¬ IntOp.cmpi .slt w 0#32 = 1#1 := fun h' => by
    have h1 := IntOp.cmpi_slt.1 h'
    have hz : (0#32 : BitVec 32).toInt = 0 := by decide
    omega
  rw [eq_zero_of_ne_one hlt]
  exact select_zero _ _

theorem row_read (hr : InRange x1) (e : Fin 270336) :
    val_main_v39 (F := Ideal) x1 (ix2 e (0 : Fin 1)) = val_main_v3 (F := Ideal) x1 (ix1 e) := by
  have hi : idx_main_v39 (ix2 e (0 : Fin 1)) = ix1 e := eq_ix1 _
  rw [val_main_v39_apply, hi, val_main_v38_apply, val_main_v35_apply, val_main_v34_apply, val_main_c_6_apply]
  exact select_nonneg _ (hr.row e).1 _ _

theorem row_read64 (hr : InRange x1) (e : Fin 270336) :
    val_main_v121 (F := Ideal) x1 (ix2 e (0 : Fin 1)) = val_main_v3 (F := Ideal) x1 (ix1 e) := by
  have hi : idx_main_v121 (ix2 e (0 : Fin 1)) = ix1 e := eq_ix1 _
  rw [val_main_v121_apply, hi, val_main_v120_apply, val_main_v117_apply, val_main_v116_apply, val_main_c_26_apply]
  exact select_nonneg _ (hr.row e).1 _ _

theorem col_read (e : Fin 270336) :
    val_main_v44 (F := Ideal) x1 (ix2 e (0 : Fin 1)) = val_main_v6 (F := Ideal) x1 (ix1 e) :=
  (val_main_v44_apply (F := Ideal) x1 (ix2 e (0 : Fin 1))).trans (congrArg (val_main_v6 (F := Ideal) x1) (eq_ix1 _))

theorem col_read64 (e : Fin 270336) :
    val_main_v126 (F := Ideal) x1 (ix2 e (0 : Fin 1)) = val_main_v6 (F := Ideal) x1 (ix1 e) :=
  (val_main_v126_apply (F := Ideal) x1 (ix2 e (0 : Fin 1))).trans (congrArg (val_main_v6 (F := Ideal) x1) (eq_ix1 _))

theorem nrm_read (e : Fin 270336) (f : Fin 256) :
    val_main_v41 (F := Ideal) x1 x2 (ix2 e f) = val_main_v32 (F := Ideal) x1 x2 (ix1 e) := by
  rw [val_main_v41_apply, val_main_v33_apply]
  exact congrArg (val_main_v32 (F := Ideal) x1 x2) (eq_ix1 _)

-- The heads recompute the first layer's coefficients with the same operations.
theorem nrm_read64 (e : Fin 270336) (f : Fin 64) :
    val_main_v123 (F := Ideal) x1 x2 (ix2 e f) = val_main_v32 (F := Ideal) x1 x2 (ix1 e) := by
  rw [val_main_v123_apply, val_main_v115_apply, show val_main_v114 (F := Ideal) x1 x2 = val_main_v32 (F := Ideal) x1 x2 from rfl]
  exact congrArg (val_main_v32 (F := Ideal) x1 x2) (eq_ix1 _)

theorem zeros_read (c : Fin 8192) (f : Fin 256) : val_main_v43 (F := Ideal) (ix2 c f) = 0 :=
  (val_main_v43_apply (F := Ideal) (ix2 c f)).trans Ideal.ofBits_zero_f32

theorem zeros_read64 (c : Fin 8192) (f : Fin 64) : val_main_v125 (F := Ideal) (ix2 c f) = 0 :=
  (val_main_v125_apply (F := Ideal) (ix2 c f)).trans Ideal.ofBits_zero_f32

theorem relu_read (c : Fin 8192) (f : Fin 256) : val_main_call1_v0 (F := Ideal) (ix2 c f) = 0 :=
  (val_main_call1_v0_apply (F := Ideal) (ix2 c f)).trans Ideal.ofBits_zero_f32

theorem relu_read64 (c : Fin 8192) (f : Fin 64) : val_main_call5_v0 (F := Ideal) (ix2 c f) = 0 :=
  (val_main_call5_v0_apply (F := Ideal) (ix2 c f)).trans Ideal.ofBits_zero_f32

theorem bias_read (b : (⟨S256, .f32⟩ : BufTy).Contents (Elt Ideal)) (c : Fin 8192) (f : Fin 256) :
    val_main_v47 (F := Ideal) b (ix2 c f) = b (ix1 f) := by
  rw [val_main_v47_apply, val_main_v46_apply]
  exact congrArg b (eq_ix1 _)

theorem bias_read64 (b : (⟨S64, .f32⟩ : BufTy).Contents (Elt Ideal)) (c : Fin 8192) (f : Fin 64) :
    val_main_v129 (F := Ideal) b (ix2 c f) = b (ix1 f) := by
  rw [val_main_v129_apply, val_main_v128_apply]
  exact congrArg b (eq_ix1 _)

-- A matrix product's entry is the sum over the contracted index.
theorem v9_read (r : Fin 8192) (f : Fin 256) :
    val_main_v9 (F := Ideal) x0 x4 (ix2 r f) = ∑ k : Fin 512, x0 (ix2 r k) * x4 (ix2 k f) := by
  rw [val_main_v9_apply]
  refine Finset.sum_congr rfl fun k _ => ?_
  have hl : lidx_main_v9 (ix2 r f) k = ix2 r k := eq_ix2 _
  have hr : ridx_main_v9 (ix2 r f) k = ix2 k f := eq_ix2 _
  rw [hl, hr]

theorem v50_read (r : Fin 8192) (f : Fin 256) :
    val_main_v50 (F := Ideal) x0 x1 x2 x4 x5 x6 (ix2 r f)
      = ∑ k : Fin 256, val_main_v49 (F := Ideal) x0 x1 x2 x4 x5 (ix2 r k) * x6 (ix2 k f) := by
  rw [val_main_v50_apply]
  refine Finset.sum_congr rfl fun k _ => ?_
  have hl : lidx_main_v50 (ix2 r f) k = ix2 r k := eq_ix2 _
  have hr : ridx_main_v50 (ix2 r f) k = ix2 k f := eq_ix2 _
  rw [hl, hr]

theorem v91_read (r : Fin 8192) (f : Fin 64) :
    val_main_v91 (F := Ideal) x0 x1 x2 x4 x5 x6 x7 x8 (ix2 r f)
      = ∑ k : Fin 256, val_main_v90 (F := Ideal) x0 x1 x2 x4 x5 x6 x7 (ix2 r k) * x8 (ix2 k f) := by
  rw [val_main_v91_apply]
  refine Finset.sum_congr rfl fun k _ => ?_
  have hl : lidx_main_v91 (ix2 r f) k = ix2 r k := eq_ix2 _
  have hr : ridx_main_v91 (ix2 r f) k = ix2 k f := eq_ix2 _
  rw [hl, hr]

theorem v132_read (r : Fin 8192) (f : Fin 64) :
    val_main_v132 (F := Ideal) x0 x1 x2 x4 x5 x6 x7 x10 (ix2 r f)
      = ∑ k : Fin 256, val_main_v90 (F := Ideal) x0 x1 x2 x4 x5 x6 x7 (ix2 r k) * x10 (ix2 k f) := by
  rw [val_main_v132_apply]
  refine Finset.sum_congr rfl fun k _ => ?_
  have hl : lidx_main_v132 (ix2 r f) k = ix2 r k := eq_ix2 _
  have hr : ridx_main_v132 (ix2 r f) k = ix2 k f := eq_ix2 _
  rw [hl, hr]

theorem z_read (c : Fin 8192) (f : Fin 64) :
    val_main_v175 (F := Ideal) x0 x1 x2 x3 x4 x5 x6 x7 x8 x9 x10 x11 (ix2 c f)
      = x3 (ix2 c f) * Ideal.exp (val_main_v172 (F := Ideal) x0 x1 x2 x4 x5 x6 x7 x10 x11 (ix2 c f))
          + val_main_v131 (F := Ideal) x0 x1 x2 x4 x5 x6 x7 x8 x9 (ix2 c f) := by
  rw [val_main_v175_apply, val_main_v174_apply, val_main_v173_apply, Ideal.addf_def, Ideal.mulf_def, Ideal.hostUnary_exp_def]

theorem gram_read (i j : Fin 8192) :
    val_main_v177 (F := Ideal) x0 x1 x2 x3 x4 x5 x6 x7 x8 x9 x10 x11 (ix2 i j)
      = ∑ k : Fin 64, val_main_v175 (F := Ideal) x0 x1 x2 x3 x4 x5 x6 x7 x8 x9 x10 x11 (ix2 i k)
          * val_main_v175 (F := Ideal) x0 x1 x2 x3 x4 x5 x6 x7 x8 x9 x10 x11 (ix2 j k) := by
  rw [val_main_v177_apply]
  refine Finset.sum_congr rfl fun k _ => ?_
  have hl : lidx_main_v177 (ix2 i j) k = ix2 i k := eq_ix2 _
  have hr : idx_main_v176 (ridx_main_v177 (ix2 i j) k) = ix2 j k := eq_ix2 _
  rw [val_main_v176_apply, hl, hr]

-- Above the diagonal the result is the logistic of the Gram entry, elsewhere zero.
theorem out_read (i j : Fin 8192) :
    val_main_v184 (F := Ideal) x0 x1 x2 x3 x4 x5 x6 x7 x8 x9 x10 x11 (ix2 i j)
      = if i.val < j.val then Ideal.logistic (val_main_v177 (F := Ideal) x0 x1 x2 x3 x4 x5 x6 x7 x8 x9 x10 x11 (ix2 i j)) else 0 := by
  have hsel : val_main_call8_v4 (F := Ideal) (ix2 i j) = 1#1 ↔ j.val ≤ i.val := by
    rw [val_main_call8_v4_apply, val_main_call8_v2_apply, val_main_call8_v0_apply, val_main_call8_v1_apply, val_main_call8_c_apply,
      val_main_call8_v3_apply, IntOp.cmpi_sge]
    have hi : IntOp.addi (BitVec.ofNat 32 i.val) 0#32 = BitVec.ofNat 32 i.val := BitVec.add_zero _
    show (BitVec.ofNat 32 j.val).toInt ≤ (IntOp.addi (BitVec.ofNat 32 i.val) 0#32).toInt ↔ j.val ≤ i.val
    rw [hi, StableHlo.Predicate.toInt_ofNat_small _ (i.isLt.trans (by decide)), StableHlo.Predicate.toInt_ofNat_small _ (j.isLt.trans (by decide))]
    omega
  have hzero : val_main_call8_v5 (F := Ideal) (ix2 i j) = 0 :=
    (val_main_call8_v5_apply (F := Ideal) (ix2 i j)).trans Ideal.ofBits_zero_f32
  have hone1 : val_main_v180 (F := Ideal) (ix2 i j) = 1 :=
    (val_main_v180_apply (F := Ideal) (ix2 i j)).trans Ideal.ofBits_one_f32
  have hone2 : val_main_v182 (F := Ideal) (ix2 i j) = 1 :=
    (val_main_v182_apply (F := Ideal) (ix2 i j)).trans Ideal.ofBits_one_f32
  have hlog : val_main_v183 (F := Ideal) x0 x1 x2 x3 x4 x5 x6 x7 x8 x9 x10 x11 (ix2 i j)
      = Ideal.logistic (val_main_v177 (F := Ideal) x0 x1 x2 x3 x4 x5 x6 x7 x8 x9 x10 x11 (ix2 i j)) := by
    rw [val_main_v183_apply, val_main_v181_apply, val_main_v179_apply, val_main_v178_apply, hone1, hone2]
    rfl
  rw [val_main_v184_apply, hzero, hlog]
  by_cases hij : i.val < j.val
  · have hne : ¬ val_main_call8_v4 (F := Ideal) (ix2 i j) = 1#1 := fun h => absurd (hsel.1 h) (by omega)
    rw [if_pos hij, eq_zero_of_ne_one hne]
    exact select_zero _ _
  · rw [if_neg hij, hsel.2 (by omega)]
    exact select_one _ _

end Cert.RefValue

end
-- ==== Proof.RefLayer.lean ====
import proofs.«132928_j20143396618969_2_alg».proof.Proof.Graph
import proofs.«132928_j20143396618969_2_alg».proof.Proof.LibGatherScatter

open scoped BigOperators

noncomputable section

namespace Cert.RefValue

open Idealize.ShloMosaic Idealize.ShloMosaic.ValueIdx Cert.Spec Cert.Graph Cert.LibGatherScatter

theorem toInt_eq_iff_nodeOf (w : BitVec 32) (h0 : 0 ≤ w.toInt) (h1 : w.toInt < 8192) (c : Fin 8192) :
    w.toInt = (c.val : Int) ↔ nodeOf w = c := by
  have hv := nodeOf_val w h0 h1
  constructor
  · intro h
    refine Fin.ext ?_
    have : ((nodeOf w).val : Int) = (c.val : Int) := hv.trans h
    exact_mod_cast this
  · intro h
    rw [← hv, h]

theorem layer_apply {C : Nat}
    (dG : GatherDims ⟨2, ![8192, C]⟩ ⟨2, ![270336, 1]⟩ ⟨2, ![270336, C]⟩)
    (hoff : dG.offsetDims = [1]) (hcoll : dG.collapsedSliceDims = [0]) (hob : dG.operandBatchingDims = [])
    (hsb : dG.startIndicesBatchingDims = []) (hsim : dG.startIndexMap = [0]) (hivd : dG.indexVectorDim = 1)
    (dS : ScatterDims ⟨2, ![8192, C]⟩ ⟨2, ![270336, 1]⟩ ⟨2, ![270336, C]⟩)
    (huw : dS.updateWindowDims = [1]) (hiw : dS.insertedWindowDims = [0]) (hsd : dS.scatterDimsToOperandDims = [0])
    (hivs : dS.indexVectorDim = 1)
    (hW zeros bias zeros2 : FVec Ideal ⟨2, ![8192, C]⟩ .f32) (nrm2 : FVec Ideal ⟨2, ![270336, C]⟩ .f32)
    (rowI colI : IVec ⟨2, ![270336, 1]⟩ 32)
    (nrmA : Fin 270336 → EReal) (b : Fin C → EReal)
    (hn : ∀ (e : Fin 270336) (f : Fin C), nrm2 (ix2 e f) = nrmA e)
    (hz : ∀ (c : Fin 8192) (f : Fin C), zeros (ix2 c f) = 0)
    (hb : ∀ (c : Fin 8192) (f : Fin C), bias (ix2 c f) = b f)
    (hz2 : ∀ (c : Fin 8192) (f : Fin C), zeros2 (ix2 c f) = 0)
    (hcol : ∀ e : Fin 270336, 0 ≤ (colI (ix2 e (0 : Fin 1))).toInt ∧ (colI (ix2 e (0 : Fin 1))).toInt < 8192)
    (c : Fin 8192) (f : Fin C) :
    maximumf (addf (Host.scatterAdd dS zeros colI (mulf nrm2 (Host.gather dG hW rowI))) bias) zeros2 (ix2 c f)
      = refAgg nrmA (fun e => nodeOf (rowI (ix2 e (0 : Fin 1)))) (fun e => nodeOf (colI (ix2 e (0 : Fin 1))))
          (fun r => hW (ix2 r f)) (b f) c := by
  rw [maximumf_apply, addf_apply, rowScatterAdd_apply dS huw hiw hsd hivs, hz, hb, hz2]
  unfold refAgg
  refine congrArg (fun s : EReal => max ((0 + s) + b f) 0) (Finset.sum_congr rfl fun e _ => ?_)
  have hg : Host.gather dG hW rowI (ix2 e f) = hW (ix2 (nodeOf (rowI (ix2 e (0 : Fin 1)))) f) :=
    rowGather_apply dG hoff hcoll hob hsb hsim hivd hW rowI e f (by decide)
  have hiff := toInt_eq_iff_nodeOf (colI (ix2 e (0 : Fin 1))) (hcol e).1 (hcol e).2 c
  by_cases hc : nodeOf (colI (ix2 e (0 : Fin 1))) = c
  · rw [if_pos hc, if_pos (hiff.2 hc), mulf_apply, hn, hg]
  · rw [if_neg hc, if_neg (fun h => hc (hiff.1 h))]

end Cert.RefValue

end
-- ==== Proof.RefValue.lean ====
import proofs.«132928_j20143396618969_2_alg».proof.Proof.RefReads
import proofs.«132928_j20143396618969_2_alg».proof.Proof.RefLayer

open scoped BigOperators

noncomputable section

namespace Cert.RefValue

open Cert.ReferenceIdeal Cert.ReferenceIdeal.Gen Cert.ReferenceIdeal.Read Idealize.ShloMosaic Idealize.ShloMosaic.ValueIdx Cert.Spec Cert.Graph

variable (x0 : (⟨S8192x512, .f32⟩ : BufTy).Contents (Elt Ideal)) (x1 : (⟨S2x262144, .i32⟩ : BufTy).Contents (Elt Ideal))
  (x2 : (⟨S262144, .f32⟩ : BufTy).Contents (Elt Ideal)) (x3 : (⟨S8192x64, .f32⟩ : BufTy).Contents (Elt Ideal))
  (x4 : (⟨S512x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal))
  (x8 : (⟨S256x64, .f32⟩ : BufTy).Contents (Elt Ideal)) (x9 : (⟨S64, .f32⟩ : BufTy).Contents (Elt Ideal))
  (x10 : (⟨S256x64, .f32⟩ : BufTy).Contents (Elt Ideal)) (x11 : (⟨S64, .f32⟩ : BufTy).Contents (Elt Ideal))

theorem layer256 (hr : InRange x1) (hW : (⟨S8192x256, .f32⟩ : BufTy).Contents (Elt Ideal))
    (b : (⟨S256, .f32⟩ : BufTy).Contents (Elt Ideal)) (c : Fin 8192) (f : Fin 256) :
    maximumf (F := Ideal) (s := S8192x256) (φ := .f32) (addf (Host.scatterAdd scatter_S8192x256_S270336x1_S270336x256_1_0_0_1 (val_main_v43 (F := Ideal)) (val_main_v44 (F := Ideal) x1)
        (mulf (val_main_v41 (F := Ideal) x1 x2) (Host.gather gather_S8192x256_S270336x1_S270336x256_1_0_n_n_0_1_1256 hW (val_main_v39 (F := Ideal) x1))))
        (val_main_v47 (F := Ideal) b)) (val_main_call1_v0 (F := Ideal)) (ix2 c f)
      = refAgg (fun e => val_main_v32 (F := Ideal) x1 x2 (ix1 e)) (fun e => nodeOf (val_main_v3 (F := Ideal) x1 (ix1 e)))
          (fun e => nodeOf (val_main_v6 (F := Ideal) x1 (ix1 e))) (fun r => hW (ix2 r f)) (b (ix1 f)) c := by
  refine (layer_apply (C := 256) gather_S8192x256_S270336x1_S270336x256_1_0_n_n_0_1_1256 rfl rfl rfl rfl rfl rfl
    scatter_S8192x256_S270336x1_S270336x256_1_0_0_1 rfl rfl rfl rfl
    hW (val_main_v43 (F := Ideal)) (val_main_v47 (F := Ideal) b) (val_main_call1_v0 (F := Ideal)) (val_main_v41 (F := Ideal) x1 x2)
    (val_main_v39 (F := Ideal) x1) (val_main_v44 (F := Ideal) x1)
    (fun e => val_main_v32 (F := Ideal) x1 x2 (ix1 e)) (fun f => b (ix1 f))
    (nrm_read x1 x2) zeros_read (bias_read b) relu_read
    (fun e => by rw [col_read]; exact hr.col e) c f).trans ?_
  simp only [row_read x1 hr, col_read]

theorem layer64 (hr : InRange x1) (hW : (⟨S8192x64, .f32⟩ : BufTy).Contents (Elt Ideal))
    (b : (⟨S64, .f32⟩ : BufTy).Contents (Elt Ideal)) (c : Fin 8192) (f : Fin 64) :
    maximumf (F := Ideal) (s := S8192x64) (φ := .f32) (addf (Host.scatterAdd scatter_S8192x64_S270336x1_S270336x64_1_0_0_1 (val_main_v125 (F := Ideal)) (val_main_v126 (F := Ideal) x1)
        (mulf (val_main_v123 (F := Ideal) x1 x2) (Host.gather gather_S8192x64_S270336x1_S270336x64_1_0_n_n_0_1_164 hW (val_main_v121 (F := Ideal) x1))))
        (val_main_v129 (F := Ideal) b)) (val_main_call5_v0 (F := Ideal)) (ix2 c f)
      = refAgg (fun e => val_main_v32 (F := Ideal) x1 x2 (ix1 e)) (fun e => nodeOf (val_main_v3 (F := Ideal) x1 (ix1 e)))
          (fun e => nodeOf (val_main_v6 (F := Ideal) x1 (ix1 e))) (fun r => hW (ix2 r f)) (b (ix1 f)) c := by
  refine (layer_apply (C := 64) gather_S8192x64_S270336x1_S270336x64_1_0_n_n_0_1_164 rfl rfl rfl rfl rfl rfl
    scatter_S8192x64_S270336x1_S270336x64_1_0_0_1 rfl rfl rfl rfl
    hW (val_main_v125 (F := Ideal)) (val_main_v129 (F := Ideal) b) (val_main_call5_v0 (F := Ideal)) (val_main_v123 (F := Ideal) x1 x2)
    (val_main_v121 (F := Ideal) x1) (val_main_v126 (F := Ideal) x1)
    (fun e => val_main_v32 (F := Ideal) x1 x2 (ix1 e)) (fun f => b (ix1 f))
    (nrm_read64 x1 x2) zeros_read64 (bias_read64 b) relu_read64
    (fun e => by rw [col_read64]; exact hr.col e) c f).trans ?_
  simp only [row_read64 x1 hr, col_read64]

local notation "II" => Cert.Graph.inputsOf x0 x1 x2 x3 x4 x5 x6 x7 x8 x9 x10 x11

theorem h1_eq (hr : InRange x1) (c : Fin 8192) (f : Fin 256) :
    val_main_v49 (F := Ideal) x0 x1 x2 x4 x5 (ix2 c f)
      = Net.layer (refAgg (Net.Inputs.nrm II) (Net.Inputs.row II) (Net.Inputs.col II)) (Net.Inputs.x II) (Net.Inputs.W1 II) (Net.Inputs.b1 II) c f := by
  refine (layer256 x1 x2 hr (val_main_v9 (F := Ideal) x0 x4) x5 c f).trans ?_
  unfold Net.layer
  refine congrArg (fun h : Fin NN → EReal => refAgg _ _ _ h _ c) (funext fun r => ?_)
  exact v9_read x0 x4 r f

theorem h2_eq (hr : InRange x1) (H1 : Fin NN → Fin 256 → EReal)
    (h1 : ∀ (c : Fin 8192) (f : Fin 256), val_main_v49 (F := Ideal) x0 x1 x2 x4 x5 (ix2 c f) = H1 c f) (c : Fin 8192) (f : Fin 256) :
    val_main_v90 (F := Ideal) x0 x1 x2 x4 x5 x6 x7 (ix2 c f)
      = Net.layer (refAgg (Net.Inputs.nrm II) (Net.Inputs.row II) (Net.Inputs.col II)) H1 (Net.Inputs.W2 II) (Net.Inputs.b2 II) c f := by
  refine (layer256 x1 x2 hr (val_main_v50 (F := Ideal) x0 x1 x2 x4 x5 x6) x7 c f).trans ?_
  unfold Net.layer
  refine congrArg (fun h : Fin NN → EReal => refAgg _ _ _ h _ c) (funext fun r => ?_)
  rw [v50_read]
  exact Finset.sum_congr rfl fun k _ => congrArg (· * x6 (ix2 k f)) (h1 r k)

theorem h3_eq (hr : InRange x1) (H2 : Fin NN → Fin 256 → EReal)
    (h2 : ∀ (c : Fin 8192) (f : Fin 256), val_main_v90 (F := Ideal) x0 x1 x2 x4 x5 x6 x7 (ix2 c f) = H2 c f) (c : Fin 8192) (f : Fin 64) :
    val_main_v131 (F := Ideal) x0 x1 x2 x4 x5 x6 x7 x8 x9 (ix2 c f)
      = Net.layer (refAgg (Net.Inputs.nrm II) (Net.Inputs.row II) (Net.Inputs.col II)) H2 (Net.Inputs.Wm II) (Net.Inputs.bm II) c f := by
  refine (layer64 x1 x2 hr (val_main_v91 (F := Ideal) x0 x1 x2 x4 x5 x6 x7 x8) x9 c f).trans ?_
  unfold Net.layer
  refine congrArg (fun h : Fin NN → EReal => refAgg _ _ _ h _ c) (funext fun r => ?_)
  rw [v91_read]
  exact Finset.sum_congr rfl fun k _ => congrArg (· * x8 (ix2 k f)) (h2 r k)

theorem h4_eq (hr : InRange x1) (H2 : Fin NN → Fin 256 → EReal)
    (h2 : ∀ (c : Fin 8192) (f : Fin 256), val_main_v90 (F := Ideal) x0 x1 x2 x4 x5 x6 x7 (ix2 c f) = H2 c f) (c : Fin 8192) (f : Fin 64) :
    val_main_v172 (F := Ideal) x0 x1 x2 x4 x5 x6 x7 x10 x11 (ix2 c f)
      = Net.layer (refAgg (Net.Inputs.nrm II) (Net.Inputs.row II) (Net.Inputs.col II)) H2 (Net.Inputs.Ws II) (Net.Inputs.bs II) c f := by
  refine (layer64 x1 x2 hr (val_main_v132 (F := Ideal) x0 x1 x2 x4 x5 x6 x7 x10) x11 c f).trans ?_
  unfold Net.layer
  refine congrArg (fun h : Fin NN → EReal => refAgg _ _ _ h _ c) (funext fun r => ?_)
  rw [v132_read]
  exact Finset.sum_congr rfl fun k _ => congrArg (· * x10 (ix2 k f)) (h2 r k)

theorem ref_value (hr : InRange x1) (i j : Fin 8192) :
    val_main_v184 (F := Ideal) x0 x1 x2 x3 x4 x5 x6 x7 x8 x9 x10 x11 (ValueIdx.ix2 i j) = Net.netR II i j := by
  have e1 := h1_eq x0 x1 x2 x3 x4 x5 x6 x7 x8 x9 x10 x11 hr
  have e2 := h2_eq x0 x1 x2 x3 x4 x5 x6 x7 x8 x9 x10 x11 hr _ e1
  have e3 := h3_eq x0 x1 x2 x3 x4 x5 x6 x7 x8 x9 x10 x11 hr _ e2
  have e4 := h4_eq x0 x1 x2 x3 x4 x5 x6 x7 x8 x9 x10 x11 hr _ e2
  rw [out_read, gram_read]
  unfold Net.netR Net.net
  dsimp only
  unfold Net.decode
  refine congrArg (fun s : EReal => if i.val < j.val then Ideal.logistic s else 0) (Finset.sum_congr rfl fun k _ => ?_)
  rw [z_read, z_read, e3, e4, e3, e4]
  rfl

end Cert.RefValue

end
-- ==== Proof.LibScatterReal.lean ====
import Idealize.ShloMosaic.PureOps.Ideal
import Idealize.ShloMosaic.PureOps.Ideal.Laws
import Idealize.ShloMosaic.PureOps.Contract

noncomputable section

namespace Cert.LibScatterReal

open Idealize.ShloMosaic

-- The reals are closed under finite sums inside the extended reals.
theorem sum_real {ι : Type} (S : Finset ι) (f : ι → EReal) (hf : ∀ k ∈ S, ∃ r : ℝ, f k = (r : EReal)) :
    ∃ r : ℝ, ∑ k ∈ S, f k = (r : EReal) := by
  refine Finset.sum_induction f (fun v => ∃ r : ℝ, v = (r : EReal)) ?_ ⟨0, by norm_cast⟩ hf
  rintro a b ⟨ra, rfl⟩ ⟨rb, rfl⟩
  exact ⟨ra + rb, (EReal.coe_add ra rb).symm⟩

-- An entry of an accumulating scatter is an operand entry plus a finite sum of update entries.
theorem scatterAdd_real {s si u : Shape} {w : Nat} {φ : FTy} (d : ScatterDims s si u) (x : FVec Ideal s φ) (idx : IVec si w)
    (upd : FVec Ideal u φ) (hx : ∀ i, ∃ r : ℝ, x i = (r : EReal)) (hu : ∀ k, ∃ r : ℝ, upd k = (r : EReal)) (i : s.Idx) :
    ∃ r : ℝ, Host.scatterAdd d x idx upd i = (r : EReal) := by
  obtain ⟨r0, e0⟩ := hx i
  obtain ⟨r1, e1⟩ := sum_real (Finset.univ.filter (fun j => d.resultIdx? j idx = some i)) upd (fun k _ => hu k)
  exact ⟨r0 + r1, (congrArg₂ (· + ·) e0 e1).trans (EReal.coe_add r0 r1).symm⟩

-- An entry of a take is an entry of its operand.
theorem gather_real {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx _

theorem rsqrt_real_of_pos (v : EReal) (hv : ∃ r : ℝ, 0 < r ∧ v = (r : EReal)) : ∃ r : ℝ, Ideal.rsqrt v = (r : EReal) := by
  obtain ⟨r, hr, rfl⟩ := hv
  rw [Ideal.rsqrt_coe, if_neg (not_lt.2 hr.le), if_neg hr.ne']
  exact ⟨_, rfl⟩

end Cert.LibScatterReal

end
-- ==== Proof.PreFacts.lean ====
import proofs.«132928_j20143396618969_2_alg».proof.Proof.Graph
import proofs.«132928_j20143396618969_2_alg».proof.Pre_finite_inputs
import proofs.«132928_j20143396618969_2_alg».proof.Proof.Gen.Pre_finite_inputs
import proofs.«132928_j20143396618969_2_alg».proof.Proof.LibScatterReal
import Idealize.ShloMosaic.Lib.ReduceAll
import Idealize.ShloMosaic.Lib.IdealHost
import Idealize.ShloMosaic.Lib.StableHlo.Predicate
import Idealize.ShloMosaic.Lib.ValueIdx
import Idealize.ShloMosaic.Lib.Pipeline.Value

noncomputable section

namespace Cert.PreFacts

open Cert.ReferenceIdeal Cert.ReferenceIdeal.Gen Cert.ReferenceIdeal.Read Idealize.ShloMosaic Idealize.ShloMosaic.ValueIdx Cert.Spec

instance : Subsingleton (Cert.Pre_finite_inputs.S_).Idx := ⟨fun a b => funext fun d => d.elim0⟩

theorem top_bits : Ideal.ofBits .f32 0x7F800000#32 = (⊤ : EReal) := by simp [Ideal.ofBits, Ideal.ieee]

-- An extended real whose absolute value is below plus infinity is neither infinity.
theorem real_of_abs_lt_top (v : EReal) (h : Ideal.cmp .olt (max v (-v)) (Ideal.ofBits .f32 0x7F800000#32) = 1#1) :
    ∃ r : ℝ, v = (r : EReal) := by
  rw [top_bits] at h
  have h' : max v (-v) < ⊤ := by
    by_contra hn
    simp [Ideal.cmp, hn] at h
  induction v using EReal.rec with
  | bot => simp at h'
  | top => simp at h'
  | coe r => exact ⟨r, rfl⟩

section All
variable {s : Shape} {axes : List (Fin s.rank)}
  (hb : Cert.Pre_finite_inputs.S_.BroadcastsInDim s (![] : Fin 0 → Fin s.rank)) (hr : s.ReducesTo axes Cert.Pre_finite_inputs.S_)
  (h0 : 0 < Cert.Pre_finite_inputs.S_.numel)

-- A conjunction over all entries holds at each entry.
theorem all_real (x : FVec Ideal s .f32)
    (e : Host.reduce IntOp.andi (cmpf (F := Ideal) .olt (Host.absf x) (broadcastInDim s ![] hb (constant Cert.Pre_finite_inputs.S_ .f32 0x7F800000#32)))
      (constantI Cert.Pre_finite_inputs.S_ 1 1#1) hr h0 ix0 = 1#1) (i : s.Idx) : ∃ r : ℝ, x i = (r : EReal) :=
  real_of_abs_lt_top (x i) (Host.reduce_andi_all _ _ hr h0 ix0 e i)

theorem all_ge (x : IVec s 32)
    (e : Host.reduce IntOp.andi (cmpi .sge x (broadcastInDim s ![] hb (constantI Cert.Pre_finite_inputs.S_ 32 0#32)))
      (constantI Cert.Pre_finite_inputs.S_ 1 1#1) hr h0 ix0 = 1#1) (i : s.Idx) : 0 ≤ (x i).toInt :=
  have h2 : IntOp.cmpi .sge (x i) (0#32) = 1#1 := Host.reduce_andi_all _ _ hr h0 ix0 e i
  IntOp.cmpi_sge.1 h2

theorem all_lt (x : IVec s 32)
    (e : Host.reduce IntOp.andi (cmpi .slt x (broadcastInDim s ![] hb (constantI Cert.Pre_finite_inputs.S_ 32 8192#32)))
      (constantI Cert.Pre_finite_inputs.S_ 1 1#1) hr h0 ix0 = 1#1) (i : s.Idx) : (x i).toInt < 8192 :=
  have h2 : IntOp.cmpi .slt (x i) (8192#32) = 1#1 := Host.reduce_andi_all _ _ hr h0 ix0 e i
  IntOp.cmpi_slt.1 h2

end All

variable (x0 : (⟨S8192x512, .f32⟩ : BufTy).Contents (Elt Ideal)) (x1 : (⟨S2x262144, .i32⟩ : BufTy).Contents (Elt Ideal))
  (x2 : (⟨S262144, .f32⟩ : BufTy).Contents (Elt Ideal)) (x3 : (⟨S8192x64, .f32⟩ : BufTy).Contents (Elt Ideal))
  (x4 : (⟨S512x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal))
  (x8 : (⟨S256x64, .f32⟩ : BufTy).Contents (Elt Ideal)) (x9 : (⟨S64, .f32⟩ : BufTy).Contents (Elt Ideal))
  (x10 : (⟨S256x64, .f32⟩ : BufTy).Contents (Elt Ideal)) (x11 : (⟨S64, .f32⟩ : BufTy).Contents (Elt Ideal))

-- The precondition is a conjunction: every float entry is real and every index word is in [0, 8192).
theorem decode [Cert.Pre_finite_inputs.Facts]
    (h : Cert.Pre_finite_inputs.fn (F := Ideal) x0 x1 x2 x3 x4 x5 x6 x7 x8 x9 x10 x11 = fun _ => 1#1) :
    (∀ i, ∃ r : ℝ, x0 i = (r : EReal)) ∧ (∀ i, ∃ r : ℝ, x2 i = (r : EReal)) ∧ (∀ i, ∃ r : ℝ, x3 i = (r : EReal))
    ∧ (∀ i, ∃ r : ℝ, x4 i = (r : EReal)) ∧ (∀ i, ∃ r : ℝ, x5 i = (r : EReal)) ∧ (∀ i, ∃ r : ℝ, x6 i = (r : EReal))
    ∧ (∀ i, ∃ r : ℝ, x7 i = (r : EReal)) ∧ (∀ i, ∃ r : ℝ, x8 i = (r : EReal)) ∧ (∀ i, ∃ r : ℝ, x9 i = (r : EReal))
    ∧ (∀ i, ∃ r : ℝ, x10 i = (r : EReal)) ∧ (∀ i, ∃ r : ℝ, x11 i = (r : EReal))
    ∧ (∀ i, 0 ≤ (x1 i).toInt ∧ (x1 i).toInt < 8192) := by
  have e := congrFun h ix0
  dsimp only [Cert.Pre_finite_inputs.fn, Cert.Pre_finite_inputs.fn_part1, Cert.Pre_finite_inputs.fn_part2,
    Cert.Pre_finite_inputs.fn_part3, andi] at e
  simp only [IntOp.andi_eq_one] at e
  obtain ⟨⟨⟨⟨⟨⟨⟨⟨⟨⟨⟨⟨e0, e2⟩, e3⟩, e4⟩, e5⟩, e6⟩, e7⟩, e8⟩, e9⟩, e10⟩, e11⟩, ege⟩, elt⟩ := e
  exact ⟨all_real _ _ _ x0 e0, all_real _ _ _ x2 e2, all_real _ _ _ x3 e3, all_real _ _ _ x4 e4, all_real _ _ _ x5 e5,
    all_real _ _ _ x6 e6, all_real _ _ _ x7 e7, all_real _ _ _ x8 e8, all_real _ _ _ x9 e9, all_real _ _ _ x10 e10,
    all_real _ _ _ x11 e11, fun i => ⟨all_ge _ _ _ x1 ege i, all_lt _ _ _ x1 elt i⟩⟩

-- Every entry of a concatenation of two vectors is an entry of one of them.
theorem concat_pred {α : Type} (P : α → Prop) {n₁ n₂ n : Nat} (x₁ : (⟨1, ![n₁]⟩ : Shape).Idx → α) (x₂ : (⟨1, ![n₂]⟩ : Shape).Idx → α)
    (h : Shape.Concatenates [⟨1, ![n₁]⟩, ⟨1, ![n₂]⟩] ⟨1, ![n]⟩ 0) (hn : n ≤ n₁ + n₂)
    (h1 : ∀ i, P (x₁ i)) (h2 : ∀ i, P (x₂ i)) (j : (⟨1, ![n]⟩ : Shape).Idx) :
    P (concatenate ⟨1, ![n]⟩ 0 [⟨⟨1, ![n₁]⟩, x₁⟩, ⟨⟨1, ![n₂]⟩, x₂⟩] h j) := by
  have hj : (j 0).val < n := (j 0).isLt
  by_cases hlt : (j 0).val < n₁
  · rw [concatenate_pair_apply_left 0 x₁ x₂ h j rfl (ix1 ⟨(j 0).val, hlt⟩) (fun b => by match b with | ⟨0, _⟩ => rfl)]
    exact h1 _
  · rw [concatenate_pair_apply_right 0 x₁ x₂ h j rfl rfl (ix1 ⟨(j 0).val - n₁, by omega⟩)
      (fun b hb => by match b with | ⟨0, _⟩ => exact absurd rfl hb)
      (by show (j 0).val - n₁ + n₁ = (j 0).val; omega)]
    exact h2 _

theorem iota_inRange (i : S8192.Idx) :
    0 ≤ (val_main_v0 (F := Ideal) i).toInt ∧ (val_main_v0 (F := Ideal) i).toInt < 8192 := by
  have hi : (i 0).val < 8192 := (i 0).isLt
  rw [val_main_v0_apply, StableHlo.Predicate.toInt_ofNat_small _ (by omega)]
  omega

-- The edge ends are a row of index words followed by the node numbers (the self loops).
theorem inRange (hx : ∀ i, 0 ≤ (x1 i).toInt ∧ (x1 i).toInt < 8192) : Cert.Graph.InRange x1 := by
  constructor
  · intro e
    unfold val_main_v3
    exact concat_pred (fun w : BitVec 32 => 0 ≤ w.toInt ∧ w.toInt < 8192) _ _ _ (by decide)
      (fun i => by rw [val_main_v2_apply, val_main_v1_apply]; exact hx _) iota_inRange (ix1 e)
  · intro e
    unfold val_main_v6
    exact concat_pred (fun w : BitVec 32 => 0 ≤ w.toInt ∧ w.toInt < 8192) _ _ _ (by decide)
      (fun i => by rw [val_main_v5_apply, val_main_v4_apply]; exact hx _) iota_inRange (ix1 e)

theorem one_bits_real : ∃ r : ℝ, Ideal.ofBits .f32 0x3F800000#32 = (r : EReal) :=
  ⟨1, Ideal.ofBits_one_f32⟩

section Coef
variable (hx2 : ∀ i, ∃ r : ℝ, x2 i = (r : EReal))
include hx2

-- The weights with the self loops' ones appended.
theorem v8_real (i : S270336.Idx) : ∃ r : ℝ, val_main_v8 (F := Ideal) x2 i = (r : EReal) := by
  unfold val_main_v8
  exact concat_pred (fun v : EReal => ∃ r : ℝ, v = (r : EReal)) _ _ _ (by decide) hx2
    (fun i => by rw [val_main_v7_apply, val_main_cst_apply]; exact one_bits_real) i

-- The degrees are finite sums of weights from zero.
theorem v12_real (i : S8192.Idx) : ∃ r : ℝ, val_main_v12 (F := Ideal) x1 x2 i = (r : EReal) := by
  unfold val_main_v12
  refine LibScatterReal.scatterAdd_real _ _ _ _ (fun i => ⟨0, ?_⟩) (v8_real x2 hx2) i
  rw [val_main_v10_apply, val_main_cst_0_apply]
  exact Ideal.ofBits_zero_f32

-- The inverse square root is taken only where the degree is positive, and is 0 elsewhere.
theorem v16_real (i : S8192.Idx) : ∃ r : ℝ, val_main_v16 (F := Ideal) x1 x2 i = (r : EReal) := by
  rw [val_main_v16_apply]
  unfold Scalar.select
  split_ifs with hc
  · obtain ⟨r, hr⟩ := v12_real x1 x2 hx2 i
    rw [val_main_v15_apply, Ideal.hostUnary_rsqrt_def]
    refine LibScatterReal.rsqrt_real_of_pos _ ⟨r, ?_, hr⟩
    rw [val_main_v14_apply, val_main_v13_apply, val_main_cst_1_apply, Ideal.cmpf_def, hr] at hc
    by_contra hn
    have hn' : ¬ ((0 : EReal) < (r : EReal)) := fun h => hn (EReal.coe_pos.1 h)
    simp [Ideal.cmp, hn'] at hc
  · rw [val_main_call0_v1_apply, val_main_call0_v0_apply, val_main_cst_2_apply]
    exact ⟨0, Ideal.ofBits_zero_f32⟩

-- An edge coefficient is a weight times two of those inverse square roots.
theorem nrm_real (i : S270336.Idx) : ∃ r : ℝ, val_main_v32 (F := Ideal) x1 x2 i = (r : EReal) := by
  obtain ⟨a, ha⟩ : ∃ r : ℝ, val_main_v23 (F := Ideal) x1 x2 i = (r : EReal) := by
    unfold val_main_v23; exact LibScatterReal.gather_real _ _ _ (v16_real x1 x2 hx2) i
  obtain ⟨b, hb⟩ := v8_real x2 hx2 i
  obtain ⟨c, hc⟩ : ∃ r : ℝ, val_main_v31 (F := Ideal) x1 x2 i = (r : EReal) := by
    unfold val_main_v31; exact LibScatterReal.gather_real _ _ _ (v16_real x1 x2 hx2) i
  refine ⟨a * b * c, ?_⟩
  rw [val_main_v32_apply, val_main_v24_apply, ha, hb, hc, Ideal.mulf_def, Ideal.mulf_def, EReal.coe_mul, EReal.coe_mul]

end Coef

theorem facts_of_pre [Cert.Pre_finite_inputs.Facts]
    (h : Cert.Pre_finite_inputs.fn (F := Ideal) x0 x1 x2 x3 x4 x5 x6 x7 x8 x9 x10 x11 = fun _ => 1#1) :
    Cert.Graph.InRange x1 ∧ (Cert.Graph.inputsOf x0 x1 x2 x3 x4 x5 x6 x7 x8 x9 x10 x11).Real := by
  obtain ⟨h0, h2, h3, h4, h5, h6, h7, h8, h9, h10, h11, h1⟩ := decode x0 x1 x2 x3 x4 x5 x6 x7 x8 x9 x10 x11 h
  refine ⟨inRange x1 h1, ?_⟩
  exact
    { x := fun i k => h0 (ix2 i k), W1 := fun k j => h4 (ix2 k j), b1 := fun j => h5 (ix1 j), W2 := fun k j => h6 (ix2 k j),
      b2 := fun j => h7 (ix1 j), Wm := fun k j => h8 (ix2 k j), bm := fun j => h9 (ix1 j), Ws := fun k j => h10 (ix2 k j),
      bs := fun j => h11 (ix1 j), noise := fun i j => h3 (ix2 i j), nrm := fun e => nrm_real x1 x2 h2 (ix1 e) }

end Cert.PreFacts

end
-- ==== Proof.Algebraic.lean ====
import proofs.«132928_j20143396618969_2_alg».proof.Defs
import proofs.«132928_j20143396618969_2_alg».proof.Proof.Gen.ReferenceIdeal.Run
import proofs.«132928_j20143396618969_2_alg».proof.Proof.Gen.ReferenceIdeal.Read
import proofs.«132928_j20143396618969_2_alg».proof.Proof.Graph
import proofs.«132928_j20143396618969_2_alg».proof.Proof.Net
import proofs.«132928_j20143396618969_2_alg».proof.Proof.PreFacts

noncomputable section

open Idealize.ShloMosaic Idealize.ShloMosaic.TcCoe Idealize.SL.Sem

namespace Cert.Proof.Parts

open Cert.ReferenceIdeal

theorem algebraic_of [hKernelIdeal : Cert.KernelIdeal.Facts] [hReferenceIdeal : Cert.ReferenceIdeal.Facts]
    [hPre_finite_inputs : Cert.Pre_finite_inputs.Facts]
    (W : ((ℓ : Loc Cert.KernelIdeal.nD Cert.KernelIdeal.τ Cert.KernelIdeal.sig) → Buf (Elt Ideal) ℓ) →
      (c : Dev Cert.KernelIdeal.nD) → Buf (Elt Ideal) ((c.tc : Thread Cert.KernelIdeal.nD Cert.KernelIdeal.τ).loc Cert.KernelIdeal.main_v67))
    (krun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v67) = W m c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)))
    (chain : ∀ (m : (ℓ : Loc Cert.KernelIdeal.nD Cert.KernelIdeal.τ Cert.KernelIdeal.sig) → Buf (Elt Ideal) ℓ) (c : Dev Cert.KernelIdeal.nD),
      Cert.Graph.InRange (m ((c.tc : Thread Cert.KernelIdeal.nD Cert.KernelIdeal.τ).loc Cert.KernelIdeal.main_arg1)) → ∀ i j : Fin 8192,
        W m c (ValueIdx.ix2 i j) = Cert.Net.netK (Cert.Graph.inputsOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) i j)
    (refv : ∀ (x0 : (⟨S8192x512, .f32⟩ : BufTy).Contents (Elt Ideal)) (x1 : (⟨S2x262144, .i32⟩ : BufTy).Contents (Elt Ideal)) (x2 : (⟨S262144, .f32⟩ : BufTy).Contents (Elt Ideal)) (x3 : (⟨S8192x64, .f32⟩ : BufTy).Contents (Elt Ideal)) (x4 : (⟨S512x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x64, .f32⟩ : BufTy).Contents (Elt Ideal)) (x9 : (⟨S64, .f32⟩ : BufTy).Contents (Elt Ideal)) (x10 : (⟨S256x64, .f32⟩ : BufTy).Contents (Elt Ideal)) (x11 : (⟨S64, .f32⟩ : BufTy).Contents (Elt Ideal)),
      Cert.Graph.InRange x1 → ∀ i j : Fin 8192,
        Cert.ReferenceIdeal.Read.val_main_v184 (F := Ideal) x0 x1 x2 x3 x4 x5 x6 x7 x8 x9 x10 x11 (ValueIdx.ix2 i j) = Cert.Net.netR (Cert.Graph.inputsOf x0 x1 x2 x3 x4 x5 x6 x7 x8 x9 x10 x11) i j) :
    Cert.algebraic_KernelIdeal_ReferenceIdeal := by
  intro m ρ m' ρ' hpre hagree
  refine ⟨W m, krun m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v184_eq, a0, a1, a2, a3, a4, a5, a6, a7, a8, a9, a10, a11]
  obtain ⟨hin, hreal⟩ := Cert.PreFacts.facts_of_pre _ _ _ _ _ _ _ _ _ _ _ _ (hpre c)
  funext idx
  obtain ⟨i, j, rfl⟩ : ∃ i j : Fin 8192, idx = ValueIdx.ix2 i j :=
    ⟨idx 0, idx 1, ValueIdx.eq_ix2 (n0 := 8192) (n1 := 8192) idx⟩
  exact (refv _ _ _ _ _ _ _ _ _ _ _ _ hin i j).trans
    ((congrFun (congrFun (Cert.Net.net_eq _ hreal).symm i) j).trans (chain m c hin i j).symm)

end Cert.Proof.Parts

end
-- ==== Proof.lean ====
import proofs.«132928_j20143396618969_2_alg».proof.Defs
import proofs.«132928_j20143396618969_2_alg».proof.Proof.Gen.Kernel
import proofs.«132928_j20143396618969_2_alg».proof.Proof.Gen.KernelIdeal
import proofs.«132928_j20143396618969_2_alg».proof.Proof.Gen.ReferenceIdeal
import proofs.«132928_j20143396618969_2_alg».proof.Proof.Gen.ReferenceIdeal.Run
import proofs.«132928_j20143396618969_2_alg».proof.Proof.Gen.Pre_finite_inputs
import proofs.«132928_j20143396618969_2_alg».proof.Proof.K.Run
import proofs.«132928_j20143396618969_2_alg».proof.Proof.KI.RunValue
import proofs.«132928_j20143396618969_2_alg».proof.Proof.KI.Chain
import proofs.«132928_j20143396618969_2_alg».proof.Proof.RefValue
import proofs.«132928_j20143396618969_2_alg».proof.Proof.Algebraic

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs compute one function of the arguments: blocked dense aggregation equals edge-by-edge aggregation, a sum regrouped over real numbers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  Cert.Proof.Parts.algebraic_of (fun m c => Cert.KernelIdeal.Hand.W16 m c Cert.KernelIdeal.main_v67)
    (fun m ρ => Cert.KernelIdeal.Hand.run_value m ρ)
    (fun m c hr i j => Cert.KernelIdeal.Val.chain_value m c hr i j)
    (fun x0 x1 x2 x3 x4 x5 x6 x7 x8 x9 x10 x11 hr i j => Cert.RefValue.ref_value x0 x1 x2 x3 x4 x5 x6 x7 x8 x9 x10 x11 hr i j)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
